-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v38)) (v2 : (c : Dev Cert.KernelIdeal.nD) → Buf (Elt Ideal) ((c.tc : Thread Cert.KernelIdeal.nD Cert.KernelIdeal.τ).loc Cert.KernelIdeal.main_v45)) (v3 : (c : Dev Cert.KernelIdeal.nD) → Buf (Elt Ideal) ((c.tc : Thread Cert.KernelIdeal.nD Cert.KernelIdeal.τ).loc Cert.KernelIdeal.main_v52)) (v4 : (c : Dev Cert.KernelIdeal.nD) → Buf (Elt Ideal) ((c.tc : Thread Cert.KernelIdeal.nD Cert.KernelIdeal.τ).loc Cert.KernelIdeal.main_v59)) (v5 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_v45) = v2 c
          ∧ r.2.mem ((c.tc : Thread Cert.KernelIdeal.nD Cert.KernelIdeal.τ).loc Cert.KernelIdeal.main_v52) = v3 c
          ∧ r.2.mem ((c.tc : Thread Cert.KernelIdeal.nD Cert.KernelIdeal.τ).loc Cert.KernelIdeal.main_v59) = v4 c
          ∧ r.2.mem ((c.tc : Thread Cert.KernelIdeal.nD Cert.KernelIdeal.τ).loc Cert.KernelIdeal.main_v66) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v74) = v3 c
          ∧ r.2.mem ((c.tc : Thread Cert.ReferenceIdeal.nD Cert.ReferenceIdeal.τ).loc Cert.ReferenceIdeal.main_v81) = v4 c
          ∧ r.2.mem ((c.tc : Thread Cert.ReferenceIdeal.nD Cert.ReferenceIdeal.τ).loc Cert.ReferenceIdeal.main_v88) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S2000000 : Shape := ⟨1, ![2000000]⟩
abbrev S4096 : Shape := ⟨1, ![4096]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S2000000 : S_.BroadcastsInDim S2000000 (![] : Fin 0 → Fin S2000000.rank)
  reducesTo_S2000000_S_d0 : S2000000.ReducesTo [0] S_

variable [Facts]

def fn_part1 {F : FTy → Type} [FloatOps F] (main_arg3 : IVec S2000000 32) (main_v13 : IVec S_ 1) (main_v15 : IVec S2000000 1) (main_c_5 : IVec S_ 32) : IVec S_ 1 :=
  let main_v16 : IVec S2000000 32 := broadcastInDim S2000000 ![] bcast_S_S2000000 main_c_5
  let main_v17 : IVec S2000000 1 := cmpi .slt main_arg3 main_v16
  let main_v18 : IVec S2000000 1 := andi main_v15 main_v17
  let main_c_6 : IVec S_ 1 := constantI S_ 1 1#1
  let main_v19 : IVec S_ 1 := (fun x v => Host.reduce IntOp.andi x v reducesTo_S2000000_S_d0 h_S_) main_v18 main_c_6
  let main_v20 : IVec S_ 1 := andi main_v13 main_v19
  main_v20

def fn {F : FTy → Type} [FloatOps F] (main_arg0 : FVec F S100000x64 .f32) (main_arg1 : FVec F S50000x64 .f32) (main_arg2 : IVec S2000000 32) (main_arg3 : IVec S2000000 32) (main_arg4 : FVec F S2000000 .f32) (main_arg5 : IVec S4096 32) (main_arg6 : IVec S4096 32) (main_arg7 : IVec S4096 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S2000000 .f32 := Host.absf main_arg4
  let main_cst_2 : FVec F S_ .f32 := constant S_ .f32 0x7F800000#32
  let main_v10 : FVec F S2000000 .f32 := broadcastInDim S2000000 ![] bcast_S_S2000000 main_cst_2
  let main_v11 : IVec S2000000 1 := cmpf .olt main_v9 main_v10
  let main_c_3 : IVec S_ 1 := constantI S_ 1 1#1
  let main_v12 : IVec S_ 1 := (fun x v => Host.reduce IntOp.andi x v reducesTo_S2000000_S_d0 h_S_) main_v11 main_c_3
  let main_v13 : IVec S_ 1 := andi main_v8 main_v12
  let main_c_4 : IVec S_ 32 := constantI S_ 32 0#32
  let main_v14 : IVec S2000000 32 := broadcastInDim S2000000 ![] bcast_S_S2000000 main_c_4
  let main_v15 : IVec S2000000 1 := cmpi .sge main_arg3 main_v14
  let main_c_5 : IVec S_ 32 := constantI S_ 32 150000#32
  fn_part1 (F := F) main_arg3 main_v13 main_v15 main_c_5
-- ==== Kernel.lean ====
abbrev S100000x64 : Shape := ⟨2, ![100000, 64]⟩
abbrev S50000x64 : Shape := ⟨2, ![50000, 64]⟩
abbrev S2000000 : Shape := ⟨1, ![2000000]⟩
abbrev S4096 : Shape := ⟨1, ![4096]⟩
abbrev S_ : Shape := ⟨0, ![]⟩
abbrev S2944 : Shape := ⟨1, ![2944]⟩
abbrev S2002944 : Shape := ⟨1, ![2002944]⟩
abbrev S1x2002944 : Shape := ⟨2, ![1, 2002944]⟩
abbrev S150000x64 : Shape := ⟨2, ![150000, 64]⟩
abbrev S1552x64 : Shape := ⟨2, ![1552, 64]⟩
abbrev S151552x64 : Shape := ⟨2, ![151552, 64]⟩
abbrev S64x2002944 : Shape := ⟨2, ![64, 2002944]⟩
abbrev S1x4096 : Shape := ⟨2, ![1, 4096]⟩
abbrev S2048x64 : Shape := ⟨2, ![2048, 64]⟩
abbrev S64x4096 : Shape := ⟨2, ![64, 4096]⟩
abbrev S2048x1 : Shape := ⟨2, ![2048, 1]⟩
abbrev S2048x4096 : Shape := ⟨2, ![2048, 4096]⟩
abbrev S4096x1 : Shape := ⟨2, ![4096, 1]⟩
abbrev S4096x64 : Shape := ⟨2, ![4096, 64]⟩

abbrev nBuf : Space → Nat
  | .hbm => 92
  | .vmem => 48
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2000000, .i32⟩
  | .hbm, ⟨3, _⟩ => ⟨S2000000, .i32⟩
  | .hbm, ⟨4, _⟩ => ⟨S2000000, .f32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S_, .i32⟩
  | .hbm, ⟨9, _⟩ => ⟨S2944, .i32⟩
  | .hbm, ⟨10, _⟩ => ⟨S2002944, .i32⟩
  | .hbm, ⟨11, _⟩ => ⟨S_, .i32⟩
  | .hbm, ⟨12, _⟩ => ⟨S2944, .i32⟩
  | .hbm, ⟨13, _⟩ => ⟨S2002944, .i32⟩
  | .hbm, ⟨14, _⟩ => ⟨S_, .f32⟩
  | .hbm, ⟨15, _⟩ => ⟨S2944, .f32⟩
  | .hbm, ⟨16, _⟩ => ⟨S2002944, .f32⟩
  | .hbm, ⟨17, _⟩ => ⟨S1x2002944, .i32⟩
  | .hbm, ⟨18, _⟩ => ⟨S1x2002944, .i32⟩
  | .hbm, ⟨19, _⟩ => ⟨S1x2002944, .f32⟩
  | .hbm, ⟨20, _⟩ => ⟨S150000x64, .f32⟩
  | .hbm, ⟨21, _⟩ => ⟨S_, .f32⟩
  | .hbm, ⟨22, _⟩ => ⟨S1552x64, .f32⟩
  | .hbm, ⟨23, _⟩ => ⟨S151552x64, .f32⟩
  | .hbm, ⟨24, _⟩ => ⟨S64x2002944, .f32⟩
  | .hbm, ⟨25, _⟩ => ⟨S151552x64, .f32⟩
  | .hbm, ⟨26, _⟩ => ⟨S151552x64, .f32⟩
  | .hbm, ⟨27, _⟩ => ⟨S64x2002944, .f32⟩
  | .hbm, ⟨28, _⟩ => ⟨S151552x64, .f32⟩
  | .hbm, ⟨29, _⟩ => ⟨S151552x64, .f32⟩
  | .hbm, ⟨30, _⟩ => ⟨S64x2002944, .f32⟩
  | .hbm, ⟨31, _⟩ => ⟨S151552x64, .f32⟩
  | .hbm, ⟨32, _⟩ => ⟨S151552x64, .f32⟩
  | .hbm, ⟨33, _⟩ => ⟨S_, .f32⟩
  | .hbm, ⟨34, _⟩ => ⟨S151552x64, .f32⟩
  | .hbm, ⟨35, _⟩ => ⟨S151552x64, .f32⟩
  | .hbm, ⟨36, _⟩ => ⟨S100000x64, .f32⟩
  | .hbm, ⟨37, _⟩ => ⟨S50000x64, .f32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S4096x1, .i32⟩
  | .hbm, ⟨46, _⟩ => ⟨S4096x64, .f32⟩
  | .hbm, ⟨47, _⟩ => ⟨S_, .i32⟩
  | .hbm, ⟨48, _⟩ => ⟨S4096, .i32⟩
  | .hbm, ⟨49, _⟩ => ⟨S4096, .i1⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S4096, .i32⟩
  | .hbm, ⟨54, _⟩ => ⟨S4096x1, .i32⟩
  | .hbm, ⟨55, _⟩ => ⟨S4096x64, .f32⟩
  | .hbm, ⟨56, _⟩ => ⟨S_, .i32⟩
  | .hbm, ⟨57, _⟩ => ⟨S4096, .i32⟩
  | .hbm, ⟨58, _⟩ => ⟨S4096, .i1⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S4096, .i32⟩
  | .hbm, ⟨63, _⟩ => ⟨S4096x1, .i32⟩
  | .hbm, ⟨64, _⟩ => ⟨S4096x64, .f32⟩
  | .hbm, ⟨65, _⟩ => ⟨S_, .i32⟩
  | .hbm, ⟨66, _⟩ => ⟨S4096, .i32⟩
  | .hbm, ⟨67, _⟩ => ⟨S4096, .i1⟩
  | .hbm, ⟨68, _⟩ => ⟨S_, .i32⟩
  | .hbm, ⟨69, _⟩ => ⟨S4096, .i32⟩
  | .hbm, ⟨70, _⟩ => ⟨S4096, .i32⟩
  | .hbm, ⟨71, _⟩ => ⟨S4096, .i32⟩
  | .hbm, ⟨72, _⟩ => ⟨S4096x1, .i32⟩
  | .hbm, ⟨73, _⟩ => ⟨S4096x64, .f32⟩
  | .hbm, ⟨74, _⟩ => ⟨S_, .i32⟩
  | .hbm, ⟨75, _⟩ => ⟨S4096, .i32⟩
  | .hbm, ⟨76, _⟩ => ⟨S4096, .i1⟩
  | .hbm, ⟨77, _⟩ => ⟨S_, .i32⟩
  | .hbm, ⟨78, _⟩ => ⟨S4096, .i32⟩
  | .hbm, ⟨79, _⟩ => ⟨S4096, .i32⟩
  | .hbm, ⟨80, _⟩ => ⟨S4096, .i32⟩
  | .hbm, ⟨81, _⟩ => ⟨S4096x1, .i32⟩
  | .hbm, ⟨82, _⟩ => ⟨S4096x64, .f32⟩
  | .hbm, ⟨83, _⟩ => ⟨S_, .i32⟩
  | .hbm, ⟨84, _⟩ => ⟨S4096, .i32⟩
  | .hbm, ⟨85, _⟩ => ⟨S4096, .i1⟩
  | .hbm, ⟨86, _⟩ => ⟨S_, .i32⟩
  | .hbm, ⟨87, _⟩ => ⟨S4096, .i32⟩
  | .hbm, ⟨88, _⟩ => ⟨S4096, .i32⟩
  | .hbm, ⟨89, _⟩ => ⟨S4096, .i32⟩
  | .hbm, ⟨90, _⟩ => ⟨S4096x1, .i32⟩
  | .hbm, ⟨91, _⟩ => ⟨S4096x64, .f32⟩
  | .local _ .vmem, ⟨0, _⟩ => ⟨S1x4096, .i32⟩
  | .local _ .vmem, ⟨1, _⟩ => ⟨S1x4096, .i32⟩
  | .local _ .vmem, ⟨2, _⟩ => ⟨S1x4096, .f32⟩
  | .local _ .vmem, ⟨3, _⟩ => ⟨S1x4096, .f32⟩
  | .local _ .vmem, ⟨4, _⟩ => ⟨S2048x64, .f32⟩
  | .local _ .vmem, ⟨5, _⟩ => ⟨S2048x64, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S1x4096, .i32⟩
  | .local _ .vmem, ⟨10, _⟩ => ⟨S1x4096, .i32⟩
  | .local _ .vmem, ⟨11, _⟩ => ⟨S64x4096, .f32⟩
  | .local _ .vmem, ⟨12, _⟩ => ⟨S64x4096, .f32⟩
  | .local _ .vmem, ⟨13, _⟩ => ⟨S2048x64, .f32⟩
  | .local _ .vmem, ⟨14, _⟩ => ⟨S2048x64, .f32⟩
  | .local _ .vmem, ⟨15, _⟩ => ⟨S2048x64, .f32⟩
  | .local _ .vmem, ⟨16, _⟩ => ⟨S1x4096, .i32⟩
  | .local _ .vmem, ⟨17, _⟩ => ⟨S1x4096, .i32⟩
  | .local _ .vmem, ⟨18, _⟩ => ⟨S1x4096, .f32⟩
  | .local _ .vmem, ⟨19, _⟩ => ⟨S1x4096, .f32⟩
  | .local _ .vmem, ⟨20, _⟩ => ⟨S2048x64, .f32⟩
  | .local _ .vmem, ⟨21, _⟩ => ⟨S2048x64, .f32⟩
  | .local _ .vmem, ⟨22, _⟩ => ⟨S64x4096, .f32⟩
  | .local _ .vmem, ⟨23, _⟩ => ⟨S64x4096, .f32⟩
  | .local _ .vmem, ⟨24, _⟩ => ⟨S64x4096, .f32⟩
  | .local _ .vmem, ⟨25, _⟩ => ⟨S1x4096, .i32⟩
  | .local _ .vmem, ⟨26, _⟩ => ⟨S1x4096, .i32⟩
  | .local _ .vmem, ⟨27, _⟩ => ⟨S64x4096, .f32⟩
  | .local _ .vmem, ⟨28, _⟩ => ⟨S64x4096, .f32⟩
  | .local _ .vmem, ⟨29, _⟩ => ⟨S2048x64, .f32⟩
  | .local _ .vmem, ⟨30, _⟩ => ⟨S2048x64, .f32⟩
  | .local _ .vmem, ⟨31, _⟩ => ⟨S2048x64, .f32⟩
  | .local _ .vmem, ⟨32, _⟩ => ⟨S1x4096, .i32⟩
  | .local _ .vmem, ⟨33, _⟩ => ⟨S1x4096, .i32⟩
  | .local _ .vmem, ⟨34, _⟩ => ⟨S1x4096, .f32⟩
  | .local _ .vmem, ⟨35, _⟩ => ⟨S1x4096, .f32⟩
  | .local _ .vmem, ⟨36, _⟩ => ⟨S2048x64, .f32⟩
  | .local _ .vmem, ⟨37, _⟩ => ⟨S2048x64, .f32⟩
  | .local _ .vmem, ⟨38, _⟩ => ⟨S64x4096, .f32⟩
  | .local _ .vmem, ⟨39, _⟩ => ⟨S64x4096, .f32⟩
  | .local _ .vmem, ⟨40, _⟩ => ⟨S64x4096, .f32⟩
  | .local _ .vmem, ⟨41, _⟩ => ⟨S1x4096, .i32⟩
  | .local _ .vmem, ⟨42, _⟩ => ⟨S1x4096, .i32⟩
  | .local _ .vmem, ⟨43, _⟩ => ⟨S64x4096, .f32⟩
  | .local _ .vmem, ⟨44, _⟩ => ⟨S64x4096, .f32⟩
  | .local _ .vmem, ⟨45, _⟩ => ⟨S2048x64, .f32⟩
  | .local _ .vmem, ⟨46, _⟩ => ⟨S2048x64, .f32⟩
  | .local _ .vmem, ⟨47, _⟩ => ⟨S2048x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_7 : Ref sig .tc := ⟨.hbm, 56, rfl⟩
abbrev main_v39 : Ref sig .tc := ⟨.hbm, 57, rfl⟩
abbrev main_v40 : Ref sig .tc := ⟨.hbm, 58, rfl⟩
abbrev main_c_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_13 : Ref sig .tc := ⟨.hbm, 83, rfl⟩
abbrev main_v60 : Ref sig .tc := ⟨.hbm, 84, rfl⟩
abbrev main_v61 : Ref sig .tc := ⟨.hbm, 85, rfl⟩
abbrev main_c_14 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_scratch0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_scratch0 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc4_scratch0 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_scratch0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41

abbrev nD : Nat := 1
abbrev τ : Topo := Topo.v7x

variable {F : FTy → Type} [FloatOps F]

abbrev grid0 : Pipeline.Grid := ⟨2, ![489, 74], ![false, false]⟩

def k0_cond2 (i : grid0.Coords) : BitVec 1 :=
  let arg1 : BitVec 32 := BitVec.ofNat 32 (i 1).val
  let c73_i32 : BitVec 32 := 73#32
  let v28 : BitVec 1 := Scalar.cmpi .eq arg1 c73_i32
  let v29 : BitVec 32 := Scalar.extui v28
  let c0_i32_11 : BitVec 32 := 0#32
  let v30 : BitVec 1 := Scalar.cmpi .ne v29 c0_i32_11
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![74, 489], ![false, false]⟩

def k1_cond2 (i : grid1.Coords) : BitVec 1 :=
  let arg1 : BitVec 32 := BitVec.ofNat 32 (i 1).val
  let c488_i32 : BitVec 32 := 488#32
  let v25 : BitVec 1 := Scalar.cmpi .eq arg1 c488_i32
  let v26 : BitVec 32 := Scalar.extui v25
  let c0_i32_10 : BitVec 32 := 0#32
  let v27 : BitVec 1 := Scalar.cmpi .ne v26 c0_i32_10
  v27

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S64x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![489, 74], ![false, false]⟩

def k2_cond2 (i : grid2.Coords) : BitVec 1 :=
  let arg1 : BitVec 32 := BitVec.ofNat 32 (i 1).val
  let c73_i32 : BitVec 32 := 73#32
  let v28 : BitVec 1 := Scalar.cmpi .eq arg1 c73_i32
  let v29 : BitVec 32 := Scalar.extui v28
  let c0_i32_11 : BitVec 32 := 0#32
  let v30 : BitVec 1 := Scalar.cmpi .ne v29 c0_i32_11
  v30

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S1x4096 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S64x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![74, 489], ![false, false]⟩

def k3_cond2 (i : grid3.Coords) : BitVec 1 :=
  let arg1 : BitVec 32 := BitVec.ofNat 32 (i 1).val
  let c488_i32 : BitVec 32 := 488#32
  let v25 : BitVec 1 := Scalar.cmpi .eq arg1 c488_i32
  let v26 : BitVec 32 := Scalar.extui v25
  let c0_i32_10 : BitVec 32 := 0#32
  let v27 : BitVec 1 := Scalar.cmpi .ne v26 c0_i32_10
  v27

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1x4096 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S64x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![489, 74], ![false, false]⟩

def k4_cond2 (i : grid4.Coords) : BitVec 1 :=
  let arg1 : BitVec 32 := BitVec.ofNat 32 (i 1).val
  let c73_i32 : BitVec 32 := 73#32
  let v28 : BitVec 1 := Scalar.cmpi .eq arg1 c73_i32
  let v29 : BitVec 32 := Scalar.extui v28
  let c0_i32_11 : BitVec 32 := 0#32
  let v30 : BitVec 1 := Scalar.cmpi .ne v29 c0_i32_11
  v30

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S1x4096 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1x4096 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S2048x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S64x4096 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![74, 489], ![false, false]⟩

def k5_cond2 (i : grid5.Coords) : BitVec 1 :=
  let arg1 : BitVec 32 := BitVec.ofNat 32 (i 1).val
  let c488_i32 : BitVec 32 := 488#32
  let v25 : BitVec 1 := Scalar.cmpi .eq arg1 c488_i32
  let v26 : BitVec 32 := Scalar.extui v25
  let c0_i32_10 : BitVec 32 := 0#32
  let v27 : BitVec 1 := Scalar.cmpi .ne v26 c0_i32_10
  v27

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1x4096 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S64x4096 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S2048x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

class Facts₀ : Prop where
  bcast_S_S2944 : S_.BroadcastsInDim S2944 (![] : Fin 0 → Fin S2944.rank)
  concatenates_S2000000_S2944_S2002944_d0 : Shape.Concatenates [S2000000, S2944] S2002944 0
  shapeCasts_S2002944_S1x2002944 : S2002944.ShapeCasts S1x2002944
  concatenates_S100000x64_S50000x64_S150000x64_d0 : Shape.Concatenates [S100000x64, S50000x64] S150000x64 0
  bcast_S_S1552x64 : S_.BroadcastsInDim S1552x64 (![] : Fin 0 → Fin S1552x64.rank)
  concatenates_S150000x64_S1552x64_S151552x64_d0 : Shape.Concatenates [S150000x64, S1552x64] S151552x64 0
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  iota_S2048x1_d0_w32 : S2048x1.Iotas .tc 32 [0]
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S2048x1_S2048x4096 : S2048x1.Broadcasts S2048x4096
  broadcasts_S1x4096_S2048x4096 : S1x4096.Broadcasts S2048x4096
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  bcast_S_S151552x64 : S_.BroadcastsInDim S151552x64 (![] : Fin 0 → Fin S151552x64.rank)
  slices_S151552x64_S100000x64_0_0 : S151552x64.Slices ![0, 0] S100000x64
  slices_S151552x64_S50000x64_100000_0 : S151552x64.Slices ![100000, 0] S50000x64
  bcast_S_S4096 : S_.BroadcastsInDim S4096 (![] : Fin 0 → Fin S4096.rank)
  bcast_S4096_S4096x1_0 : S4096.BroadcastsInDim S4096x1 (![0] : Fin 1 → Fin S4096x1.rank)
  dot_S2048x64_S2048x4096_S64x4096_0_0_1_1_n_n_wf : DotDims.WF S2048x64 S2048x4096 S64x4096 [0] [0] [1] [1] [] []
  dot_S2048x4096_S64x4096_S2048x64_1_1_0_0_n_n_wf : DotDims.WF S2048x4096 S64x4096 S2048x64 [1] [1] [0] [0] [] []
  gather_S100000x64_S4096x1_S4096x64_1_0_n_n_0_1_164_wf : GatherDims.WF S100000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x2002944.size a
  hwx0_0 : ∀ i : grid0.Coords, EltTy.bits .i32 = 32 ∨ (Rect.block (s := S1x2002944) S1x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x2002944.size a
  hwx0_1 : ∀ i : grid0.Coords, EltTy.bits .f32 = 32 ∨ (Rect.block (s := S1x2002944) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S151552x64.size a
  hwx0_2 : ∀ i : grid0.Coords, EltTy.bits .f32 = 32 ∨ (Rect.block (s := S151552x64) S2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S64x2002944.size a
  hwx0_3 : ∀ i : grid0.Coords, EltTy.bits .f32 = 32 ∨ (Rect.block (s := S64x2002944) S64x4096.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x2002944.size a
  hwx1_0 : ∀ i : grid1.Coords, EltTy.bits .i32 = 32 ∨ (Rect.block (s := S1x2002944) S1x4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x4096.size a ≤ S64x2002944.size a
  hwx1_1 : ∀ i : grid1.Coords, EltTy.bits .f32 = 32 ∨ (Rect.block (s := S64x2002944) S64x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S151552x64.size a
  hwx1_2 : ∀ i : grid1.Coords, EltTy.bits .f32 = 32 ∨ (Rect.block (s := S151552x64) S2048x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x4096.size a ≤ S1x2002944.size a
  hwx2_0 : ∀ i : grid2.Coords, EltTy.bits .i32 = 32 ∨ (Rect.block (s := S1x2002944) S1x4096.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x4096.size a ≤ S1x2002944.size a
  hwx2_1 : ∀ i : grid2.Coords, EltTy.bits .f32 = 32 ∨ (Rect.block (s := S1x2002944) S1x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x64.size a ≤ S151552x64.size a
  hwx2_2 : ∀ i : grid2.Coords, EltTy.bits .f32 = 32 ∨ (Rect.block (s := S151552x64) S2048x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S64x4096.size a ≤ S64x2002944.size a
  hwx2_3 : ∀ i : grid2.Coords, EltTy.bits .f32 = 32 ∨ (Rect.block (s := S64x2002944) S64x4096.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x4096.size a ≤ S1x2002944.size a
  hwx3_0 : ∀ i : grid3.Coords, EltTy.bits .i32 = 32 ∨ (Rect.block (s := S1x2002944) S1x4096.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S64x4096.size a ≤ S64x2002944.size a
  hwx3_1 : ∀ i : grid3.Coords, EltTy.bits .f32 = 32 ∨ (Rect.block (s := S64x2002944) S64x4096.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x64.size a ≤ S151552x64.size a
  hwx3_2 : ∀ i : grid3.Coords, EltTy.bits .f32 = 32 ∨ (Rect.block (s := S151552x64) S2048x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x4096.size a ≤ S1x2002944.size a
  hwx4_0 : ∀ i : grid4.Coords, EltTy.bits .i32 = 32 ∨ (Rect.block (s := S1x2002944) S1x4096.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x4096.size a ≤ S1x2002944.size a
  hwx4_1 : ∀ i : grid4.Coords, EltTy.bits .f32 = 32 ∨ (Rect.block (s := S1x2002944) S1x4096.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x64.size a ≤ S151552x64.size a
  hwx4_2 : ∀ i : grid4.Coords, EltTy.bits .f32 = 32 ∨ (Rect.block (s := S151552x64) S2048x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S64x4096.size a ≤ S64x2002944.size a
  hwx4_3 : ∀ i : grid4.Coords, EltTy.bits .f32 = 32 ∨ (Rect.block (s := S64x2002944) S64x4096.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x4096.size a ≤ S1x2002944.size a
  hwx5_0 : ∀ i : grid5.Coords, EltTy.bits .i32 = 32 ∨ (Rect.block (s := S1x2002944) S1x4096.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S64x4096.size a ≤ S64x2002944.size a
  hwx5_1 : ∀ i : grid5.Coords, EltTy.bits .f32 = 32 ∨ (Rect.block (s := S64x2002944) S64x4096.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x64.size a ≤ S151552x64.size a
  hwx5_2 : ∀ i : grid5.Coords, EltTy.bits .f32 = 32 ∨ (Rect.block (s := S151552x64) S2048x64.size (cc5_transform_2 i) (hinb5_2 i)).WholeWords (EltTy.packing .f32)

variable [Facts₀]

def dot_S2048x64_S2048x4096_S64x4096_0_0_1_1_n_n : DotDims S2048x64 S2048x4096 S64x4096 where
  lhsContracting := [0]
  rhsContracting := [0]
  lhsNonContracting := [1]
  rhsNonContracting := [1]
  lhsBatch := []
  rhsBatch := []
  wf := dot_S2048x64_S2048x4096_S64x4096_0_0_1_1_n_n_wf
def dot_S2048x4096_S64x4096_S2048x64_1_1_0_0_n_n : DotDims S2048x4096 S64x4096 S2048x64 where
  lhsContracting := [1]
  rhsContracting := [1]
  lhsNonContracting := [0]
  rhsNonContracting := [0]
  lhsBatch := []
  rhsBatch := []
  wf := dot_S2048x4096_S64x4096_S2048x64_1_1_0_0_n_n_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

abbrev win0_0 : Pipeline.Window sig grid0 :=
  Pipeline.Window.ofSpec (Memref.whole main_v7) S1x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S64x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v6) S1x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S64x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S2048x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v7) S1x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S2048x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15) S64x4096.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v6) S1x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S64x4096.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S2048x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v7) S1x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v8) S1x4096.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v16) S2048x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v18) S64x4096.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v6) S1x4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v18) S64x4096.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v19) S2048x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

class Facts : Prop extends Facts₀ where

variable [Facts]
-- ==== ReferenceIdeal.lean ====
abbrev S100000x64 : Shape := ⟨2, ![100000, 64]⟩
abbrev S50000x64 : Shape := ⟨2, ![50000, 64]⟩
abbrev S2000000 : Shape := ⟨1, ![2000000]⟩
abbrev S4096 : Shape := ⟨1, ![4096]⟩
abbrev S150000x64 : Shape := ⟨2, ![150000, 64]⟩
abbrev S_ : Shape := ⟨0, ![]⟩
abbrev S2000000x1 : Shape := ⟨2, ![2000000, 1]⟩
abbrev S2000000x64 : Shape := ⟨2, ![2000000, 64]⟩
abbrev S4096x1 : Shape := ⟨2, ![4096, 1]⟩
abbrev S4096x64 : Shape := ⟨2, ![4096, 64]⟩

abbrev nBuf : Space → Nat
  | .hbm => 119
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2000000, .i32⟩
  | .hbm, ⟨3, _⟩ => ⟨S2000000, .i32⟩
  | .hbm, ⟨4, _⟩ => ⟨S2000000, .f32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S150000x64, .f32⟩
  | .hbm, ⟨9, _⟩ => ⟨S_, .i32⟩
  | .hbm, ⟨10, _⟩ => ⟨S2000000, .i32⟩
  | .hbm, ⟨11, _⟩ => ⟨S2000000, .i1⟩
  | .hbm, ⟨12, _⟩ => ⟨S_, .i32⟩
  | .hbm, ⟨13, _⟩ => ⟨S2000000, .i32⟩
  | .hbm, ⟨14, _⟩ => ⟨S2000000, .i32⟩
  | .hbm, ⟨15, _⟩ => ⟨S2000000, .i32⟩
  | .hbm, ⟨16, _⟩ => ⟨S2000000x1, .i32⟩
  | .hbm, ⟨17, _⟩ => ⟨S2000000x64, .f32⟩
  | .hbm, ⟨18, _⟩ => ⟨S2000000x1, .f32⟩
  | .hbm, ⟨19, _⟩ => ⟨S2000000x64, .f32⟩
  | .hbm, ⟨20, _⟩ => ⟨S2000000x64, .f32⟩
  | .hbm, ⟨21, _⟩ => ⟨S_, .f32⟩
  | .hbm, ⟨22, _⟩ => ⟨S150000x64, .f32⟩
  | .hbm, ⟨23, _⟩ => ⟨S2000000x1, .i32⟩
  | .hbm, ⟨24, _⟩ => ⟨S150000x64, .f32⟩
  | .hbm, ⟨25, _⟩ => ⟨S150000x64, .f32⟩
  | .hbm, ⟨26, _⟩ => ⟨S_, .i32⟩
  | .hbm, ⟨27, _⟩ => ⟨S2000000, .i32⟩
  | .hbm, ⟨28, _⟩ => ⟨S2000000, .i1⟩
  | .hbm, ⟨29, _⟩ => ⟨S_, .i32⟩
  | .hbm, ⟨30, _⟩ => ⟨S2000000, .i32⟩
  | .hbm, ⟨31, _⟩ => ⟨S2000000, .i32⟩
  | .hbm, ⟨32, _⟩ => ⟨S2000000, .i32⟩
  | .hbm, ⟨33, _⟩ => ⟨S2000000x1, .i32⟩
  | .hbm, ⟨34, _⟩ => ⟨S2000000x64, .f32⟩
  | .hbm, ⟨35, _⟩ => ⟨S2000000x1, .f32⟩
  | .hbm, ⟨36, _⟩ => ⟨S2000000x64, .f32⟩
  | .hbm, ⟨37, _⟩ => ⟨S2000000x64, .f32⟩
  | .hbm, ⟨38, _⟩ => ⟨S_, .f32⟩
  | .hbm, ⟨39, _⟩ => ⟨S150000x64, .f32⟩
  | .hbm, ⟨40, _⟩ => ⟨S2000000x1, .i32⟩
  | .hbm, ⟨41, _⟩ => ⟨S150000x64, .f32⟩
  | .hbm, ⟨42, _⟩ => ⟨S150000x64, .f32⟩
  | .hbm, ⟨43, _⟩ => ⟨S_, .i32⟩
  | .hbm, ⟨44, _⟩ => ⟨S2000000, .i32⟩
  | .hbm, ⟨45, _⟩ => ⟨S2000000, .i1⟩
  | .hbm, ⟨46, _⟩ => ⟨S_, .i32⟩
  | .hbm, ⟨47, _⟩ => ⟨S2000000, .i32⟩
  | .hbm, ⟨48, _⟩ => ⟨S2000000, .i32⟩
  | .hbm, ⟨49, _⟩ => ⟨S2000000, .i32⟩
  | .hbm, ⟨50, _⟩ => ⟨S2000000x1, .i32⟩
  | .hbm, ⟨51, _⟩ => ⟨S2000000x64, .f32⟩
  | .hbm, ⟨52, _⟩ => ⟨S2000000x1, .f32⟩
  | .hbm, ⟨53, _⟩ => ⟨S2000000x64, .f32⟩
  | .hbm, ⟨54, _⟩ => ⟨S2000000x64, .f32⟩
  | .hbm, ⟨55, _⟩ => ⟨S_, .f32⟩
  | .hbm, ⟨56, _⟩ => ⟨S150000x64, .f32⟩
  | .hbm, ⟨57, _⟩ => ⟨S2000000x1, .i32⟩
  | .hbm, ⟨58, _⟩ => ⟨S150000x64, .f32⟩
  | .hbm, ⟨59, _⟩ => ⟨S150000x64, .f32⟩
  | .hbm, ⟨60, _⟩ => ⟨S_, .f32⟩
  | .hbm, ⟨61, _⟩ => ⟨S150000x64, .f32⟩
  | .hbm, ⟨62, _⟩ => ⟨S150000x64, .f32⟩
  | .hbm, ⟨63, _⟩ => ⟨S100000x64, .f32⟩
  | .hbm, ⟨64, _⟩ => ⟨S50000x64, .f32⟩
  | .hbm, ⟨65, _⟩ => ⟨S_, .i32⟩
  | .hbm, ⟨66, _⟩ => ⟨S4096, .i32⟩
  | .hbm, ⟨67, _⟩ => ⟨S4096, .i1⟩
  | .hbm, ⟨68, _⟩ => ⟨S_, .i32⟩
  | .hbm, ⟨69, _⟩ => ⟨S4096, .i32⟩
  | .hbm, ⟨70, _⟩ => ⟨S4096, .i32⟩
  | .hbm, ⟨71, _⟩ => ⟨S4096, .i32⟩
  | .hbm, ⟨72, _⟩ => ⟨S4096x1, .i32⟩
  | .hbm, ⟨73, _⟩ => ⟨S4096x64, .f32⟩
  | .hbm, ⟨74, _⟩ => ⟨S_, .i32⟩
  | .hbm, ⟨75, _⟩ => ⟨S4096, .i32⟩
  | .hbm, ⟨76, _⟩ => ⟨S4096, .i1⟩
  | .hbm, ⟨77, _⟩ => ⟨S_, .i32⟩
  | .hbm, ⟨78, _⟩ => ⟨S4096, .i32⟩
  | .hbm, ⟨79, _⟩ => ⟨S4096, .i32⟩
  | .hbm, ⟨80, _⟩ => ⟨S4096, .i32⟩
  | .hbm, ⟨81, _⟩ => ⟨S4096x1, .i32⟩
  | .hbm, ⟨82, _⟩ => ⟨S4096x64, .f32⟩
  | .hbm, ⟨83, _⟩ => ⟨S_, .i32⟩
  | .hbm, ⟨84, _⟩ => ⟨S4096, .i32⟩
  | .hbm, ⟨85, _⟩ => ⟨S4096, .i1⟩
  | .hbm, ⟨86, _⟩ => ⟨S_, .i32⟩
  | .hbm, ⟨87, _⟩ => ⟨S4096, .i32⟩
  | .hbm, ⟨88, _⟩ => ⟨S4096, .i32⟩
  | .hbm, ⟨89, _⟩ => ⟨S4096, .i32⟩
  | .hbm, ⟨90, _⟩ => ⟨S4096x1, .i32⟩
  | .hbm, ⟨91, _⟩ => ⟨S4096x64, .f32⟩
  | .hbm, ⟨92, _⟩ => ⟨S_, .i32⟩
  | .hbm, ⟨93, _⟩ => ⟨S4096, .i32⟩
  | .hbm, ⟨94, _⟩ => ⟨S4096, .i1⟩
  | .hbm, ⟨95, _⟩ => ⟨S_, .i32⟩
  | .hbm, ⟨96, _⟩ => ⟨S4096, .i32⟩
  | .hbm, ⟨97, _⟩ => ⟨S4096, .i32⟩
  | .hbm, ⟨98, _⟩ => ⟨S4096, .i32⟩
  | .hbm, ⟨99, _⟩ => ⟨S4096x1, .i32⟩
  | .hbm, ⟨100, _⟩ => ⟨S4096x64, .f32⟩
  | .hbm, ⟨101, _⟩ => ⟨S_, .i32⟩
  | .hbm, ⟨102, _⟩ => ⟨S4096, .i32⟩
  | .hbm, ⟨103, _⟩ => ⟨S4096, .i1⟩
  | .hbm, ⟨104, _⟩ => ⟨S_, .i32⟩
  | .hbm, ⟨105, _⟩ => ⟨S4096, .i32⟩
  | .hbm, ⟨106, _⟩ => ⟨S4096, .i32⟩
  | .hbm, ⟨107, _⟩ => ⟨S4096, .i32⟩
  | .hbm, ⟨108, _⟩ => ⟨S4096x1, .i32⟩
  | .hbm, ⟨109, _⟩ => ⟨S4096x64, .f32⟩
  | .hbm, ⟨110, _⟩ => ⟨S_, .i32⟩
  | .hbm, ⟨111, _⟩ => ⟨S4096, .i32⟩
  | .hbm, ⟨112, _⟩ => ⟨S4096, .i1⟩
  | .hbm, ⟨113, _⟩ => ⟨S_, .i32⟩
  | .hbm, ⟨114, _⟩ => ⟨S4096, .i32⟩
  | .hbm, ⟨115, _⟩ => ⟨S4096, .i32⟩
  | .hbm, ⟨116, _⟩ => ⟨S4096, .i32⟩
  | .hbm, ⟨117, _⟩ => ⟨S4096x1, .i32⟩
  | .hbm, ⟨118, _⟩ => ⟨S4096x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_8 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_12 : Ref sig .tc := ⟨.hbm, 83, rfl⟩
abbrev main_v61 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_c_15 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_16 : Ref sig .tc := ⟨.hbm, 101, rfl⟩
abbrev main_v75 : Ref sig .tc := ⟨.hbm, 102, rfl⟩
abbrev main_v76 : Ref sig .tc := ⟨.hbm, 103, rfl⟩
abbrev main_c_17 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_c_18 : Ref sig .tc := ⟨.hbm, 110, rfl⟩
abbrev main_v82 : Ref sig .tc := ⟨.hbm, 111, rfl⟩
abbrev main_v83 : Ref sig .tc := ⟨.hbm, 112, rfl⟩
abbrev main_c_19 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S4096 : S_.BroadcastsInDim S4096 (![] : Fin 0 → Fin S4096.rank)
  bcast_S4096_S4096x1_0 : S4096.BroadcastsInDim S4096x1 (![0] : Fin 1 → Fin S4096x1.rank)
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  gather_S100000x64_S4096x1_S4096x64_1_0_n_n_0_1_164_wf : GatherDims.WF S100000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

class Facts : Prop extends Facts₀ where

variable [Facts]
-- ==== Proof.K.GatherBody.lean ====
import proofs.«404774_j249108103934_2_alg».proof.Proof.Gen.Kernel.Launch
import proofs.«404774_j249108103934_2_alg».proof.Proof.Gen.Kernel.Skeleton
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

theorem gcoordA (t : Fin grid0.N) : ((grid0.coords t) 0).val = t.val / 74 := by
  have hlt := t.isLt
  have hN : grid0.N = 36186 := N_0
  show t.val / grid0.stride 0 % grid0.bound 0 = t.val / 74
  rw [show grid0.stride 0 = 74 from by decide, show grid0.bound 0 = 489 from rfl]
  exact Nat.mod_eq_of_lt (by omega)

theorem gcoordB (t : Fin grid0.N) : ((grid0.coords t) 1).val = t.val % 74 := by
  show t.val / grid0.stride 1 % grid0.bound 1 = t.val % 74
  rw [show grid0.stride 1 = 1 from by decide, show grid0.bound 1 = 74 from rfl, Nat.div_one]

abbrev gcondA (i : grid0.Coords) : Prop :=
  Scalar.cmpi .ne (Scalar.extui (Scalar.cmpi .eq (BitVec.ofNat 32 (i 1).val) 0#32)) 0#32 = 1#1

abbrev gcondC (i : grid0.Coords) : Prop := k0_cond2 i = 1#1

theorem gcondA_fin : ∀ k : Fin 74,
    (Scalar.cmpi .ne (Scalar.extui (Scalar.cmpi .eq (BitVec.ofNat 32 k.val) 0#32)) 0#32 = 1#1) ↔ k.val = 0 := by decide

theorem gcondC_fin : ∀ k : Fin 74,
    (Scalar.cmpi .ne (Scalar.extui (Scalar.cmpi .eq (BitVec.ofNat 32 k.val) 73#32)) 0#32 = 1#1) ↔ k.val = 73 := by decide

theorem gcondA_iff (t : Fin grid0.N) : gcondA (grid0.coords t) ↔ t.val % 74 = 0 := by
  rw [← gcoordB t]; exact gcondA_fin ((grid0.coords t) 1)

theorem gcondC_iff (t : Fin grid0.N) : gcondC (grid0.coords t) ↔ t.val % 74 = 73 := by
  rw [← gcoordB t]; exact gcondC_fin ((grid0.coords t) 1)

theorem gzeros : (![0, 0] : Fin 2 → ℕ) = fun _ => 0 := by
  funext a; match a with | ⟨0, _⟩ => rfl | ⟨1, _⟩ => rfl

-- at a middle node block the accumulator gains the block's one-hot product
set_option maxHeartbeats 1000000 in
theorem gkernelB (c : Dev nD) (E : Set ℕ) (i : grid0.Coords)
    (arg2 : Memref sig .tc .vmem S1x4096 .i32) (harg2 : arg2.IsWhole) (arg3 : Memref sig .tc .vmem S1x4096 .f32) (harg3 : arg3.IsWhole)
    (arg4 : Memref sig .tc .vmem S2048x64 .f32) (harg4 : arg4.IsWhole) (arg5 : Memref sig .tc .vmem S64x4096 .f32) (harg5 : arg5.IsWhole)
    (arg6 : Memref sig .tc .vmem S64x4096 .f32) (harg6 : arg6.IsWhole)
    (hcA : ¬gcondA i) (hcC : ¬gcondC i)
    (xA : Vec F S1x4096 .i32) (xB : Vec F S1x4096 .f32) (xC : Vec F S2048x64 .f32) (xs : Vec F S64x4096 .f32)
    (K : PUnit → sProp 𝕄) :
    iprop(owns (c : Thread nD τ) arg2 fullShare xA ∗ owns (c : Thread nD τ) arg3 fullShare xB
        ∗ owns (c : Thread nD τ) arg4 fullShare xC ∗ owns (c : Thread nD τ) arg6 fullShare xs
        ∗ (iprop(owns (c : Thread nD τ) arg2 fullShare xA ∗ owns (c : Thread nD τ) arg3 fullShare xB
            ∗ owns (c : Thread nD τ) arg4 fullShare xC
            ∗ owns (c : Thread nD τ) arg6 fullShare (k0_pay2 i xA xB xC xs)) -∗ K ⟨⟩))
      ⊢ wp frame (wpE (defs₀ (F := F)) Variants.none c none) E
          (cc0__gather_kernel i arg2 harg2 arg3 harg3 arg4 harg4 arg5 harg5 arg6 harg6) K := by
  simp only [cc0__gather_kernel_eq_skeleton]; unfold cc0__gather_kernel_skel
  unfold owns
  iintro ⟨⟨%fA, %hfA, HA⟩, ⟨%fB, %hfB, HB⟩, ⟨%fC, %hfC, HC⟩, ⟨%fs, %hfs, HS⟩, Hk⟩
  obtain rfl := harg2.eq_unread hfA; obtain rfl := harg3.eq_unread hfB
  obtain rfl := harg4.eq_unread hfC; obtain rfl := harg6.eq_unread hfs
  sl_exec (disch := first | exact hcA | exact hcC)
  sl_step
  iapply Hk
  isplitl [HA]
  · iexists _; isplitr; · ipureintro; exact harg2.read_unread _
    iexact HA
  isplitl [HB]
  · iexists _; isplitr; · ipureintro; exact harg3.read_unread _
    iexact HB
  isplitl [HC]
  · iexists _; isplitr; · ipureintro; exact harg4.read_unread _
    iexact HC
  iexists _; isplitr
  swap; · iexact HS
  ipureintro
  sl_unfold_words
  rw [View.read_writes_eq_canon _ _ _ (fun y => ⟨_, List.mem_cons.mpr (Or.inl rfl), View.mem_set_unit_zero gzeros Facts₀.inb_S64x4096_S64x4096_0_0 y⟩), View.canon_cons_unit_zero gzeros]
  simp only [View.readAt_eq_ld, Memref.IsWhole.read_unread, View.ld_unit_zero (S := S1x4096) gzeros,
    View.ld_unit_zero (S := S2048x64) gzeros, View.ld_unit_zero (S := S64x4096) gzeros,
    View.readCov_unit_zero (S := S64x4096) _ gzeros]

-- at the first node block the accumulator restarts from zero
set_option maxHeartbeats 1000000 in
theorem gkernelA (c : Dev nD) (E : Set ℕ) (i : grid0.Coords)
    (arg2 : Memref sig .tc .vmem S1x4096 .i32) (harg2 : arg2.IsWhole) (arg3 : Memref sig .tc .vmem S1x4096 .f32) (harg3 : arg3.IsWhole)
    (arg4 : Memref sig .tc .vmem S2048x64 .f32) (harg4 : arg4.IsWhole) (arg5 : Memref sig .tc .vmem S64x4096 .f32) (harg5 : arg5.IsWhole)
    (arg6 : Memref sig .tc .vmem S64x4096 .f32) (harg6 : arg6.IsWhole)
    (hcA : gcondA i) (hcC : ¬gcondC i)
    (xA : Vec F S1x4096 .i32) (xB : Vec F S1x4096 .f32) (xC : Vec F S2048x64 .f32)
    (K : PUnit → sProp 𝕄) :
    iprop(owns (c : Thread nD τ) arg2 fullShare xA ∗ owns (c : Thread nD τ) arg3 fullShare xB
        ∗ owns (c : Thread nD τ) arg4 fullShare xC ∗ (∃ d, owns (c : Thread nD τ) arg6 fullShare d)
        ∗ (iprop(owns (c : Thread nD τ) arg2 fullShare xA ∗ owns (c : Thread nD τ) arg3 fullShare xB
            ∗ owns (c : Thread nD τ) arg4 fullShare xC
            ∗ owns (c : Thread nD τ) arg6 fullShare (k0_pay2 i xA xB xC k0_pay1)) -∗ K ⟨⟩))
      ⊢ wp frame (wpE (defs₀ (F := F)) Variants.none c none) E
          (cc0__gather_kernel i arg2 harg2 arg3 harg3 arg4 harg4 arg5 harg5 arg6 harg6) K := by
  simp only [cc0__gather_kernel_eq_skeleton]; unfold cc0__gather_kernel_skel
  unfold owns
  iintro ⟨⟨%fA, %hfA, HA⟩, ⟨%fB, %hfB, HB⟩, ⟨%fC, %hfC, HC⟩, ⟨%ds, %fs, -, HS⟩, Hk⟩
  obtain rfl := harg2.eq_unread hfA; obtain rfl := harg3.eq_unread hfB
  obtain rfl := harg4.eq_unread hfC
  sl_exec (disch := first | exact hcA | exact hcC)
  sl_step
  iapply Hk
  isplitl [HA]
  · iexists _; isplitr; · ipureintro; exact harg2.read_unread _
    iexact HA
  isplitl [HB]
  · iexists _; isplitr; · ipureintro; exact harg3.read_unread _
    iexact HB
  isplitl [HC]
  · iexists _; isplitr; · ipureintro; exact harg4.read_unread _
    iexact HC
  iexists _; isplitr
  swap; · iexact HS
  ipureintro
  sl_unfold_words
  rw [View.read_writes_eq_canon _ _ _ (fun y => ⟨_, List.mem_cons.mpr (Or.inl rfl), View.mem_set_unit_zero gzeros Facts₀.inb_S64x4096_S64x4096_0_0 y⟩), View.canon_cons_unit_zero gzeros]
  simp only [View.readAt_eq_ld, Memref.IsWhole.read_unread, View.ld_unit_zero (S := S1x4096) gzeros,
    View.ld_unit_zero (S := S2048x64) gzeros, View.ld_unit_zero (S := S64x4096) gzeros,
    View.readCov_unit_zero (S := S64x4096) _ gzeros]

-- at the last node block the finished accumulator is also the output block
set_option maxHeartbeats 1000000 in
theorem gkernelC (c : Dev nD) (E : Set ℕ) (i : grid0.Coords)
    (arg2 : Memref sig .tc .vmem S1x4096 .i32) (harg2 : arg2.IsWhole) (arg3 : Memref sig .tc .vmem S1x4096 .f32) (harg3 : arg3.IsWhole)
    (arg4 : Memref sig .tc .vmem S2048x64 .f32) (harg4 : arg4.IsWhole) (arg5 : Memref sig .tc .vmem S64x4096 .f32) (harg5 : arg5.IsWhole)
    (arg6 : Memref sig .tc .vmem S64x4096 .f32) (harg6 : arg6.IsWhole)
    (hcA : ¬gcondA i) (hcC : gcondC i)
    (xA : Vec F S1x4096 .i32) (xB : Vec F S1x4096 .f32) (xC : Vec F S2048x64 .f32) (xs : Vec F S64x4096 .f32)
    (K : PUnit → sProp 𝕄) :
    iprop(owns (c : Thread nD τ) arg2 fullShare xA ∗ owns (c : Thread nD τ) arg3 fullShare xB
        ∗ owns (c : Thread nD τ) arg4 fullShare xC ∗ owns (c : Thread nD τ) arg6 fullShare xs ∗ (∃ d, owns (c : Thread nD τ) arg5 fullShare d)
        ∗ (iprop(owns (c : Thread nD τ) arg2 fullShare xA ∗ owns (c : Thread nD τ) arg3 fullShare xB
            ∗ owns (c : Thread nD τ) arg4 fullShare xC
            ∗ owns (c : Thread nD τ) arg6 fullShare (k0_pay2 i xA xB xC xs) ∗ owns (c : Thread nD τ) arg5 fullShare (k0_pay2 i xA xB xC xs)) -∗ K ⟨⟩))
      ⊢ wp frame (wpE (defs₀ (F := F)) Variants.none c none) E
          (cc0__gather_kernel i arg2 harg2 arg3 harg3 arg4 harg4 arg5 harg5 arg6 harg6) K := by
  simp only [cc0__gather_kernel_eq_skeleton]; unfold cc0__gather_kernel_skel
  unfold owns
  iintro ⟨⟨%fA, %hfA, HA⟩, ⟨%fB, %hfB, HB⟩, ⟨%fC, %hfC, HC⟩, ⟨%fs, %hfs, HS⟩, ⟨%dD, %fD, -, HD⟩, Hk⟩
  obtain rfl := harg2.eq_unread hfA; obtain rfl := harg3.eq_unread hfB
  obtain rfl := harg4.eq_unread hfC; obtain rfl := harg6.eq_unread hfs
  sl_exec (disch := first | exact hcA | exact hcC)
  sl_step
  iapply Hk
  isplitl [HA]
  · iexists _; isplitr; · ipureintro; exact harg2.read_unread _
    iexact HA
  isplitl [HB]
  · iexists _; isplitr; · ipureintro; exact harg3.read_unread _
    iexact HB
  isplitl [HC]
  · iexists _; isplitr; · ipureintro; exact harg4.read_unread _
    iexact HC
  isplitl [HS]
  · iexists _; isplitr
    swap; · iexact HS
    ipureintro
    sl_unfold_words
    rw [View.read_writes_eq_canon _ _ _ (fun y => ⟨_, List.mem_cons.mpr (Or.inl rfl), View.mem_set_unit_zero gzeros Facts₀.inb_S64x4096_S64x4096_0_0 y⟩), View.canon_cons_unit_zero gzeros]
    simp only [View.readAt_eq_ld, Memref.IsWhole.read_unread, View.ld_unit_zero (S := S1x4096) gzeros,
      View.ld_unit_zero (S := S2048x64) gzeros, View.ld_unit_zero (S := S64x4096) gzeros,
      View.readCov_unit_zero (S := S64x4096) _ gzeros]
  iexists _; isplitr
  swap; · iexact HD
  ipureintro
  sl_unfold_words
  rw [View.read_writes_eq_canon _ _ _ (fun y => ⟨_, List.mem_cons.mpr (Or.inl rfl), View.mem_set_unit_zero gzeros Facts₀.inb_S64x4096_S64x4096_0_0 y⟩), View.canon_cons_unit_zero gzeros]
  simp only [View.readAt_eq_ld, Memref.IsWhole.read_unread, View.ld_unit_zero (S := S1x4096) gzeros,
    View.ld_unit_zero (S := S2048x64) gzeros, View.ld_unit_zero (S := S64x4096) gzeros,
    View.readCov_unit_zero (S := S64x4096) _ gzeros]

end Cert.Kernel.Hand

end
-- ==== Proof.K.Gather0.lean ====
import proofs.«404774_j249108103934_2_alg».proof.Proof.K.GatherBody

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev scr0 : Memref sig .tc .vmem S64x4096 .f32 := Memref.whole cc0_scratch0

abbrev grest0 (c : Dev nD) : sProp 𝕄 :=
  Pipeline.scopedRestBut (Ix := Unit) (Name := ℕ) (U := UR sig nD τ) (Lvl := ℕ) (Val := Elt F) spec0 c [cc0_scratch0]

def gstep0 (c : Dev nD) (t : Fin cfg0.N) (xs : Vec F S64x4096 .f32) : Vec F S64x4096 .f32 :=
  k0_pay2 (grid0.coords t) (iblk0 V c 0 t) (iblk0 V c 1 t) (iblk0 V c 2 t) xs

-- the accumulator after point n: a fold over the 74 node blocks of one edge block, restarted at each new edge block
def gacc0 (c : Dev nD) : (n : ℕ) → n < cfg0.N → Vec F S64x4096 .f32
  | 0, hn => gstep0 V c ⟨0, hn⟩ k0_pay1
  | n + 1, hn => gstep0 V c ⟨n + 1, hn⟩ (if (n + 1) % 74 = 0 then k0_pay1 else gacc0 c n (Nat.lt_of_succ_lt hn))

theorem gacc0_reset (c : Dev nD) (n : ℕ) (hn : n < cfg0.N) (h : n % 74 = 0) :
    gacc0 V c n hn = gstep0 V c ⟨n, hn⟩ k0_pay1 := by
  cases n with
  | zero => rfl
  | succ n => show gstep0 V c _ (if (n + 1) % 74 = 0 then _ else _) = _; rw [if_pos h]

theorem gacc0_step (c : Dev nD) (n : ℕ) (hn : n + 1 < cfg0.N) (h : ¬(n + 1) % 74 = 0) :
    gacc0 V c (n + 1) hn = gstep0 V c ⟨n + 1, hn⟩ (gacc0 V c n (Nat.lt_of_succ_lt hn)) := by
  show gstep0 V c _ (if (n + 1) % 74 = 0 then _ else _) = _; rw [if_neg h]

def gPhi0 (c : Dev nD) : (n : ℕ) → n ≤ cfg0.N → sProp 𝕄
  | 0, _ => Pipeline.ΦA spec0 c
  | n + 1, hn => iprop(owns (c : Thread nD τ) scr0 fullShare (gacc0 V c n hn)
      ∗ grest0 c
      ∗ (∃ r, prngReg c r))

def gdat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => gacc0 V c t.val t.isLt
  Φ t := gPhi0 V c t.val (Nat.le_of_lt_succ t.isLt)
  q _ := fullShare
  owed _ := 0

theorem gA0 (c : Dev nD) (w : Fin cfg0.W) : (gdat0 V c).A w = V c (Pipeline.arrRef spec0 w) := by
  dsimp only [gdat0]

theorem gafter0_0 (c : Dev nD) (t : Fin cfg0.N) : (gdat0 V c).after 0 t = iblk0 V c 0 t := by dsimp only [gdat0]

theorem gafter0_1 (c : Dev nD) (t : Fin cfg0.N) : (gdat0 V c).after 1 t = iblk0 V c 1 t := by dsimp only [gdat0]

theorem gafter0_2 (c : Dev nD) (t : Fin cfg0.N) : (gdat0 V c).after 2 t = iblk0 V c 2 t := by dsimp only [gdat0]

theorem gafter0_3 (c : Dev nD) (t : Fin cfg0.N) : (gdat0 V c).after 3 t = gacc0 V c t.val t.isLt := by dsimp only [gdat0]

abbrev gst0_0 (t : Fin cfg0.N) : Memref sig .tc .vmem S1x4096 .i32 := win0_0.stage (cfg0.slots t 0)

abbrev ghs0_0 (t : Fin cfg0.N) : (gst0_0 t).IsWhole := hstage0_0 ((cfg0.slots t 0).cast nbuf0_0)

abbrev gst0_1 (t : Fin cfg0.N) : Memref sig .tc .vmem S1x4096 .f32 := win0_1.stage (cfg0.slots t 1)

abbrev ghs0_1 (t : Fin cfg0.N) : (gst0_1 t).IsWhole := hstage0_1 ((cfg0.slots t 1).cast nbuf0_1)

abbrev gst0_2 (t : Fin cfg0.N) : Memref sig .tc .vmem S2048x64 .f32 := win0_2.stage (cfg0.slots t 2)

abbrev ghs0_2 (t : Fin cfg0.N) : (gst0_2 t).IsWhole := hstage0_2 ((cfg0.slots t 2).cast nbuf0_2)

abbrev gst0_3 (t : Fin cfg0.N) : Memref sig .tc .vmem S64x4096 .f32 := win0_3.stage (cfg0.slots t 3)

abbrev ghs0_3 (t : Fin cfg0.N) : (gst0_3 t).IsWhole := hstage0_3 ((cfg0.slots t 3).cast nbuf0_3)

abbrev gbodyAt0 (t : Fin cfg0.N) : Prog (TpuEff nD τ sig (Elt F) Λ₀ .tc) PUnit :=
  cc0__gather_kernel (grid0.coords t) (gst0_0 t) (ghs0_0 t) (gst0_1 t) (ghs0_1 t) (gst0_2 t) (ghs0_2 t) (gst0_3 t) (ghs0_3 t)
    scr0 (Memref.isWhole_whole _)

theorem gidle0_3 (t : Fin cfg0.N) (h : ¬t.val % 74 = 73) : cfg0.idle 3 (grid0.coords t) = true := by
  show (!(k0_cond2 (grid0.coords t) == 1#1)) = true
  rw [Bool.not_eq_true', beq_eq_false_iff_ne]
  exact fun hc => h ((gcondC_iff t).mp hc)

theorem glive0_3 (t : Fin cfg0.N) (h : t.val % 74 = 73) : cfg0.idle 3 (grid0.coords t) = false := by
  show (!(k0_cond2 (grid0.coords t) == 1#1)) = false
  rw [Bool.not_eq_false', beq_iff_eq]
  exact (gcondC_iff t).mpr h

theorem gnoflush0_3 (t : Fin cfg0.N) (h : ¬t.val % 74 = 73) : (cfg0.win 3).flush t = false := by
  have hlt := t.isLt
  have hN : cfg0.N = 36186 := N_0
  have hNg : cfg0.grid.N = 36186 := N_0
  unfold Pipeline.Window.flush
  rw [Bool.and_eq_false_iff]; right
  rw [Bool.or_eq_false_iff]
  refine ⟨decide_eq_false (by omega), decide_eq_false ?_⟩
  rintro ⟨hnext, hne⟩
  apply hne
  show cc0_transform_3 (grid0.coords ⟨t.val + 1, hnext⟩) = cc0_transform_3 (grid0.coords t)
  apply Facts₀.hreads0_3
  intro a ha
  match a, ha with
  | ⟨0, _⟩, _ =>
    exact Fin.ext ((gcoordA ⟨t.val + 1, hnext⟩).trans ((show (t.val + 1) / 74 = t.val / 74 by omega).trans (gcoordA t).symm))
  | ⟨1, _⟩, ha => exact absurd (show false = true from ha) Bool.false_ne_true

theorem gPhiA0 (c : Dev nD) :
    (Pipeline.ΦA spec0 c : sProp 𝕄)
      = iprop((∃ d, owns (c : Thread nD τ) scr0 fullShare d)
          ∗ grest0 c
          ∗ (∃ r, prngReg c r)) := by
  unfold Pipeline.ΦA; rw [scopedRest0_split]; simp only [scr0, owns_whole]
  exact BI.equiv_iff.mp ⟨sep_assoc, sep_assoc'⟩

theorem gPhi0_pos (c : Dev nD) (n : ℕ) (h : n ≤ cfg0.N) (hz : n ≠ 0) :
    gPhi0 V c n h = iprop(owns (c : Thread nD τ) scr0 fullShare (gacc0 V c (n - 1) (by omega))
      ∗ grest0 c
      ∗ (∃ r, prngReg c r)) := by
  cases n with
  | zero => exact absurd rfl hz
  | succ n => rfl

theorem gPhi0_castSucc (c : Dev nD) (t : Fin cfg0.N) :
    (gdat0 V c).Φ t.castSucc = gPhi0 V c t.val (Nat.le_of_lt t.isLt) := by
  dsimp only [gdat0]; simp only [Fin.coe_castSucc]

theorem gPhi0_succ (c : Dev nD) (t : Fin cfg0.N) :
    (gdat0 V c).Φ t.succ = iprop(owns (c : Thread nD τ) scr0 fullShare (gacc0 V c t.val t.isLt)
      ∗ grest0 c
      ∗ (∃ r, prngReg c r)) := rfl

theorem gbefore0_0 (c : Dev nD) (t : Fin cfg0.N) (d) : (gdat0 V c).before 0 t d = iblk0 V c 0 t :=
  ((gdat0 V c).before_in_eq_fetched 0 rfl (fun _ => rfl) (fun _ _ _ => rfl)
    (fun t => by rw [gafter0_0]; unfold Dat.blockOf iblk0; rw [gA0]) t d).trans
    (by unfold Dat.fetched Dat.blockOf iblk0; rw [gA0]; rfl)

theorem gbefore0_1 (c : Dev nD) (t : Fin cfg0.N) (d) : (gdat0 V c).before 1 t d = iblk0 V c 1 t :=
  ((gdat0 V c).before_in_eq_fetched 1 rfl (fun _ => rfl) (fun _ _ _ => rfl)
    (fun t => by rw [gafter0_1]; unfold Dat.blockOf iblk0; rw [gA0]) t d).trans
    (by unfold Dat.fetched Dat.blockOf iblk0; rw [gA0]; rfl)

theorem gbefore0_2 (c : Dev nD) (t : Fin cfg0.N) (d) : (gdat0 V c).before 2 t d = iblk0 V c 2 t :=
  ((gdat0 V c).before_in_eq_fetched 2 rfl (fun _ => rfl) (fun _ _ _ => rfl)
    (fun t => by rw [gafter0_2]; unfold Dat.blockOf iblk0; rw [gA0]) t d).trans
    (by unfold Dat.fetched Dat.blockOf iblk0; rw [gA0]; rfl)

theorem gPhi0_some (c : Dev nD) (n : ℕ) (h : n ≤ cfg0.N) :
    gPhi0 V c n h ⊢ iprop((∃ d, owns (c : Thread nD τ) scr0 fullShare d) ∗ grest0 c ∗ (∃ r, prngReg c r)) := by
  cases n with
  | zero => rw [show gPhi0 V c 0 h = Pipeline.ΦA spec0 c from rfl, gPhiA0]
  | succ n =>
    show iprop(owns (c : Thread nD τ) scr0 fullShare (gacc0 V c n h) ∗ grest0 c ∗ (∃ r, prngReg c r)) ⊢ _
    iintro ⟨HS, HR, Hg⟩
    iframe HR Hg
    iexists _; iexact HS

theorem gacc0_pos (c : Dev nD) (t : Fin cfg0.N) (h : ¬t.val % 74 = 0) :
    gacc0 V c t.val t.isLt = gstep0 V c t (gacc0 V c (t.val - 1) (Nat.lt_of_le_of_lt (Nat.sub_le _ _) t.isLt)) := by
  obtain ⟨n, hn⟩ := t
  cases n with
  | zero => exact absurd (Nat.zero_mod _) h
  | succ n => exact gacc0_step V c n hn h

def gpre0 (c : Dev nD) (t : Fin cfg0.N) : sProp 𝕄 :=
  iprop((gdat0 V c).Φ t.castSucc ∗ (gdat0 V c).owesAt () t.castSucc
    ∗ (∃ d, owns (c : Thread nD τ) (gst0_0 t) fullShare ((gdat0 V c).before 0 t d))
    ∗ (∃ d, owns (c : Thread nD τ) (gst0_1 t) fullShare ((gdat0 V c).before 1 t d))
    ∗ (∃ d, owns (c : Thread nD τ) (gst0_2 t) fullShare ((gdat0 V c).before 2 t d))
    ∗ (∃ d, owns (c : Thread nD τ) (gst0_3 t) fullShare ((gdat0 V c).before 3 t d)))

def gpost0 (c : Dev nD) (t : Fin cfg0.N) : sProp 𝕄 :=
  iprop((gdat0 V c).Φ t.succ ∗ (gdat0 V c).owesAt () t.succ
    ∗ (gdat0 V c).leavesExact 0 t ∗ (gdat0 V c).leavesExact 1 t ∗ (gdat0 V c).leavesExact 2 t ∗ (gdat0 V c).leavesExact 3 t)

theorem gsound0 (c : Dev nD) (t : Fin cfg0.N) :
    gpre0 V c t ⊢ wp frame (wpE (defs₀ (F := F)) Variants.none c none) Set.univ (gbodyAt0 t) (fun _ => gpost0 V c t) := by
  unfold gpre0 gpost0 gbodyAt0
  simp only [gbefore0_0, gbefore0_1, gbefore0_2]
  rw [show (gdat0 V c).owesAt () t.succ = (gdat0 V c).owesAt () t.castSucc from rfl]
  rw [gPhi0_succ, gPhi0_castSucc]
  rw [show (gdat0 V c).leavesExact 0 t = owns (c : Thread nD τ) (gst0_0 t) fullShare ((gdat0 V c).after 0 t) from rfl, gafter0_0,
    show (gdat0 V c).leavesExact 1 t = owns (c : Thread nD τ) (gst0_1 t) fullShare ((gdat0 V c).after 1 t) from rfl, gafter0_1,
    show (gdat0 V c).leavesExact 2 t = owns (c : Thread nD τ) (gst0_2 t) fullShare ((gdat0 V c).after 2 t) from rfl, gafter0_2]
  by_cases hC : t.val % 74 = 73
  · have hA : ¬t.val % 74 = 0 := by omega
    have hz : t.val ≠ 0 := fun e => hA (by rw [e])
    rw [show (gdat0 V c).leavesExact 3 t = owns (c : Thread nD τ) (gst0_3 t) fullShare ((gdat0 V c).after 3 t) from by
      unfold Dat.leavesExact; rw [glive0_3 t hC], gafter0_3, gacc0_pos V c t hA, gPhi0_pos V c _ _ hz]
    unfold gstep0
    iintro ⟨⟨HS, HR, Hg⟩, Ho, ⟨%dA, HA⟩, ⟨%dB, HB⟩, ⟨%dC, HC⟩, ⟨%dD, HD⟩⟩
    iapply (gkernelC c Set.univ (grid0.coords t) (gst0_0 t) (ghs0_0 t) (gst0_1 t) (ghs0_1 t) (gst0_2 t) (ghs0_2 t) (gst0_3 t) (ghs0_3 t)
        scr0 (Memref.isWhole_whole _) (fun hc => hA ((gcondA_iff t).mp hc)) ((gcondC_iff t).mpr hC)
        (iblk0 V c 0 t) (iblk0 V c 1 t) (iblk0 V c 2 t) (gacc0 V c (t.val - 1) (Nat.lt_of_le_of_lt (Nat.sub_le _ _) t.isLt)) _)
    iframe HA HB HC HS
    isplitl [HD]; · iexists _; iexact HD
    iintro ⟨HA, HB, HC, HS, HD⟩
    iframe
  · rw [Dat.leavesExact_idle (gdat0 V c) 3 t (gidle0_3 t hC) (gnoflush0_3 t hC)]
    by_cases hA : t.val % 74 = 0
    · rw [gacc0_reset V c t.val t.isLt hA]
      unfold gstep0
      refine (sep_mono (gPhi0_some V c _ _) .rfl).trans ?_
      iintro ⟨⟨⟨%ds, HS⟩, HR, Hg⟩, Ho, ⟨%dA, HA⟩, ⟨%dB, HB⟩, ⟨%dC, HC⟩, HD⟩
      iapply (gkernelA c Set.univ (grid0.coords t) (gst0_0 t) (ghs0_0 t) (gst0_1 t) (ghs0_1 t) (gst0_2 t) (ghs0_2 t) (gst0_3 t) (ghs0_3 t)
        scr0 (Memref.isWhole_whole _) ((gcondA_iff t).mpr hA) (fun hc => hC ((gcondC_iff t).mp hc))
        (iblk0 V c 0 t) (iblk0 V c 1 t) (iblk0 V c 2 t) _)
      iframe HA HB HC
      isplitl [HS]; · iexists _; iexact HS
      iintro ⟨HA, HB, HC, HS⟩
      iframe
    · have hz : t.val ≠ 0 := fun e => hA (by rw [e])
      rw [gacc0_pos V c t hA, gPhi0_pos V c _ _ hz]
      unfold gstep0
      iintro ⟨⟨HS, HR, Hg⟩, Ho, ⟨%dA, HA⟩, ⟨%dB, HB⟩, ⟨%dC, HC⟩, HD⟩
      iapply (gkernelB c Set.univ (grid0.coords t) (gst0_0 t) (ghs0_0 t) (gst0_1 t) (ghs0_1 t) (gst0_2 t) (ghs0_2 t) (gst0_3 t) (ghs0_3 t)
        scr0 (Memref.isWhole_whole _) (fun hc => hA ((gcondA_iff t).mp hc)) (fun hc => hC ((gcondC_iff t).mp hc))
        (iblk0 V c 0 t) (iblk0 V c 1 t) (iblk0 V c 2 t) (gacc0 V c (t.val - 1) (Nat.lt_of_le_of_lt (Nat.sub_le _ _) t.isLt)) _)
      iframe HA HB HC HS
      iintro ⟨HA, HB, HC, HS⟩
      iframe

theorem gbody0 (c : Dev nD) : BodyObligation (gdat0 (F := F) V c) (defs₀ (F := F)) Variants.none () Set.univ := fun t => by
  rw [bigSep_W0, bigSep_W0]
  exact gsound0 V c t

theorem ghin0 (c : Dev nD) : (Pipeline.ΦA spec0 c : sProp 𝕄) ⊢ (gdat0 V c).Φ 0 := by
  rw [show (gdat0 V c).Φ 0 = gPhi0 V c 0 (Nat.zero_le _) from rfl]
  exact .rfl

theorem ghout0 (c : Dev nD) : (gdat0 V c).Φ (Fin.last cfg0.N) ⊢ (Pipeline.ΦA spec0 c : sProp 𝕄) := by
  rw [show (gdat0 V c).Φ (Fin.last cfg0.N) = gPhi0 V c (Fin.last cfg0.N).val (Nat.le_of_lt_succ (Fin.last cfg0.N).isLt) from rfl,
    gPhiA0]
  exact gPhi0_some V c _ _

end Cert.Kernel.Hand

end
-- ==== Proof.K.ScatterBody.lean ====
import proofs.«404774_j249108103934_2_alg».proof.Proof.Gen.Kernel.Launch
import proofs.«404774_j249108103934_2_alg».proof.Proof.Gen.Kernel.Skeleton
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

theorem scoordA (t : Fin grid1.N) : ((grid1.coords t) 0).val = t.val / 489 := by
  have hlt := t.isLt
  have hN : grid1.N = 36186 := N_1
  show t.val / grid1.stride 0 % grid1.bound 0 = t.val / 489
  rw [show grid1.stride 0 = 489 from by decide, show grid1.bound 0 = 74 from rfl]
  exact Nat.mod_eq_of_lt (by omega)

theorem scoordB (t : Fin grid1.N) : ((grid1.coords t) 1).val = t.val % 489 := by
  show t.val / grid1.stride 1 % grid1.bound 1 = t.val % 489
  rw [show grid1.stride 1 = 1 from by decide, show grid1.bound 1 = 489 from rfl, Nat.div_one]

abbrev scondA (i : grid1.Coords) : Prop :=
  Scalar.cmpi .ne (Scalar.extui (Scalar.cmpi .eq (BitVec.ofNat 32 (i 1).val) 0#32)) 0#32 = 1#1

abbrev scondC (i : grid1.Coords) : Prop := k1_cond2 i = 1#1

theorem sword_inj (k n : ℕ) (hk : k < 2 ^ 32) (hn : n < 2 ^ 32) : BitVec.ofNat 32 k = BitVec.ofNat 32 n ↔ k = n := by
  constructor
  · intro h
    have hv := congrArg BitVec.toNat h
    rwa [BitVec.toNat_ofNat, BitVec.toNat_ofNat, Nat.mod_eq_of_lt hk, Nat.mod_eq_of_lt hn] at hv
  · rintro rfl; rfl

theorem stest_iff (k n : ℕ) (hk : k < 2 ^ 32) (hn : n < 2 ^ 32) :
    Scalar.cmpi .ne (Scalar.extui (Scalar.cmpi .eq (BitVec.ofNat 32 k) (BitVec.ofNat 32 n))) 0#32 = 1#1 ↔ k = n := by
  rw [Scalar.guard_iff, Scalar.cmpi, IntOp.cmpi_eq]
  exact sword_inj k n hk hn

theorem scondA_iff (t : Fin grid1.N) : scondA (grid1.coords t) ↔ t.val % 489 = 0 := by
  have hlt : ((grid1.coords t) 1).val < 489 := ((grid1.coords t) 1).isLt
  rw [← scoordB t]
  exact stest_iff _ 0 (by omega) (by omega)

theorem scondC_iff (t : Fin grid1.N) : scondC (grid1.coords t) ↔ t.val % 489 = 488 := by
  have hlt : ((grid1.coords t) 1).val < 489 := ((grid1.coords t) 1).isLt
  rw [← scoordB t]
  exact stest_iff _ 488 (by omega) (by omega)

theorem szeros : (![0, 0] : Fin 2 → ℕ) = fun _ => 0 := by
  funext a; match a with | ⟨0, _⟩ => rfl | ⟨1, _⟩ => rfl

-- at a middle edge block the accumulator gains the block's one-hot product
set_option maxHeartbeats 1000000 in
theorem skernelB (c : Dev nD) (E : Set ℕ) (i : grid1.Coords)
    (arg2 : Memref sig .tc .vmem S1x4096 .i32) (harg2 : arg2.IsWhole) (arg3 : Memref sig .tc .vmem S64x4096 .f32) (harg3 : arg3.IsWhole)
    (arg4 : Memref sig .tc .vmem S2048x64 .f32) (harg4 : arg4.IsWhole) (arg5 : Memref sig .tc .vmem S2048x64 .f32) (harg5 : arg5.IsWhole)
    (hcA : ¬scondA i) (hcC : ¬scondC i)
    (xA : Vec F S1x4096 .i32) (xB : Vec F S64x4096 .f32) (xs : Vec F S2048x64 .f32)
    (K : PUnit → sProp 𝕄) :
    iprop(owns (c : Thread nD τ) arg2 fullShare xA ∗ owns (c : Thread nD τ) arg3 fullShare xB
        ∗ owns (c : Thread nD τ) arg5 fullShare xs
        ∗ (iprop(owns (c : Thread nD τ) arg2 fullShare xA ∗ owns (c : Thread nD τ) arg3 fullShare xB
            ∗ owns (c : Thread nD τ) arg5 fullShare (k1_pay2 i xA xB xs)) -∗ K ⟨⟩))
      ⊢ wp frame (wpE (defs₀ (F := F)) Variants.none c none) E
          (cc1__scatter_kernel i arg2 harg2 arg3 harg3 arg4 harg4 arg5 harg5) K := by
  simp only [cc1__scatter_kernel_eq_skeleton]; unfold cc1__scatter_kernel_skel
  unfold owns
  iintro ⟨⟨%fA, %hfA, HA⟩, ⟨%fB, %hfB, HB⟩, ⟨%fs, %hfs, HS⟩, Hk⟩
  obtain rfl := harg2.eq_unread hfA; obtain rfl := harg3.eq_unread hfB
  obtain rfl := harg5.eq_unread hfs
  sl_exec (disch := first | exact hcA | exact hcC)
  sl_step
  iapply Hk
  isplitl [HA]
  · iexists _; isplitr; · ipureintro; exact harg2.read_unread _
    iexact HA
  isplitl [HB]
  · iexists _; isplitr; · ipureintro; exact harg3.read_unread _
    iexact HB
  iexists _; isplitr
  swap; · iexact HS
  ipureintro
  sl_unfold_words
  rw [View.read_writes_eq_canon _ _ _ (fun y => ⟨_, List.mem_cons.mpr (Or.inl rfl), View.mem_set_unit_zero szeros Facts₀.inb_S2048x64_S2048x64_0_0 y⟩), View.canon_cons_unit_zero szeros]
  simp only [View.readAt_eq_ld, Memref.IsWhole.read_unread, View.ld_unit_zero (S := S1x4096) szeros,
    View.ld_unit_zero (S := S64x4096) szeros, View.ld_unit_zero (S := S2048x64) szeros,
    View.readCov_unit_zero (S := S2048x64) _ szeros]

-- at the first edge block the accumulator restarts from zero
set_option maxHeartbeats 1000000 in
theorem skernelA (c : Dev nD) (E : Set ℕ) (i : grid1.Coords)
    (arg2 : Memref sig .tc .vmem S1x4096 .i32) (harg2 : arg2.IsWhole) (arg3 : Memref sig .tc .vmem S64x4096 .f32) (harg3 : arg3.IsWhole)
    (arg4 : Memref sig .tc .vmem S2048x64 .f32) (harg4 : arg4.IsWhole) (arg5 : Memref sig .tc .vmem S2048x64 .f32) (harg5 : arg5.IsWhole)
    (hcA : scondA i) (hcC : ¬scondC i)
    (xA : Vec F S1x4096 .i32) (xB : Vec F S64x4096 .f32)
    (K : PUnit → sProp 𝕄) :
    iprop(owns (c : Thread nD τ) arg2 fullShare xA ∗ owns (c : Thread nD τ) arg3 fullShare xB
        ∗ (∃ d, owns (c : Thread nD τ) arg5 fullShare d)
        ∗ (iprop(owns (c : Thread nD τ) arg2 fullShare xA ∗ owns (c : Thread nD τ) arg3 fullShare xB
            ∗ owns (c : Thread nD τ) arg5 fullShare (k1_pay2 i xA xB k1_pay1)) -∗ K ⟨⟩))
      ⊢ wp frame (wpE (defs₀ (F := F)) Variants.none c none) E
          (cc1__scatter_kernel i arg2 harg2 arg3 harg3 arg4 harg4 arg5 harg5) K := by
  simp only [cc1__scatter_kernel_eq_skeleton]; unfold cc1__scatter_kernel_skel
  unfold owns
  iintro ⟨⟨%fA, %hfA, HA⟩, ⟨%fB, %hfB, HB⟩, ⟨%ds, %fs, -, HS⟩, Hk⟩
  obtain rfl := harg2.eq_unread hfA; obtain rfl := harg3.eq_unread hfB
  sl_exec (disch := first | exact hcA | exact hcC)
  sl_step
  iapply Hk
  isplitl [HA]
  · iexists _; isplitr; · ipureintro; exact harg2.read_unread _
    iexact HA
  isplitl [HB]
  · iexists _; isplitr; · ipureintro; exact harg3.read_unread _
    iexact HB
  iexists _; isplitr
  swap; · iexact HS
  ipureintro
  sl_unfold_words
  rw [View.read_writes_eq_canon _ _ _ (fun y => ⟨_, List.mem_cons.mpr (Or.inl rfl), View.mem_set_unit_zero szeros Facts₀.inb_S2048x64_S2048x64_0_0 y⟩), View.canon_cons_unit_zero szeros]
  simp only [View.readAt_eq_ld, Memref.IsWhole.read_unread, View.ld_unit_zero (S := S1x4096) szeros,
    View.ld_unit_zero (S := S64x4096) szeros, View.ld_unit_zero (S := S2048x64) szeros,
    View.readCov_unit_zero (S := S2048x64) _ szeros]

-- at the last edge block the finished accumulator is also the output block
set_option maxHeartbeats 1000000 in
theorem skernelC (c : Dev nD) (E : Set ℕ) (i : grid1.Coords)
    (arg2 : Memref sig .tc .vmem S1x4096 .i32) (harg2 : arg2.IsWhole) (arg3 : Memref sig .tc .vmem S64x4096 .f32) (harg3 : arg3.IsWhole)
    (arg4 : Memref sig .tc .vmem S2048x64 .f32) (harg4 : arg4.IsWhole) (arg5 : Memref sig .tc .vmem S2048x64 .f32) (harg5 : arg5.IsWhole)
    (hcA : ¬scondA i) (hcC : scondC i)
    (xA : Vec F S1x4096 .i32) (xB : Vec F S64x4096 .f32) (xs : Vec F S2048x64 .f32)
    (K : PUnit → sProp 𝕄) :
    iprop(owns (c : Thread nD τ) arg2 fullShare xA ∗ owns (c : Thread nD τ) arg3 fullShare xB
        ∗ owns (c : Thread nD τ) arg5 fullShare xs ∗ (∃ d, owns (c : Thread nD τ) arg4 fullShare d)
        ∗ (iprop(owns (c : Thread nD τ) arg2 fullShare xA ∗ owns (c : Thread nD τ) arg3 fullShare xB
            ∗ owns (c : Thread nD τ) arg5 fullShare (k1_pay2 i xA xB xs) ∗ owns (c : Thread nD τ) arg4 fullShare (k1_pay2 i xA xB xs)) -∗ K ⟨⟩))
      ⊢ wp frame (wpE (defs₀ (F := F)) Variants.none c none) E
          (cc1__scatter_kernel i arg2 harg2 arg3 harg3 arg4 harg4 arg5 harg5) K := by
  simp only [cc1__scatter_kernel_eq_skeleton]; unfold cc1__scatter_kernel_skel
  unfold owns
  iintro ⟨⟨%fA, %hfA, HA⟩, ⟨%fB, %hfB, HB⟩, ⟨%fs, %hfs, HS⟩, ⟨%dD, %fD, -, HD⟩, Hk⟩
  obtain rfl := harg2.eq_unread hfA; obtain rfl := harg3.eq_unread hfB
  obtain rfl := harg5.eq_unread hfs
  sl_exec (disch := first | exact hcA | exact hcC)
  sl_step
  iapply Hk
  isplitl [HA]
  · iexists _; isplitr; · ipureintro; exact harg2.read_unread _
    iexact HA
  isplitl [HB]
  · iexists _; isplitr; · ipureintro; exact harg3.read_unread _
    iexact HB
  isplitl [HS]
  · iexists _; isplitr
    swap; · iexact HS
    ipureintro
    sl_unfold_words
    rw [View.read_writes_eq_canon _ _ _ (fun y => ⟨_, List.mem_cons.mpr (Or.inl rfl), View.mem_set_unit_zero szeros Facts₀.inb_S2048x64_S2048x64_0_0 y⟩), View.canon_cons_unit_zero szeros]
    simp only [View.readAt_eq_ld, Memref.IsWhole.read_unread, View.ld_unit_zero (S := S1x4096) szeros,
      View.ld_unit_zero (S := S64x4096) szeros, View.ld_unit_zero (S := S2048x64) szeros,
      View.readCov_unit_zero (S := S2048x64) _ szeros]
  iexists _; isplitr
  swap; · iexact HD
  ipureintro
  sl_unfold_words
  rw [View.read_writes_eq_canon _ _ _ (fun y => ⟨_, List.mem_cons.mpr (Or.inl rfl), View.mem_set_unit_zero szeros Facts₀.inb_S2048x64_S2048x64_0_0 y⟩), View.canon_cons_unit_zero szeros]
  simp only [View.readAt_eq_ld, Memref.IsWhole.read_unread, View.ld_unit_zero (S := S1x4096) szeros,
    View.ld_unit_zero (S := S64x4096) szeros, View.ld_unit_zero (S := S2048x64) szeros,
    View.readCov_unit_zero (S := S2048x64) _ szeros]

end Cert.Kernel.Hand

end
-- ==== Proof.K.Scatter1.lean ====
import proofs.«404774_j249108103934_2_alg».proof.Proof.K.ScatterBody

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev scr1 : Memref sig .tc .vmem S2048x64 .f32 := Memref.whole cc1_scratch0

abbrev srest1 (c : Dev nD) : sProp 𝕄 :=
  Pipeline.scopedRestBut (Ix := Unit) (Name := ℕ) (U := UR sig nD τ) (Lvl := ℕ) (Val := Elt F) spec1 c [cc1_scratch0]

def sstep1 (c : Dev nD) (t : Fin cfg1.N) (xs : Vec F S2048x64 .f32) : Vec F S2048x64 .f32 :=
  k1_pay2 (grid1.coords t) (iblk1 V c 0 t) (iblk1 V c 1 t) xs

-- the accumulator after point n: a fold over the 489 edge blocks of one node block, restarted at each new node block
def sacc1 (c : Dev nD) : (n : ℕ) → n < cfg1.N → Vec F S2048x64 .f32
  | 0, hn => sstep1 V c ⟨0, hn⟩ k1_pay1
  | n + 1, hn => sstep1 V c ⟨n + 1, hn⟩ (if (n + 1) % 489 = 0 then k1_pay1 else sacc1 c n (Nat.lt_of_succ_lt hn))

theorem sacc1_reset (c : Dev nD) (n : ℕ) (hn : n < cfg1.N) (h : n % 489 = 0) :
    sacc1 V c n hn = sstep1 V c ⟨n, hn⟩ k1_pay1 := by
  cases n with
  | zero => rfl
  | succ n => show sstep1 V c _ (if (n + 1) % 489 = 0 then _ else _) = _; rw [if_pos h]

theorem sacc1_step (c : Dev nD) (n : ℕ) (hn : n + 1 < cfg1.N) (h : ¬(n + 1) % 489 = 0) :
    sacc1 V c (n + 1) hn = sstep1 V c ⟨n + 1, hn⟩ (sacc1 V c n (Nat.lt_of_succ_lt hn)) := by
  show sstep1 V c _ (if (n + 1) % 489 = 0 then _ else _) = _; rw [if_neg h]

def sPhi1 (c : Dev nD) : (n : ℕ) → n ≤ cfg1.N → sProp 𝕄
  | 0, _ => Pipeline.ΦA spec1 c
  | n + 1, hn => iprop(owns (c : Thread nD τ) scr1 fullShare (sacc1 V c n hn)
      ∗ srest1 c
      ∗ (∃ r, prngReg c r))

def sdat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => sacc1 V c t.val t.isLt
  Φ t := sPhi1 V c t.val (Nat.le_of_lt_succ t.isLt)
  q _ := fullShare
  owed _ := 0

theorem sA1 (c : Dev nD) (w : Fin cfg1.W) : (sdat1 V c).A w = V c (Pipeline.arrRef spec1 w) := by
  dsimp only [sdat1]

theorem safter1_0 (c : Dev nD) (t : Fin cfg1.N) : (sdat1 V c).after 0 t = iblk1 V c 0 t := by dsimp only [sdat1]

theorem safter1_1 (c : Dev nD) (t : Fin cfg1.N) : (sdat1 V c).after 1 t = iblk1 V c 1 t := by dsimp only [sdat1]

theorem safter1_2 (c : Dev nD) (t : Fin cfg1.N) : (sdat1 V c).after 2 t = sacc1 V c t.val t.isLt := by dsimp only [sdat1]

abbrev sst1_0 (t : Fin cfg1.N) : Memref sig .tc .vmem S1x4096 .i32 := win1_0.stage (cfg1.slots t 0)

abbrev shs1_0 (t : Fin cfg1.N) : (sst1_0 t).IsWhole := Facts₀.hstage1_0 ((cfg1.slots t 0).cast Facts₀.nbuf1_0)

abbrev sst1_1 (t : Fin cfg1.N) : Memref sig .tc .vmem S64x4096 .f32 := win1_1.stage (cfg1.slots t 1)

abbrev shs1_1 (t : Fin cfg1.N) : (sst1_1 t).IsWhole := Facts₀.hstage1_1 ((cfg1.slots t 1).cast Facts₀.nbuf1_1)

abbrev sst1_2 (t : Fin cfg1.N) : Memref sig .tc .vmem S2048x64 .f32 := win1_2.stage (cfg1.slots t 2)

abbrev shs1_2 (t : Fin cfg1.N) : (sst1_2 t).IsWhole := Facts₀.hstage1_2 ((cfg1.slots t 2).cast Facts₀.nbuf1_2)

abbrev sbodyAt1 (t : Fin cfg1.N) : Prog (TpuEff nD τ sig (Elt F) Λ₀ .tc) PUnit :=
  cc1__scatter_kernel (grid1.coords t) (sst1_0 t) (shs1_0 t) (sst1_1 t) (shs1_1 t) (sst1_2 t) (shs1_2 t)
    scr1 (Memref.isWhole_whole _)

theorem sidle1_2 (t : Fin cfg1.N) (h : ¬t.val % 489 = 488) : cfg1.idle 2 (grid1.coords t) = true := by
  show (!(k1_cond2 (grid1.coords t) == 1#1)) = true
  rw [Bool.not_eq_true', beq_eq_false_iff_ne]
  exact fun hc => h ((scondC_iff t).mp hc)

theorem slive1_2 (t : Fin cfg1.N) (h : t.val % 489 = 488) : cfg1.idle 2 (grid1.coords t) = false := by
  show (!(k1_cond2 (grid1.coords t) == 1#1)) = false
  rw [Bool.not_eq_false', beq_iff_eq]
  exact (scondC_iff t).mpr h

theorem snoflush1_2 (t : Fin cfg1.N) (h : ¬t.val % 489 = 488) : (cfg1.win 2).flush t = false := by
  have hlt := t.isLt
  have hN : cfg1.N = 36186 := N_1
  have hNg : cfg1.grid.N = 36186 := N_1
  unfold Pipeline.Window.flush
  rw [Bool.and_eq_false_iff]; right
  rw [Bool.or_eq_false_iff]
  refine ⟨decide_eq_false (by omega), decide_eq_false ?_⟩
  rintro ⟨hnext, hne⟩
  apply hne
  show cc1_transform_2 (grid1.coords ⟨t.val + 1, hnext⟩) = cc1_transform_2 (grid1.coords t)
  apply Facts₀.hreads1_2
  intro a ha
  match a, ha with
  | ⟨0, _⟩, _ =>
    exact Fin.ext ((scoordA ⟨t.val + 1, hnext⟩).trans ((show (t.val + 1) / 489 = t.val / 489 by omega).trans (scoordA t).symm))
  | ⟨1, _⟩, ha => exact absurd (show false = true from ha) Bool.false_ne_true

theorem sPhiA1 (c : Dev nD) :
    (Pipeline.ΦA spec1 c : sProp 𝕄)
      = iprop((∃ d, owns (c : Thread nD τ) scr1 fullShare d)
          ∗ srest1 c
          ∗ (∃ r, prngReg c r)) := by
  unfold Pipeline.ΦA; rw [scopedRest1_split]; simp only [scr1, owns_whole]
  exact BI.equiv_iff.mp ⟨sep_assoc, sep_assoc'⟩

theorem sPhi1_pos (c : Dev nD) (n : ℕ) (h : n ≤ cfg1.N) (hz : n ≠ 0) :
    sPhi1 V c n h = iprop(owns (c : Thread nD τ) scr1 fullShare (sacc1 V c (n - 1) (by omega))
      ∗ srest1 c
      ∗ (∃ r, prngReg c r)) := by
  cases n with
  | zero => exact absurd rfl hz
  | succ n => rfl

theorem sPhi1_castSucc (c : Dev nD) (t : Fin cfg1.N) :
    (sdat1 V c).Φ t.castSucc = sPhi1 V c t.val (Nat.le_of_lt t.isLt) := by
  dsimp only [sdat1]; simp only [Fin.coe_castSucc]

theorem sPhi1_succ (c : Dev nD) (t : Fin cfg1.N) :
    (sdat1 V c).Φ t.succ = iprop(owns (c : Thread nD τ) scr1 fullShare (sacc1 V c t.val t.isLt)
      ∗ srest1 c
      ∗ (∃ r, prngReg c r)) := rfl

theorem sPhi1_some (c : Dev nD) (n : ℕ) (h : n ≤ cfg1.N) :
    sPhi1 V c n h ⊢ iprop((∃ d, owns (c : Thread nD τ) scr1 fullShare d) ∗ srest1 c ∗ (∃ r, prngReg c r)) := by
  cases n with
  | zero => rw [show sPhi1 V c 0 h = Pipeline.ΦA spec1 c from rfl, sPhiA1]
  | succ n =>
    show iprop(owns (c : Thread nD τ) scr1 fullShare (sacc1 V c n h) ∗ srest1 c ∗ (∃ r, prngReg c r)) ⊢ _
    iintro ⟨HS, HR, Hg⟩
    iframe HR Hg
    iexists _; iexact HS

theorem sacc1_pos (c : Dev nD) (t : Fin cfg1.N) (h : ¬t.val % 489 = 0) :
    sacc1 V c t.val t.isLt = sstep1 V c t (sacc1 V c (t.val - 1) (Nat.lt_of_le_of_lt (Nat.sub_le _ _) t.isLt)) := by
  obtain ⟨n, hn⟩ := t
  cases n with
  | zero => exact absurd (Nat.zero_mod _) h
  | succ n => exact sacc1_step V c n hn h

theorem sbefore1_0 (c : Dev nD) (t : Fin cfg1.N) (d) : (sdat1 V c).before 0 t d = iblk1 V c 0 t :=
  ((sdat1 V c).before_in_eq_fetched 0 rfl (fun _ => rfl) (fun _ _ _ => rfl)
    (fun t => by rw [safter1_0]; unfold Dat.blockOf iblk1; rw [sA1]) t d).trans
    (by unfold Dat.fetched Dat.blockOf iblk1; rw [sA1]; rfl)

theorem sbefore1_1 (c : Dev nD) (t : Fin cfg1.N) (d) : (sdat1 V c).before 1 t d = iblk1 V c 1 t :=
  ((sdat1 V c).before_in_eq_fetched 1 rfl (fun _ => rfl) (fun _ _ _ => rfl)
    (fun t => by rw [safter1_1]; unfold Dat.blockOf iblk1; rw [sA1]) t d).trans
    (by unfold Dat.fetched Dat.blockOf iblk1; rw [sA1]; rfl)

def spre1 (c : Dev nD) (t : Fin cfg1.N) : sProp 𝕄 :=
  iprop((sdat1 V c).Φ t.castSucc ∗ (sdat1 V c).owesAt () t.castSucc
    ∗ (∃ d, owns (c : Thread nD τ) (sst1_0 t) fullShare ((sdat1 V c).before 0 t d))
    ∗ (∃ d, owns (c : Thread nD τ) (sst1_1 t) fullShare ((sdat1 V c).before 1 t d))
    ∗ (∃ d, owns (c : Thread nD τ) (sst1_2 t) fullShare ((sdat1 V c).before 2 t d)))

def spost1 (c : Dev nD) (t : Fin cfg1.N) : sProp 𝕄 :=
  iprop((sdat1 V c).Φ t.succ ∗ (sdat1 V c).owesAt () t.succ
    ∗ (sdat1 V c).leavesExact 0 t ∗ (sdat1 V c).leavesExact 1 t ∗ (sdat1 V c).leavesExact 2 t)

theorem ssound1 (c : Dev nD) (t : Fin cfg1.N) :
    spre1 V c t ⊢ wp frame (wpE (defs₀ (F := F)) Variants.none c none) Set.univ (sbodyAt1 t) (fun _ => spost1 V c t) := by
  unfold spre1 spost1 sbodyAt1
  simp only [sbefore1_0, sbefore1_1]
  rw [show (sdat1 V c).owesAt () t.succ = (sdat1 V c).owesAt () t.castSucc from rfl]
  rw [sPhi1_succ, sPhi1_castSucc]
  rw [show (sdat1 V c).leavesExact 0 t = owns (c : Thread nD τ) (sst1_0 t) fullShare ((sdat1 V c).after 0 t) from rfl, safter1_0,
    show (sdat1 V c).leavesExact 1 t = owns (c : Thread nD τ) (sst1_1 t) fullShare ((sdat1 V c).after 1 t) from rfl, safter1_1]
  by_cases hC : t.val % 489 = 488
  · have hA : ¬t.val % 489 = 0 := by omega
    have hz : t.val ≠ 0 := fun e => hA (by rw [e])
    rw [show (sdat1 V c).leavesExact 2 t = owns (c : Thread nD τ) (sst1_2 t) fullShare ((sdat1 V c).after 2 t) from by
      unfold Dat.leavesExact; rw [slive1_2 t hC], safter1_2, sacc1_pos V c t hA, sPhi1_pos V c _ _ hz]
    unfold sstep1
    iintro ⟨⟨HS, HR, Hg⟩, Ho, ⟨%dA, HA⟩, ⟨%dB, HB⟩, ⟨%dD, HD⟩⟩
    iapply (skernelC c Set.univ (grid1.coords t) (sst1_0 t) (shs1_0 t) (sst1_1 t) (shs1_1 t) (sst1_2 t) (shs1_2 t)
        scr1 (Memref.isWhole_whole _) (fun hc => hA ((scondA_iff t).mp hc)) ((scondC_iff t).mpr hC)
        (iblk1 V c 0 t) (iblk1 V c 1 t) (sacc1 V c (t.val - 1) (Nat.lt_of_le_of_lt (Nat.sub_le _ _) t.isLt)) _)
    iframe HA HB HS
    isplitl [HD]; · iexists _; iexact HD
    iintro ⟨HA, HB, HS, HD⟩
    iframe
  · rw [Dat.leavesExact_idle (sdat1 V c) 2 t (sidle1_2 t hC) (snoflush1_2 t hC)]
    by_cases hA : t.val % 489 = 0
    · rw [sacc1_reset V c t.val t.isLt hA]
      unfold sstep1
      refine (sep_mono (sPhi1_some V c _ _) .rfl).trans ?_
      iintro ⟨⟨⟨%ds, HS⟩, HR, Hg⟩, Ho, ⟨%dA, HA⟩, ⟨%dB, HB⟩, HD⟩
      iapply (skernelA c Set.univ (grid1.coords t) (sst1_0 t) (shs1_0 t) (sst1_1 t) (shs1_1 t) (sst1_2 t) (shs1_2 t)
        scr1 (Memref.isWhole_whole _) ((scondA_iff t).mpr hA) (fun hc => hC ((scondC_iff t).mp hc))
        (iblk1 V c 0 t) (iblk1 V c 1 t) _)
      iframe HA HB
      isplitl [HS]; · iexists _; iexact HS
      iintro ⟨HA, HB, HS⟩
      iframe
    · have hz : t.val ≠ 0 := fun e => hA (by rw [e])
      rw [sacc1_pos V c t hA, sPhi1_pos V c _ _ hz]
      unfold sstep1
      iintro ⟨⟨HS, HR, Hg⟩, Ho, ⟨%dA, HA⟩, ⟨%dB, HB⟩, HD⟩
      iapply (skernelB c Set.univ (grid1.coords t) (sst1_0 t) (shs1_0 t) (sst1_1 t) (shs1_1 t) (sst1_2 t) (shs1_2 t)
        scr1 (Memref.isWhole_whole _) (fun hc => hA ((scondA_iff t).mp hc)) (fun hc => hC ((scondC_iff t).mp hc))
        (iblk1 V c 0 t) (iblk1 V c 1 t) (sacc1 V c (t.val - 1) (Nat.lt_of_le_of_lt (Nat.sub_le _ _) t.isLt)) _)
      iframe HA HB HS
      iintro ⟨HA, HB, HS⟩
      iframe

theorem sbody1 (c : Dev nD) : BodyObligation (sdat1 (F := F) V c) (defs₀ (F := F)) Variants.none () Set.univ := fun t => by
  rw [bigSep_W1, bigSep_W1]
  exact ssound1 V c t

theorem shin1 (c : Dev nD) : (Pipeline.ΦA spec1 c : sProp 𝕄) ⊢ (sdat1 V c).Φ 0 := by
  rw [show (sdat1 V c).Φ 0 = sPhi1 V c 0 (Nat.zero_le _) from rfl]
  exact .rfl

theorem shout1 (c : Dev nD) : (sdat1 V c).Φ (Fin.last cfg1.N) ⊢ (Pipeline.ΦA spec1 c : sProp 𝕄) := by
  rw [show (sdat1 V c).Φ (Fin.last cfg1.N) = sPhi1 V c (Fin.last cfg1.N).val (Nat.le_of_lt_succ (Fin.last cfg1.N).isLt) from rfl,
    sPhiA1]
  exact sPhi1_some V c _ _

end Cert.Kernel.Hand

end
-- ==== Proof.K.Gather2.lean ====
import proofs.«404774_j249108103934_2_alg».proof.Proof.K.GatherBody

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scr2 : Memref sig .tc .vmem S64x4096 .f32 := Memref.whole cc2_scratch0

abbrev grest2 (c : Dev nD) : sProp 𝕄 :=
  Pipeline.scopedRestBut (Ix := Unit) (Name := ℕ) (U := UR sig nD τ) (Lvl := ℕ) (Val := Elt F) spec2 c [cc2_scratch0]

def gstep2 (c : Dev nD) (t : Fin cfg2.N) (xs : Vec F S64x4096 .f32) : Vec F S64x4096 .f32 :=
  k0_pay2 (grid2.coords t) (iblk2 V c 0 t) (iblk2 V c 1 t) (iblk2 V c 2 t) xs

-- the accumulator after point n: a fold over the 74 node blocks of one edge block, restarted at each new edge block
def gacc2 (c : Dev nD) : (n : ℕ) → n < cfg2.N → Vec F S64x4096 .f32
  | 0, hn => gstep2 V c ⟨0, hn⟩ k0_pay1
  | n + 1, hn => gstep2 V c ⟨n + 1, hn⟩ (if (n + 1) % 74 = 0 then k0_pay1 else gacc2 c n (Nat.lt_of_succ_lt hn))

theorem gacc2_reset (c : Dev nD) (n : ℕ) (hn : n < cfg2.N) (h : n % 74 = 0) :
    gacc2 V c n hn = gstep2 V c ⟨n, hn⟩ k0_pay1 := by
  cases n with
  | zero => rfl
  | succ n => show gstep2 V c _ (if (n + 1) % 74 = 0 then _ else _) = _; rw [if_pos h]

theorem gacc2_step (c : Dev nD) (n : ℕ) (hn : n + 1 < cfg2.N) (h : ¬(n + 1) % 74 = 0) :
    gacc2 V c (n + 1) hn = gstep2 V c ⟨n + 1, hn⟩ (gacc2 V c n (Nat.lt_of_succ_lt hn)) := by
  show gstep2 V c _ (if (n + 1) % 74 = 0 then _ else _) = _; rw [if_neg h]

def gPhi2 (c : Dev nD) : (n : ℕ) → n ≤ cfg2.N → sProp 𝕄
  | 0, _ => Pipeline.ΦA spec2 c
  | n + 1, hn => iprop(owns (c : Thread nD τ) scr2 fullShare (gacc2 V c n hn)
      ∗ grest2 c
      ∗ (∃ r, prngReg c r))

def gdat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => gacc2 V c t.val t.isLt
  Φ t := gPhi2 V c t.val (Nat.le_of_lt_succ t.isLt)
  q _ := fullShare
  owed _ := 0

theorem gA2 (c : Dev nD) (w : Fin cfg2.W) : (gdat2 V c).A w = V c (Pipeline.arrRef spec2 w) := by
  dsimp only [gdat2]

theorem gafter2_0 (c : Dev nD) (t : Fin cfg2.N) : (gdat2 V c).after 0 t = iblk2 V c 0 t := by dsimp only [gdat2]

theorem gafter2_1 (c : Dev nD) (t : Fin cfg2.N) : (gdat2 V c).after 1 t = iblk2 V c 1 t := by dsimp only [gdat2]

theorem gafter2_2 (c : Dev nD) (t : Fin cfg2.N) : (gdat2 V c).after 2 t = iblk2 V c 2 t := by dsimp only [gdat2]

theorem gafter2_3 (c : Dev nD) (t : Fin cfg2.N) : (gdat2 V c).after 3 t = gacc2 V c t.val t.isLt := by dsimp only [gdat2]

abbrev gst2_0 (t : Fin cfg2.N) : Memref sig .tc .vmem S1x4096 .i32 := win2_0.stage (cfg2.slots t 0)

abbrev ghs2_0 (t : Fin cfg2.N) : (gst2_0 t).IsWhole := hstage2_0 ((cfg2.slots t 0).cast nbuf2_0)

abbrev gst2_1 (t : Fin cfg2.N) : Memref sig .tc .vmem S1x4096 .f32 := win2_1.stage (cfg2.slots t 1)

abbrev ghs2_1 (t : Fin cfg2.N) : (gst2_1 t).IsWhole := hstage2_1 ((cfg2.slots t 1).cast nbuf2_1)

abbrev gst2_2 (t : Fin cfg2.N) : Memref sig .tc .vmem S2048x64 .f32 := win2_2.stage (cfg2.slots t 2)

abbrev ghs2_2 (t : Fin cfg2.N) : (gst2_2 t).IsWhole := hstage2_2 ((cfg2.slots t 2).cast nbuf2_2)

abbrev gst2_3 (t : Fin cfg2.N) : Memref sig .tc .vmem S64x4096 .f32 := win2_3.stage (cfg2.slots t 3)

abbrev ghs2_3 (t : Fin cfg2.N) : (gst2_3 t).IsWhole := hstage2_3 ((cfg2.slots t 3).cast nbuf2_3)

abbrev gbodyAt2 (t : Fin cfg2.N) : Prog (TpuEff nD τ sig (Elt F) Λ₀ .tc) PUnit :=
  cc0__gather_kernel (grid2.coords t) (gst2_0 t) (ghs2_0 t) (gst2_1 t) (ghs2_1 t) (gst2_2 t) (ghs2_2 t) (gst2_3 t) (ghs2_3 t)
    scr2 (Memref.isWhole_whole _)

theorem gidle2_3 (t : Fin cfg2.N) (h : ¬t.val % 74 = 73) : cfg2.idle 3 (grid2.coords t) = true := by
  show (!(k0_cond2 (grid2.coords t) == 1#1)) = true
  rw [Bool.not_eq_true', beq_eq_false_iff_ne]
  exact fun hc => h ((gcondC_iff t).mp hc)

theorem glive2_3 (t : Fin cfg2.N) (h : t.val % 74 = 73) : cfg2.idle 3 (grid2.coords t) = false := by
  show (!(k0_cond2 (grid2.coords t) == 1#1)) = false
  rw [Bool.not_eq_false', beq_iff_eq]
  exact (gcondC_iff t).mpr h

theorem gnoflush2_3 (t : Fin cfg2.N) (h : ¬t.val % 74 = 73) : (cfg2.win 3).flush t = false := by
  have hlt := t.isLt
  have hN : cfg2.N = 36186 := N_2
  have hNg : cfg2.grid.N = 36186 := N_2
  unfold Pipeline.Window.flush
  rw [Bool.and_eq_false_iff]; right
  rw [Bool.or_eq_false_iff]
  refine ⟨decide_eq_false (by omega), decide_eq_false ?_⟩
  rintro ⟨hnext, hne⟩
  apply hne
  show cc2_transform_3 (grid2.coords ⟨t.val + 1, hnext⟩) = cc2_transform_3 (grid2.coords t)
  apply Facts₀.hreads2_3
  intro a ha
  match a, ha with
  | ⟨0, _⟩, _ =>
    exact Fin.ext ((gcoordA ⟨t.val + 1, hnext⟩).trans ((show (t.val + 1) / 74 = t.val / 74 by omega).trans (gcoordA t).symm))
  | ⟨1, _⟩, ha => exact absurd (show false = true from ha) Bool.false_ne_true

theorem gPhiA2 (c : Dev nD) :
    (Pipeline.ΦA spec2 c : sProp 𝕄)
      = iprop((∃ d, owns (c : Thread nD τ) scr2 fullShare d)
          ∗ grest2 c
          ∗ (∃ r, prngReg c r)) := by
  unfold Pipeline.ΦA; rw [scopedRest2_split]; simp only [scr2, owns_whole]
  exact BI.equiv_iff.mp ⟨sep_assoc, sep_assoc'⟩

theorem gPhi2_pos (c : Dev nD) (n : ℕ) (h : n ≤ cfg2.N) (hz : n ≠ 0) :
    gPhi2 V c n h = iprop(owns (c : Thread nD τ) scr2 fullShare (gacc2 V c (n - 1) (by omega))
      ∗ grest2 c
      ∗ (∃ r, prngReg c r)) := by
  cases n with
  | zero => exact absurd rfl hz
  | succ n => rfl

theorem gPhi2_castSucc (c : Dev nD) (t : Fin cfg2.N) :
    (gdat2 V c).Φ t.castSucc = gPhi2 V c t.val (Nat.le_of_lt t.isLt) := by
  dsimp only [gdat2]; simp only [Fin.coe_castSucc]

theorem gPhi2_succ (c : Dev nD) (t : Fin cfg2.N) :
    (gdat2 V c).Φ t.succ = iprop(owns (c : Thread nD τ) scr2 fullShare (gacc2 V c t.val t.isLt)
      ∗ grest2 c
      ∗ (∃ r, prngReg c r)) := rfl

theorem gbefore2_0 (c : Dev nD) (t : Fin cfg2.N) (d) : (gdat2 V c).before 0 t d = iblk2 V c 0 t :=
  ((gdat2 V c).before_in_eq_fetched 0 rfl (fun _ => rfl) (fun _ _ _ => rfl)
    (fun t => by rw [gafter2_0]; unfold Dat.blockOf iblk2; rw [gA2]) t d).trans
    (by unfold Dat.fetched Dat.blockOf iblk2; rw [gA2]; rfl)

theorem gbefore2_1 (c : Dev nD) (t : Fin cfg2.N) (d) : (gdat2 V c).before 1 t d = iblk2 V c 1 t :=
  ((gdat2 V c).before_in_eq_fetched 1 rfl (fun _ => rfl) (fun _ _ _ => rfl)
    (fun t => by rw [gafter2_1]; unfold Dat.blockOf iblk2; rw [gA2]) t d).trans
    (by unfold Dat.fetched Dat.blockOf iblk2; rw [gA2]; rfl)

theorem gbefore2_2 (c : Dev nD) (t : Fin cfg2.N) (d) : (gdat2 V c).before 2 t d = iblk2 V c 2 t :=
  ((gdat2 V c).before_in_eq_fetched 2 rfl (fun _ => rfl) (fun _ _ _ => rfl)
    (fun t => by rw [gafter2_2]; unfold Dat.blockOf iblk2; rw [gA2]) t d).trans
    (by unfold Dat.fetched Dat.blockOf iblk2; rw [gA2]; rfl)

theorem gPhi2_some (c : Dev nD) (n : ℕ) (h : n ≤ cfg2.N) :
    gPhi2 V c n h ⊢ iprop((∃ d, owns (c : Thread nD τ) scr2 fullShare d) ∗ grest2 c ∗ (∃ r, prngReg c r)) := by
  cases n with
  | zero => rw [show gPhi2 V c 0 h = Pipeline.ΦA spec2 c from rfl, gPhiA2]
  | succ n =>
    show iprop(owns (c : Thread nD τ) scr2 fullShare (gacc2 V c n h) ∗ grest2 c ∗ (∃ r, prngReg c r)) ⊢ _
    iintro ⟨HS, HR, Hg⟩
    iframe HR Hg
    iexists _; iexact HS

theorem gacc2_pos (c : Dev nD) (t : Fin cfg2.N) (h : ¬t.val % 74 = 0) :
    gacc2 V c t.val t.isLt = gstep2 V c t (gacc2 V c (t.val - 1) (Nat.lt_of_le_of_lt (Nat.sub_le _ _) t.isLt)) := by
  obtain ⟨n, hn⟩ := t
  cases n with
  | zero => exact absurd (Nat.zero_mod _) h
  | succ n => exact gacc2_step V c n hn h

def gpre2 (c : Dev nD) (t : Fin cfg2.N) : sProp 𝕄 :=
  iprop((gdat2 V c).Φ t.castSucc ∗ (gdat2 V c).owesAt () t.castSucc
    ∗ (∃ d, owns (c : Thread nD τ) (gst2_0 t) fullShare ((gdat2 V c).before 0 t d))
    ∗ (∃ d, owns (c : Thread nD τ) (gst2_1 t) fullShare ((gdat2 V c).before 1 t d))
    ∗ (∃ d, owns (c : Thread nD τ) (gst2_2 t) fullShare ((gdat2 V c).before 2 t d))
    ∗ (∃ d, owns (c : Thread nD τ) (gst2_3 t) fullShare ((gdat2 V c).before 3 t d)))

def gpost2 (c : Dev nD) (t : Fin cfg2.N) : sProp 𝕄 :=
  iprop((gdat2 V c).Φ t.succ ∗ (gdat2 V c).owesAt () t.succ
    ∗ (gdat2 V c).leavesExact 0 t ∗ (gdat2 V c).leavesExact 1 t ∗ (gdat2 V c).leavesExact 2 t ∗ (gdat2 V c).leavesExact 3 t)

theorem gsound2 (c : Dev nD) (t : Fin cfg2.N) :
    gpre2 V c t ⊢ wp frame (wpE (defs₀ (F := F)) Variants.none c none) Set.univ (gbodyAt2 t) (fun _ => gpost2 V c t) := by
  unfold gpre2 gpost2 gbodyAt2
  simp only [gbefore2_0, gbefore2_1, gbefore2_2]
  rw [show (gdat2 V c).owesAt () t.succ = (gdat2 V c).owesAt () t.castSucc from rfl]
  rw [gPhi2_succ, gPhi2_castSucc]
  rw [show (gdat2 V c).leavesExact 0 t = owns (c : Thread nD τ) (gst2_0 t) fullShare ((gdat2 V c).after 0 t) from rfl, gafter2_0,
    show (gdat2 V c).leavesExact 1 t = owns (c : Thread nD τ) (gst2_1 t) fullShare ((gdat2 V c).after 1 t) from rfl, gafter2_1,
    show (gdat2 V c).leavesExact 2 t = owns (c : Thread nD τ) (gst2_2 t) fullShare ((gdat2 V c).after 2 t) from rfl, gafter2_2]
  by_cases hC : t.val % 74 = 73
  · have hA : ¬t.val % 74 = 0 := by omega
    have hz : t.val ≠ 0 := fun e => hA (by rw [e])
    rw [show (gdat2 V c).leavesExact 3 t = owns (c : Thread nD τ) (gst2_3 t) fullShare ((gdat2 V c).after 3 t) from by
      unfold Dat.leavesExact; rw [glive2_3 t hC], gafter2_3, gacc2_pos V c t hA, gPhi2_pos V c _ _ hz]
    unfold gstep2
    iintro ⟨⟨HS, HR, Hg⟩, Ho, ⟨%dA, HA⟩, ⟨%dB, HB⟩, ⟨%dC, HC⟩, ⟨%dD, HD⟩⟩
    iapply (gkernelC c Set.univ (grid2.coords t) (gst2_0 t) (ghs2_0 t) (gst2_1 t) (ghs2_1 t) (gst2_2 t) (ghs2_2 t) (gst2_3 t) (ghs2_3 t)
        scr2 (Memref.isWhole_whole _) (fun hc => hA ((gcondA_iff t).mp hc)) ((gcondC_iff t).mpr hC)
        (iblk2 V c 0 t) (iblk2 V c 1 t) (iblk2 V c 2 t) (gacc2 V c (t.val - 1) (Nat.lt_of_le_of_lt (Nat.sub_le _ _) t.isLt)) _)
    iframe HA HB HC HS
    isplitl [HD]; · iexists _; iexact HD
    iintro ⟨HA, HB, HC, HS, HD⟩
    iframe
  · rw [Dat.leavesExact_idle (gdat2 V c) 3 t (gidle2_3 t hC) (gnoflush2_3 t hC)]
    by_cases hA : t.val % 74 = 0
    · rw [gacc2_reset V c t.val t.isLt hA]
      unfold gstep2
      refine (sep_mono (gPhi2_some V c _ _) .rfl).trans ?_
      iintro ⟨⟨⟨%ds, HS⟩, HR, Hg⟩, Ho, ⟨%dA, HA⟩, ⟨%dB, HB⟩, ⟨%dC, HC⟩, HD⟩
      iapply (gkernelA c Set.univ (grid2.coords t) (gst2_0 t) (ghs2_0 t) (gst2_1 t) (ghs2_1 t) (gst2_2 t) (ghs2_2 t) (gst2_3 t) (ghs2_3 t)
        scr2 (Memref.isWhole_whole _) ((gcondA_iff t).mpr hA) (fun hc => hC ((gcondC_iff t).mp hc))
        (iblk2 V c 0 t) (iblk2 V c 1 t) (iblk2 V c 2 t) _)
      iframe HA HB HC
      isplitl [HS]; · iexists _; iexact HS
      iintro ⟨HA, HB, HC, HS⟩
      iframe
    · have hz : t.val ≠ 0 := fun e => hA (by rw [e])
      rw [gacc2_pos V c t hA, gPhi2_pos V c _ _ hz]
      unfold gstep2
      iintro ⟨⟨HS, HR, Hg⟩, Ho, ⟨%dA, HA⟩, ⟨%dB, HB⟩, ⟨%dC, HC⟩, HD⟩
      iapply (gkernelB c Set.univ (grid2.coords t) (gst2_0 t) (ghs2_0 t) (gst2_1 t) (ghs2_1 t) (gst2_2 t) (ghs2_2 t) (gst2_3 t) (ghs2_3 t)
        scr2 (Memref.isWhole_whole _) (fun hc => hA ((gcondA_iff t).mp hc)) (fun hc => hC ((gcondC_iff t).mp hc))
        (iblk2 V c 0 t) (iblk2 V c 1 t) (iblk2 V c 2 t) (gacc2 V c (t.val - 1) (Nat.lt_of_le_of_lt (Nat.sub_le _ _) t.isLt)) _)
      iframe HA HB HC HS
      iintro ⟨HA, HB, HC, HS⟩
      iframe

theorem gbody2 (c : Dev nD) : BodyObligation (gdat2 (F := F) V c) (defs₀ (F := F)) Variants.none () Set.univ := fun t => by
  rw [bigSep_W2, bigSep_W2]
  exact gsound2 V c t

theorem ghin2 (c : Dev nD) : (Pipeline.ΦA spec2 c : sProp 𝕄) ⊢ (gdat2 V c).Φ 0 := by
  rw [show (gdat2 V c).Φ 0 = gPhi2 V c 0 (Nat.zero_le _) from rfl]
  exact .rfl

theorem ghout2 (c : Dev nD) : (gdat2 V c).Φ (Fin.last cfg2.N) ⊢ (Pipeline.ΦA spec2 c : sProp 𝕄) := by
  rw [show (gdat2 V c).Φ (Fin.last cfg2.N) = gPhi2 V c (Fin.last cfg2.N).val (Nat.le_of_lt_succ (Fin.last cfg2.N).isLt) from rfl,
    gPhiA2]
  exact gPhi2_some V c _ _

end Cert.Kernel.Hand

end
-- ==== Proof.K.Scatter3.lean ====
import proofs.«404774_j249108103934_2_alg».proof.Proof.K.ScatterBody

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev scr3 : Memref sig .tc .vmem S2048x64 .f32 := Memref.whole cc3_scratch0

abbrev srest3 (c : Dev nD) : sProp 𝕄 :=
  Pipeline.scopedRestBut (Ix := Unit) (Name := ℕ) (U := UR sig nD τ) (Lvl := ℕ) (Val := Elt F) spec3 c [cc3_scratch0]

def sstep3 (c : Dev nD) (t : Fin cfg3.N) (xs : Vec F S2048x64 .f32) : Vec F S2048x64 .f32 :=
  k1_pay2 (grid3.coords t) (iblk3 V c 0 t) (iblk3 V c 1 t) xs

-- the accumulator after point n: a fold over the 489 edge blocks of one node block, restarted at each new node block
def sacc3 (c : Dev nD) : (n : ℕ) → n < cfg3.N → Vec F S2048x64 .f32
  | 0, hn => sstep3 V c ⟨0, hn⟩ k1_pay1
  | n + 1, hn => sstep3 V c ⟨n + 1, hn⟩ (if (n + 1) % 489 = 0 then k1_pay1 else sacc3 c n (Nat.lt_of_succ_lt hn))

theorem sacc3_reset (c : Dev nD) (n : ℕ) (hn : n < cfg3.N) (h : n % 489 = 0) :
    sacc3 V c n hn = sstep3 V c ⟨n, hn⟩ k1_pay1 := by
  cases n with
  | zero => rfl
  | succ n => show sstep3 V c _ (if (n + 1) % 489 = 0 then _ else _) = _; rw [if_pos h]

theorem sacc3_step (c : Dev nD) (n : ℕ) (hn : n + 1 < cfg3.N) (h : ¬(n + 1) % 489 = 0) :
    sacc3 V c (n + 1) hn = sstep3 V c ⟨n + 1, hn⟩ (sacc3 V c n (Nat.lt_of_succ_lt hn)) := by
  show sstep3 V c _ (if (n + 1) % 489 = 0 then _ else _) = _; rw [if_neg h]

def sPhi3 (c : Dev nD) : (n : ℕ) → n ≤ cfg3.N → sProp 𝕄
  | 0, _ => Pipeline.ΦA spec3 c
  | n + 1, hn => iprop(owns (c : Thread nD τ) scr3 fullShare (sacc3 V c n hn)
      ∗ srest3 c
      ∗ (∃ r, prngReg c r))

def sdat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => sacc3 V c t.val t.isLt
  Φ t := sPhi3 V c t.val (Nat.le_of_lt_succ t.isLt)
  q _ := fullShare
  owed _ := 0

theorem sA3 (c : Dev nD) (w : Fin cfg3.W) : (sdat3 V c).A w = V c (Pipeline.arrRef spec3 w) := by
  dsimp only [sdat3]

theorem safter3_0 (c : Dev nD) (t : Fin cfg3.N) : (sdat3 V c).after 0 t = iblk3 V c 0 t := by dsimp only [sdat3]

theorem safter3_1 (c : Dev nD) (t : Fin cfg3.N) : (sdat3 V c).after 1 t = iblk3 V c 1 t := by dsimp only [sdat3]

theorem safter3_2 (c : Dev nD) (t : Fin cfg3.N) : (sdat3 V c).after 2 t = sacc3 V c t.val t.isLt := by dsimp only [sdat3]

abbrev sst3_0 (t : Fin cfg3.N) : Memref sig .tc .vmem S1x4096 .i32 := win3_0.stage (cfg3.slots t 0)

abbrev shs3_0 (t : Fin cfg3.N) : (sst3_0 t).IsWhole := Facts₀.hstage3_0 ((cfg3.slots t 0).cast Facts₀.nbuf3_0)

abbrev sst3_1 (t : Fin cfg3.N) : Memref sig .tc .vmem S64x4096 .f32 := win3_1.stage (cfg3.slots t 1)

abbrev shs3_1 (t : Fin cfg3.N) : (sst3_1 t).IsWhole := Facts₀.hstage3_1 ((cfg3.slots t 1).cast Facts₀.nbuf3_1)

abbrev sst3_2 (t : Fin cfg3.N) : Memref sig .tc .vmem S2048x64 .f32 := win3_2.stage (cfg3.slots t 2)

abbrev shs3_2 (t : Fin cfg3.N) : (sst3_2 t).IsWhole := Facts₀.hstage3_2 ((cfg3.slots t 2).cast Facts₀.nbuf3_2)

abbrev sbodyAt3 (t : Fin cfg3.N) : Prog (TpuEff nD τ sig (Elt F) Λ₀ .tc) PUnit :=
  cc1__scatter_kernel (grid3.coords t) (sst3_0 t) (shs3_0 t) (sst3_1 t) (shs3_1 t) (sst3_2 t) (shs3_2 t)
    scr3 (Memref.isWhole_whole _)

theorem sidle3_2 (t : Fin cfg3.N) (h : ¬t.val % 489 = 488) : cfg3.idle 2 (grid3.coords t) = true := by
  show (!(k1_cond2 (grid3.coords t) == 1#1)) = true
  rw [Bool.not_eq_true', beq_eq_false_iff_ne]
  exact fun hc => h ((scondC_iff t).mp hc)

theorem slive3_2 (t : Fin cfg3.N) (h : t.val % 489 = 488) : cfg3.idle 2 (grid3.coords t) = false := by
  show (!(k1_cond2 (grid3.coords t) == 1#1)) = false
  rw [Bool.not_eq_false', beq_iff_eq]
  exact (scondC_iff t).mpr h

theorem snoflush3_2 (t : Fin cfg3.N) (h : ¬t.val % 489 = 488) : (cfg3.win 2).flush t = false := by
  have hlt := t.isLt
  have hN : cfg3.N = 36186 := N_3
  have hNg : cfg3.grid.N = 36186 := N_3
  unfold Pipeline.Window.flush
  rw [Bool.and_eq_false_iff]; right
  rw [Bool.or_eq_false_iff]
  refine ⟨decide_eq_false (by omega), decide_eq_false ?_⟩
  rintro ⟨hnext, hne⟩
  apply hne
  show cc3_transform_2 (grid3.coords ⟨t.val + 1, hnext⟩) = cc3_transform_2 (grid3.coords t)
  apply Facts₀.hreads3_2
  intro a ha
  match a, ha with
  | ⟨0, _⟩, _ =>
    exact Fin.ext ((scoordA ⟨t.val + 1, hnext⟩).trans ((show (t.val + 1) / 489 = t.val / 489 by omega).trans (scoordA t).symm))
  | ⟨1, _⟩, ha => exact absurd (show false = true from ha) Bool.false_ne_true

theorem sPhiA3 (c : Dev nD) :
    (Pipeline.ΦA spec3 c : sProp 𝕄)
      = iprop((∃ d, owns (c : Thread nD τ) scr3 fullShare d)
          ∗ srest3 c
          ∗ (∃ r, prngReg c r)) := by
  unfold Pipeline.ΦA; rw [scopedRest3_split]; simp only [scr3, owns_whole]
  exact BI.equiv_iff.mp ⟨sep_assoc, sep_assoc'⟩

theorem sPhi3_pos (c : Dev nD) (n : ℕ) (h : n ≤ cfg3.N) (hz : n ≠ 0) :
    sPhi3 V c n h = iprop(owns (c : Thread nD τ) scr3 fullShare (sacc3 V c (n - 1) (by omega))
      ∗ srest3 c
      ∗ (∃ r, prngReg c r)) := by
  cases n with
  | zero => exact absurd rfl hz
  | succ n => rfl

theorem sPhi3_castSucc (c : Dev nD) (t : Fin cfg3.N) :
    (sdat3 V c).Φ t.castSucc = sPhi3 V c t.val (Nat.le_of_lt t.isLt) := by
  dsimp only [sdat3]; simp only [Fin.coe_castSucc]

theorem sPhi3_succ (c : Dev nD) (t : Fin cfg3.N) :
    (sdat3 V c).Φ t.succ = iprop(owns (c : Thread nD τ) scr3 fullShare (sacc3 V c t.val t.isLt)
      ∗ srest3 c
      ∗ (∃ r, prngReg c r)) := rfl

theorem sPhi3_some (c : Dev nD) (n : ℕ) (h : n ≤ cfg3.N) :
    sPhi3 V c n h ⊢ iprop((∃ d, owns (c : Thread nD τ) scr3 fullShare d) ∗ srest3 c ∗ (∃ r, prngReg c r)) := by
  cases n with
  | zero => rw [show sPhi3 V c 0 h = Pipeline.ΦA spec3 c from rfl, sPhiA3]
  | succ n =>
    show iprop(owns (c : Thread nD τ) scr3 fullShare (sacc3 V c n h) ∗ srest3 c ∗ (∃ r, prngReg c r)) ⊢ _
    iintro ⟨HS, HR, Hg⟩
    iframe HR Hg
    iexists _; iexact HS

theorem sacc3_pos (c : Dev nD) (t : Fin cfg3.N) (h : ¬t.val % 489 = 0) :
    sacc3 V c t.val t.isLt = sstep3 V c t (sacc3 V c (t.val - 1) (Nat.lt_of_le_of_lt (Nat.sub_le _ _) t.isLt)) := by
  obtain ⟨n, hn⟩ := t
  cases n with
  | zero => exact absurd (Nat.zero_mod _) h
  | succ n => exact sacc3_step V c n hn h

theorem sbefore3_0 (c : Dev nD) (t : Fin cfg3.N) (d) : (sdat3 V c).before 0 t d = iblk3 V c 0 t :=
  ((sdat3 V c).before_in_eq_fetched 0 rfl (fun _ => rfl) (fun _ _ _ => rfl)
    (fun t => by rw [safter3_0]; unfold Dat.blockOf iblk3; rw [sA3]) t d).trans
    (by unfold Dat.fetched Dat.blockOf iblk3; rw [sA3]; rfl)

theorem sbefore3_1 (c : Dev nD) (t : Fin cfg3.N) (d) : (sdat3 V c).before 1 t d = iblk3 V c 1 t :=
  ((sdat3 V c).before_in_eq_fetched 1 rfl (fun _ => rfl) (fun _ _ _ => rfl)
    (fun t => by rw [safter3_1]; unfold Dat.blockOf iblk3; rw [sA3]) t d).trans
    (by unfold Dat.fetched Dat.blockOf iblk3; rw [sA3]; rfl)

def spre3 (c : Dev nD) (t : Fin cfg3.N) : sProp 𝕄 :=
  iprop((sdat3 V c).Φ t.castSucc ∗ (sdat3 V c).owesAt () t.castSucc
    ∗ (∃ d, owns (c : Thread nD τ) (sst3_0 t) fullShare ((sdat3 V c).before 0 t d))
    ∗ (∃ d, owns (c : Thread nD τ) (sst3_1 t) fullShare ((sdat3 V c).before 1 t d))
    ∗ (∃ d, owns (c : Thread nD τ) (sst3_2 t) fullShare ((sdat3 V c).before 2 t d)))

def spost3 (c : Dev nD) (t : Fin cfg3.N) : sProp 𝕄 :=
  iprop((sdat3 V c).Φ t.succ ∗ (sdat3 V c).owesAt () t.succ
    ∗ (sdat3 V c).leavesExact 0 t ∗ (sdat3 V c).leavesExact 1 t ∗ (sdat3 V c).leavesExact 2 t)

theorem ssound3 (c : Dev nD) (t : Fin cfg3.N) :
    spre3 V c t ⊢ wp frame (wpE (defs₀ (F := F)) Variants.none c none) Set.univ (sbodyAt3 t) (fun _ => spost3 V c t) := by
  unfold spre3 spost3 sbodyAt3
  simp only [sbefore3_0, sbefore3_1]
  rw [show (sdat3 V c).owesAt () t.succ = (sdat3 V c).owesAt () t.castSucc from rfl]
  rw [sPhi3_succ, sPhi3_castSucc]
  rw [show (sdat3 V c).leavesExact 0 t = owns (c : Thread nD τ) (sst3_0 t) fullShare ((sdat3 V c).after 0 t) from rfl, safter3_0,
    show (sdat3 V c).leavesExact 1 t = owns (c : Thread nD τ) (sst3_1 t) fullShare ((sdat3 V c).after 1 t) from rfl, safter3_1]
  by_cases hC : t.val % 489 = 488
  · have hA : ¬t.val % 489 = 0 := by omega
    have hz : t.val ≠ 0 := fun e => hA (by rw [e])
    rw [show (sdat3 V c).leavesExact 2 t = owns (c : Thread nD τ) (sst3_2 t) fullShare ((sdat3 V c).after 2 t) from by
      unfold Dat.leavesExact; rw [slive3_2 t hC], safter3_2, sacc3_pos V c t hA, sPhi3_pos V c _ _ hz]
    unfold sstep3
    iintro ⟨⟨HS, HR, Hg⟩, Ho, ⟨%dA, HA⟩, ⟨%dB, HB⟩, ⟨%dD, HD⟩⟩
    iapply (skernelC c Set.univ (grid3.coords t) (sst3_0 t) (shs3_0 t) (sst3_1 t) (shs3_1 t) (sst3_2 t) (shs3_2 t)
        scr3 (Memref.isWhole_whole _) (fun hc => hA ((scondA_iff t).mp hc)) ((scondC_iff t).mpr hC)
        (iblk3 V c 0 t) (iblk3 V c 1 t) (sacc3 V c (t.val - 1) (Nat.lt_of_le_of_lt (Nat.sub_le _ _) t.isLt)) _)
    iframe HA HB HS
    isplitl [HD]; · iexists _; iexact HD
    iintro ⟨HA, HB, HS, HD⟩
    iframe
  · rw [Dat.leavesExact_idle (sdat3 V c) 2 t (sidle3_2 t hC) (snoflush3_2 t hC)]
    by_cases hA : t.val % 489 = 0
    · rw [sacc3_reset V c t.val t.isLt hA]
      unfold sstep3
      refine (sep_mono (sPhi3_some V c _ _) .rfl).trans ?_
      iintro ⟨⟨⟨%ds, HS⟩, HR, Hg⟩, Ho, ⟨%dA, HA⟩, ⟨%dB, HB⟩, HD⟩
      iapply (skernelA c Set.univ (grid3.coords t) (sst3_0 t) (shs3_0 t) (sst3_1 t) (shs3_1 t) (sst3_2 t) (shs3_2 t)
        scr3 (Memref.isWhole_whole _) ((scondA_iff t).mpr hA) (fun hc => hC ((scondC_iff t).mp hc))
        (iblk3 V c 0 t) (iblk3 V c 1 t) _)
      iframe HA HB
      isplitl [HS]; · iexists _; iexact HS
      iintro ⟨HA, HB, HS⟩
      iframe
    · have hz : t.val ≠ 0 := fun e => hA (by rw [e])
      rw [sacc3_pos V c t hA, sPhi3_pos V c _ _ hz]
      unfold sstep3
      iintro ⟨⟨HS, HR, Hg⟩, Ho, ⟨%dA, HA⟩, ⟨%dB, HB⟩, HD⟩
      iapply (skernelB c Set.univ (grid3.coords t) (sst3_0 t) (shs3_0 t) (sst3_1 t) (shs3_1 t) (sst3_2 t) (shs3_2 t)
        scr3 (Memref.isWhole_whole _) (fun hc => hA ((scondA_iff t).mp hc)) (fun hc => hC ((scondC_iff t).mp hc))
        (iblk3 V c 0 t) (iblk3 V c 1 t) (sacc3 V c (t.val - 1) (Nat.lt_of_le_of_lt (Nat.sub_le _ _) t.isLt)) _)
      iframe HA HB HS
      iintro ⟨HA, HB, HS⟩
      iframe

theorem sbody3 (c : Dev nD) : BodyObligation (sdat3 (F := F) V c) (defs₀ (F := F)) Variants.none () Set.univ := fun t => by
  rw [bigSep_W3, bigSep_W3]
  exact ssound3 V c t

theorem shin3 (c : Dev nD) : (Pipeline.ΦA spec3 c : sProp 𝕄) ⊢ (sdat3 V c).Φ 0 := by
  rw [show (sdat3 V c).Φ 0 = sPhi3 V c 0 (Nat.zero_le _) from rfl]
  exact .rfl

theorem shout3 (c : Dev nD) : (sdat3 V c).Φ (Fin.last cfg3.N) ⊢ (Pipeline.ΦA spec3 c : sProp 𝕄) := by
  rw [show (sdat3 V c).Φ (Fin.last cfg3.N) = sPhi3 V c (Fin.last cfg3.N).val (Nat.le_of_lt_succ (Fin.last cfg3.N).isLt) from rfl,
    sPhiA3]
  exact sPhi3_some V c _ _

end Cert.Kernel.Hand

end
-- ==== Proof.K.Gather4.lean ====
import proofs.«404774_j249108103934_2_alg».proof.Proof.K.GatherBody

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev scr4 : Memref sig .tc .vmem S64x4096 .f32 := Memref.whole cc4_scratch0

abbrev grest4 (c : Dev nD) : sProp 𝕄 :=
  Pipeline.scopedRestBut (Ix := Unit) (Name := ℕ) (U := UR sig nD τ) (Lvl := ℕ) (Val := Elt F) spec4 c [cc4_scratch0]

def gstep4 (c : Dev nD) (t : Fin cfg4.N) (xs : Vec F S64x4096 .f32) : Vec F S64x4096 .f32 :=
  k0_pay2 (grid4.coords t) (iblk4 V c 0 t) (iblk4 V c 1 t) (iblk4 V c 2 t) xs

-- the accumulator after point n: a fold over the 74 node blocks of one edge block, restarted at each new edge block
def gacc4 (c : Dev nD) : (n : ℕ) → n < cfg4.N → Vec F S64x4096 .f32
  | 0, hn => gstep4 V c ⟨0, hn⟩ k0_pay1
  | n + 1, hn => gstep4 V c ⟨n + 1, hn⟩ (if (n + 1) % 74 = 0 then k0_pay1 else gacc4 c n (Nat.lt_of_succ_lt hn))

theorem gacc4_reset (c : Dev nD) (n : ℕ) (hn : n < cfg4.N) (h : n % 74 = 0) :
    gacc4 V c n hn = gstep4 V c ⟨n, hn⟩ k0_pay1 := by
  cases n with
  | zero => rfl
  | succ n => show gstep4 V c _ (if (n + 1) % 74 = 0 then _ else _) = _; rw [if_pos h]

theorem gacc4_step (c : Dev nD) (n : ℕ) (hn : n + 1 < cfg4.N) (h : ¬(n + 1) % 74 = 0) :
    gacc4 V c (n + 1) hn = gstep4 V c ⟨n + 1, hn⟩ (gacc4 V c n (Nat.lt_of_succ_lt hn)) := by
  show gstep4 V c _ (if (n + 1) % 74 = 0 then _ else _) = _; rw [if_neg h]

def gPhi4 (c : Dev nD) : (n : ℕ) → n ≤ cfg4.N → sProp 𝕄
  | 0, _ => Pipeline.ΦA spec4 c
  | n + 1, hn => iprop(owns (c : Thread nD τ) scr4 fullShare (gacc4 V c n hn)
      ∗ grest4 c
      ∗ (∃ r, prngReg c r))

def gdat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => gacc4 V c t.val t.isLt
  Φ t := gPhi4 V c t.val (Nat.le_of_lt_succ t.isLt)
  q _ := fullShare
  owed _ := 0

theorem gA4 (c : Dev nD) (w : Fin cfg4.W) : (gdat4 V c).A w = V c (Pipeline.arrRef spec4 w) := by
  dsimp only [gdat4]

theorem gafter4_0 (c : Dev nD) (t : Fin cfg4.N) : (gdat4 V c).after 0 t = iblk4 V c 0 t := by dsimp only [gdat4]

theorem gafter4_1 (c : Dev nD) (t : Fin cfg4.N) : (gdat4 V c).after 1 t = iblk4 V c 1 t := by dsimp only [gdat4]

theorem gafter4_2 (c : Dev nD) (t : Fin cfg4.N) : (gdat4 V c).after 2 t = iblk4 V c 2 t := by dsimp only [gdat4]

theorem gafter4_3 (c : Dev nD) (t : Fin cfg4.N) : (gdat4 V c).after 3 t = gacc4 V c t.val t.isLt := by dsimp only [gdat4]

abbrev gst4_0 (t : Fin cfg4.N) : Memref sig .tc .vmem S1x4096 .i32 := win4_0.stage (cfg4.slots t 0)

abbrev ghs4_0 (t : Fin cfg4.N) : (gst4_0 t).IsWhole := hstage4_0 ((cfg4.slots t 0).cast nbuf4_0)

abbrev gst4_1 (t : Fin cfg4.N) : Memref sig .tc .vmem S1x4096 .f32 := win4_1.stage (cfg4.slots t 1)

abbrev ghs4_1 (t : Fin cfg4.N) : (gst4_1 t).IsWhole := hstage4_1 ((cfg4.slots t 1).cast nbuf4_1)

abbrev gst4_2 (t : Fin cfg4.N) : Memref sig .tc .vmem S2048x64 .f32 := win4_2.stage (cfg4.slots t 2)

abbrev ghs4_2 (t : Fin cfg4.N) : (gst4_2 t).IsWhole := hstage4_2 ((cfg4.slots t 2).cast nbuf4_2)

abbrev gst4_3 (t : Fin cfg4.N) : Memref sig .tc .vmem S64x4096 .f32 := win4_3.stage (cfg4.slots t 3)

abbrev ghs4_3 (t : Fin cfg4.N) : (gst4_3 t).IsWhole := hstage4_3 ((cfg4.slots t 3).cast nbuf4_3)

abbrev gbodyAt4 (t : Fin cfg4.N) : Prog (TpuEff nD τ sig (Elt F) Λ₀ .tc) PUnit :=
  cc0__gather_kernel (grid4.coords t) (gst4_0 t) (ghs4_0 t) (gst4_1 t) (ghs4_1 t) (gst4_2 t) (ghs4_2 t) (gst4_3 t) (ghs4_3 t)
    scr4 (Memref.isWhole_whole _)

theorem gidle4_3 (t : Fin cfg4.N) (h : ¬t.val % 74 = 73) : cfg4.idle 3 (grid4.coords t) = true := by
  show (!(k0_cond2 (grid4.coords t) == 1#1)) = true
  rw [Bool.not_eq_true', beq_eq_false_iff_ne]
  exact fun hc => h ((gcondC_iff t).mp hc)

theorem glive4_3 (t : Fin cfg4.N) (h : t.val % 74 = 73) : cfg4.idle 3 (grid4.coords t) = false := by
  show (!(k0_cond2 (grid4.coords t) == 1#1)) = false
  rw [Bool.not_eq_false', beq_iff_eq]
  exact (gcondC_iff t).mpr h

theorem gnoflush4_3 (t : Fin cfg4.N) (h : ¬t.val % 74 = 73) : (cfg4.win 3).flush t = false := by
  have hlt := t.isLt
  have hN : cfg4.N = 36186 := N_4
  have hNg : cfg4.grid.N = 36186 := N_4
  unfold Pipeline.Window.flush
  rw [Bool.and_eq_false_iff]; right
  rw [Bool.or_eq_false_iff]
  refine ⟨decide_eq_false (by omega), decide_eq_false ?_⟩
  rintro ⟨hnext, hne⟩
  apply hne
  show cc4_transform_3 (grid4.coords ⟨t.val + 1, hnext⟩) = cc4_transform_3 (grid4.coords t)
  apply Facts₀.hreads4_3
  intro a ha
  match a, ha with
  | ⟨0, _⟩, _ =>
    exact Fin.ext ((gcoordA ⟨t.val + 1, hnext⟩).trans ((show (t.val + 1) / 74 = t.val / 74 by omega).trans (gcoordA t).symm))
  | ⟨1, _⟩, ha => exact absurd (show false = true from ha) Bool.false_ne_true

theorem gPhiA4 (c : Dev nD) :
    (Pipeline.ΦA spec4 c : sProp 𝕄)
      = iprop((∃ d, owns (c : Thread nD τ) scr4 fullShare d)
          ∗ grest4 c
          ∗ (∃ r, prngReg c r)) := by
  unfold Pipeline.ΦA; rw [scopedRest4_split]; simp only [scr4, owns_whole]
  exact BI.equiv_iff.mp ⟨sep_assoc, sep_assoc'⟩

theorem gPhi4_pos (c : Dev nD) (n : ℕ) (h : n ≤ cfg4.N) (hz : n ≠ 0) :
    gPhi4 V c n h = iprop(owns (c : Thread nD τ) scr4 fullShare (gacc4 V c (n - 1) (by omega))
      ∗ grest4 c
      ∗ (∃ r, prngReg c r)) := by
  cases n with
  | zero => exact absurd rfl hz
  | succ n => rfl

theorem gPhi4_castSucc (c : Dev nD) (t : Fin cfg4.N) :
    (gdat4 V c).Φ t.castSucc = gPhi4 V c t.val (Nat.le_of_lt t.isLt) := by
  dsimp only [gdat4]; simp only [Fin.coe_castSucc]

theorem gPhi4_succ (c : Dev nD) (t : Fin cfg4.N) :
    (gdat4 V c).Φ t.succ = iprop(owns (c : Thread nD τ) scr4 fullShare (gacc4 V c t.val t.isLt)
      ∗ grest4 c
      ∗ (∃ r, prngReg c r)) := rfl

theorem gbefore4_0 (c : Dev nD) (t : Fin cfg4.N) (d) : (gdat4 V c).before 0 t d = iblk4 V c 0 t :=
  ((gdat4 V c).before_in_eq_fetched 0 rfl (fun _ => rfl) (fun _ _ _ => rfl)
    (fun t => by rw [gafter4_0]; unfold Dat.blockOf iblk4; rw [gA4]) t d).trans
    (by unfold Dat.fetched Dat.blockOf iblk4; rw [gA4]; rfl)

theorem gbefore4_1 (c : Dev nD) (t : Fin cfg4.N) (d) : (gdat4 V c).before 1 t d = iblk4 V c 1 t :=
  ((gdat4 V c).before_in_eq_fetched 1 rfl (fun _ => rfl) (fun _ _ _ => rfl)
    (fun t => by rw [gafter4_1]; unfold Dat.blockOf iblk4; rw [gA4]) t d).trans
    (by unfold Dat.fetched Dat.blockOf iblk4; rw [gA4]; rfl)

theorem gbefore4_2 (c : Dev nD) (t : Fin cfg4.N) (d) : (gdat4 V c).before 2 t d = iblk4 V c 2 t :=
  ((gdat4 V c).before_in_eq_fetched 2 rfl (fun _ => rfl) (fun _ _ _ => rfl)
    (fun t => by rw [gafter4_2]; unfold Dat.blockOf iblk4; rw [gA4]) t d).trans
    (by unfold Dat.fetched Dat.blockOf iblk4; rw [gA4]; rfl)

theorem gPhi4_some (c : Dev nD) (n : ℕ) (h : n ≤ cfg4.N) :
    gPhi4 V c n h ⊢ iprop((∃ d, owns (c : Thread nD τ) scr4 fullShare d) ∗ grest4 c ∗ (∃ r, prngReg c r)) := by
  cases n with
  | zero => rw [show gPhi4 V c 0 h = Pipeline.ΦA spec4 c from rfl, gPhiA4]
  | succ n =>
    show iprop(owns (c : Thread nD τ) scr4 fullShare (gacc4 V c n h) ∗ grest4 c ∗ (∃ r, prngReg c r)) ⊢ _
    iintro ⟨HS, HR, Hg⟩
    iframe HR Hg
    iexists _; iexact HS

theorem gacc4_pos (c : Dev nD) (t : Fin cfg4.N) (h : ¬t.val % 74 = 0) :
    gacc4 V c t.val t.isLt = gstep4 V c t (gacc4 V c (t.val - 1) (Nat.lt_of_le_of_lt (Nat.sub_le _ _) t.isLt)) := by
  obtain ⟨n, hn⟩ := t
  cases n with
  | zero => exact absurd (Nat.zero_mod _) h
  | succ n => exact gacc4_step V c n hn h

def gpre4 (c : Dev nD) (t : Fin cfg4.N) : sProp 𝕄 :=
  iprop((gdat4 V c).Φ t.castSucc ∗ (gdat4 V c).owesAt () t.castSucc
    ∗ (∃ d, owns (c : Thread nD τ) (gst4_0 t) fullShare ((gdat4 V c).before 0 t d))
    ∗ (∃ d, owns (c : Thread nD τ) (gst4_1 t) fullShare ((gdat4 V c).before 1 t d))
    ∗ (∃ d, owns (c : Thread nD τ) (gst4_2 t) fullShare ((gdat4 V c).before 2 t d))
    ∗ (∃ d, owns (c : Thread nD τ) (gst4_3 t) fullShare ((gdat4 V c).before 3 t d)))

def gpost4 (c : Dev nD) (t : Fin cfg4.N) : sProp 𝕄 :=
  iprop((gdat4 V c).Φ t.succ ∗ (gdat4 V c).owesAt () t.succ
    ∗ (gdat4 V c).leavesExact 0 t ∗ (gdat4 V c).leavesExact 1 t ∗ (gdat4 V c).leavesExact 2 t ∗ (gdat4 V c).leavesExact 3 t)

theorem gsound4 (c : Dev nD) (t : Fin cfg4.N) :
    gpre4 V c t ⊢ wp frame (wpE (defs₀ (F := F)) Variants.none c none) Set.univ (gbodyAt4 t) (fun _ => gpost4 V c t) := by
  unfold gpre4 gpost4 gbodyAt4
  simp only [gbefore4_0, gbefore4_1, gbefore4_2]
  rw [show (gdat4 V c).owesAt () t.succ = (gdat4 V c).owesAt () t.castSucc from rfl]
  rw [gPhi4_succ, gPhi4_castSucc]
  rw [show (gdat4 V c).leavesExact 0 t = owns (c : Thread nD τ) (gst4_0 t) fullShare ((gdat4 V c).after 0 t) from rfl, gafter4_0,
    show (gdat4 V c).leavesExact 1 t = owns (c : Thread nD τ) (gst4_1 t) fullShare ((gdat4 V c).after 1 t) from rfl, gafter4_1,
    show (gdat4 V c).leavesExact 2 t = owns (c : Thread nD τ) (gst4_2 t) fullShare ((gdat4 V c).after 2 t) from rfl, gafter4_2]
  by_cases hC : t.val % 74 = 73
  · have hA : ¬t.val % 74 = 0 := by omega
    have hz : t.val ≠ 0 := fun e => hA (by rw [e])
    rw [show (gdat4 V c).leavesExact 3 t = owns (c : Thread nD τ) (gst4_3 t) fullShare ((gdat4 V c).after 3 t) from by
      unfold Dat.leavesExact; rw [glive4_3 t hC], gafter4_3, gacc4_pos V c t hA, gPhi4_pos V c _ _ hz]
    unfold gstep4
    iintro ⟨⟨HS, HR, Hg⟩, Ho, ⟨%dA, HA⟩, ⟨%dB, HB⟩, ⟨%dC, HC⟩, ⟨%dD, HD⟩⟩
    iapply (gkernelC c Set.univ (grid4.coords t) (gst4_0 t) (ghs4_0 t) (gst4_1 t) (ghs4_1 t) (gst4_2 t) (ghs4_2 t) (gst4_3 t) (ghs4_3 t)
        scr4 (Memref.isWhole_whole _) (fun hc => hA ((gcondA_iff t).mp hc)) ((gcondC_iff t).mpr hC)
        (iblk4 V c 0 t) (iblk4 V c 1 t) (iblk4 V c 2 t) (gacc4 V c (t.val - 1) (Nat.lt_of_le_of_lt (Nat.sub_le _ _) t.isLt)) _)
    iframe HA HB HC HS
    isplitl [HD]; · iexists _; iexact HD
    iintro ⟨HA, HB, HC, HS, HD⟩
    iframe
  · rw [Dat.leavesExact_idle (gdat4 V c) 3 t (gidle4_3 t hC) (gnoflush4_3 t hC)]
    by_cases hA : t.val % 74 = 0
    · rw [gacc4_reset V c t.val t.isLt hA]
      unfold gstep4
      refine (sep_mono (gPhi4_some V c _ _) .rfl).trans ?_
      iintro ⟨⟨⟨%ds, HS⟩, HR, Hg⟩, Ho, ⟨%dA, HA⟩, ⟨%dB, HB⟩, ⟨%dC, HC⟩, HD⟩
      iapply (gkernelA c Set.univ (grid4.coords t) (gst4_0 t) (ghs4_0 t) (gst4_1 t) (ghs4_1 t) (gst4_2 t) (ghs4_2 t) (gst4_3 t) (ghs4_3 t)
        scr4 (Memref.isWhole_whole _) ((gcondA_iff t).mpr hA) (fun hc => hC ((gcondC_iff t).mp hc))
        (iblk4 V c 0 t) (iblk4 V c 1 t) (iblk4 V c 2 t) _)
      iframe HA HB HC
      isplitl [HS]; · iexists _; iexact HS
      iintro ⟨HA, HB, HC, HS⟩
      iframe
    · have hz : t.val ≠ 0 := fun e => hA (by rw [e])
      rw [gacc4_pos V c t hA, gPhi4_pos V c _ _ hz]
      unfold gstep4
      iintro ⟨⟨HS, HR, Hg⟩, Ho, ⟨%dA, HA⟩, ⟨%dB, HB⟩, ⟨%dC, HC⟩, HD⟩
      iapply (gkernelB c Set.univ (grid4.coords t) (gst4_0 t) (ghs4_0 t) (gst4_1 t) (ghs4_1 t) (gst4_2 t) (ghs4_2 t) (gst4_3 t) (ghs4_3 t)
        scr4 (Memref.isWhole_whole _) (fun hc => hA ((gcondA_iff t).mp hc)) (fun hc => hC ((gcondC_iff t).mp hc))
        (iblk4 V c 0 t) (iblk4 V c 1 t) (iblk4 V c 2 t) (gacc4 V c (t.val - 1) (Nat.lt_of_le_of_lt (Nat.sub_le _ _) t.isLt)) _)
      iframe HA HB HC HS
      iintro ⟨HA, HB, HC, HS⟩
      iframe

theorem gbody4 (c : Dev nD) : BodyObligation (gdat4 (F := F) V c) (defs₀ (F := F)) Variants.none () Set.univ := fun t => by
  rw [bigSep_W4, bigSep_W4]
  exact gsound4 V c t

theorem ghin4 (c : Dev nD) : (Pipeline.ΦA spec4 c : sProp 𝕄) ⊢ (gdat4 V c).Φ 0 := by
  rw [show (gdat4 V c).Φ 0 = gPhi4 V c 0 (Nat.zero_le _) from rfl]
  exact .rfl

theorem ghout4 (c : Dev nD) : (gdat4 V c).Φ (Fin.last cfg4.N) ⊢ (Pipeline.ΦA spec4 c : sProp 𝕄) := by
  rw [show (gdat4 V c).Φ (Fin.last cfg4.N) = gPhi4 V c (Fin.last cfg4.N).val (Nat.le_of_lt_succ (Fin.last cfg4.N).isLt) from rfl,
    gPhiA4]
  exact gPhi4_some V c _ _

end Cert.Kernel.Hand

end
-- ==== Proof.K.Scatter5.lean ====
import proofs.«404774_j249108103934_2_alg».proof.Proof.K.ScatterBody

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev scr5 : Memref sig .tc .vmem S2048x64 .f32 := Memref.whole cc5_scratch0

abbrev srest5 (c : Dev nD) : sProp 𝕄 :=
  Pipeline.scopedRestBut (Ix := Unit) (Name := ℕ) (U := UR sig nD τ) (Lvl := ℕ) (Val := Elt F) spec5 c [cc5_scratch0]

def sstep5 (c : Dev nD) (t : Fin cfg5.N) (xs : Vec F S2048x64 .f32) : Vec F S2048x64 .f32 :=
  k1_pay2 (grid5.coords t) (iblk5 V c 0 t) (iblk5 V c 1 t) xs

-- the accumulator after point n: a fold over the 489 edge blocks of one node block, restarted at each new node block
def sacc5 (c : Dev nD) : (n : ℕ) → n < cfg5.N → Vec F S2048x64 .f32
  | 0, hn => sstep5 V c ⟨0, hn⟩ k1_pay1
  | n + 1, hn => sstep5 V c ⟨n + 1, hn⟩ (if (n + 1) % 489 = 0 then k1_pay1 else sacc5 c n (Nat.lt_of_succ_lt hn))

theorem sacc5_reset (c : Dev nD) (n : ℕ) (hn : n < cfg5.N) (h : n % 489 = 0) :
    sacc5 V c n hn = sstep5 V c ⟨n, hn⟩ k1_pay1 := by
  cases n with
  | zero => rfl
  | succ n => show sstep5 V c _ (if (n + 1) % 489 = 0 then _ else _) = _; rw [if_pos h]

theorem sacc5_step (c : Dev nD) (n : ℕ) (hn : n + 1 < cfg5.N) (h : ¬(n + 1) % 489 = 0) :
    sacc5 V c (n + 1) hn = sstep5 V c ⟨n + 1, hn⟩ (sacc5 V c n (Nat.lt_of_succ_lt hn)) := by
  show sstep5 V c _ (if (n + 1) % 489 = 0 then _ else _) = _; rw [if_neg h]

def sPhi5 (c : Dev nD) : (n : ℕ) → n ≤ cfg5.N → sProp 𝕄
  | 0, _ => Pipeline.ΦA spec5 c
  | n + 1, hn => iprop(owns (c : Thread nD τ) scr5 fullShare (sacc5 V c n hn)
      ∗ srest5 c
      ∗ (∃ r, prngReg c r))

def sdat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => sacc5 V c t.val t.isLt
  Φ t := sPhi5 V c t.val (Nat.le_of_lt_succ t.isLt)
  q _ := fullShare
  owed _ := 0

theorem sA5 (c : Dev nD) (w : Fin cfg5.W) : (sdat5 V c).A w = V c (Pipeline.arrRef spec5 w) := by
  dsimp only [sdat5]

theorem safter5_0 (c : Dev nD) (t : Fin cfg5.N) : (sdat5 V c).after 0 t = iblk5 V c 0 t := by dsimp only [sdat5]

theorem safter5_1 (c : Dev nD) (t : Fin cfg5.N) : (sdat5 V c).after 1 t = iblk5 V c 1 t := by dsimp only [sdat5]

theorem safter5_2 (c : Dev nD) (t : Fin cfg5.N) : (sdat5 V c).after 2 t = sacc5 V c t.val t.isLt := by dsimp only [sdat5]

abbrev sst5_0 (t : Fin cfg5.N) : Memref sig .tc .vmem S1x4096 .i32 := win5_0.stage (cfg5.slots t 0)

abbrev shs5_0 (t : Fin cfg5.N) : (sst5_0 t).IsWhole := Facts₀.hstage5_0 ((cfg5.slots t 0).cast Facts₀.nbuf5_0)

abbrev sst5_1 (t : Fin cfg5.N) : Memref sig .tc .vmem S64x4096 .f32 := win5_1.stage (cfg5.slots t 1)

abbrev shs5_1 (t : Fin cfg5.N) : (sst5_1 t).IsWhole := Facts₀.hstage5_1 ((cfg5.slots t 1).cast Facts₀.nbuf5_1)

abbrev sst5_2 (t : Fin cfg5.N) : Memref sig .tc .vmem S2048x64 .f32 := win5_2.stage (cfg5.slots t 2)

abbrev shs5_2 (t : Fin cfg5.N) : (sst5_2 t).IsWhole := Facts₀.hstage5_2 ((cfg5.slots t 2).cast Facts₀.nbuf5_2)

abbrev sbodyAt5 (t : Fin cfg5.N) : Prog (TpuEff nD τ sig (Elt F) Λ₀ .tc) PUnit :=
  cc1__scatter_kernel (grid5.coords t) (sst5_0 t) (shs5_0 t) (sst5_1 t) (shs5_1 t) (sst5_2 t) (shs5_2 t)
    scr5 (Memref.isWhole_whole _)

theorem sidle5_2 (t : Fin cfg5.N) (h : ¬t.val % 489 = 488) : cfg5.idle 2 (grid5.coords t) = true := by
  show (!(k1_cond2 (grid5.coords t) == 1#1)) = true
  rw [Bool.not_eq_true', beq_eq_false_iff_ne]
  exact fun hc => h ((scondC_iff t).mp hc)

theorem slive5_2 (t : Fin cfg5.N) (h : t.val % 489 = 488) : cfg5.idle 2 (grid5.coords t) = false := by
  show (!(k1_cond2 (grid5.coords t) == 1#1)) = false
  rw [Bool.not_eq_false', beq_iff_eq]
  exact (scondC_iff t).mpr h

theorem snoflush5_2 (t : Fin cfg5.N) (h : ¬t.val % 489 = 488) : (cfg5.win 2).flush t = false := by
  have hlt := t.isLt
  have hN : cfg5.N = 36186 := N_5
  have hNg : cfg5.grid.N = 36186 := N_5
  unfold Pipeline.Window.flush
  rw [Bool.and_eq_false_iff]; right
  rw [Bool.or_eq_false_iff]
  refine ⟨decide_eq_false (by omega), decide_eq_false ?_⟩
  rintro ⟨hnext, hne⟩
  apply hne
  show cc5_transform_2 (grid5.coords ⟨t.val + 1, hnext⟩) = cc5_transform_2 (grid5.coords t)
  apply Facts₀.hreads5_2
  intro a ha
  match a, ha with
  | ⟨0, _⟩, _ =>
    exact Fin.ext ((scoordA ⟨t.val + 1, hnext⟩).trans ((show (t.val + 1) / 489 = t.val / 489 by omega).trans (scoordA t).symm))
  | ⟨1, _⟩, ha => exact absurd (show false = true from ha) Bool.false_ne_true

theorem sPhiA5 (c : Dev nD) :
    (Pipeline.ΦA spec5 c : sProp 𝕄)
      = iprop((∃ d, owns (c : Thread nD τ) scr5 fullShare d)
          ∗ srest5 c
          ∗ (∃ r, prngReg c r)) := by
  unfold Pipeline.ΦA; rw [scopedRest5_split]; simp only [scr5, owns_whole]
  exact BI.equiv_iff.mp ⟨sep_assoc, sep_assoc'⟩

theorem sPhi5_pos (c : Dev nD) (n : ℕ) (h : n ≤ cfg5.N) (hz : n ≠ 0) :
    sPhi5 V c n h = iprop(owns (c : Thread nD τ) scr5 fullShare (sacc5 V c (n - 1) (by omega))
      ∗ srest5 c
      ∗ (∃ r, prngReg c r)) := by
  cases n with
  | zero => exact absurd rfl hz
  | succ n => rfl

theorem sPhi5_castSucc (c : Dev nD) (t : Fin cfg5.N) :
    (sdat5 V c).Φ t.castSucc = sPhi5 V c t.val (Nat.le_of_lt t.isLt) := by
  dsimp only [sdat5]; simp only [Fin.coe_castSucc]

theorem sPhi5_succ (c : Dev nD) (t : Fin cfg5.N) :
    (sdat5 V c).Φ t.succ = iprop(owns (c : Thread nD τ) scr5 fullShare (sacc5 V c t.val t.isLt)
      ∗ srest5 c
      ∗ (∃ r, prngReg c r)) := rfl

theorem sPhi5_some (c : Dev nD) (n : ℕ) (h : n ≤ cfg5.N) :
    sPhi5 V c n h ⊢ iprop((∃ d, owns (c : Thread nD τ) scr5 fullShare d) ∗ srest5 c ∗ (∃ r, prngReg c r)) := by
  cases n with
  | zero => rw [show sPhi5 V c 0 h = Pipeline.ΦA spec5 c from rfl, sPhiA5]
  | succ n =>
    show iprop(owns (c : Thread nD τ) scr5 fullShare (sacc5 V c n h) ∗ srest5 c ∗ (∃ r, prngReg c r)) ⊢ _
    iintro ⟨HS, HR, Hg⟩
    iframe HR Hg
    iexists _; iexact HS

theorem sacc5_pos (c : Dev nD) (t : Fin cfg5.N) (h : ¬t.val % 489 = 0) :
    sacc5 V c t.val t.isLt = sstep5 V c t (sacc5 V c (t.val - 1) (Nat.lt_of_le_of_lt (Nat.sub_le _ _) t.isLt)) := by
  obtain ⟨n, hn⟩ := t
  cases n with
  | zero => exact absurd (Nat.zero_mod _) h
  | succ n => exact sacc5_step V c n hn h

theorem sbefore5_0 (c : Dev nD) (t : Fin cfg5.N) (d) : (sdat5 V c).before 0 t d = iblk5 V c 0 t :=
  ((sdat5 V c).before_in_eq_fetched 0 rfl (fun _ => rfl) (fun _ _ _ => rfl)
    (fun t => by rw [safter5_0]; unfold Dat.blockOf iblk5; rw [sA5]) t d).trans
    (by unfold Dat.fetched Dat.blockOf iblk5; rw [sA5]; rfl)

theorem sbefore5_1 (c : Dev nD) (t : Fin cfg5.N) (d) : (sdat5 V c).before 1 t d = iblk5 V c 1 t :=
  ((sdat5 V c).before_in_eq_fetched 1 rfl (fun _ => rfl) (fun _ _ _ => rfl)
    (fun t => by rw [safter5_1]; unfold Dat.blockOf iblk5; rw [sA5]) t d).trans
    (by unfold Dat.fetched Dat.blockOf iblk5; rw [sA5]; rfl)

def spre5 (c : Dev nD) (t : Fin cfg5.N) : sProp 𝕄 :=
  iprop((sdat5 V c).Φ t.castSucc ∗ (sdat5 V c).owesAt () t.castSucc
    ∗ (∃ d, owns (c : Thread nD τ) (sst5_0 t) fullShare ((sdat5 V c).before 0 t d))
    ∗ (∃ d, owns (c : Thread nD τ) (sst5_1 t) fullShare ((sdat5 V c).before 1 t d))
    ∗ (∃ d, owns (c : Thread nD τ) (sst5_2 t) fullShare ((sdat5 V c).before 2 t d)))

def spost5 (c : Dev nD) (t : Fin cfg5.N) : sProp 𝕄 :=
  iprop((sdat5 V c).Φ t.succ ∗ (sdat5 V c).owesAt () t.succ
    ∗ (sdat5 V c).leavesExact 0 t ∗ (sdat5 V c).leavesExact 1 t ∗ (sdat5 V c).leavesExact 2 t)

theorem ssound5 (c : Dev nD) (t : Fin cfg5.N) :
    spre5 V c t ⊢ wp frame (wpE (defs₀ (F := F)) Variants.none c none) Set.univ (sbodyAt5 t) (fun _ => spost5 V c t) := by
  unfold spre5 spost5 sbodyAt5
  simp only [sbefore5_0, sbefore5_1]
  rw [show (sdat5 V c).owesAt () t.succ = (sdat5 V c).owesAt () t.castSucc from rfl]
  rw [sPhi5_succ, sPhi5_castSucc]
  rw [show (sdat5 V c).leavesExact 0 t = owns (c : Thread nD τ) (sst5_0 t) fullShare ((sdat5 V c).after 0 t) from rfl, safter5_0,
    show (sdat5 V c).leavesExact 1 t = owns (c : Thread nD τ) (sst5_1 t) fullShare ((sdat5 V c).after 1 t) from rfl, safter5_1]
  by_cases hC : t.val % 489 = 488
  · have hA : ¬t.val % 489 = 0 := by omega
    have hz : t.val ≠ 0 := fun e => hA (by rw [e])
    rw [show (sdat5 V c).leavesExact 2 t = owns (c : Thread nD τ) (sst5_2 t) fullShare ((sdat5 V c).after 2 t) from by
      unfold Dat.leavesExact; rw [slive5_2 t hC], safter5_2, sacc5_pos V c t hA, sPhi5_pos V c _ _ hz]
    unfold sstep5
    iintro ⟨⟨HS, HR, Hg⟩, Ho, ⟨%dA, HA⟩, ⟨%dB, HB⟩, ⟨%dD, HD⟩⟩
    iapply (skernelC c Set.univ (grid5.coords t) (sst5_0 t) (shs5_0 t) (sst5_1 t) (shs5_1 t) (sst5_2 t) (shs5_2 t)
        scr5 (Memref.isWhole_whole _) (fun hc => hA ((scondA_iff t).mp hc)) ((scondC_iff t).mpr hC)
        (iblk5 V c 0 t) (iblk5 V c 1 t) (sacc5 V c (t.val - 1) (Nat.lt_of_le_of_lt (Nat.sub_le _ _) t.isLt)) _)
    iframe HA HB HS
    isplitl [HD]; · iexists _; iexact HD
    iintro ⟨HA, HB, HS, HD⟩
    iframe
  · rw [Dat.leavesExact_idle (sdat5 V c) 2 t (sidle5_2 t hC) (snoflush5_2 t hC)]
    by_cases hA : t.val % 489 = 0
    · rw [sacc5_reset V c t.val t.isLt hA]
      unfold sstep5
      refine (sep_mono (sPhi5_some V c _ _) .rfl).trans ?_
      iintro ⟨⟨⟨%ds, HS⟩, HR, Hg⟩, Ho, ⟨%dA, HA⟩, ⟨%dB, HB⟩, HD⟩
      iapply (skernelA c Set.univ (grid5.coords t) (sst5_0 t) (shs5_0 t) (sst5_1 t) (shs5_1 t) (sst5_2 t) (shs5_2 t)
        scr5 (Memref.isWhole_whole _) ((scondA_iff t).mpr hA) (fun hc => hC ((scondC_iff t).mp hc))
        (iblk5 V c 0 t) (iblk5 V c 1 t) _)
      iframe HA HB
      isplitl [HS]; · iexists _; iexact HS
      iintro ⟨HA, HB, HS⟩
      iframe
    · have hz : t.val ≠ 0 := fun e => hA (by rw [e])
      rw [sacc5_pos V c t hA, sPhi5_pos V c _ _ hz]
      unfold sstep5
      iintro ⟨⟨HS, HR, Hg⟩, Ho, ⟨%dA, HA⟩, ⟨%dB, HB⟩, HD⟩
      iapply (skernelB c Set.univ (grid5.coords t) (sst5_0 t) (shs5_0 t) (sst5_1 t) (shs5_1 t) (sst5_2 t) (shs5_2 t)
        scr5 (Memref.isWhole_whole _) (fun hc => hA ((scondA_iff t).mp hc)) (fun hc => hC ((scondC_iff t).mp hc))
        (iblk5 V c 0 t) (iblk5 V c 1 t) (sacc5 V c (t.val - 1) (Nat.lt_of_le_of_lt (Nat.sub_le _ _) t.isLt)) _)
      iframe HA HB HS
      iintro ⟨HA, HB, HS⟩
      iframe

theorem sbody5 (c : Dev nD) : BodyObligation (sdat5 (F := F) V c) (defs₀ (F := F)) Variants.none () Set.univ := fun t => by
  rw [bigSep_W5, bigSep_W5]
  exact ssound5 V c t

theorem shin5 (c : Dev nD) : (Pipeline.ΦA spec5 c : sProp 𝕄) ⊢ (sdat5 V c).Φ 0 := by
  rw [show (sdat5 V c).Φ 0 = sPhi5 V c 0 (Nat.zero_le _) from rfl]
  exact .rfl

theorem shout5 (c : Dev nD) : (sdat5 V c).Φ (Fin.last cfg5.N) ⊢ (Pipeline.ΦA spec5 c : sProp 𝕄) := by
  rw [show (sdat5 V c).Φ (Fin.last cfg5.N) = sPhi5 V c (Fin.last cfg5.N).val (Nat.le_of_lt_succ (Fin.last cfg5.N).isLt) from rfl,
    sPhiA5]
  exact sPhi5_some V c _ _

end Cert.Kernel.Hand

end
-- ==== Proof.K.Run.lean ====
import proofs.«404774_j249108103934_2_alg».proof.Proof.K.Gather0
import proofs.«404774_j249108103934_2_alg».proof.Proof.K.Scatter1
import proofs.«404774_j249108103934_2_alg».proof.Proof.K.Gather2
import proofs.«404774_j249108103934_2_alg».proof.Proof.K.Scatter3
import proofs.«404774_j249108103934_2_alg».proof.Proof.K.Gather4
import proofs.«404774_j249108103934_2_alg».proof.Proof.K.Scatter5
import proofs.«404774_j249108103934_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (gdat0 (V1 m) c).arrAt w cfg0.N
theorem W2_arr (c : Dev nD) (w : Fin cfg0.W) :
    W2 m c (Proc.devRef .tc (Pipeline.arrRef spec0 w)) = (gdat0 (V1 m) c).arrAt w cfg0.N :=
  Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) :=
  Pipeline.withArrays_of_ne spec0 c _ _ b hb
abbrev V2 : (c : Dev nD) → (b : Ref sig .tc) → Buf (Elt F) ((c : Thread nD τ).loc b) := fun c b => W2 m c b
def W3 (c : Dev nD) : Valuation τ sig (Elt F) :=
  Pipeline.withArrays spec1 c (W2 m c) fun w => (sdat1 (V2 m) c).arrAt w cfg1.N
theorem W3_arr (c : Dev nD) (w : Fin cfg1.W) :
    W3 m c (Proc.devRef .tc (Pipeline.arrRef spec1 w)) = (sdat1 (V2 m) c).arrAt w cfg1.N :=
  Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) :=
  Pipeline.withArrays_of_ne spec1 c _ _ b hb
abbrev V3 : (c : Dev nD) → (b : Ref sig .tc) → Buf (Elt F) ((c : Thread nD τ).loc b) := fun c b => W3 m c b
abbrev W4 : Dev nD → Valuation τ sig (Elt F) := fun c => StableHlo.after hostOps2 (W3 m c)
abbrev V4 : (c : Dev nD) → (b : Ref sig .tc) → Buf (Elt F) ((c : Thread nD τ).loc b) := fun c b => W4 m c b
def W5 (c : Dev nD) : Valuation τ sig (Elt F) :=
  Pipeline.withArrays spec2 c (W4 m c) fun w => (gdat2 (V4 m) c).arrAt w cfg2.N
theorem W5_arr (c : Dev nD) (w : Fin cfg2.W) :
    W5 m c (Proc.devRef .tc (Pipeline.arrRef spec2 w)) = (gdat2 (V4 m) c).arrAt w cfg2.N :=
  Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) :=
  Pipeline.withArrays_of_ne spec2 c _ _ b hb
abbrev V5 : (c : Dev nD) → (b : Ref sig .tc) → Buf (Elt F) ((c : Thread nD τ).loc b) := fun c b => W5 m c b
def W6 (c : Dev nD) : Valuation τ sig (Elt F) :=
  Pipeline.withArrays spec3 c (W5 m c) fun w => (sdat3 (V5 m) c).arrAt w cfg3.N
theorem W6_arr (c : Dev nD) (w : Fin cfg3.W) :
    W6 m c (Proc.devRef .tc (Pipeline.arrRef spec3 w)) = (sdat3 (V5 m) c).arrAt w cfg3.N :=
  Pipeline.withArrays_arr spec3 launch3.win.arr_inj c _ _ w
theorem W6_of_ne (c : Dev nD) (b : Ref sig .tc) (hb : ∀ w, Pipeline.arrRef spec3 w ≠ b) :
    W6 m c (Proc.devRef .tc b) = W5 m c (Proc.devRef .tc b) :=
  Pipeline.withArrays_of_ne spec3 c _ _ b hb
abbrev V6 : (c : Dev nD) → (b : Ref sig .tc) → Buf (Elt F) ((c : Thread nD τ).loc b) := fun c b => W6 m c b
abbrev W7 : Dev nD → Valuation τ sig (Elt F) := fun c => StableHlo.after hostOps4 (W6 m c)
abbrev V7 : (c : Dev nD) → (b : Ref sig .tc) → Buf (Elt F) ((c : Thread nD τ).loc b) := fun c b => W7 m c b
def W8 (c : Dev nD) : Valuation τ sig (Elt F) :=
  Pipeline.withArrays spec4 c (W7 m c) fun w => (gdat4 (V7 m) c).arrAt w cfg4.N
theorem W8_arr (c : Dev nD) (w : Fin cfg4.W) :
    W8 m c (Proc.devRef .tc (Pipeline.arrRef spec4 w)) = (gdat4 (V7 m) c).arrAt w cfg4.N :=
  Pipeline.withArrays_arr spec4 launch4.win.arr_inj c _ _ w
theorem W8_of_ne (c : Dev nD) (b : Ref sig .tc) (hb : ∀ w, Pipeline.arrRef spec4 w ≠ b) :
    W8 m c (Proc.devRef .tc b) = W7 m c (Proc.devRef .tc b) :=
  Pipeline.withArrays_of_ne spec4 c _ _ b hb
abbrev V8 : (c : Dev nD) → (b : Ref sig .tc) → Buf (Elt F) ((c : Thread nD τ).loc b) := fun c b => W8 m c b
def W9 (c : Dev nD) : Valuation τ sig (Elt F) :=
  Pipeline.withArrays spec5 c (W8 m c) fun w => (sdat5 (V8 m) c).arrAt w cfg5.N
theorem W9_arr (c : Dev nD) (w : Fin cfg5.W) :
    W9 m c (Proc.devRef .tc (Pipeline.arrRef spec5 w)) = (sdat5 (V8 m) c).arrAt w cfg5.N :=
  Pipeline.withArrays_arr spec5 launch5.win.arr_inj c _ _ w
theorem W9_of_ne (c : Dev nD) (b : Ref sig .tc) (hb : ∀ w, Pipeline.arrRef spec5 w ≠ b) :
    W9 m c (Proc.devRef .tc b) = W8 m c (Proc.devRef .tc b) :=
  Pipeline.withArrays_of_ne spec5 c _ _ b hb
abbrev V9 : (c : Dev nD) → (b : Ref sig .tc) → Buf (Elt F) ((c : Thread nD τ).loc b) := fun c b => W9 m c b
abbrev W10 : Dev nD → Valuation τ sig (Elt F) := fun c => StableHlo.after hostOps6 (W9 m c)
abbrev V10 : (c : Dev nD) → (b : Ref sig .tc) → Buf (Elt F) ((c : Thread nD τ).loc b) := fun c b => W10 m c b

abbrev adm : (p : Fin 6) → (pcfgs (F := F) p).Adm := fun p => (cfgs p).toPCfg_adm
def pdats : (p : Fin 6) → (c : Dev nD) → Dat τ (Elt F) Unit ℕ (UR sig nD τ) ℕ (Pipeline.pin (pcfgs (F := F)) adm p) c
  | ⟨0, _⟩ => fun c => gdat0 (V1 m) c
  | ⟨1, _⟩ => fun c => sdat1 (V2 m) c
  | ⟨2, _⟩ => fun c => gdat2 (V4 m) c
  | ⟨3, _⟩ => fun c => sdat3 (V5 m) c
  | ⟨4, _⟩ => fun c => gdat4 (V7 m) c
  | ⟨5, _⟩ => fun c => sdat5 (V8 m) c
abbrev 𝒱₀ : Variants := Variants.none
abbrev L : GSem nD τ sig → Finset Unit := fun _ => ∅
abbrev lv : GSem nD τ sig → Unit → ℕ := fun _ _ => 0
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m c) ∗ ∃ r, prngReg c r)

-- region `p` takes the valuation `Wa` to `Wb`, which differs from it only at the region's arrays, there at their final contents
def regionOf (p : Fin 6) (lf : Pipeline.LaunchFacts (nD := nD) (τ := τ) cfgs p) (Wa Wb : Dev nD → Valuation τ sig (Elt F))
    (hbody : ∀ c, BodyObligation (pdats m p c) (defs₀ (F := F)) 𝒱₀ () Set.univ)
    (hin : ∀ c, (Pipeline.ΦA (cfgs p).spec c : sProp 𝕄) ⊢ (pdats m p c).Φ 0)
    (hout : ∀ c, (pdats m p c).Φ (Fin.last _) ⊢ (Pipeline.ΦA (cfgs p).spec c : sProp 𝕄))
    (harr : ∀ c w, Wb c (Proc.devRef .tc (Pipeline.arrRef (cfgs p).spec w)) = (pdats m p c).arrAt w (cfgs p).N)
    (hne : ∀ c (b : Ref sig .tc), (∀ w, Pipeline.arrRef (cfgs p).spec w ≠ b) → Wb c (Proc.devRef .tc b) = Wa c (Proc.devRef .tc b))
    (hq : ∀ c w, (pdats m p c).q w = fullShare := by exact fun _ _ => rfl)
    (hA : ∀ c w, (pdats m p c).A w = Wa c (Proc.devRef .tc (Pipeline.arrRef (cfgs p).spec w)) := by exact fun _ _ => rfl)
    (howed : ∀ c t, (pdats m p c).owed t = 0 := by exact fun _ _ => rfl)
    (hrec : ∀ c, (pdats m p c).recorded 0 = Set.univ := by exact fun _ => rfl) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wa c) ∗ Rr c)
  post c := iprop(StableHlo.held (c : Thread nD τ) (Pipeline.ucRefs τ sig) (Wb c) ∗ Rr c)
  X c := iprop(∃ r, prngReg c r)
  Y c := iprop(∃ r, prngReg c r)
  Z c := Pipeline.unscopedRest (cfgs p).spec c fun b => Wa c (Proc.devRef .tc b)
  hentry c := by
    rw [Pipeline.ownSems0_none]
    have hsplit := Pipeline.arrays_of_unscopedBufs (p := p) (pcfgs (F := F)) adm (pdats m) lf.win lf.arr_whole c
      ((pdats m p c).share_full (hq c)) (fun b => Wa c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (hrec c ▸ trivial)
      iexact HO
    isplitl [Hp]; · iexact Hp
    iexact Hrest
  hin c := by
    have h := hin c
    unfold Pipeline.ΦA at h
    iintro ⟨Hp, -, Hr⟩
    iapply h
    isplitl [Hr] <;> iassumption
  hout c := by
    rw [Pipeline.ownSems0_none]
    have h := hout c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Wa c (Proc.devRef .tc b)) (fun b => Wb c (Proc.devRef .tc b)) ((pdats m p c).arrAt · (cfgs p).N)
      (fun w => (harr c w).symm) fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

def reg0 := regionOf m 0 launch0 (W1 m) (W2 m) (gbody0 (V1 m)) (ghin0 (V1 m)) (ghout0 (V1 m)) (W2_arr m) (W2_of_ne m)
def reg1 := regionOf m 1 launch1 (W2 m) (W3 m) (sbody1 (V2 m)) (shin1 (V2 m)) (shout1 (V2 m)) (W3_arr m) (W3_of_ne m)
def reg2 := regionOf m 2 launch2 (W4 m) (W5 m) (gbody2 (V4 m)) (ghin2 (V4 m)) (ghout2 (V4 m)) (W5_arr m) (W5_of_ne m)
def reg3 := regionOf m 3 launch3 (W5 m) (W6 m) (sbody3 (V5 m)) (shin3 (V5 m)) (shout3 (V5 m)) (W6_arr m) (W6_of_ne m)
def reg4 := regionOf m 4 launch4 (W7 m) (W8 m) (gbody4 (V7 m)) (ghin4 (V7 m)) (ghout4 (V7 m)) (W8_arr m) (W8_of_ne m)
def reg5 := regionOf m 5 launch5 (W8 m) (W9 m) (sbody5 (V8 m)) (shin5 (V8 m)) (shout5 (V8 m)) (W9_arr m) (W9_of_ne m)

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .region (reg3 m),
    .host (hseg hostOps4 hostOps4_sub hostOps4_fresh (W6 m)),
    .region (reg4 m),
    .region (reg5 m),
    .host (hseg hostOps6 hostOps6_sub hostOps6_fresh (W9 m)) ]
theorem run : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          Prog.lift (.customCall (Pipeline.entry 5) ()),
          StableHlo.seq hostOps6 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W10 m c) ∗ Rr c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h => h)
end Cert.Kernel.Hand
end
-- ==== Proof.K.Frame.lean ====
import proofs.«404774_j249108103934_2_alg».proof.Proof.K.Run

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

theorem W1_of (c : Dev nD) (r : Ref sig .tc) (h : r ∉ hostOps0_W) : W1 m c r = W0 m c r :=
  StableHlo.after_of_writes_sub hostOps0 _ hostOps0_writes h

theorem W4_of (c : Dev nD) (r : Ref sig .tc) (h : r ∉ hostOps2_W) : W4 m c r = W3 m c r :=
  StableHlo.after_of_writes_sub hostOps2 _ hostOps2_writes h

theorem W7_of (c : Dev nD) (r : Ref sig .tc) (h : r ∉ hostOps4_W) : W7 m c r = W6 m c r :=
  StableHlo.after_of_writes_sub hostOps4 _ hostOps4_writes h

theorem W10_of (c : Dev nD) (r : Ref sig .tc) (h : r ∉ hostOps6_W) : W10 m c r = W9 m c r :=
  StableHlo.after_of_writes_sub hostOps6 _ hostOps6_writes h

abbrev margs : List (Ref sig .tc) :=
  [main_arg0, main_arg1, main_arg2, main_arg3, main_arg4, main_arg5, main_arg6, main_arg7]

-- every argument array lies outside what the host operations and the six regions write
theorem margs_facts : ∀ r ∈ margs, ¬(Proc.devRef .tc r : DevRef τ sig).isScoped
    ∧ r ∉ hostOps0_W ∧ r ∉ hostOps2_W ∧ r ∉ hostOps4_W ∧ r ∉ hostOps6_W
    ∧ (∀ w, Pipeline.arrRef spec0 w ≠ r) ∧ (∀ w, Pipeline.arrRef spec1 w ≠ r) ∧ (∀ w, Pipeline.arrRef spec2 w ≠ r)
    ∧ (∀ w, Pipeline.arrRef spec3 w ≠ r) ∧ (∀ w, Pipeline.arrRef spec4 w ≠ r) ∧ (∀ w, Pipeline.arrRef spec5 w ≠ r) := by
  decide

theorem W10_kept (c : Dev nD) (r : Ref sig .tc) (hr : r ∈ margs) :
    W10 m c (Proc.devRef .tc r) = m ((c.tc : Thread nD τ).loc r) := by
  obtain ⟨-, h0, h2, h4, h6, n0, n1, n2, n3, n4, n5⟩ := margs_facts r hr
  exact (W10_of m c r h6).trans <| (W9_of_ne m c r n5).trans <| (W8_of_ne m c r n4).trans <|
    (W7_of m c r h4).trans <| (W6_of_ne m c r n3).trans <| (W5_of_ne m c r n2).trans <|
    (W4_of m c r h2).trans <| (W3_of_ne m c r n1).trans <| (W2_of_ne m c r n0).trans <|
    (W1_of m c r h0).trans rfl

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    have k : ∀ a (ha : a ∈ margs), r.2.mem ((c.tc : Thread nD τ).loc a) = m ((c.tc : Thread nD τ).loc a) :=
      fun a ha => (h c _ (mem_uc a (margs_facts a ha).1)).trans (W10_kept m c a ha)
    ⟨k _ (by decide), k _ (by decide), k _ (by decide), k _ (by decide),
     k _ (by decide), k _ (by decide), k _ (by decide), k _ (by decide)⟩) (run m ρ)

end Cert.Kernel.Hand

end
-- ==== Proof.KI.GatherBody.lean ====
import proofs.«404774_j249108103934_2_alg».proof.Proof.Gen.KernelIdeal.Launch
import proofs.«404774_j249108103934_2_alg».proof.Proof.Gen.KernelIdeal.Skeleton
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

theorem gcoordA (t : Fin grid0.N) : ((grid0.coords t) 0).val = t.val / 74 := by
  have hlt := t.isLt
  have hN : grid0.N = 36186 := N_0
  show t.val / grid0.stride 0 % grid0.bound 0 = t.val / 74
  rw [show grid0.stride 0 = 74 from by decide, show grid0.bound 0 = 489 from rfl]
  exact Nat.mod_eq_of_lt (by omega)

theorem gcoordB (t : Fin grid0.N) : ((grid0.coords t) 1).val = t.val % 74 := by
  show t.val / grid0.stride 1 % grid0.bound 1 = t.val % 74
  rw [show grid0.stride 1 = 1 from by decide, show grid0.bound 1 = 74 from rfl, Nat.div_one]

abbrev gcondA (i : grid0.Coords) : Prop :=
  Scalar.cmpi .ne (Scalar.extui (Scalar.cmpi .eq (BitVec.ofNat 32 (i 1).val) 0#32)) 0#32 = 1#1

abbrev gcondC (i : grid0.Coords) : Prop := k0_cond2 i = 1#1

theorem gcondA_fin : ∀ k : Fin 74,
    (Scalar.cmpi .ne (Scalar.extui (Scalar.cmpi .eq (BitVec.ofNat 32 k.val) 0#32)) 0#32 = 1#1) ↔ k.val = 0 := by decide

theorem gcondC_fin : ∀ k : Fin 74,
    (Scalar.cmpi .ne (Scalar.extui (Scalar.cmpi .eq (BitVec.ofNat 32 k.val) 73#32)) 0#32 = 1#1) ↔ k.val = 73 := by decide

theorem gcondA_iff (t : Fin grid0.N) : gcondA (grid0.coords t) ↔ t.val % 74 = 0 := by
  rw [← gcoordB t]; exact gcondA_fin ((grid0.coords t) 1)

theorem gcondC_iff (t : Fin grid0.N) : gcondC (grid0.coords t) ↔ t.val % 74 = 73 := by
  rw [← gcoordB t]; exact gcondC_fin ((grid0.coords t) 1)

theorem gzeros : (![0, 0] : Fin 2 → ℕ) = fun _ => 0 := by
  funext a; match a with | ⟨0, _⟩ => rfl | ⟨1, _⟩ => rfl

-- at a middle node block the accumulator gains the block's one-hot product
set_option maxHeartbeats 1000000 in
theorem gkernelB (c : Dev nD) (E : Set ℕ) (i : grid0.Coords)
    (arg2 : Memref sig .tc .vmem S1x4096 .i32) (harg2 : arg2.IsWhole) (arg3 : Memref sig .tc .vmem S1x4096 .f32) (harg3 : arg3.IsWhole)
    (arg4 : Memref sig .tc .vmem S2048x64 .f32) (harg4 : arg4.IsWhole) (arg5 : Memref sig .tc .vmem S64x4096 .f32) (harg5 : arg5.IsWhole)
    (arg6 : Memref sig .tc .vmem S64x4096 .f32) (harg6 : arg6.IsWhole)
    (hcA : ¬gcondA i) (hcC : ¬gcondC i)
    (xA : Vec F S1x4096 .i32) (xB : Vec F S1x4096 .f32) (xC : Vec F S2048x64 .f32) (xs : Vec F S64x4096 .f32)
    (K : PUnit → sProp 𝕄) :
    iprop(owns (c : Thread nD τ) arg2 fullShare xA ∗ owns (c : Thread nD τ) arg3 fullShare xB
        ∗ owns (c : Thread nD τ) arg4 fullShare xC ∗ owns (c : Thread nD τ) arg6 fullShare xs
        ∗ (iprop(owns (c : Thread nD τ) arg2 fullShare xA ∗ owns (c : Thread nD τ) arg3 fullShare xB
            ∗ owns (c : Thread nD τ) arg4 fullShare xC
            ∗ owns (c : Thread nD τ) arg6 fullShare (k0_pay2 i xA xB xC xs)) -∗ K ⟨⟩))
      ⊢ wp frame (wpE (defs₀ (F := F)) Variants.none c none) E
          (cc0__gather_kernel i arg2 harg2 arg3 harg3 arg4 harg4 arg5 harg5 arg6 harg6) K := by
  simp only [cc0__gather_kernel_eq_skeleton]; unfold cc0__gather_kernel_skel
  unfold owns
  iintro ⟨⟨%fA, %hfA, HA⟩, ⟨%fB, %hfB, HB⟩, ⟨%fC, %hfC, HC⟩, ⟨%fs, %hfs, HS⟩, Hk⟩
  obtain rfl := harg2.eq_unread hfA; obtain rfl := harg3.eq_unread hfB
  obtain rfl := harg4.eq_unread hfC; obtain rfl := harg6.eq_unread hfs
  sl_exec (disch := first | exact hcA | exact hcC)
  sl_step
  iapply Hk
  isplitl [HA]
  · iexists _; isplitr; · ipureintro; exact harg2.read_unread _
    iexact HA
  isplitl [HB]
  · iexists _; isplitr; · ipureintro; exact harg3.read_unread _
    iexact HB
  isplitl [HC]
  · iexists _; isplitr; · ipureintro; exact harg4.read_unread _
    iexact HC
  iexists _; isplitr
  swap; · iexact HS
  ipureintro
  sl_unfold_words
  rw [View.read_writes_eq_canon _ _ _ (fun y => ⟨_, List.mem_cons.mpr (Or.inl rfl), View.mem_set_unit_zero gzeros Facts₀.inb_S64x4096_S64x4096_0_0 y⟩), View.canon_cons_unit_zero gzeros]
  simp only [View.readAt_eq_ld, Memref.IsWhole.read_unread, View.ld_unit_zero (S := S1x4096) gzeros,
    View.ld_unit_zero (S := S2048x64) gzeros, View.ld_unit_zero (S := S64x4096) gzeros,
    View.readCov_unit_zero (S := S64x4096) _ gzeros]

-- at the first node block the accumulator restarts from zero
set_option maxHeartbeats 1000000 in
theorem gkernelA (c : Dev nD) (E : Set ℕ) (i : grid0.Coords)
    (arg2 : Memref sig .tc .vmem S1x4096 .i32) (harg2 : arg2.IsWhole) (arg3 : Memref sig .tc .vmem S1x4096 .f32) (harg3 : arg3.IsWhole)
    (arg4 : Memref sig .tc .vmem S2048x64 .f32) (harg4 : arg4.IsWhole) (arg5 : Memref sig .tc .vmem S64x4096 .f32) (harg5 : arg5.IsWhole)
    (arg6 : Memref sig .tc .vmem S64x4096 .f32) (harg6 : arg6.IsWhole)
    (hcA : gcondA i) (hcC : ¬gcondC i)
    (xA : Vec F S1x4096 .i32) (xB : Vec F S1x4096 .f32) (xC : Vec F S2048x64 .f32)
    (K : PUnit → sProp 𝕄) :
    iprop(owns (c : Thread nD τ) arg2 fullShare xA ∗ owns (c : Thread nD τ) arg3 fullShare xB
        ∗ owns (c : Thread nD τ) arg4 fullShare xC ∗ (∃ d, owns (c : Thread nD τ) arg6 fullShare d)
        ∗ (iprop(owns (c : Thread nD τ) arg2 fullShare xA ∗ owns (c : Thread nD τ) arg3 fullShare xB
            ∗ owns (c : Thread nD τ) arg4 fullShare xC
            ∗ owns (c : Thread nD τ) arg6 fullShare (k0_pay2 i xA xB xC k0_pay1)) -∗ K ⟨⟩))
      ⊢ wp frame (wpE (defs₀ (F := F)) Variants.none c none) E
          (cc0__gather_kernel i arg2 harg2 arg3 harg3 arg4 harg4 arg5 harg5 arg6 harg6) K := by
  simp only [cc0__gather_kernel_eq_skeleton]; unfold cc0__gather_kernel_skel
  unfold owns
  iintro ⟨⟨%fA, %hfA, HA⟩, ⟨%fB, %hfB, HB⟩, ⟨%fC, %hfC, HC⟩, ⟨%ds, %fs, -, HS⟩, Hk⟩
  obtain rfl := harg2.eq_unread hfA; obtain rfl := harg3.eq_unread hfB
  obtain rfl := harg4.eq_unread hfC
  sl_exec (disch := first | exact hcA | exact hcC)
  sl_step
  iapply Hk
  isplitl [HA]
  · iexists _; isplitr; · ipureintro; exact harg2.read_unread _
    iexact HA
  isplitl [HB]
  · iexists _; isplitr; · ipureintro; exact harg3.read_unread _
    iexact HB
  isplitl [HC]
  · iexists _; isplitr; · ipureintro; exact harg4.read_unread _
    iexact HC
  iexists _; isplitr
  swap; · iexact HS
  ipureintro
  sl_unfold_words
  rw [View.read_writes_eq_canon _ _ _ (fun y => ⟨_, List.mem_cons.mpr (Or.inl rfl), View.mem_set_unit_zero gzeros Facts₀.inb_S64x4096_S64x4096_0_0 y⟩), View.canon_cons_unit_zero gzeros]
  simp only [View.readAt_eq_ld, Memref.IsWhole.read_unread, View.ld_unit_zero (S := S1x4096) gzeros,
    View.ld_unit_zero (S := S2048x64) gzeros, View.ld_unit_zero (S := S64x4096) gzeros,
    View.readCov_unit_zero (S := S64x4096) _ gzeros]

-- at the last node block the finished accumulator is also the output block
set_option maxHeartbeats 1000000 in
theorem gkernelC (c : Dev nD) (E : Set ℕ) (i : grid0.Coords)
    (arg2 : Memref sig .tc .vmem S1x4096 .i32) (harg2 : arg2.IsWhole) (arg3 : Memref sig .tc .vmem S1x4096 .f32) (harg3 : arg3.IsWhole)
    (arg4 : Memref sig .tc .vmem S2048x64 .f32) (harg4 : arg4.IsWhole) (arg5 : Memref sig .tc .vmem S64x4096 .f32) (harg5 : arg5.IsWhole)
    (arg6 : Memref sig .tc .vmem S64x4096 .f32) (harg6 : arg6.IsWhole)
    (hcA : ¬gcondA i) (hcC : gcondC i)
    (xA : Vec F S1x4096 .i32) (xB : Vec F S1x4096 .f32) (xC : Vec F S2048x64 .f32) (xs : Vec F S64x4096 .f32)
    (K : PUnit → sProp 𝕄) :
    iprop(owns (c : Thread nD τ) arg2 fullShare xA ∗ owns (c : Thread nD τ) arg3 fullShare xB
        ∗ owns (c : Thread nD τ) arg4 fullShare xC ∗ owns (c : Thread nD τ) arg6 fullShare xs ∗ (∃ d, owns (c : Thread nD τ) arg5 fullShare d)
        ∗ (iprop(owns (c : Thread nD τ) arg2 fullShare xA ∗ owns (c : Thread nD τ) arg3 fullShare xB
            ∗ owns (c : Thread nD τ) arg4 fullShare xC
            ∗ owns (c : Thread nD τ) arg6 fullShare (k0_pay2 i xA xB xC xs) ∗ owns (c : Thread nD τ) arg5 fullShare (k0_pay2 i xA xB xC xs)) -∗ K ⟨⟩))
      ⊢ wp frame (wpE (defs₀ (F := F)) Variants.none c none) E
          (cc0__gather_kernel i arg2 harg2 arg3 harg3 arg4 harg4 arg5 harg5 arg6 harg6) K := by
  simp only [cc0__gather_kernel_eq_skeleton]; unfold cc0__gather_kernel_skel
  unfold owns
  iintro ⟨⟨%fA, %hfA, HA⟩, ⟨%fB, %hfB, HB⟩, ⟨%fC, %hfC, HC⟩, ⟨%fs, %hfs, HS⟩, ⟨%dD, %fD, -, HD⟩, Hk⟩
  obtain rfl := harg2.eq_unread hfA; obtain rfl := harg3.eq_unread hfB
  obtain rfl := harg4.eq_unread hfC; obtain rfl := harg6.eq_unread hfs
  sl_exec (disch := first | exact hcA | exact hcC)
  sl_step
  iapply Hk
  isplitl [HA]
  · iexists _; isplitr; · ipureintro; exact harg2.read_unread _
    iexact HA
  isplitl [HB]
  · iexists _; isplitr; · ipureintro; exact harg3.read_unread _
    iexact HB
  isplitl [HC]
  · iexists _; isplitr; · ipureintro; exact harg4.read_unread _
    iexact HC
  isplitl [HS]
  · iexists _; isplitr
    swap; · iexact HS
    ipureintro
    sl_unfold_words
    rw [View.read_writes_eq_canon _ _ _ (fun y => ⟨_, List.mem_cons.mpr (Or.inl rfl), View.mem_set_unit_zero gzeros Facts₀.inb_S64x4096_S64x4096_0_0 y⟩), View.canon_cons_unit_zero gzeros]
    simp only [View.readAt_eq_ld, Memref.IsWhole.read_unread, View.ld_unit_zero (S := S1x4096) gzeros,
      View.ld_unit_zero (S := S2048x64) gzeros, View.ld_unit_zero (S := S64x4096) gzeros,
      View.readCov_unit_zero (S := S64x4096) _ gzeros]
  iexists _; isplitr
  swap; · iexact HD
  ipureintro
  sl_unfold_words
  rw [View.read_writes_eq_canon _ _ _ (fun y => ⟨_, List.mem_cons.mpr (Or.inl rfl), View.mem_set_unit_zero gzeros Facts₀.inb_S64x4096_S64x4096_0_0 y⟩), View.canon_cons_unit_zero gzeros]
  simp only [View.readAt_eq_ld, Memref.IsWhole.read_unread, View.ld_unit_zero (S := S1x4096) gzeros,
    View.ld_unit_zero (S := S2048x64) gzeros, View.ld_unit_zero (S := S64x4096) gzeros,
    View.readCov_unit_zero (S := S64x4096) _ gzeros]

end Cert.KernelIdeal.Hand

end
-- ==== Proof.KI.Gather0.lean ====
import proofs.«404774_j249108103934_2_alg».proof.Proof.KI.GatherBody

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev scr0 : Memref sig .tc .vmem S64x4096 .f32 := Memref.whole cc0_scratch0

abbrev grest0 (c : Dev nD) : sProp 𝕄 :=
  Pipeline.scopedRestBut (Ix := Unit) (Name := ℕ) (U := UR sig nD τ) (Lvl := ℕ) (Val := Elt F) spec0 c [cc0_scratch0]

def gstep0 (c : Dev nD) (t : Fin cfg0.N) (xs : Vec F S64x4096 .f32) : Vec F S64x4096 .f32 :=
  k0_pay2 (grid0.coords t) (iblk0 V c 0 t) (iblk0 V c 1 t) (iblk0 V c 2 t) xs

-- the accumulator after point n: a fold over the 74 node blocks of one edge block, restarted at each new edge block
def gacc0 (c : Dev nD) : (n : ℕ) → n < cfg0.N → Vec F S64x4096 .f32
  | 0, hn => gstep0 V c ⟨0, hn⟩ k0_pay1
  | n + 1, hn => gstep0 V c ⟨n + 1, hn⟩ (if (n + 1) % 74 = 0 then k0_pay1 else gacc0 c n (Nat.lt_of_succ_lt hn))

theorem gacc0_reset (c : Dev nD) (n : ℕ) (hn : n < cfg0.N) (h : n % 74 = 0) :
    gacc0 V c n hn = gstep0 V c ⟨n, hn⟩ k0_pay1 := by
  cases n with
  | zero => rfl
  | succ n => show gstep0 V c _ (if (n + 1) % 74 = 0 then _ else _) = _; rw [if_pos h]

theorem gacc0_step (c : Dev nD) (n : ℕ) (hn : n + 1 < cfg0.N) (h : ¬(n + 1) % 74 = 0) :
    gacc0 V c (n + 1) hn = gstep0 V c ⟨n + 1, hn⟩ (gacc0 V c n (Nat.lt_of_succ_lt hn)) := by
  show gstep0 V c _ (if (n + 1) % 74 = 0 then _ else _) = _; rw [if_neg h]

def gPhi0 (c : Dev nD) : (n : ℕ) → n ≤ cfg0.N → sProp 𝕄
  | 0, _ => Pipeline.ΦA spec0 c
  | n + 1, hn => iprop(owns (c : Thread nD τ) scr0 fullShare (gacc0 V c n hn)
      ∗ grest0 c
      ∗ (∃ r, prngReg c r))

def gdat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => gacc0 V c t.val t.isLt
  Φ t := gPhi0 V c t.val (Nat.le_of_lt_succ t.isLt)
  q _ := fullShare
  owed _ := 0

theorem gA0 (c : Dev nD) (w : Fin cfg0.W) : (gdat0 V c).A w = V c (Pipeline.arrRef spec0 w) := by
  dsimp only [gdat0]

theorem gafter0_0 (c : Dev nD) (t : Fin cfg0.N) : (gdat0 V c).after 0 t = iblk0 V c 0 t := by dsimp only [gdat0]

theorem gafter0_1 (c : Dev nD) (t : Fin cfg0.N) : (gdat0 V c).after 1 t = iblk0 V c 1 t := by dsimp only [gdat0]

theorem gafter0_2 (c : Dev nD) (t : Fin cfg0.N) : (gdat0 V c).after 2 t = iblk0 V c 2 t := by dsimp only [gdat0]

theorem gafter0_3 (c : Dev nD) (t : Fin cfg0.N) : (gdat0 V c).after 3 t = gacc0 V c t.val t.isLt := by dsimp only [gdat0]

abbrev gst0_0 (t : Fin cfg0.N) : Memref sig .tc .vmem S1x4096 .i32 := win0_0.stage (cfg0.slots t 0)

abbrev ghs0_0 (t : Fin cfg0.N) : (gst0_0 t).IsWhole := hstage0_0 ((cfg0.slots t 0).cast nbuf0_0)

abbrev gst0_1 (t : Fin cfg0.N) : Memref sig .tc .vmem S1x4096 .f32 := win0_1.stage (cfg0.slots t 1)

abbrev ghs0_1 (t : Fin cfg0.N) : (gst0_1 t).IsWhole := hstage0_1 ((cfg0.slots t 1).cast nbuf0_1)

abbrev gst0_2 (t : Fin cfg0.N) : Memref sig .tc .vmem S2048x64 .f32 := win0_2.stage (cfg0.slots t 2)

abbrev ghs0_2 (t : Fin cfg0.N) : (gst0_2 t).IsWhole := hstage0_2 ((cfg0.slots t 2).cast nbuf0_2)

abbrev gst0_3 (t : Fin cfg0.N) : Memref sig .tc .vmem S64x4096 .f32 := win0_3.stage (cfg0.slots t 3)

abbrev ghs0_3 (t : Fin cfg0.N) : (gst0_3 t).IsWhole := hstage0_3 ((cfg0.slots t 3).cast nbuf0_3)

abbrev gbodyAt0 (t : Fin cfg0.N) : Prog (TpuEff nD τ sig (Elt F) Λ₀ .tc) PUnit :=
  cc0__gather_kernel (grid0.coords t) (gst0_0 t) (ghs0_0 t) (gst0_1 t) (ghs0_1 t) (gst0_2 t) (ghs0_2 t) (gst0_3 t) (ghs0_3 t)
    scr0 (Memref.isWhole_whole _)

theorem gidle0_3 (t : Fin cfg0.N) (h : ¬t.val % 74 = 73) : cfg0.idle 3 (grid0.coords t) = true := by
  show (!(k0_cond2 (grid0.coords t) == 1#1)) = true
  rw [Bool.not_eq_true', beq_eq_false_iff_ne]
  exact fun hc => h ((gcondC_iff t).mp hc)

theorem glive0_3 (t : Fin cfg0.N) (h : t.val % 74 = 73) : cfg0.idle 3 (grid0.coords t) = false := by
  show (!(k0_cond2 (grid0.coords t) == 1#1)) = false
  rw [Bool.not_eq_false', beq_iff_eq]
  exact (gcondC_iff t).mpr h

theorem gnoflush0_3 (t : Fin cfg0.N) (h : ¬t.val % 74 = 73) : (cfg0.win 3).flush t = false := by
  have hlt := t.isLt
  have hN : cfg0.N = 36186 := N_0
  have hNg : cfg0.grid.N = 36186 := N_0
  unfold Pipeline.Window.flush
  rw [Bool.and_eq_false_iff]; right
  rw [Bool.or_eq_false_iff]
  refine ⟨decide_eq_false (by omega), decide_eq_false ?_⟩
  rintro ⟨hnext, hne⟩
  apply hne
  show cc0_transform_3 (grid0.coords ⟨t.val + 1, hnext⟩) = cc0_transform_3 (grid0.coords t)
  apply Facts₀.hreads0_3
  intro a ha
  match a, ha with
  | ⟨0, _⟩, _ =>
    exact Fin.ext ((gcoordA ⟨t.val + 1, hnext⟩).trans ((show (t.val + 1) / 74 = t.val / 74 by omega).trans (gcoordA t).symm))
  | ⟨1, _⟩, ha => exact absurd (show false = true from ha) Bool.false_ne_true

theorem gPhiA0 (c : Dev nD) :
    (Pipeline.ΦA spec0 c : sProp 𝕄)
      = iprop((∃ d, owns (c : Thread nD τ) scr0 fullShare d)
          ∗ grest0 c
          ∗ (∃ r, prngReg c r)) := by
  unfold Pipeline.ΦA; rw [scopedRest0_split]; simp only [scr0, owns_whole]
  exact BI.equiv_iff.mp ⟨sep_assoc, sep_assoc'⟩

theorem gPhi0_pos (c : Dev nD) (n : ℕ) (h : n ≤ cfg0.N) (hz : n ≠ 0) :
    gPhi0 V c n h = iprop(owns (c : Thread nD τ) scr0 fullShare (gacc0 V c (n - 1) (by omega))
      ∗ grest0 c
      ∗ (∃ r, prngReg c r)) := by
  cases n with
  | zero => exact absurd rfl hz
  | succ n => rfl

theorem gPhi0_castSucc (c : Dev nD) (t : Fin cfg0.N) :
    (gdat0 V c).Φ t.castSucc = gPhi0 V c t.val (Nat.le_of_lt t.isLt) := by
  dsimp only [gdat0]; simp only [Fin.coe_castSucc]

theorem gPhi0_succ (c : Dev nD) (t : Fin cfg0.N) :
    (gdat0 V c).Φ t.succ = iprop(owns (c : Thread nD τ) scr0 fullShare (gacc0 V c t.val t.isLt)
      ∗ grest0 c
      ∗ (∃ r, prngReg c r)) := rfl

theorem gbefore0_0 (c : Dev nD) (t : Fin cfg0.N) (d) : (gdat0 V c).before 0 t d = iblk0 V c 0 t :=
  ((gdat0 V c).before_in_eq_fetched 0 rfl (fun _ => rfl) (fun _ _ _ => rfl)
    (fun t => by rw [gafter0_0]; unfold Dat.blockOf iblk0; rw [gA0]) t d).trans
    (by unfold Dat.fetched Dat.blockOf iblk0; rw [gA0]; rfl)

theorem gbefore0_1 (c : Dev nD) (t : Fin cfg0.N) (d) : (gdat0 V c).before 1 t d = iblk0 V c 1 t :=
  ((gdat0 V c).before_in_eq_fetched 1 rfl (fun _ => rfl) (fun _ _ _ => rfl)
    (fun t => by rw [gafter0_1]; unfold Dat.blockOf iblk0; rw [gA0]) t d).trans
    (by unfold Dat.fetched Dat.blockOf iblk0; rw [gA0]; rfl)

theorem gbefore0_2 (c : Dev nD) (t : Fin cfg0.N) (d) : (gdat0 V c).before 2 t d = iblk0 V c 2 t :=
  ((gdat0 V c).before_in_eq_fetched 2 rfl (fun _ => rfl) (fun _ _ _ => rfl)
    (fun t => by rw [gafter0_2]; unfold Dat.blockOf iblk0; rw [gA0]) t d).trans
    (by unfold Dat.fetched Dat.blockOf iblk0; rw [gA0]; rfl)

theorem gPhi0_some (c : Dev nD) (n : ℕ) (h : n ≤ cfg0.N) :
    gPhi0 V c n h ⊢ iprop((∃ d, owns (c : Thread nD τ) scr0 fullShare d) ∗ grest0 c ∗ (∃ r, prngReg c r)) := by
  cases n with
  | zero => rw [show gPhi0 V c 0 h = Pipeline.ΦA spec0 c from rfl, gPhiA0]
  | succ n =>
    show iprop(owns (c : Thread nD τ) scr0 fullShare (gacc0 V c n h) ∗ grest0 c ∗ (∃ r, prngReg c r)) ⊢ _
    iintro ⟨HS, HR, Hg⟩
    iframe HR Hg
    iexists _; iexact HS

theorem gacc0_pos (c : Dev nD) (t : Fin cfg0.N) (h : ¬t.val % 74 = 0) :
    gacc0 V c t.val t.isLt = gstep0 V c t (gacc0 V c (t.val - 1) (Nat.lt_of_le_of_lt (Nat.sub_le _ _) t.isLt)) := by
  obtain ⟨n, hn⟩ := t
  cases n with
  | zero => exact absurd (Nat.zero_mod _) h
  | succ n => exact gacc0_step V c n hn h

def gpre0 (c : Dev nD) (t : Fin cfg0.N) : sProp 𝕄 :=
  iprop((gdat0 V c).Φ t.castSucc ∗ (gdat0 V c).owesAt () t.castSucc
    ∗ (∃ d, owns (c : Thread nD τ) (gst0_0 t) fullShare ((gdat0 V c).before 0 t d))
    ∗ (∃ d, owns (c : Thread nD τ) (gst0_1 t) fullShare ((gdat0 V c).before 1 t d))
    ∗ (∃ d, owns (c : Thread nD τ) (gst0_2 t) fullShare ((gdat0 V c).before 2 t d))
    ∗ (∃ d, owns (c : Thread nD τ) (gst0_3 t) fullShare ((gdat0 V c).before 3 t d)))

def gpost0 (c : Dev nD) (t : Fin cfg0.N) : sProp 𝕄 :=
  iprop((gdat0 V c).Φ t.succ ∗ (gdat0 V c).owesAt () t.succ
    ∗ (gdat0 V c).leavesExact 0 t ∗ (gdat0 V c).leavesExact 1 t ∗ (gdat0 V c).leavesExact 2 t ∗ (gdat0 V c).leavesExact 3 t)

theorem gsound0 (c : Dev nD) (t : Fin cfg0.N) :
    gpre0 V c t ⊢ wp frame (wpE (defs₀ (F := F)) Variants.none c none) Set.univ (gbodyAt0 t) (fun _ => gpost0 V c t) := by
  unfold gpre0 gpost0 gbodyAt0
  simp only [gbefore0_0, gbefore0_1, gbefore0_2]
  rw [show (gdat0 V c).owesAt () t.succ = (gdat0 V c).owesAt () t.castSucc from rfl]
  rw [gPhi0_succ, gPhi0_castSucc]
  rw [show (gdat0 V c).leavesExact 0 t = owns (c : Thread nD τ) (gst0_0 t) fullShare ((gdat0 V c).after 0 t) from rfl, gafter0_0,
    show (gdat0 V c).leavesExact 1 t = owns (c : Thread nD τ) (gst0_1 t) fullShare ((gdat0 V c).after 1 t) from rfl, gafter0_1,
    show (gdat0 V c).leavesExact 2 t = owns (c : Thread nD τ) (gst0_2 t) fullShare ((gdat0 V c).after 2 t) from rfl, gafter0_2]
  by_cases hC : t.val % 74 = 73
  · have hA : ¬t.val % 74 = 0 := by omega
    have hz : t.val ≠ 0 := fun e => hA (by rw [e])
    rw [show (gdat0 V c).leavesExact 3 t = owns (c : Thread nD τ) (gst0_3 t) fullShare ((gdat0 V c).after 3 t) from by
      unfold Dat.leavesExact; rw [glive0_3 t hC], gafter0_3, gacc0_pos V c t hA, gPhi0_pos V c _ _ hz]
    unfold gstep0
    iintro ⟨⟨HS, HR, Hg⟩, Ho, ⟨%dA, HA⟩, ⟨%dB, HB⟩, ⟨%dC, HC⟩, ⟨%dD, HD⟩⟩
    iapply (gkernelC c Set.univ (grid0.coords t) (gst0_0 t) (ghs0_0 t) (gst0_1 t) (ghs0_1 t) (gst0_2 t) (ghs0_2 t) (gst0_3 t) (ghs0_3 t)
        scr0 (Memref.isWhole_whole _) (fun hc => hA ((gcondA_iff t).mp hc)) ((gcondC_iff t).mpr hC)
        (iblk0 V c 0 t) (iblk0 V c 1 t) (iblk0 V c 2 t) (gacc0 V c (t.val - 1) (Nat.lt_of_le_of_lt (Nat.sub_le _ _) t.isLt)) _)
    iframe HA HB HC HS
    isplitl [HD]; · iexists _; iexact HD
    iintro ⟨HA, HB, HC, HS, HD⟩
    iframe
  · rw [Dat.leavesExact_idle (gdat0 V c) 3 t (gidle0_3 t hC) (gnoflush0_3 t hC)]
    by_cases hA : t.val % 74 = 0
    · rw [gacc0_reset V c t.val t.isLt hA]
      unfold gstep0
      refine (sep_mono (gPhi0_some V c _ _) .rfl).trans ?_
      iintro ⟨⟨⟨%ds, HS⟩, HR, Hg⟩, Ho, ⟨%dA, HA⟩, ⟨%dB, HB⟩, ⟨%dC, HC⟩, HD⟩
      iapply (gkernelA c Set.univ (grid0.coords t) (gst0_0 t) (ghs0_0 t) (gst0_1 t) (ghs0_1 t) (gst0_2 t) (ghs0_2 t) (gst0_3 t) (ghs0_3 t)
        scr0 (Memref.isWhole_whole _) ((gcondA_iff t).mpr hA) (fun hc => hC ((gcondC_iff t).mp hc))
        (iblk0 V c 0 t) (iblk0 V c 1 t) (iblk0 V c 2 t) _)
      iframe HA HB HC
      isplitl [HS]; · iexists _; iexact HS
      iintro ⟨HA, HB, HC, HS⟩
      iframe
    · have hz : t.val ≠ 0 := fun e => hA (by rw [e])
      rw [gacc0_pos V c t hA, gPhi0_pos V c _ _ hz]
      unfold gstep0
      iintro ⟨⟨HS, HR, Hg⟩, Ho, ⟨%dA, HA⟩, ⟨%dB, HB⟩, ⟨%dC, HC⟩, HD⟩
      iapply (gkernelB c Set.univ (grid0.coords t) (gst0_0 t) (ghs0_0 t) (gst0_1 t) (ghs0_1 t) (gst0_2 t) (ghs0_2 t) (gst0_3 t) (ghs0_3 t)
        scr0 (Memref.isWhole_whole _) (fun hc => hA ((gcondA_iff t).mp hc)) (fun hc => hC ((gcondC_iff t).mp hc))
        (iblk0 V c 0 t) (iblk0 V c 1 t) (iblk0 V c 2 t) (gacc0 V c (t.val - 1) (Nat.lt_of_le_of_lt (Nat.sub_le _ _) t.isLt)) _)
      iframe HA HB HC HS
      iintro ⟨HA, HB, HC, HS⟩
      iframe

theorem gbody0 (c : Dev nD) : BodyObligation (gdat0 (F := F) V c) (defs₀ (F := F)) Variants.none () Set.univ := fun t => by
  rw [bigSep_W0, bigSep_W0]
  exact gsound0 V c t

theorem ghin0 (c : Dev nD) : (Pipeline.ΦA spec0 c : sProp 𝕄) ⊢ (gdat0 V c).Φ 0 := by
  rw [show (gdat0 V c).Φ 0 = gPhi0 V c 0 (Nat.zero_le _) from rfl]
  exact .rfl

theorem ghout0 (c : Dev nD) : (gdat0 V c).Φ (Fin.last cfg0.N) ⊢ (Pipeline.ΦA spec0 c : sProp 𝕄) := by
  rw [show (gdat0 V c).Φ (Fin.last cfg0.N) = gPhi0 V c (Fin.last cfg0.N).val (Nat.le_of_lt_succ (Fin.last cfg0.N).isLt) from rfl,
    gPhiA0]
  exact gPhi0_some V c _ _

end Cert.KernelIdeal.Hand

end
-- ==== Proof.KI.ScatterBody.lean ====
import proofs.«404774_j249108103934_2_alg».proof.Proof.Gen.KernelIdeal.Launch
import proofs.«404774_j249108103934_2_alg».proof.Proof.Gen.KernelIdeal.Skeleton
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

theorem scoordA (t : Fin grid1.N) : ((grid1.coords t) 0).val = t.val / 489 := by
  have hlt := t.isLt
  have hN : grid1.N = 36186 := N_1
  show t.val / grid1.stride 0 % grid1.bound 0 = t.val / 489
  rw [show grid1.stride 0 = 489 from by decide, show grid1.bound 0 = 74 from rfl]
  exact Nat.mod_eq_of_lt (by omega)

theorem scoordB (t : Fin grid1.N) : ((grid1.coords t) 1).val = t.val % 489 := by
  show t.val / grid1.stride 1 % grid1.bound 1 = t.val % 489
  rw [show grid1.stride 1 = 1 from by decide, show grid1.bound 1 = 489 from rfl, Nat.div_one]

abbrev scondA (i : grid1.Coords) : Prop :=
  Scalar.cmpi .ne (Scalar.extui (Scalar.cmpi .eq (BitVec.ofNat 32 (i 1).val) 0#32)) 0#32 = 1#1

abbrev scondC (i : grid1.Coords) : Prop := k1_cond2 i = 1#1

theorem sword_inj (k n : ℕ) (hk : k < 2 ^ 32) (hn : n < 2 ^ 32) : BitVec.ofNat 32 k = BitVec.ofNat 32 n ↔ k = n := by
  constructor
  · intro h
    have hv := congrArg BitVec.toNat h
    rwa [BitVec.toNat_ofNat, BitVec.toNat_ofNat, Nat.mod_eq_of_lt hk, Nat.mod_eq_of_lt hn] at hv
  · rintro rfl; rfl

theorem stest_iff (k n : ℕ) (hk : k < 2 ^ 32) (hn : n < 2 ^ 32) :
    Scalar.cmpi .ne (Scalar.extui (Scalar.cmpi .eq (BitVec.ofNat 32 k) (BitVec.ofNat 32 n))) 0#32 = 1#1 ↔ k = n := by
  rw [Scalar.guard_iff, Scalar.cmpi, IntOp.cmpi_eq]
  exact sword_inj k n hk hn

theorem scondA_iff (t : Fin grid1.N) : scondA (grid1.coords t) ↔ t.val % 489 = 0 := by
  have hlt : ((grid1.coords t) 1).val < 489 := ((grid1.coords t) 1).isLt
  rw [← scoordB t]
  exact stest_iff _ 0 (by omega) (by omega)

theorem scondC_iff (t : Fin grid1.N) : scondC (grid1.coords t) ↔ t.val % 489 = 488 := by
  have hlt : ((grid1.coords t) 1).val < 489 := ((grid1.coords t) 1).isLt
  rw [← scoordB t]
  exact stest_iff _ 488 (by omega) (by omega)

theorem szeros : (![0, 0] : Fin 2 → ℕ) = fun _ => 0 := by
  funext a; match a with | ⟨0, _⟩ => rfl | ⟨1, _⟩ => rfl

-- at a middle edge block the accumulator gains the block's one-hot product
set_option maxHeartbeats 1000000 in
theorem skernelB (c : Dev nD) (E : Set ℕ) (i : grid1.Coords)
    (arg2 : Memref sig .tc .vmem S1x4096 .i32) (harg2 : arg2.IsWhole) (arg3 : Memref sig .tc .vmem S64x4096 .f32) (harg3 : arg3.IsWhole)
    (arg4 : Memref sig .tc .vmem S2048x64 .f32) (harg4 : arg4.IsWhole) (arg5 : Memref sig .tc .vmem S2048x64 .f32) (harg5 : arg5.IsWhole)
    (hcA : ¬scondA i) (hcC : ¬scondC i)
    (xA : Vec F S1x4096 .i32) (xB : Vec F S64x4096 .f32) (xs : Vec F S2048x64 .f32)
    (K : PUnit → sProp 𝕄) :
    iprop(owns (c : Thread nD τ) arg2 fullShare xA ∗ owns (c : Thread nD τ) arg3 fullShare xB
        ∗ owns (c : Thread nD τ) arg5 fullShare xs
        ∗ (iprop(owns (c : Thread nD τ) arg2 fullShare xA ∗ owns (c : Thread nD τ) arg3 fullShare xB
            ∗ owns (c : Thread nD τ) arg5 fullShare (k1_pay2 i xA xB xs)) -∗ K ⟨⟩))
      ⊢ wp frame (wpE (defs₀ (F := F)) Variants.none c none) E
          (cc1__scatter_kernel i arg2 harg2 arg3 harg3 arg4 harg4 arg5 harg5) K := by
  simp only [cc1__scatter_kernel_eq_skeleton]; unfold cc1__scatter_kernel_skel
  unfold owns
  iintro ⟨⟨%fA, %hfA, HA⟩, ⟨%fB, %hfB, HB⟩, ⟨%fs, %hfs, HS⟩, Hk⟩
  obtain rfl := harg2.eq_unread hfA; obtain rfl := harg3.eq_unread hfB
  obtain rfl := harg5.eq_unread hfs
  sl_exec (disch := first | exact hcA | exact hcC)
  sl_step
  iapply Hk
  isplitl [HA]
  · iexists _; isplitr; · ipureintro; exact harg2.read_unread _
    iexact HA
  isplitl [HB]
  · iexists _; isplitr; · ipureintro; exact harg3.read_unread _
    iexact HB
  iexists _; isplitr
  swap; · iexact HS
  ipureintro
  sl_unfold_words
  rw [View.read_writes_eq_canon _ _ _ (fun y => ⟨_, List.mem_cons.mpr (Or.inl rfl), View.mem_set_unit_zero szeros Facts₀.inb_S2048x64_S2048x64_0_0 y⟩), View.canon_cons_unit_zero szeros]
  simp only [View.readAt_eq_ld, Memref.IsWhole.read_unread, View.ld_unit_zero (S := S1x4096) szeros,
    View.ld_unit_zero (S := S64x4096) szeros, View.ld_unit_zero (S := S2048x64) szeros,
    View.readCov_unit_zero (S := S2048x64) _ szeros]

-- at the first edge block the accumulator restarts from zero
set_option maxHeartbeats 1000000 in
theorem skernelA (c : Dev nD) (E : Set ℕ) (i : grid1.Coords)
    (arg2 : Memref sig .tc .vmem S1x4096 .i32) (harg2 : arg2.IsWhole) (arg3 : Memref sig .tc .vmem S64x4096 .f32) (harg3 : arg3.IsWhole)
    (arg4 : Memref sig .tc .vmem S2048x64 .f32) (harg4 : arg4.IsWhole) (arg5 : Memref sig .tc .vmem S2048x64 .f32) (harg5 : arg5.IsWhole)
    (hcA : scondA i) (hcC : ¬scondC i)
    (xA : Vec F S1x4096 .i32) (xB : Vec F S64x4096 .f32)
    (K : PUnit → sProp 𝕄) :
    iprop(owns (c : Thread nD τ) arg2 fullShare xA ∗ owns (c : Thread nD τ) arg3 fullShare xB
        ∗ (∃ d, owns (c : Thread nD τ) arg5 fullShare d)
        ∗ (iprop(owns (c : Thread nD τ) arg2 fullShare xA ∗ owns (c : Thread nD τ) arg3 fullShare xB
            ∗ owns (c : Thread nD τ) arg5 fullShare (k1_pay2 i xA xB k1_pay1)) -∗ K ⟨⟩))
      ⊢ wp frame (wpE (defs₀ (F := F)) Variants.none c none) E
          (cc1__scatter_kernel i arg2 harg2 arg3 harg3 arg4 harg4 arg5 harg5) K := by
  simp only [cc1__scatter_kernel_eq_skeleton]; unfold cc1__scatter_kernel_skel
  unfold owns
  iintro ⟨⟨%fA, %hfA, HA⟩, ⟨%fB, %hfB, HB⟩, ⟨%ds, %fs, -, HS⟩, Hk⟩
  obtain rfl := harg2.eq_unread hfA; obtain rfl := harg3.eq_unread hfB
  sl_exec (disch := first | exact hcA | exact hcC)
  sl_step
  iapply Hk
  isplitl [HA]
  · iexists _; isplitr; · ipureintro; exact harg2.read_unread _
    iexact HA
  isplitl [HB]
  · iexists _; isplitr; · ipureintro; exact harg3.read_unread _
    iexact HB
  iexists _; isplitr
  swap; · iexact HS
  ipureintro
  sl_unfold_words
  rw [View.read_writes_eq_canon _ _ _ (fun y => ⟨_, List.mem_cons.mpr (Or.inl rfl), View.mem_set_unit_zero szeros Facts₀.inb_S2048x64_S2048x64_0_0 y⟩), View.canon_cons_unit_zero szeros]
  simp only [View.readAt_eq_ld, Memref.IsWhole.read_unread, View.ld_unit_zero (S := S1x4096) szeros,
    View.ld_unit_zero (S := S64x4096) szeros, View.ld_unit_zero (S := S2048x64) szeros,
    View.readCov_unit_zero (S := S2048x64) _ szeros]

-- at the last edge block the finished accumulator is also the output block
set_option maxHeartbeats 1000000 in
theorem skernelC (c : Dev nD) (E : Set ℕ) (i : grid1.Coords)
    (arg2 : Memref sig .tc .vmem S1x4096 .i32) (harg2 : arg2.IsWhole) (arg3 : Memref sig .tc .vmem S64x4096 .f32) (harg3 : arg3.IsWhole)
    (arg4 : Memref sig .tc .vmem S2048x64 .f32) (harg4 : arg4.IsWhole) (arg5 : Memref sig .tc .vmem S2048x64 .f32) (harg5 : arg5.IsWhole)
    (hcA : ¬scondA i) (hcC : scondC i)
    (xA : Vec F S1x4096 .i32) (xB : Vec F S64x4096 .f32) (xs : Vec F S2048x64 .f32)
    (K : PUnit → sProp 𝕄) :
    iprop(owns (c : Thread nD τ) arg2 fullShare xA ∗ owns (c : Thread nD τ) arg3 fullShare xB
        ∗ owns (c : Thread nD τ) arg5 fullShare xs ∗ (∃ d, owns (c : Thread nD τ) arg4 fullShare d)
        ∗ (iprop(owns (c : Thread nD τ) arg2 fullShare xA ∗ owns (c : Thread nD τ) arg3 fullShare xB
            ∗ owns (c : Thread nD τ) arg5 fullShare (k1_pay2 i xA xB xs) ∗ owns (c : Thread nD τ) arg4 fullShare (k1_pay2 i xA xB xs)) -∗ K ⟨⟩))
      ⊢ wp frame (wpE (defs₀ (F := F)) Variants.none c none) E
          (cc1__scatter_kernel i arg2 harg2 arg3 harg3 arg4 harg4 arg5 harg5) K := by
  simp only [cc1__scatter_kernel_eq_skeleton]; unfold cc1__scatter_kernel_skel
  unfold owns
  iintro ⟨⟨%fA, %hfA, HA⟩, ⟨%fB, %hfB, HB⟩, ⟨%fs, %hfs, HS⟩, ⟨%dD, %fD, -, HD⟩, Hk⟩
  obtain rfl := harg2.eq_unread hfA; obtain rfl := harg3.eq_unread hfB
  obtain rfl := harg5.eq_unread hfs
  sl_exec (disch := first | exact hcA | exact hcC)
  sl_step
  iapply Hk
  isplitl [HA]
  · iexists _; isplitr; · ipureintro; exact harg2.read_unread _
    iexact HA
  isplitl [HB]
  · iexists _; isplitr; · ipureintro; exact harg3.read_unread _
    iexact HB
  isplitl [HS]
  · iexists _; isplitr
    swap; · iexact HS
    ipureintro
    sl_unfold_words
    rw [View.read_writes_eq_canon _ _ _ (fun y => ⟨_, List.mem_cons.mpr (Or.inl rfl), View.mem_set_unit_zero szeros Facts₀.inb_S2048x64_S2048x64_0_0 y⟩), View.canon_cons_unit_zero szeros]
    simp only [View.readAt_eq_ld, Memref.IsWhole.read_unread, View.ld_unit_zero (S := S1x4096) szeros,
      View.ld_unit_zero (S := S64x4096) szeros, View.ld_unit_zero (S := S2048x64) szeros,
      View.readCov_unit_zero (S := S2048x64) _ szeros]
  iexists _; isplitr
  swap; · iexact HD
  ipureintro
  sl_unfold_words
  rw [View.read_writes_eq_canon _ _ _ (fun y => ⟨_, List.mem_cons.mpr (Or.inl rfl), View.mem_set_unit_zero szeros Facts₀.inb_S2048x64_S2048x64_0_0 y⟩), View.canon_cons_unit_zero szeros]
  simp only [View.readAt_eq_ld, Memref.IsWhole.read_unread, View.ld_unit_zero (S := S1x4096) szeros,
    View.ld_unit_zero (S := S64x4096) szeros, View.ld_unit_zero (S := S2048x64) szeros,
    View.readCov_unit_zero (S := S2048x64) _ szeros]

end Cert.KernelIdeal.Hand

end
-- ==== Proof.KI.Scatter1.lean ====
import proofs.«404774_j249108103934_2_alg».proof.Proof.KI.ScatterBody

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev scr1 : Memref sig .tc .vmem S2048x64 .f32 := Memref.whole cc1_scratch0

abbrev srest1 (c : Dev nD) : sProp 𝕄 :=
  Pipeline.scopedRestBut (Ix := Unit) (Name := ℕ) (U := UR sig nD τ) (Lvl := ℕ) (Val := Elt F) spec1 c [cc1_scratch0]

def sstep1 (c : Dev nD) (t : Fin cfg1.N) (xs : Vec F S2048x64 .f32) : Vec F S2048x64 .f32 :=
  k1_pay2 (grid1.coords t) (iblk1 V c 0 t) (iblk1 V c 1 t) xs

-- the accumulator after point n: a fold over the 489 edge blocks of one node block, restarted at each new node block
def sacc1 (c : Dev nD) : (n : ℕ) → n < cfg1.N → Vec F S2048x64 .f32
  | 0, hn => sstep1 V c ⟨0, hn⟩ k1_pay1
  | n + 1, hn => sstep1 V c ⟨n + 1, hn⟩ (if (n + 1) % 489 = 0 then k1_pay1 else sacc1 c n (Nat.lt_of_succ_lt hn))

theorem sacc1_reset (c : Dev nD) (n : ℕ) (hn : n < cfg1.N) (h : n % 489 = 0) :
    sacc1 V c n hn = sstep1 V c ⟨n, hn⟩ k1_pay1 := by
  cases n with
  | zero => rfl
  | succ n => show sstep1 V c _ (if (n + 1) % 489 = 0 then _ else _) = _; rw [if_pos h]

theorem sacc1_step (c : Dev nD) (n : ℕ) (hn : n + 1 < cfg1.N) (h : ¬(n + 1) % 489 = 0) :
    sacc1 V c (n + 1) hn = sstep1 V c ⟨n + 1, hn⟩ (sacc1 V c n (Nat.lt_of_succ_lt hn)) := by
  show sstep1 V c _ (if (n + 1) % 489 = 0 then _ else _) = _; rw [if_neg h]

def sPhi1 (c : Dev nD) : (n : ℕ) → n ≤ cfg1.N → sProp 𝕄
  | 0, _ => Pipeline.ΦA spec1 c
  | n + 1, hn => iprop(owns (c : Thread nD τ) scr1 fullShare (sacc1 V c n hn)
      ∗ srest1 c
      ∗ (∃ r, prngReg c r))

def sdat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => sacc1 V c t.val t.isLt
  Φ t := sPhi1 V c t.val (Nat.le_of_lt_succ t.isLt)
  q _ := fullShare
  owed _ := 0

theorem sA1 (c : Dev nD) (w : Fin cfg1.W) : (sdat1 V c).A w = V c (Pipeline.arrRef spec1 w) := by
  dsimp only [sdat1]

theorem safter1_0 (c : Dev nD) (t : Fin cfg1.N) : (sdat1 V c).after 0 t = iblk1 V c 0 t := by dsimp only [sdat1]

theorem safter1_1 (c : Dev nD) (t : Fin cfg1.N) : (sdat1 V c).after 1 t = iblk1 V c 1 t := by dsimp only [sdat1]

theorem safter1_2 (c : Dev nD) (t : Fin cfg1.N) : (sdat1 V c).after 2 t = sacc1 V c t.val t.isLt := by dsimp only [sdat1]

abbrev sst1_0 (t : Fin cfg1.N) : Memref sig .tc .vmem S1x4096 .i32 := win1_0.stage (cfg1.slots t 0)

abbrev shs1_0 (t : Fin cfg1.N) : (sst1_0 t).IsWhole := Facts₀.hstage1_0 ((cfg1.slots t 0).cast Facts₀.nbuf1_0)

abbrev sst1_1 (t : Fin cfg1.N) : Memref sig .tc .vmem S64x4096 .f32 := win1_1.stage (cfg1.slots t 1)

abbrev shs1_1 (t : Fin cfg1.N) : (sst1_1 t).IsWhole := Facts₀.hstage1_1 ((cfg1.slots t 1).cast Facts₀.nbuf1_1)

abbrev sst1_2 (t : Fin cfg1.N) : Memref sig .tc .vmem S2048x64 .f32 := win1_2.stage (cfg1.slots t 2)

abbrev shs1_2 (t : Fin cfg1.N) : (sst1_2 t).IsWhole := Facts₀.hstage1_2 ((cfg1.slots t 2).cast Facts₀.nbuf1_2)

abbrev sbodyAt1 (t : Fin cfg1.N) : Prog (TpuEff nD τ sig (Elt F) Λ₀ .tc) PUnit :=
  cc1__scatter_kernel (grid1.coords t) (sst1_0 t) (shs1_0 t) (sst1_1 t) (shs1_1 t) (sst1_2 t) (shs1_2 t)
    scr1 (Memref.isWhole_whole _)

theorem sidle1_2 (t : Fin cfg1.N) (h : ¬t.val % 489 = 488) : cfg1.idle 2 (grid1.coords t) = true := by
  show (!(k1_cond2 (grid1.coords t) == 1#1)) = true
  rw [Bool.not_eq_true', beq_eq_false_iff_ne]
  exact fun hc => h ((scondC_iff t).mp hc)

theorem slive1_2 (t : Fin cfg1.N) (h : t.val % 489 = 488) : cfg1.idle 2 (grid1.coords t) = false := by
  show (!(k1_cond2 (grid1.coords t) == 1#1)) = false
  rw [Bool.not_eq_false', beq_iff_eq]
  exact (scondC_iff t).mpr h

theorem snoflush1_2 (t : Fin cfg1.N) (h : ¬t.val % 489 = 488) : (cfg1.win 2).flush t = false := by
  have hlt := t.isLt
  have hN : cfg1.N = 36186 := N_1
  have hNg : cfg1.grid.N = 36186 := N_1
  unfold Pipeline.Window.flush
  rw [Bool.and_eq_false_iff]; right
  rw [Bool.or_eq_false_iff]
  refine ⟨decide_eq_false (by omega), decide_eq_false ?_⟩
  rintro ⟨hnext, hne⟩
  apply hne
  show cc1_transform_2 (grid1.coords ⟨t.val + 1, hnext⟩) = cc1_transform_2 (grid1.coords t)
  apply Facts₀.hreads1_2
  intro a ha
  match a, ha with
  | ⟨0, _⟩, _ =>
    exact Fin.ext ((scoordA ⟨t.val + 1, hnext⟩).trans ((show (t.val + 1) / 489 = t.val / 489 by omega).trans (scoordA t).symm))
  | ⟨1, _⟩, ha => exact absurd (show false = true from ha) Bool.false_ne_true

theorem sPhiA1 (c : Dev nD) :
    (Pipeline.ΦA spec1 c : sProp 𝕄)
      = iprop((∃ d, owns (c : Thread nD τ) scr1 fullShare d)
          ∗ srest1 c
          ∗ (∃ r, prngReg c r)) := by
  unfold Pipeline.ΦA; rw [scopedRest1_split]; simp only [scr1, owns_whole]
  exact BI.equiv_iff.mp ⟨sep_assoc, sep_assoc'⟩

theorem sPhi1_pos (c : Dev nD) (n : ℕ) (h : n ≤ cfg1.N) (hz : n ≠ 0) :
    sPhi1 V c n h = iprop(owns (c : Thread nD τ) scr1 fullShare (sacc1 V c (n - 1) (by omega))
      ∗ srest1 c
      ∗ (∃ r, prngReg c r)) := by
  cases n with
  | zero => exact absurd rfl hz
  | succ n => rfl

theorem sPhi1_castSucc (c : Dev nD) (t : Fin cfg1.N) :
    (sdat1 V c).Φ t.castSucc = sPhi1 V c t.val (Nat.le_of_lt t.isLt) := by
  dsimp only [sdat1]; simp only [Fin.coe_castSucc]

theorem sPhi1_succ (c : Dev nD) (t : Fin cfg1.N) :
    (sdat1 V c).Φ t.succ = iprop(owns (c : Thread nD τ) scr1 fullShare (sacc1 V c t.val t.isLt)
      ∗ srest1 c
      ∗ (∃ r, prngReg c r)) := rfl

theorem sPhi1_some (c : Dev nD) (n : ℕ) (h : n ≤ cfg1.N) :
    sPhi1 V c n h ⊢ iprop((∃ d, owns (c : Thread nD τ) scr1 fullShare d) ∗ srest1 c ∗ (∃ r, prngReg c r)) := by
  cases n with
  | zero => rw [show sPhi1 V c 0 h = Pipeline.ΦA spec1 c from rfl, sPhiA1]
  | succ n =>
    show iprop(owns (c : Thread nD τ) scr1 fullShare (sacc1 V c n h) ∗ srest1 c ∗ (∃ r, prngReg c r)) ⊢ _
    iintro ⟨HS, HR, Hg⟩
    iframe HR Hg
    iexists _; iexact HS

theorem sacc1_pos (c : Dev nD) (t : Fin cfg1.N) (h : ¬t.val % 489 = 0) :
    sacc1 V c t.val t.isLt = sstep1 V c t (sacc1 V c (t.val - 1) (Nat.lt_of_le_of_lt (Nat.sub_le _ _) t.isLt)) := by
  obtain ⟨n, hn⟩ := t
  cases n with
  | zero => exact absurd (Nat.zero_mod _) h
  | succ n => exact sacc1_step V c n hn h

theorem sbefore1_0 (c : Dev nD) (t : Fin cfg1.N) (d) : (sdat1 V c).before 0 t d = iblk1 V c 0 t :=
  ((sdat1 V c).before_in_eq_fetched 0 rfl (fun _ => rfl) (fun _ _ _ => rfl)
    (fun t => by rw [safter1_0]; unfold Dat.blockOf iblk1; rw [sA1]) t d).trans
    (by unfold Dat.fetched Dat.blockOf iblk1; rw [sA1]; rfl)

theorem sbefore1_1 (c : Dev nD) (t : Fin cfg1.N) (d) : (sdat1 V c).before 1 t d = iblk1 V c 1 t :=
  ((sdat1 V c).before_in_eq_fetched 1 rfl (fun _ => rfl) (fun _ _ _ => rfl)
    (fun t => by rw [safter1_1]; unfold Dat.blockOf iblk1; rw [sA1]) t d).trans
    (by unfold Dat.fetched Dat.blockOf iblk1; rw [sA1]; rfl)

def spre1 (c : Dev nD) (t : Fin cfg1.N) : sProp 𝕄 :=
  iprop((sdat1 V c).Φ t.castSucc ∗ (sdat1 V c).owesAt () t.castSucc
    ∗ (∃ d, owns (c : Thread nD τ) (sst1_0 t) fullShare ((sdat1 V c).before 0 t d))
    ∗ (∃ d, owns (c : Thread nD τ) (sst1_1 t) fullShare ((sdat1 V c).before 1 t d))
    ∗ (∃ d, owns (c : Thread nD τ) (sst1_2 t) fullShare ((sdat1 V c).before 2 t d)))

def spost1 (c : Dev nD) (t : Fin cfg1.N) : sProp 𝕄 :=
  iprop((sdat1 V c).Φ t.succ ∗ (sdat1 V c).owesAt () t.succ
    ∗ (sdat1 V c).leavesExact 0 t ∗ (sdat1 V c).leavesExact 1 t ∗ (sdat1 V c).leavesExact 2 t)

theorem ssound1 (c : Dev nD) (t : Fin cfg1.N) :
    spre1 V c t ⊢ wp frame (wpE (defs₀ (F := F)) Variants.none c none) Set.univ (sbodyAt1 t) (fun _ => spost1 V c t) := by
  unfold spre1 spost1 sbodyAt1
  simp only [sbefore1_0, sbefore1_1]
  rw [show (sdat1 V c).owesAt () t.succ = (sdat1 V c).owesAt () t.castSucc from rfl]
  rw [sPhi1_succ, sPhi1_castSucc]
  rw [show (sdat1 V c).leavesExact 0 t = owns (c : Thread nD τ) (sst1_0 t) fullShare ((sdat1 V c).after 0 t) from rfl, safter1_0,
    show (sdat1 V c).leavesExact 1 t = owns (c : Thread nD τ) (sst1_1 t) fullShare ((sdat1 V c).after 1 t) from rfl, safter1_1]
  by_cases hC : t.val % 489 = 488
  · have hA : ¬t.val % 489 = 0 := by omega
    have hz : t.val ≠ 0 := fun e => hA (by rw [e])
    rw [show (sdat1 V c).leavesExact 2 t = owns (c : Thread nD τ) (sst1_2 t) fullShare ((sdat1 V c).after 2 t) from by
      unfold Dat.leavesExact; rw [slive1_2 t hC], safter1_2, sacc1_pos V c t hA, sPhi1_pos V c _ _ hz]
    unfold sstep1
    iintro ⟨⟨HS, HR, Hg⟩, Ho, ⟨%dA, HA⟩, ⟨%dB, HB⟩, ⟨%dD, HD⟩⟩
    iapply (skernelC c Set.univ (grid1.coords t) (sst1_0 t) (shs1_0 t) (sst1_1 t) (shs1_1 t) (sst1_2 t) (shs1_2 t)
        scr1 (Memref.isWhole_whole _) (fun hc => hA ((scondA_iff t).mp hc)) ((scondC_iff t).mpr hC)
        (iblk1 V c 0 t) (iblk1 V c 1 t) (sacc1 V c (t.val - 1) (Nat.lt_of_le_of_lt (Nat.sub_le _ _) t.isLt)) _)
    iframe HA HB HS
    isplitl [HD]; · iexists _; iexact HD
    iintro ⟨HA, HB, HS, HD⟩
    iframe
  · rw [Dat.leavesExact_idle (sdat1 V c) 2 t (sidle1_2 t hC) (snoflush1_2 t hC)]
    by_cases hA : t.val % 489 = 0
    · rw [sacc1_reset V c t.val t.isLt hA]
      unfold sstep1
      refine (sep_mono (sPhi1_some V c _ _) .rfl).trans ?_
      iintro ⟨⟨⟨%ds, HS⟩, HR, Hg⟩, Ho, ⟨%dA, HA⟩, ⟨%dB, HB⟩, HD⟩
      iapply (skernelA c Set.univ (grid1.coords t) (sst1_0 t) (shs1_0 t) (sst1_1 t) (shs1_1 t) (sst1_2 t) (shs1_2 t)
        scr1 (Memref.isWhole_whole _) ((scondA_iff t).mpr hA) (fun hc => hC ((scondC_iff t).mp hc))
        (iblk1 V c 0 t) (iblk1 V c 1 t) _)
      iframe HA HB
      isplitl [HS]; · iexists _; iexact HS
      iintro ⟨HA, HB, HS⟩
      iframe
    · have hz : t.val ≠ 0 := fun e => hA (by rw [e])
      rw [sacc1_pos V c t hA, sPhi1_pos V c _ _ hz]
      unfold sstep1
      iintro ⟨⟨HS, HR, Hg⟩, Ho, ⟨%dA, HA⟩, ⟨%dB, HB⟩, HD⟩
      iapply (skernelB c Set.univ (grid1.coords t) (sst1_0 t) (shs1_0 t) (sst1_1 t) (shs1_1 t) (sst1_2 t) (shs1_2 t)
        scr1 (Memref.isWhole_whole _) (fun hc => hA ((scondA_iff t).mp hc)) (fun hc => hC ((scondC_iff t).mp hc))
        (iblk1 V c 0 t) (iblk1 V c 1 t) (sacc1 V c (t.val - 1) (Nat.lt_of_le_of_lt (Nat.sub_le _ _) t.isLt)) _)
      iframe HA HB HS
      iintro ⟨HA, HB, HS⟩
      iframe

theorem sbody1 (c : Dev nD) : BodyObligation (sdat1 (F := F) V c) (defs₀ (F := F)) Variants.none () Set.univ := fun t => by
  rw [bigSep_W1, bigSep_W1]
  exact ssound1 V c t

theorem shin1 (c : Dev nD) : (Pipeline.ΦA spec1 c : sProp 𝕄) ⊢ (sdat1 V c).Φ 0 := by
  rw [show (sdat1 V c).Φ 0 = sPhi1 V c 0 (Nat.zero_le _) from rfl]
  exact .rfl

theorem shout1 (c : Dev nD) : (sdat1 V c).Φ (Fin.last cfg1.N) ⊢ (Pipeline.ΦA spec1 c : sProp 𝕄) := by
  rw [show (sdat1 V c).Φ (Fin.last cfg1.N) = sPhi1 V c (Fin.last cfg1.N).val (Nat.le_of_lt_succ (Fin.last cfg1.N).isLt) from rfl,
    sPhiA1]
  exact sPhi1_some V c _ _

end Cert.KernelIdeal.Hand

end
-- ==== Proof.KI.Gather2.lean ====
import proofs.«404774_j249108103934_2_alg».proof.Proof.KI.GatherBody

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scr2 : Memref sig .tc .vmem S64x4096 .f32 := Memref.whole cc2_scratch0

abbrev grest2 (c : Dev nD) : sProp 𝕄 :=
  Pipeline.scopedRestBut (Ix := Unit) (Name := ℕ) (U := UR sig nD τ) (Lvl := ℕ) (Val := Elt F) spec2 c [cc2_scratch0]

def gstep2 (c : Dev nD) (t : Fin cfg2.N) (xs : Vec F S64x4096 .f32) : Vec F S64x4096 .f32 :=
  k0_pay2 (grid2.coords t) (iblk2 V c 0 t) (iblk2 V c 1 t) (iblk2 V c 2 t) xs

-- the accumulator after point n: a fold over the 74 node blocks of one edge block, restarted at each new edge block
def gacc2 (c : Dev nD) : (n : ℕ) → n < cfg2.N → Vec F S64x4096 .f32
  | 0, hn => gstep2 V c ⟨0, hn⟩ k0_pay1
  | n + 1, hn => gstep2 V c ⟨n + 1, hn⟩ (if (n + 1) % 74 = 0 then k0_pay1 else gacc2 c n (Nat.lt_of_succ_lt hn))

theorem gacc2_reset (c : Dev nD) (n : ℕ) (hn : n < cfg2.N) (h : n % 74 = 0) :
    gacc2 V c n hn = gstep2 V c ⟨n, hn⟩ k0_pay1 := by
  cases n with
  | zero => rfl
  | succ n => show gstep2 V c _ (if (n + 1) % 74 = 0 then _ else _) = _; rw [if_pos h]

theorem gacc2_step (c : Dev nD) (n : ℕ) (hn : n + 1 < cfg2.N) (h : ¬(n + 1) % 74 = 0) :
    gacc2 V c (n + 1) hn = gstep2 V c ⟨n + 1, hn⟩ (gacc2 V c n (Nat.lt_of_succ_lt hn)) := by
  show gstep2 V c _ (if (n + 1) % 74 = 0 then _ else _) = _; rw [if_neg h]

def gPhi2 (c : Dev nD) : (n : ℕ) → n ≤ cfg2.N → sProp 𝕄
  | 0, _ => Pipeline.ΦA spec2 c
  | n + 1, hn => iprop(owns (c : Thread nD τ) scr2 fullShare (gacc2 V c n hn)
      ∗ grest2 c
      ∗ (∃ r, prngReg c r))

def gdat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => gacc2 V c t.val t.isLt
  Φ t := gPhi2 V c t.val (Nat.le_of_lt_succ t.isLt)
  q _ := fullShare
  owed _ := 0

theorem gA2 (c : Dev nD) (w : Fin cfg2.W) : (gdat2 V c).A w = V c (Pipeline.arrRef spec2 w) := by
  dsimp only [gdat2]

theorem gafter2_0 (c : Dev nD) (t : Fin cfg2.N) : (gdat2 V c).after 0 t = iblk2 V c 0 t := by dsimp only [gdat2]

theorem gafter2_1 (c : Dev nD) (t : Fin cfg2.N) : (gdat2 V c).after 1 t = iblk2 V c 1 t := by dsimp only [gdat2]

theorem gafter2_2 (c : Dev nD) (t : Fin cfg2.N) : (gdat2 V c).after 2 t = iblk2 V c 2 t := by dsimp only [gdat2]

theorem gafter2_3 (c : Dev nD) (t : Fin cfg2.N) : (gdat2 V c).after 3 t = gacc2 V c t.val t.isLt := by dsimp only [gdat2]

abbrev gst2_0 (t : Fin cfg2.N) : Memref sig .tc .vmem S1x4096 .i32 := win2_0.stage (cfg2.slots t 0)

abbrev ghs2_0 (t : Fin cfg2.N) : (gst2_0 t).IsWhole := hstage2_0 ((cfg2.slots t 0).cast nbuf2_0)

abbrev gst2_1 (t : Fin cfg2.N) : Memref sig .tc .vmem S1x4096 .f32 := win2_1.stage (cfg2.slots t 1)

abbrev ghs2_1 (t : Fin cfg2.N) : (gst2_1 t).IsWhole := hstage2_1 ((cfg2.slots t 1).cast nbuf2_1)

abbrev gst2_2 (t : Fin cfg2.N) : Memref sig .tc .vmem S2048x64 .f32 := win2_2.stage (cfg2.slots t 2)

abbrev ghs2_2 (t : Fin cfg2.N) : (gst2_2 t).IsWhole := hstage2_2 ((cfg2.slots t 2).cast nbuf2_2)

abbrev gst2_3 (t : Fin cfg2.N) : Memref sig .tc .vmem S64x4096 .f32 := win2_3.stage (cfg2.slots t 3)

abbrev ghs2_3 (t : Fin cfg2.N) : (gst2_3 t).IsWhole := hstage2_3 ((cfg2.slots t 3).cast nbuf2_3)

abbrev gbodyAt2 (t : Fin cfg2.N) : Prog (TpuEff nD τ sig (Elt F) Λ₀ .tc) PUnit :=
  cc0__gather_kernel (grid2.coords t) (gst2_0 t) (ghs2_0 t) (gst2_1 t) (ghs2_1 t) (gst2_2 t) (ghs2_2 t) (gst2_3 t) (ghs2_3 t)
    scr2 (Memref.isWhole_whole _)

theorem gidle2_3 (t : Fin cfg2.N) (h : ¬t.val % 74 = 73) : cfg2.idle 3 (grid2.coords t) = true := by
  show (!(k0_cond2 (grid2.coords t) == 1#1)) = true
  rw [Bool.not_eq_true', beq_eq_false_iff_ne]
  exact fun hc => h ((gcondC_iff t).mp hc)

theorem glive2_3 (t : Fin cfg2.N) (h : t.val % 74 = 73) : cfg2.idle 3 (grid2.coords t) = false := by
  show (!(k0_cond2 (grid2.coords t) == 1#1)) = false
  rw [Bool.not_eq_false', beq_iff_eq]
  exact (gcondC_iff t).mpr h

theorem gnoflush2_3 (t : Fin cfg2.N) (h : ¬t.val % 74 = 73) : (cfg2.win 3).flush t = false := by
  have hlt := t.isLt
  have hN : cfg2.N = 36186 := N_2
  have hNg : cfg2.grid.N = 36186 := N_2
  unfold Pipeline.Window.flush
  rw [Bool.and_eq_false_iff]; right
  rw [Bool.or_eq_false_iff]
  refine ⟨decide_eq_false (by omega), decide_eq_false ?_⟩
  rintro ⟨hnext, hne⟩
  apply hne
  show cc2_transform_3 (grid2.coords ⟨t.val + 1, hnext⟩) = cc2_transform_3 (grid2.coords t)
  apply Facts₀.hreads2_3
  intro a ha
  match a, ha with
  | ⟨0, _⟩, _ =>
    exact Fin.ext ((gcoordA ⟨t.val + 1, hnext⟩).trans ((show (t.val + 1) / 74 = t.val / 74 by omega).trans (gcoordA t).symm))
  | ⟨1, _⟩, ha => exact absurd (show false = true from ha) Bool.false_ne_true

theorem gPhiA2 (c : Dev nD) :
    (Pipeline.ΦA spec2 c : sProp 𝕄)
      = iprop((∃ d, owns (c : Thread nD τ) scr2 fullShare d)
          ∗ grest2 c
          ∗ (∃ r, prngReg c r)) := by
  unfold Pipeline.ΦA; rw [scopedRest2_split]; simp only [scr2, owns_whole]
  exact BI.equiv_iff.mp ⟨sep_assoc, sep_assoc'⟩

theorem gPhi2_pos (c : Dev nD) (n : ℕ) (h : n ≤ cfg2.N) (hz : n ≠ 0) :
    gPhi2 V c n h = iprop(owns (c : Thread nD τ) scr2 fullShare (gacc2 V c (n - 1) (by omega))
      ∗ grest2 c
      ∗ (∃ r, prngReg c r)) := by
  cases n with
  | zero => exact absurd rfl hz
  | succ n => rfl

theorem gPhi2_castSucc (c : Dev nD) (t : Fin cfg2.N) :
    (gdat2 V c).Φ t.castSucc = gPhi2 V c t.val (Nat.le_of_lt t.isLt) := by
  dsimp only [gdat2]; simp only [Fin.coe_castSucc]

theorem gPhi2_succ (c : Dev nD) (t : Fin cfg2.N) :
    (gdat2 V c).Φ t.succ = iprop(owns (c : Thread nD τ) scr2 fullShare (gacc2 V c t.val t.isLt)
      ∗ grest2 c
      ∗ (∃ r, prngReg c r)) := rfl

theorem gbefore2_0 (c : Dev nD) (t : Fin cfg2.N) (d) : (gdat2 V c).before 0 t d = iblk2 V c 0 t :=
  ((gdat2 V c).before_in_eq_fetched 0 rfl (fun _ => rfl) (fun _ _ _ => rfl)
    (fun t => by rw [gafter2_0]; unfold Dat.blockOf iblk2; rw [gA2]) t d).trans
    (by unfold Dat.fetched Dat.blockOf iblk2; rw [gA2]; rfl)

theorem gbefore2_1 (c : Dev nD) (t : Fin cfg2.N) (d) : (gdat2 V c).before 1 t d = iblk2 V c 1 t :=
  ((gdat2 V c).before_in_eq_fetched 1 rfl (fun _ => rfl) (fun _ _ _ => rfl)
    (fun t => by rw [gafter2_1]; unfold Dat.blockOf iblk2; rw [gA2]) t d).trans
    (by unfold Dat.fetched Dat.blockOf iblk2; rw [gA2]; rfl)

theorem gbefore2_2 (c : Dev nD) (t : Fin cfg2.N) (d) : (gdat2 V c).before 2 t d = iblk2 V c 2 t :=
  ((gdat2 V c).before_in_eq_fetched 2 rfl (fun _ => rfl) (fun _ _ _ => rfl)
    (fun t => by rw [gafter2_2]; unfold Dat.blockOf iblk2; rw [gA2]) t d).trans
    (by unfold Dat.fetched Dat.blockOf iblk2; rw [gA2]; rfl)

theorem gPhi2_some (c : Dev nD) (n : ℕ) (h : n ≤ cfg2.N) :
    gPhi2 V c n h ⊢ iprop((∃ d, owns (c : Thread nD τ) scr2 fullShare d) ∗ grest2 c ∗ (∃ r, prngReg c r)) := by
  cases n with
  | zero => rw [show gPhi2 V c 0 h = Pipeline.ΦA spec2 c from rfl, gPhiA2]
  | succ n =>
    show iprop(owns (c : Thread nD τ) scr2 fullShare (gacc2 V c n h) ∗ grest2 c ∗ (∃ r, prngReg c r)) ⊢ _
    iintro ⟨HS, HR, Hg⟩
    iframe HR Hg
    iexists _; iexact HS

theorem gacc2_pos (c : Dev nD) (t : Fin cfg2.N) (h : ¬t.val % 74 = 0) :
    gacc2 V c t.val t.isLt = gstep2 V c t (gacc2 V c (t.val - 1) (Nat.lt_of_le_of_lt (Nat.sub_le _ _) t.isLt)) := by
  obtain ⟨n, hn⟩ := t
  cases n with
  | zero => exact absurd (Nat.zero_mod _) h
  | succ n => exact gacc2_step V c n hn h

def gpre2 (c : Dev nD) (t : Fin cfg2.N) : sProp 𝕄 :=
  iprop((gdat2 V c).Φ t.castSucc ∗ (gdat2 V c).owesAt () t.castSucc
    ∗ (∃ d, owns (c : Thread nD τ) (gst2_0 t) fullShare ((gdat2 V c).before 0 t d))
    ∗ (∃ d, owns (c : Thread nD τ) (gst2_1 t) fullShare ((gdat2 V c).before 1 t d))
    ∗ (∃ d, owns (c : Thread nD τ) (gst2_2 t) fullShare ((gdat2 V c).before 2 t d))
    ∗ (∃ d, owns (c : Thread nD τ) (gst2_3 t) fullShare ((gdat2 V c).before 3 t d)))

def gpost2 (c : Dev nD) (t : Fin cfg2.N) : sProp 𝕄 :=
  iprop((gdat2 V c).Φ t.succ ∗ (gdat2 V c).owesAt () t.succ
    ∗ (gdat2 V c).leavesExact 0 t ∗ (gdat2 V c).leavesExact 1 t ∗ (gdat2 V c).leavesExact 2 t ∗ (gdat2 V c).leavesExact 3 t)

theorem gsound2 (c : Dev nD) (t : Fin cfg2.N) :
    gpre2 V c t ⊢ wp frame (wpE (defs₀ (F := F)) Variants.none c none) Set.univ (gbodyAt2 t) (fun _ => gpost2 V c t) := by
  unfold gpre2 gpost2 gbodyAt2
  simp only [gbefore2_0, gbefore2_1, gbefore2_2]
  rw [show (gdat2 V c).owesAt () t.succ = (gdat2 V c).owesAt () t.castSucc from rfl]
  rw [gPhi2_succ, gPhi2_castSucc]
  rw [show (gdat2 V c).leavesExact 0 t = owns (c : Thread nD τ) (gst2_0 t) fullShare ((gdat2 V c).after 0 t) from rfl, gafter2_0,
    show (gdat2 V c).leavesExact 1 t = owns (c : Thread nD τ) (gst2_1 t) fullShare ((gdat2 V c).after 1 t) from rfl, gafter2_1,
    show (gdat2 V c).leavesExact 2 t = owns (c : Thread nD τ) (gst2_2 t) fullShare ((gdat2 V c).after 2 t) from rfl, gafter2_2]
  by_cases hC : t.val % 74 = 73
  · have hA : ¬t.val % 74 = 0 := by omega
    have hz : t.val ≠ 0 := fun e => hA (by rw [e])
    rw [show (gdat2 V c).leavesExact 3 t = owns (c : Thread nD τ) (gst2_3 t) fullShare ((gdat2 V c).after 3 t) from by
      unfold Dat.leavesExact; rw [glive2_3 t hC], gafter2_3, gacc2_pos V c t hA, gPhi2_pos V c _ _ hz]
    unfold gstep2
    iintro ⟨⟨HS, HR, Hg⟩, Ho, ⟨%dA, HA⟩, ⟨%dB, HB⟩, ⟨%dC, HC⟩, ⟨%dD, HD⟩⟩
    iapply (gkernelC c Set.univ (grid2.coords t) (gst2_0 t) (ghs2_0 t) (gst2_1 t) (ghs2_1 t) (gst2_2 t) (ghs2_2 t) (gst2_3 t) (ghs2_3 t)
        scr2 (Memref.isWhole_whole _) (fun hc => hA ((gcondA_iff t).mp hc)) ((gcondC_iff t).mpr hC)
        (iblk2 V c 0 t) (iblk2 V c 1 t) (iblk2 V c 2 t) (gacc2 V c (t.val - 1) (Nat.lt_of_le_of_lt (Nat.sub_le _ _) t.isLt)) _)
    iframe HA HB HC HS
    isplitl [HD]; · iexists _; iexact HD
    iintro ⟨HA, HB, HC, HS, HD⟩
    iframe
  · rw [Dat.leavesExact_idle (gdat2 V c) 3 t (gidle2_3 t hC) (gnoflush2_3 t hC)]
    by_cases hA : t.val % 74 = 0
    · rw [gacc2_reset V c t.val t.isLt hA]
      unfold gstep2
      refine (sep_mono (gPhi2_some V c _ _) .rfl).trans ?_
      iintro ⟨⟨⟨%ds, HS⟩, HR, Hg⟩, Ho, ⟨%dA, HA⟩, ⟨%dB, HB⟩, ⟨%dC, HC⟩, HD⟩
      iapply (gkernelA c Set.univ (grid2.coords t) (gst2_0 t) (ghs2_0 t) (gst2_1 t) (ghs2_1 t) (gst2_2 t) (ghs2_2 t) (gst2_3 t) (ghs2_3 t)
        scr2 (Memref.isWhole_whole _) ((gcondA_iff t).mpr hA) (fun hc => hC ((gcondC_iff t).mp hc))
        (iblk2 V c 0 t) (iblk2 V c 1 t) (iblk2 V c 2 t) _)
      iframe HA HB HC
      isplitl [HS]; · iexists _; iexact HS
      iintro ⟨HA, HB, HC, HS⟩
      iframe
    · have hz : t.val ≠ 0 := fun e => hA (by rw [e])
      rw [gacc2_pos V c t hA, gPhi2_pos V c _ _ hz]
      unfold gstep2
      iintro ⟨⟨HS, HR, Hg⟩, Ho, ⟨%dA, HA⟩, ⟨%dB, HB⟩, ⟨%dC, HC⟩, HD⟩
      iapply (gkernelB c Set.univ (grid2.coords t) (gst2_0 t) (ghs2_0 t) (gst2_1 t) (ghs2_1 t) (gst2_2 t) (ghs2_2 t) (gst2_3 t) (ghs2_3 t)
        scr2 (Memref.isWhole_whole _) (fun hc => hA ((gcondA_iff t).mp hc)) (fun hc => hC ((gcondC_iff t).mp hc))
        (iblk2 V c 0 t) (iblk2 V c 1 t) (iblk2 V c 2 t) (gacc2 V c (t.val - 1) (Nat.lt_of_le_of_lt (Nat.sub_le _ _) t.isLt)) _)
      iframe HA HB HC HS
      iintro ⟨HA, HB, HC, HS⟩
      iframe

theorem gbody2 (c : Dev nD) : BodyObligation (gdat2 (F := F) V c) (defs₀ (F := F)) Variants.none () Set.univ := fun t => by
  rw [bigSep_W2, bigSep_W2]
  exact gsound2 V c t

theorem ghin2 (c : Dev nD) : (Pipeline.ΦA spec2 c : sProp 𝕄) ⊢ (gdat2 V c).Φ 0 := by
  rw [show (gdat2 V c).Φ 0 = gPhi2 V c 0 (Nat.zero_le _) from rfl]
  exact .rfl

theorem ghout2 (c : Dev nD) : (gdat2 V c).Φ (Fin.last cfg2.N) ⊢ (Pipeline.ΦA spec2 c : sProp 𝕄) := by
  rw [show (gdat2 V c).Φ (Fin.last cfg2.N) = gPhi2 V c (Fin.last cfg2.N).val (Nat.le_of_lt_succ (Fin.last cfg2.N).isLt) from rfl,
    gPhiA2]
  exact gPhi2_some V c _ _

end Cert.KernelIdeal.Hand

end
-- ==== Proof.KI.Scatter3.lean ====
import proofs.«404774_j249108103934_2_alg».proof.Proof.KI.ScatterBody

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev scr3 : Memref sig .tc .vmem S2048x64 .f32 := Memref.whole cc3_scratch0

abbrev srest3 (c : Dev nD) : sProp 𝕄 :=
  Pipeline.scopedRestBut (Ix := Unit) (Name := ℕ) (U := UR sig nD τ) (Lvl := ℕ) (Val := Elt F) spec3 c [cc3_scratch0]

def sstep3 (c : Dev nD) (t : Fin cfg3.N) (xs : Vec F S2048x64 .f32) : Vec F S2048x64 .f32 :=
  k1_pay2 (grid3.coords t) (iblk3 V c 0 t) (iblk3 V c 1 t) xs

-- the accumulator after point n: a fold over the 489 edge blocks of one node block, restarted at each new node block
def sacc3 (c : Dev nD) : (n : ℕ) → n < cfg3.N → Vec F S2048x64 .f32
  | 0, hn => sstep3 V c ⟨0, hn⟩ k1_pay1
  | n + 1, hn => sstep3 V c ⟨n + 1, hn⟩ (if (n + 1) % 489 = 0 then k1_pay1 else sacc3 c n (Nat.lt_of_succ_lt hn))

theorem sacc3_reset (c : Dev nD) (n : ℕ) (hn : n < cfg3.N) (h : n % 489 = 0) :
    sacc3 V c n hn = sstep3 V c ⟨n, hn⟩ k1_pay1 := by
  cases n with
  | zero => rfl
  | succ n => show sstep3 V c _ (if (n + 1) % 489 = 0 then _ else _) = _; rw [if_pos h]

theorem sacc3_step (c : Dev nD) (n : ℕ) (hn : n + 1 < cfg3.N) (h : ¬(n + 1) % 489 = 0) :
    sacc3 V c (n + 1) hn = sstep3 V c ⟨n + 1, hn⟩ (sacc3 V c n (Nat.lt_of_succ_lt hn)) := by
  show sstep3 V c _ (if (n + 1) % 489 = 0 then _ else _) = _; rw [if_neg h]

def sPhi3 (c : Dev nD) : (n : ℕ) → n ≤ cfg3.N → sProp 𝕄
  | 0, _ => Pipeline.ΦA spec3 c
  | n + 1, hn => iprop(owns (c : Thread nD τ) scr3 fullShare (sacc3 V c n hn)
      ∗ srest3 c
      ∗ (∃ r, prngReg c r))

def sdat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => sacc3 V c t.val t.isLt
  Φ t := sPhi3 V c t.val (Nat.le_of_lt_succ t.isLt)
  q _ := fullShare
  owed _ := 0

theorem sA3 (c : Dev nD) (w : Fin cfg3.W) : (sdat3 V c).A w = V c (Pipeline.arrRef spec3 w) := by
  dsimp only [sdat3]

theorem safter3_0 (c : Dev nD) (t : Fin cfg3.N) : (sdat3 V c).after 0 t = iblk3 V c 0 t := by dsimp only [sdat3]

theorem safter3_1 (c : Dev nD) (t : Fin cfg3.N) : (sdat3 V c).after 1 t = iblk3 V c 1 t := by dsimp only [sdat3]

theorem safter3_2 (c : Dev nD) (t : Fin cfg3.N) : (sdat3 V c).after 2 t = sacc3 V c t.val t.isLt := by dsimp only [sdat3]

abbrev sst3_0 (t : Fin cfg3.N) : Memref sig .tc .vmem S1x4096 .i32 := win3_0.stage (cfg3.slots t 0)

abbrev shs3_0 (t : Fin cfg3.N) : (sst3_0 t).IsWhole := Facts₀.hstage3_0 ((cfg3.slots t 0).cast Facts₀.nbuf3_0)

abbrev sst3_1 (t : Fin cfg3.N) : Memref sig .tc .vmem S64x4096 .f32 := win3_1.stage (cfg3.slots t 1)

abbrev shs3_1 (t : Fin cfg3.N) : (sst3_1 t).IsWhole := Facts₀.hstage3_1 ((cfg3.slots t 1).cast Facts₀.nbuf3_1)

abbrev sst3_2 (t : Fin cfg3.N) : Memref sig .tc .vmem S2048x64 .f32 := win3_2.stage (cfg3.slots t 2)

abbrev shs3_2 (t : Fin cfg3.N) : (sst3_2 t).IsWhole := Facts₀.hstage3_2 ((cfg3.slots t 2).cast Facts₀.nbuf3_2)

abbrev sbodyAt3 (t : Fin cfg3.N) : Prog (TpuEff nD τ sig (Elt F) Λ₀ .tc) PUnit :=
  cc1__scatter_kernel (grid3.coords t) (sst3_0 t) (shs3_0 t) (sst3_1 t) (shs3_1 t) (sst3_2 t) (shs3_2 t)
    scr3 (Memref.isWhole_whole _)

theorem sidle3_2 (t : Fin cfg3.N) (h : ¬t.val % 489 = 488) : cfg3.idle 2 (grid3.coords t) = true := by
  show (!(k1_cond2 (grid3.coords t) == 1#1)) = true
  rw [Bool.not_eq_true', beq_eq_false_iff_ne]
  exact fun hc => h ((scondC_iff t).mp hc)

theorem slive3_2 (t : Fin cfg3.N) (h : t.val % 489 = 488) : cfg3.idle 2 (grid3.coords t) = false := by
  show (!(k1_cond2 (grid3.coords t) == 1#1)) = false
  rw [Bool.not_eq_false', beq_iff_eq]
  exact (scondC_iff t).mpr h

theorem snoflush3_2 (t : Fin cfg3.N) (h : ¬t.val % 489 = 488) : (cfg3.win 2).flush t = false := by
  have hlt := t.isLt
  have hN : cfg3.N = 36186 := N_3
  have hNg : cfg3.grid.N = 36186 := N_3
  unfold Pipeline.Window.flush
  rw [Bool.and_eq_false_iff]; right
  rw [Bool.or_eq_false_iff]
  refine ⟨decide_eq_false (by omega), decide_eq_false ?_⟩
  rintro ⟨hnext, hne⟩
  apply hne
  show cc3_transform_2 (grid3.coords ⟨t.val + 1, hnext⟩) = cc3_transform_2 (grid3.coords t)
  apply Facts₀.hreads3_2
  intro a ha
  match a, ha with
  | ⟨0, _⟩, _ =>
    exact Fin.ext ((scoordA ⟨t.val + 1, hnext⟩).trans ((show (t.val + 1) / 489 = t.val / 489 by omega).trans (scoordA t).symm))
  | ⟨1, _⟩, ha => exact absurd (show false = true from ha) Bool.false_ne_true

theorem sPhiA3 (c : Dev nD) :
    (Pipeline.ΦA spec3 c : sProp 𝕄)
      = iprop((∃ d, owns (c : Thread nD τ) scr3 fullShare d)
          ∗ srest3 c
          ∗ (∃ r, prngReg c r)) := by
  unfold Pipeline.ΦA; rw [scopedRest3_split]; simp only [scr3, owns_whole]
  exact BI.equiv_iff.mp ⟨sep_assoc, sep_assoc'⟩

theorem sPhi3_pos (c : Dev nD) (n : ℕ) (h : n ≤ cfg3.N) (hz : n ≠ 0) :
    sPhi3 V c n h = iprop(owns (c : Thread nD τ) scr3 fullShare (sacc3 V c (n - 1) (by omega))
      ∗ srest3 c
      ∗ (∃ r, prngReg c r)) := by
  cases n with
  | zero => exact absurd rfl hz
  | succ n => rfl

theorem sPhi3_castSucc (c : Dev nD) (t : Fin cfg3.N) :
    (sdat3 V c).Φ t.castSucc = sPhi3 V c t.val (Nat.le_of_lt t.isLt) := by
  dsimp only [sdat3]; simp only [Fin.coe_castSucc]

theorem sPhi3_succ (c : Dev nD) (t : Fin cfg3.N) :
    (sdat3 V c).Φ t.succ = iprop(owns (c : Thread nD τ) scr3 fullShare (sacc3 V c t.val t.isLt)
      ∗ srest3 c
      ∗ (∃ r, prngReg c r)) := rfl

theorem sPhi3_some (c : Dev nD) (n : ℕ) (h : n ≤ cfg3.N) :
    sPhi3 V c n h ⊢ iprop((∃ d, owns (c : Thread nD τ) scr3 fullShare d) ∗ srest3 c ∗ (∃ r, prngReg c r)) := by
  cases n with
  | zero => rw [show sPhi3 V c 0 h = Pipeline.ΦA spec3 c from rfl, sPhiA3]
  | succ n =>
    show iprop(owns (c : Thread nD τ) scr3 fullShare (sacc3 V c n h) ∗ srest3 c ∗ (∃ r, prngReg c r)) ⊢ _
    iintro ⟨HS, HR, Hg⟩
    iframe HR Hg
    iexists _; iexact HS

theorem sacc3_pos (c : Dev nD) (t : Fin cfg3.N) (h : ¬t.val % 489 = 0) :
    sacc3 V c t.val t.isLt = sstep3 V c t (sacc3 V c (t.val - 1) (Nat.lt_of_le_of_lt (Nat.sub_le _ _) t.isLt)) := by
  obtain ⟨n, hn⟩ := t
  cases n with
  | zero => exact absurd (Nat.zero_mod _) h
  | succ n => exact sacc3_step V c n hn h

theorem sbefore3_0 (c : Dev nD) (t : Fin cfg3.N) (d) : (sdat3 V c).before 0 t d = iblk3 V c 0 t :=
  ((sdat3 V c).before_in_eq_fetched 0 rfl (fun _ => rfl) (fun _ _ _ => rfl)
    (fun t => by rw [safter3_0]; unfold Dat.blockOf iblk3; rw [sA3]) t d).trans
    (by unfold Dat.fetched Dat.blockOf iblk3; rw [sA3]; rfl)

theorem sbefore3_1 (c : Dev nD) (t : Fin cfg3.N) (d) : (sdat3 V c).before 1 t d = iblk3 V c 1 t :=
  ((sdat3 V c).before_in_eq_fetched 1 rfl (fun _ => rfl) (fun _ _ _ => rfl)
    (fun t => by rw [safter3_1]; unfold Dat.blockOf iblk3; rw [sA3]) t d).trans
    (by unfold Dat.fetched Dat.blockOf iblk3; rw [sA3]; rfl)

def spre3 (c : Dev nD) (t : Fin cfg3.N) : sProp 𝕄 :=
  iprop((sdat3 V c).Φ t.castSucc ∗ (sdat3 V c).owesAt () t.castSucc
    ∗ (∃ d, owns (c : Thread nD τ) (sst3_0 t) fullShare ((sdat3 V c).before 0 t d))
    ∗ (∃ d, owns (c : Thread nD τ) (sst3_1 t) fullShare ((sdat3 V c).before 1 t d))
    ∗ (∃ d, owns (c : Thread nD τ) (sst3_2 t) fullShare ((sdat3 V c).before 2 t d)))

def spost3 (c : Dev nD) (t : Fin cfg3.N) : sProp 𝕄 :=
  iprop((sdat3 V c).Φ t.succ ∗ (sdat3 V c).owesAt () t.succ
    ∗ (sdat3 V c).leavesExact 0 t ∗ (sdat3 V c).leavesExact 1 t ∗ (sdat3 V c).leavesExact 2 t)

theorem ssound3 (c : Dev nD) (t : Fin cfg3.N) :
    spre3 V c t ⊢ wp frame (wpE (defs₀ (F := F)) Variants.none c none) Set.univ (sbodyAt3 t) (fun _ => spost3 V c t) := by
  unfold spre3 spost3 sbodyAt3
  simp only [sbefore3_0, sbefore3_1]
  rw [show (sdat3 V c).owesAt () t.succ = (sdat3 V c).owesAt () t.castSucc from rfl]
  rw [sPhi3_succ, sPhi3_castSucc]
  rw [show (sdat3 V c).leavesExact 0 t = owns (c : Thread nD τ) (sst3_0 t) fullShare ((sdat3 V c).after 0 t) from rfl, safter3_0,
    show (sdat3 V c).leavesExact 1 t = owns (c : Thread nD τ) (sst3_1 t) fullShare ((sdat3 V c).after 1 t) from rfl, safter3_1]
  by_cases hC : t.val % 489 = 488
  · have hA : ¬t.val % 489 = 0 := by omega
    have hz : t.val ≠ 0 := fun e => hA (by rw [e])
    rw [show (sdat3 V c).leavesExact 2 t = owns (c : Thread nD τ) (sst3_2 t) fullShare ((sdat3 V c).after 2 t) from by
      unfold Dat.leavesExact; rw [slive3_2 t hC], safter3_2, sacc3_pos V c t hA, sPhi3_pos V c _ _ hz]
    unfold sstep3
    iintro ⟨⟨HS, HR, Hg⟩, Ho, ⟨%dA, HA⟩, ⟨%dB, HB⟩, ⟨%dD, HD⟩⟩
    iapply (skernelC c Set.univ (grid3.coords t) (sst3_0 t) (shs3_0 t) (sst3_1 t) (shs3_1 t) (sst3_2 t) (shs3_2 t)
        scr3 (Memref.isWhole_whole _) (fun hc => hA ((scondA_iff t).mp hc)) ((scondC_iff t).mpr hC)
        (iblk3 V c 0 t) (iblk3 V c 1 t) (sacc3 V c (t.val - 1) (Nat.lt_of_le_of_lt (Nat.sub_le _ _) t.isLt)) _)
    iframe HA HB HS
    isplitl [HD]; · iexists _; iexact HD
    iintro ⟨HA, HB, HS, HD⟩
    iframe
  · rw [Dat.leavesExact_idle (sdat3 V c) 2 t (sidle3_2 t hC) (snoflush3_2 t hC)]
    by_cases hA : t.val % 489 = 0
    · rw [sacc3_reset V c t.val t.isLt hA]
      unfold sstep3
      refine (sep_mono (sPhi3_some V c _ _) .rfl).trans ?_
      iintro ⟨⟨⟨%ds, HS⟩, HR, Hg⟩, Ho, ⟨%dA, HA⟩, ⟨%dB, HB⟩, HD⟩
      iapply (skernelA c Set.univ (grid3.coords t) (sst3_0 t) (shs3_0 t) (sst3_1 t) (shs3_1 t) (sst3_2 t) (shs3_2 t)
        scr3 (Memref.isWhole_whole _) ((scondA_iff t).mpr hA) (fun hc => hC ((scondC_iff t).mp hc))
        (iblk3 V c 0 t) (iblk3 V c 1 t) _)
      iframe HA HB
      isplitl [HS]; · iexists _; iexact HS
      iintro ⟨HA, HB, HS⟩
      iframe
    · have hz : t.val ≠ 0 := fun e => hA (by rw [e])
      rw [sacc3_pos V c t hA, sPhi3_pos V c _ _ hz]
      unfold sstep3
      iintro ⟨⟨HS, HR, Hg⟩, Ho, ⟨%dA, HA⟩, ⟨%dB, HB⟩, HD⟩
      iapply (skernelB c Set.univ (grid3.coords t) (sst3_0 t) (shs3_0 t) (sst3_1 t) (shs3_1 t) (sst3_2 t) (shs3_2 t)
        scr3 (Memref.isWhole_whole _) (fun hc => hA ((scondA_iff t).mp hc)) (fun hc => hC ((scondC_iff t).mp hc))
        (iblk3 V c 0 t) (iblk3 V c 1 t) (sacc3 V c (t.val - 1) (Nat.lt_of_le_of_lt (Nat.sub_le _ _) t.isLt)) _)
      iframe HA HB HS
      iintro ⟨HA, HB, HS⟩
      iframe

theorem sbody3 (c : Dev nD) : BodyObligation (sdat3 (F := F) V c) (defs₀ (F := F)) Variants.none () Set.univ := fun t => by
  rw [bigSep_W3, bigSep_W3]
  exact ssound3 V c t

theorem shin3 (c : Dev nD) : (Pipeline.ΦA spec3 c : sProp 𝕄) ⊢ (sdat3 V c).Φ 0 := by
  rw [show (sdat3 V c).Φ 0 = sPhi3 V c 0 (Nat.zero_le _) from rfl]
  exact .rfl

theorem shout3 (c : Dev nD) : (sdat3 V c).Φ (Fin.last cfg3.N) ⊢ (Pipeline.ΦA spec3 c : sProp 𝕄) := by
  rw [show (sdat3 V c).Φ (Fin.last cfg3.N) = sPhi3 V c (Fin.last cfg3.N).val (Nat.le_of_lt_succ (Fin.last cfg3.N).isLt) from rfl,
    sPhiA3]
  exact sPhi3_some V c _ _

end Cert.KernelIdeal.Hand

end
-- ==== Proof.KI.Gather4.lean ====
import proofs.«404774_j249108103934_2_alg».proof.Proof.KI.GatherBody

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev scr4 : Memref sig .tc .vmem S64x4096 .f32 := Memref.whole cc4_scratch0

abbrev grest4 (c : Dev nD) : sProp 𝕄 :=
  Pipeline.scopedRestBut (Ix := Unit) (Name := ℕ) (U := UR sig nD τ) (Lvl := ℕ) (Val := Elt F) spec4 c [cc4_scratch0]

def gstep4 (c : Dev nD) (t : Fin cfg4.N) (xs : Vec F S64x4096 .f32) : Vec F S64x4096 .f32 :=
  k0_pay2 (grid4.coords t) (iblk4 V c 0 t) (iblk4 V c 1 t) (iblk4 V c 2 t) xs

-- the accumulator after point n: a fold over the 74 node blocks of one edge block, restarted at each new edge block
def gacc4 (c : Dev nD) : (n : ℕ) → n < cfg4.N → Vec F S64x4096 .f32
  | 0, hn => gstep4 V c ⟨0, hn⟩ k0_pay1
  | n + 1, hn => gstep4 V c ⟨n + 1, hn⟩ (if (n + 1) % 74 = 0 then k0_pay1 else gacc4 c n (Nat.lt_of_succ_lt hn))

theorem gacc4_reset (c : Dev nD) (n : ℕ) (hn : n < cfg4.N) (h : n % 74 = 0) :
    gacc4 V c n hn = gstep4 V c ⟨n, hn⟩ k0_pay1 := by
  cases n with
  | zero => rfl
  | succ n => show gstep4 V c _ (if (n + 1) % 74 = 0 then _ else _) = _; rw [if_pos h]

theorem gacc4_step (c : Dev nD) (n : ℕ) (hn : n + 1 < cfg4.N) (h : ¬(n + 1) % 74 = 0) :
    gacc4 V c (n + 1) hn = gstep4 V c ⟨n + 1, hn⟩ (gacc4 V c n (Nat.lt_of_succ_lt hn)) := by
  show gstep4 V c _ (if (n + 1) % 74 = 0 then _ else _) = _; rw [if_neg h]

def gPhi4 (c : Dev nD) : (n : ℕ) → n ≤ cfg4.N → sProp 𝕄
  | 0, _ => Pipeline.ΦA spec4 c
  | n + 1, hn => iprop(owns (c : Thread nD τ) scr4 fullShare (gacc4 V c n hn)
      ∗ grest4 c
      ∗ (∃ r, prngReg c r))

def gdat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => gacc4 V c t.val t.isLt
  Φ t := gPhi4 V c t.val (Nat.le_of_lt_succ t.isLt)
  q _ := fullShare
  owed _ := 0

theorem gA4 (c : Dev nD) (w : Fin cfg4.W) : (gdat4 V c).A w = V c (Pipeline.arrRef spec4 w) := by
  dsimp only [gdat4]

theorem gafter4_0 (c : Dev nD) (t : Fin cfg4.N) : (gdat4 V c).after 0 t = iblk4 V c 0 t := by dsimp only [gdat4]

theorem gafter4_1 (c : Dev nD) (t : Fin cfg4.N) : (gdat4 V c).after 1 t = iblk4 V c 1 t := by dsimp only [gdat4]

theorem gafter4_2 (c : Dev nD) (t : Fin cfg4.N) : (gdat4 V c).after 2 t = iblk4 V c 2 t := by dsimp only [gdat4]

theorem gafter4_3 (c : Dev nD) (t : Fin cfg4.N) : (gdat4 V c).after 3 t = gacc4 V c t.val t.isLt := by dsimp only [gdat4]

abbrev gst4_0 (t : Fin cfg4.N) : Memref sig .tc .vmem S1x4096 .i32 := win4_0.stage (cfg4.slots t 0)

abbrev ghs4_0 (t : Fin cfg4.N) : (gst4_0 t).IsWhole := hstage4_0 ((cfg4.slots t 0).cast nbuf4_0)

abbrev gst4_1 (t : Fin cfg4.N) : Memref sig .tc .vmem S1x4096 .f32 := win4_1.stage (cfg4.slots t 1)

abbrev ghs4_1 (t : Fin cfg4.N) : (gst4_1 t).IsWhole := hstage4_1 ((cfg4.slots t 1).cast nbuf4_1)

abbrev gst4_2 (t : Fin cfg4.N) : Memref sig .tc .vmem S2048x64 .f32 := win4_2.stage (cfg4.slots t 2)

abbrev ghs4_2 (t : Fin cfg4.N) : (gst4_2 t).IsWhole := hstage4_2 ((cfg4.slots t 2).cast nbuf4_2)

abbrev gst4_3 (t : Fin cfg4.N) : Memref sig .tc .vmem S64x4096 .f32 := win4_3.stage (cfg4.slots t 3)

abbrev ghs4_3 (t : Fin cfg4.N) : (gst4_3 t).IsWhole := hstage4_3 ((cfg4.slots t 3).cast nbuf4_3)

abbrev gbodyAt4 (t : Fin cfg4.N) : Prog (TpuEff nD τ sig (Elt F) Λ₀ .tc) PUnit :=
  cc0__gather_kernel (grid4.coords t) (gst4_0 t) (ghs4_0 t) (gst4_1 t) (ghs4_1 t) (gst4_2 t) (ghs4_2 t) (gst4_3 t) (ghs4_3 t)
    scr4 (Memref.isWhole_whole _)

theorem gidle4_3 (t : Fin cfg4.N) (h : ¬t.val % 74 = 73) : cfg4.idle 3 (grid4.coords t) = true := by
  show (!(k0_cond2 (grid4.coords t) == 1#1)) = true
  rw [Bool.not_eq_true', beq_eq_false_iff_ne]
  exact fun hc => h ((gcondC_iff t).mp hc)

theorem glive4_3 (t : Fin cfg4.N) (h : t.val % 74 = 73) : cfg4.idle 3 (grid4.coords t) = false := by
  show (!(k0_cond2 (grid4.coords t) == 1#1)) = false
  rw [Bool.not_eq_false', beq_iff_eq]
  exact (gcondC_iff t).mpr h

theorem gnoflush4_3 (t : Fin cfg4.N) (h : ¬t.val % 74 = 73) : (cfg4.win 3).flush t = false := by
  have hlt := t.isLt
  have hN : cfg4.N = 36186 := N_4
  have hNg : cfg4.grid.N = 36186 := N_4
  unfold Pipeline.Window.flush
  rw [Bool.and_eq_false_iff]; right
  rw [Bool.or_eq_false_iff]
  refine ⟨decide_eq_false (by omega), decide_eq_false ?_⟩
  rintro ⟨hnext, hne⟩
  apply hne
  show cc4_transform_3 (grid4.coords ⟨t.val + 1, hnext⟩) = cc4_transform_3 (grid4.coords t)
  apply Facts₀.hreads4_3
  intro a ha
  match a, ha with
  | ⟨0, _⟩, _ =>
    exact Fin.ext ((gcoordA ⟨t.val + 1, hnext⟩).trans ((show (t.val + 1) / 74 = t.val / 74 by omega).trans (gcoordA t).symm))
  | ⟨1, _⟩, ha => exact absurd (show false = true from ha) Bool.false_ne_true

theorem gPhiA4 (c : Dev nD) :
    (Pipeline.ΦA spec4 c : sProp 𝕄)
      = iprop((∃ d, owns (c : Thread nD τ) scr4 fullShare d)
          ∗ grest4 c
          ∗ (∃ r, prngReg c r)) := by
  unfold Pipeline.ΦA; rw [scopedRest4_split]; simp only [scr4, owns_whole]
  exact BI.equiv_iff.mp ⟨sep_assoc, sep_assoc'⟩

theorem gPhi4_pos (c : Dev nD) (n : ℕ) (h : n ≤ cfg4.N) (hz : n ≠ 0) :
    gPhi4 V c n h = iprop(owns (c : Thread nD τ) scr4 fullShare (gacc4 V c (n - 1) (by omega))
      ∗ grest4 c
      ∗ (∃ r, prngReg c r)) := by
  cases n with
  | zero => exact absurd rfl hz
  | succ n => rfl

theorem gPhi4_castSucc (c : Dev nD) (t : Fin cfg4.N) :
    (gdat4 V c).Φ t.castSucc = gPhi4 V c t.val (Nat.le_of_lt t.isLt) := by
  dsimp only [gdat4]; simp only [Fin.coe_castSucc]

theorem gPhi4_succ (c : Dev nD) (t : Fin cfg4.N) :
    (gdat4 V c).Φ t.succ = iprop(owns (c : Thread nD τ) scr4 fullShare (gacc4 V c t.val t.isLt)
      ∗ grest4 c
      ∗ (∃ r, prngReg c r)) := rfl

theorem gbefore4_0 (c : Dev nD) (t : Fin cfg4.N) (d) : (gdat4 V c).before 0 t d = iblk4 V c 0 t :=
  ((gdat4 V c).before_in_eq_fetched 0 rfl (fun _ => rfl) (fun _ _ _ => rfl)
    (fun t => by rw [gafter4_0]; unfold Dat.blockOf iblk4; rw [gA4]) t d).trans
    (by unfold Dat.fetched Dat.blockOf iblk4; rw [gA4]; rfl)

theorem gbefore4_1 (c : Dev nD) (t : Fin cfg4.N) (d) : (gdat4 V c).before 1 t d = iblk4 V c 1 t :=
  ((gdat4 V c).before_in_eq_fetched 1 rfl (fun _ => rfl) (fun _ _ _ => rfl)
    (fun t => by rw [gafter4_1]; unfold Dat.blockOf iblk4; rw [gA4]) t d).trans
    (by unfold Dat.fetched Dat.blockOf iblk4; rw [gA4]; rfl)

theorem gbefore4_2 (c : Dev nD) (t : Fin cfg4.N) (d) : (gdat4 V c).before 2 t d = iblk4 V c 2 t :=
  ((gdat4 V c).before_in_eq_fetched 2 rfl (fun _ => rfl) (fun _ _ _ => rfl)
    (fun t => by rw [gafter4_2]; unfold Dat.blockOf iblk4; rw [gA4]) t d).trans
    (by unfold Dat.fetched Dat.blockOf iblk4; rw [gA4]; rfl)

theorem gPhi4_some (c : Dev nD) (n : ℕ) (h : n ≤ cfg4.N) :
    gPhi4 V c n h ⊢ iprop((∃ d, owns (c : Thread nD τ) scr4 fullShare d) ∗ grest4 c ∗ (∃ r, prngReg c r)) := by
  cases n with
  | zero => rw [show gPhi4 V c 0 h = Pipeline.ΦA spec4 c from rfl, gPhiA4]
  | succ n =>
    show iprop(owns (c : Thread nD τ) scr4 fullShare (gacc4 V c n h) ∗ grest4 c ∗ (∃ r, prngReg c r)) ⊢ _
    iintro ⟨HS, HR, Hg⟩
    iframe HR Hg
    iexists _; iexact HS

theorem gacc4_pos (c : Dev nD) (t : Fin cfg4.N) (h : ¬t.val % 74 = 0) :
    gacc4 V c t.val t.isLt = gstep4 V c t (gacc4 V c (t.val - 1) (Nat.lt_of_le_of_lt (Nat.sub_le _ _) t.isLt)) := by
  obtain ⟨n, hn⟩ := t
  cases n with
  | zero => exact absurd (Nat.zero_mod _) h
  | succ n => exact gacc4_step V c n hn h

def gpre4 (c : Dev nD) (t : Fin cfg4.N) : sProp 𝕄 :=
  iprop((gdat4 V c).Φ t.castSucc ∗ (gdat4 V c).owesAt () t.castSucc
    ∗ (∃ d, owns (c : Thread nD τ) (gst4_0 t) fullShare ((gdat4 V c).before 0 t d))
    ∗ (∃ d, owns (c : Thread nD τ) (gst4_1 t) fullShare ((gdat4 V c).before 1 t d))
    ∗ (∃ d, owns (c : Thread nD τ) (gst4_2 t) fullShare ((gdat4 V c).before 2 t d))
    ∗ (∃ d, owns (c : Thread nD τ) (gst4_3 t) fullShare ((gdat4 V c).before 3 t d)))

def gpost4 (c : Dev nD) (t : Fin cfg4.N) : sProp 𝕄 :=
  iprop((gdat4 V c).Φ t.succ ∗ (gdat4 V c).owesAt () t.succ
    ∗ (gdat4 V c).leavesExact 0 t ∗ (gdat4 V c).leavesExact 1 t ∗ (gdat4 V c).leavesExact 2 t ∗ (gdat4 V c).leavesExact 3 t)

theorem gsound4 (c : Dev nD) (t : Fin cfg4.N) :
    gpre4 V c t ⊢ wp frame (wpE (defs₀ (F := F)) Variants.none c none) Set.univ (gbodyAt4 t) (fun _ => gpost4 V c t) := by
  unfold gpre4 gpost4 gbodyAt4
  simp only [gbefore4_0, gbefore4_1, gbefore4_2]
  rw [show (gdat4 V c).owesAt () t.succ = (gdat4 V c).owesAt () t.castSucc from rfl]
  rw [gPhi4_succ, gPhi4_castSucc]
  rw [show (gdat4 V c).leavesExact 0 t = owns (c : Thread nD τ) (gst4_0 t) fullShare ((gdat4 V c).after 0 t) from rfl, gafter4_0,
    show (gdat4 V c).leavesExact 1 t = owns (c : Thread nD τ) (gst4_1 t) fullShare ((gdat4 V c).after 1 t) from rfl, gafter4_1,
    show (gdat4 V c).leavesExact 2 t = owns (c : Thread nD τ) (gst4_2 t) fullShare ((gdat4 V c).after 2 t) from rfl, gafter4_2]
  by_cases hC : t.val % 74 = 73
  · have hA : ¬t.val % 74 = 0 := by omega
    have hz : t.val ≠ 0 := fun e => hA (by rw [e])
    rw [show (gdat4 V c).leavesExact 3 t = owns (c : Thread nD τ) (gst4_3 t) fullShare ((gdat4 V c).after 3 t) from by
      unfold Dat.leavesExact; rw [glive4_3 t hC], gafter4_3, gacc4_pos V c t hA, gPhi4_pos V c _ _ hz]
    unfold gstep4
    iintro ⟨⟨HS, HR, Hg⟩, Ho, ⟨%dA, HA⟩, ⟨%dB, HB⟩, ⟨%dC, HC⟩, ⟨%dD, HD⟩⟩
    iapply (gkernelC c Set.univ (grid4.coords t) (gst4_0 t) (ghs4_0 t) (gst4_1 t) (ghs4_1 t) (gst4_2 t) (ghs4_2 t) (gst4_3 t) (ghs4_3 t)
        scr4 (Memref.isWhole_whole _) (fun hc => hA ((gcondA_iff t).mp hc)) ((gcondC_iff t).mpr hC)
        (iblk4 V c 0 t) (iblk4 V c 1 t) (iblk4 V c 2 t) (gacc4 V c (t.val - 1) (Nat.lt_of_le_of_lt (Nat.sub_le _ _) t.isLt)) _)
    iframe HA HB HC HS
    isplitl [HD]; · iexists _; iexact HD
    iintro ⟨HA, HB, HC, HS, HD⟩
    iframe
  · rw [Dat.leavesExact_idle (gdat4 V c) 3 t (gidle4_3 t hC) (gnoflush4_3 t hC)]
    by_cases hA : t.val % 74 = 0
    · rw [gacc4_reset V c t.val t.isLt hA]
      unfold gstep4
      refine (sep_mono (gPhi4_some V c _ _) .rfl).trans ?_
      iintro ⟨⟨⟨%ds, HS⟩, HR, Hg⟩, Ho, ⟨%dA, HA⟩, ⟨%dB, HB⟩, ⟨%dC, HC⟩, HD⟩
      iapply (gkernelA c Set.univ (grid4.coords t) (gst4_0 t) (ghs4_0 t) (gst4_1 t) (ghs4_1 t) (gst4_2 t) (ghs4_2 t) (gst4_3 t) (ghs4_3 t)
        scr4 (Memref.isWhole_whole _) ((gcondA_iff t).mpr hA) (fun hc => hC ((gcondC_iff t).mp hc))
        (iblk4 V c 0 t) (iblk4 V c 1 t) (iblk4 V c 2 t) _)
      iframe HA HB HC
      isplitl [HS]; · iexists _; iexact HS
      iintro ⟨HA, HB, HC, HS⟩
      iframe
    · have hz : t.val ≠ 0 := fun e => hA (by rw [e])
      rw [gacc4_pos V c t hA, gPhi4_pos V c _ _ hz]
      unfold gstep4
      iintro ⟨⟨HS, HR, Hg⟩, Ho, ⟨%dA, HA⟩, ⟨%dB, HB⟩, ⟨%dC, HC⟩, HD⟩
      iapply (gkernelB c Set.univ (grid4.coords t) (gst4_0 t) (ghs4_0 t) (gst4_1 t) (ghs4_1 t) (gst4_2 t) (ghs4_2 t) (gst4_3 t) (ghs4_3 t)
        scr4 (Memref.isWhole_whole _) (fun hc => hA ((gcondA_iff t).mp hc)) (fun hc => hC ((gcondC_iff t).mp hc))
        (iblk4 V c 0 t) (iblk4 V c 1 t) (iblk4 V c 2 t) (gacc4 V c (t.val - 1) (Nat.lt_of_le_of_lt (Nat.sub_le _ _) t.isLt)) _)
      iframe HA HB HC HS
      iintro ⟨HA, HB, HC, HS⟩
      iframe

theorem gbody4 (c : Dev nD) : BodyObligation (gdat4 (F := F) V c) (defs₀ (F := F)) Variants.none () Set.univ := fun t => by
  rw [bigSep_W4, bigSep_W4]
  exact gsound4 V c t

theorem ghin4 (c : Dev nD) : (Pipeline.ΦA spec4 c : sProp 𝕄) ⊢ (gdat4 V c).Φ 0 := by
  rw [show (gdat4 V c).Φ 0 = gPhi4 V c 0 (Nat.zero_le _) from rfl]
  exact .rfl

theorem ghout4 (c : Dev nD) : (gdat4 V c).Φ (Fin.last cfg4.N) ⊢ (Pipeline.ΦA spec4 c : sProp 𝕄) := by
  rw [show (gdat4 V c).Φ (Fin.last cfg4.N) = gPhi4 V c (Fin.last cfg4.N).val (Nat.le_of_lt_succ (Fin.last cfg4.N).isLt) from rfl,
    gPhiA4]
  exact gPhi4_some V c _ _

end Cert.KernelIdeal.Hand

end
-- ==== Proof.KI.Scatter5.lean ====
import proofs.«404774_j249108103934_2_alg».proof.Proof.KI.ScatterBody

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev scr5 : Memref sig .tc .vmem S2048x64 .f32 := Memref.whole cc5_scratch0

abbrev srest5 (c : Dev nD) : sProp 𝕄 :=
  Pipeline.scopedRestBut (Ix := Unit) (Name := ℕ) (U := UR sig nD τ) (Lvl := ℕ) (Val := Elt F) spec5 c [cc5_scratch0]

def sstep5 (c : Dev nD) (t : Fin cfg5.N) (xs : Vec F S2048x64 .f32) : Vec F S2048x64 .f32 :=
  k1_pay2 (grid5.coords t) (iblk5 V c 0 t) (iblk5 V c 1 t) xs

-- the accumulator after point n: a fold over the 489 edge blocks of one node block, restarted at each new node block
def sacc5 (c : Dev nD) : (n : ℕ) → n < cfg5.N → Vec F S2048x64 .f32
  | 0, hn => sstep5 V c ⟨0, hn⟩ k1_pay1
  | n + 1, hn => sstep5 V c ⟨n + 1, hn⟩ (if (n + 1) % 489 = 0 then k1_pay1 else sacc5 c n (Nat.lt_of_succ_lt hn))

theorem sacc5_reset (c : Dev nD) (n : ℕ) (hn : n < cfg5.N) (h : n % 489 = 0) :
    sacc5 V c n hn = sstep5 V c ⟨n, hn⟩ k1_pay1 := by
  cases n with
  | zero => rfl
  | succ n => show sstep5 V c _ (if (n + 1) % 489 = 0 then _ else _) = _; rw [if_pos h]

theorem sacc5_step (c : Dev nD) (n : ℕ) (hn : n + 1 < cfg5.N) (h : ¬(n + 1) % 489 = 0) :
    sacc5 V c (n + 1) hn = sstep5 V c ⟨n + 1, hn⟩ (sacc5 V c n (Nat.lt_of_succ_lt hn)) := by
  show sstep5 V c _ (if (n + 1) % 489 = 0 then _ else _) = _; rw [if_neg h]

def sPhi5 (c : Dev nD) : (n : ℕ) → n ≤ cfg5.N → sProp 𝕄
  | 0, _ => Pipeline.ΦA spec5 c
  | n + 1, hn => iprop(owns (c : Thread nD τ) scr5 fullShare (sacc5 V c n hn)
      ∗ srest5 c
      ∗ (∃ r, prngReg c r))

def sdat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => sacc5 V c t.val t.isLt
  Φ t := sPhi5 V c t.val (Nat.le_of_lt_succ t.isLt)
  q _ := fullShare
  owed _ := 0

theorem sA5 (c : Dev nD) (w : Fin cfg5.W) : (sdat5 V c).A w = V c (Pipeline.arrRef spec5 w) := by
  dsimp only [sdat5]

theorem safter5_0 (c : Dev nD) (t : Fin cfg5.N) : (sdat5 V c).after 0 t = iblk5 V c 0 t := by dsimp only [sdat5]

theorem safter5_1 (c : Dev nD) (t : Fin cfg5.N) : (sdat5 V c).after 1 t = iblk5 V c 1 t := by dsimp only [sdat5]

theorem safter5_2 (c : Dev nD) (t : Fin cfg5.N) : (sdat5 V c).after 2 t = sacc5 V c t.val t.isLt := by dsimp only [sdat5]

abbrev sst5_0 (t : Fin cfg5.N) : Memref sig .tc .vmem S1x4096 .i32 := win5_0.stage (cfg5.slots t 0)

abbrev shs5_0 (t : Fin cfg5.N) : (sst5_0 t).IsWhole := Facts₀.hstage5_0 ((cfg5.slots t 0).cast Facts₀.nbuf5_0)

abbrev sst5_1 (t : Fin cfg5.N) : Memref sig .tc .vmem S64x4096 .f32 := win5_1.stage (cfg5.slots t 1)

abbrev shs5_1 (t : Fin cfg5.N) : (sst5_1 t).IsWhole := Facts₀.hstage5_1 ((cfg5.slots t 1).cast Facts₀.nbuf5_1)

abbrev sst5_2 (t : Fin cfg5.N) : Memref sig .tc .vmem S2048x64 .f32 := win5_2.stage (cfg5.slots t 2)

abbrev shs5_2 (t : Fin cfg5.N) : (sst5_2 t).IsWhole := Facts₀.hstage5_2 ((cfg5.slots t 2).cast Facts₀.nbuf5_2)

abbrev sbodyAt5 (t : Fin cfg5.N) : Prog (TpuEff nD τ sig (Elt F) Λ₀ .tc) PUnit :=
  cc1__scatter_kernel (grid5.coords t) (sst5_0 t) (shs5_0 t) (sst5_1 t) (shs5_1 t) (sst5_2 t) (shs5_2 t)
    scr5 (Memref.isWhole_whole _)

theorem sidle5_2 (t : Fin cfg5.N) (h : ¬t.val % 489 = 488) : cfg5.idle 2 (grid5.coords t) = true := by
  show (!(k1_cond2 (grid5.coords t) == 1#1)) = true
  rw [Bool.not_eq_true', beq_eq_false_iff_ne]
  exact fun hc => h ((scondC_iff t).mp hc)

theorem slive5_2 (t : Fin cfg5.N) (h : t.val % 489 = 488) : cfg5.idle 2 (grid5.coords t) = false := by
  show (!(k1_cond2 (grid5.coords t) == 1#1)) = false
  rw [Bool.not_eq_false', beq_iff_eq]
  exact (scondC_iff t).mpr h

theorem snoflush5_2 (t : Fin cfg5.N) (h : ¬t.val % 489 = 488) : (cfg5.win 2).flush t = false := by
  have hlt := t.isLt
  have hN : cfg5.N = 36186 := N_5
  have hNg : cfg5.grid.N = 36186 := N_5
  unfold Pipeline.Window.flush
  rw [Bool.and_eq_false_iff]; right
  rw [Bool.or_eq_false_iff]
  refine ⟨decide_eq_false (by omega), decide_eq_false ?_⟩
  rintro ⟨hnext, hne⟩
  apply hne
  show cc5_transform_2 (grid5.coords ⟨t.val + 1, hnext⟩) = cc5_transform_2 (grid5.coords t)
  apply Facts₀.hreads5_2
  intro a ha
  match a, ha with
  | ⟨0, _⟩, _ =>
    exact Fin.ext ((scoordA ⟨t.val + 1, hnext⟩).trans ((show (t.val + 1) / 489 = t.val / 489 by omega).trans (scoordA t).symm))
  | ⟨1, _⟩, ha => exact absurd (show false = true from ha) Bool.false_ne_true

theorem sPhiA5 (c : Dev nD) :
    (Pipeline.ΦA spec5 c : sProp 𝕄)
      = iprop((∃ d, owns (c : Thread nD τ) scr5 fullShare d)
          ∗ srest5 c
          ∗ (∃ r, prngReg c r)) := by
  unfold Pipeline.ΦA; rw [scopedRest5_split]; simp only [scr5, owns_whole]
  exact BI.equiv_iff.mp ⟨sep_assoc, sep_assoc'⟩

theorem sPhi5_pos (c : Dev nD) (n : ℕ) (h : n ≤ cfg5.N) (hz : n ≠ 0) :
    sPhi5 V c n h = iprop(owns (c : Thread nD τ) scr5 fullShare (sacc5 V c (n - 1) (by omega))
      ∗ srest5 c
      ∗ (∃ r, prngReg c r)) := by
  cases n with
  | zero => exact absurd rfl hz
  | succ n => rfl

theorem sPhi5_castSucc (c : Dev nD) (t : Fin cfg5.N) :
    (sdat5 V c).Φ t.castSucc = sPhi5 V c t.val (Nat.le_of_lt t.isLt) := by
  dsimp only [sdat5]; simp only [Fin.coe_castSucc]

theorem sPhi5_succ (c : Dev nD) (t : Fin cfg5.N) :
    (sdat5 V c).Φ t.succ = iprop(owns (c : Thread nD τ) scr5 fullShare (sacc5 V c t.val t.isLt)
      ∗ srest5 c
      ∗ (∃ r, prngReg c r)) := rfl

theorem sPhi5_some (c : Dev nD) (n : ℕ) (h : n ≤ cfg5.N) :
    sPhi5 V c n h ⊢ iprop((∃ d, owns (c : Thread nD τ) scr5 fullShare d) ∗ srest5 c ∗ (∃ r, prngReg c r)) := by
  cases n with
  | zero => rw [show sPhi5 V c 0 h = Pipeline.ΦA spec5 c from rfl, sPhiA5]
  | succ n =>
    show iprop(owns (c : Thread nD τ) scr5 fullShare (sacc5 V c n h) ∗ srest5 c ∗ (∃ r, prngReg c r)) ⊢ _
    iintro ⟨HS, HR, Hg⟩
    iframe HR Hg
    iexists _; iexact HS

theorem sacc5_pos (c : Dev nD) (t : Fin cfg5.N) (h : ¬t.val % 489 = 0) :
    sacc5 V c t.val t.isLt = sstep5 V c t (sacc5 V c (t.val - 1) (Nat.lt_of_le_of_lt (Nat.sub_le _ _) t.isLt)) := by
  obtain ⟨n, hn⟩ := t
  cases n with
  | zero => exact absurd (Nat.zero_mod _) h
  | succ n => exact sacc5_step V c n hn h

theorem sbefore5_0 (c : Dev nD) (t : Fin cfg5.N) (d) : (sdat5 V c).before 0 t d = iblk5 V c 0 t :=
  ((sdat5 V c).before_in_eq_fetched 0 rfl (fun _ => rfl) (fun _ _ _ => rfl)
    (fun t => by rw [safter5_0]; unfold Dat.blockOf iblk5; rw [sA5]) t d).trans
    (by unfold Dat.fetched Dat.blockOf iblk5; rw [sA5]; rfl)

theorem sbefore5_1 (c : Dev nD) (t : Fin cfg5.N) (d) : (sdat5 V c).before 1 t d = iblk5 V c 1 t :=
  ((sdat5 V c).before_in_eq_fetched 1 rfl (fun _ => rfl) (fun _ _ _ => rfl)
    (fun t => by rw [safter5_1]; unfold Dat.blockOf iblk5; rw [sA5]) t d).trans
    (by unfold Dat.fetched Dat.blockOf iblk5; rw [sA5]; rfl)

def spre5 (c : Dev nD) (t : Fin cfg5.N) : sProp 𝕄 :=
  iprop((sdat5 V c).Φ t.castSucc ∗ (sdat5 V c).owesAt () t.castSucc
    ∗ (∃ d, owns (c : Thread nD τ) (sst5_0 t) fullShare ((sdat5 V c).before 0 t d))
    ∗ (∃ d, owns (c : Thread nD τ) (sst5_1 t) fullShare ((sdat5 V c).before 1 t d))
    ∗ (∃ d, owns (c : Thread nD τ) (sst5_2 t) fullShare ((sdat5 V c).before 2 t d)))

def spost5 (c : Dev nD) (t : Fin cfg5.N) : sProp 𝕄 :=
  iprop((sdat5 V c).Φ t.succ ∗ (sdat5 V c).owesAt () t.succ
    ∗ (sdat5 V c).leavesExact 0 t ∗ (sdat5 V c).leavesExact 1 t ∗ (sdat5 V c).leavesExact 2 t)

theorem ssound5 (c : Dev nD) (t : Fin cfg5.N) :
    spre5 V c t ⊢ wp frame (wpE (defs₀ (F := F)) Variants.none c none) Set.univ (sbodyAt5 t) (fun _ => spost5 V c t) := by
  unfold spre5 spost5 sbodyAt5
  simp only [sbefore5_0, sbefore5_1]
  rw [show (sdat5 V c).owesAt () t.succ = (sdat5 V c).owesAt () t.castSucc from rfl]
  rw [sPhi5_succ, sPhi5_castSucc]
  rw [show (sdat5 V c).leavesExact 0 t = owns (c : Thread nD τ) (sst5_0 t) fullShare ((sdat5 V c).after 0 t) from rfl, safter5_0,
    show (sdat5 V c).leavesExact 1 t = owns (c : Thread nD τ) (sst5_1 t) fullShare ((sdat5 V c).after 1 t) from rfl, safter5_1]
  by_cases hC : t.val % 489 = 488
  · have hA : ¬t.val % 489 = 0 := by omega
    have hz : t.val ≠ 0 := fun e => hA (by rw [e])
    rw [show (sdat5 V c).leavesExact 2 t = owns (c : Thread nD τ) (sst5_2 t) fullShare ((sdat5 V c).after 2 t) from by
      unfold Dat.leavesExact; rw [slive5_2 t hC], safter5_2, sacc5_pos V c t hA, sPhi5_pos V c _ _ hz]
    unfold sstep5
    iintro ⟨⟨HS, HR, Hg⟩, Ho, ⟨%dA, HA⟩, ⟨%dB, HB⟩, ⟨%dD, HD⟩⟩
    iapply (skernelC c Set.univ (grid5.coords t) (sst5_0 t) (shs5_0 t) (sst5_1 t) (shs5_1 t) (sst5_2 t) (shs5_2 t)
        scr5 (Memref.isWhole_whole _) (fun hc => hA ((scondA_iff t).mp hc)) ((scondC_iff t).mpr hC)
        (iblk5 V c 0 t) (iblk5 V c 1 t) (sacc5 V c (t.val - 1) (Nat.lt_of_le_of_lt (Nat.sub_le _ _) t.isLt)) _)
    iframe HA HB HS
    isplitl [HD]; · iexists _; iexact HD
    iintro ⟨HA, HB, HS, HD⟩
    iframe
  · rw [Dat.leavesExact_idle (sdat5 V c) 2 t (sidle5_2 t hC) (snoflush5_2 t hC)]
    by_cases hA : t.val % 489 = 0
    · rw [sacc5_reset V c t.val t.isLt hA]
      unfold sstep5
      refine (sep_mono (sPhi5_some V c _ _) .rfl).trans ?_
      iintro ⟨⟨⟨%ds, HS⟩, HR, Hg⟩, Ho, ⟨%dA, HA⟩, ⟨%dB, HB⟩, HD⟩
      iapply (skernelA c Set.univ (grid5.coords t) (sst5_0 t) (shs5_0 t) (sst5_1 t) (shs5_1 t) (sst5_2 t) (shs5_2 t)
        scr5 (Memref.isWhole_whole _) ((scondA_iff t).mpr hA) (fun hc => hC ((scondC_iff t).mp hc))
        (iblk5 V c 0 t) (iblk5 V c 1 t) _)
      iframe HA HB
      isplitl [HS]; · iexists _; iexact HS
      iintro ⟨HA, HB, HS⟩
      iframe
    · have hz : t.val ≠ 0 := fun e => hA (by rw [e])
      rw [sacc5_pos V c t hA, sPhi5_pos V c _ _ hz]
      unfold sstep5
      iintro ⟨⟨HS, HR, Hg⟩, Ho, ⟨%dA, HA⟩, ⟨%dB, HB⟩, HD⟩
      iapply (skernelB c Set.univ (grid5.coords t) (sst5_0 t) (shs5_0 t) (sst5_1 t) (shs5_1 t) (sst5_2 t) (shs5_2 t)
        scr5 (Memref.isWhole_whole _) (fun hc => hA ((scondA_iff t).mp hc)) (fun hc => hC ((scondC_iff t).mp hc))
        (iblk5 V c 0 t) (iblk5 V c 1 t) (sacc5 V c (t.val - 1) (Nat.lt_of_le_of_lt (Nat.sub_le _ _) t.isLt)) _)
      iframe HA HB HS
      iintro ⟨HA, HB, HS⟩
      iframe

theorem sbody5 (c : Dev nD) : BodyObligation (sdat5 (F := F) V c) (defs₀ (F := F)) Variants.none () Set.univ := fun t => by
  rw [bigSep_W5, bigSep_W5]
  exact ssound5 V c t

theorem shin5 (c : Dev nD) : (Pipeline.ΦA spec5 c : sProp 𝕄) ⊢ (sdat5 V c).Φ 0 := by
  rw [show (sdat5 V c).Φ 0 = sPhi5 V c 0 (Nat.zero_le _) from rfl]
  exact .rfl

theorem shout5 (c : Dev nD) : (sdat5 V c).Φ (Fin.last cfg5.N) ⊢ (Pipeline.ΦA spec5 c : sProp 𝕄) := by
  rw [show (sdat5 V c).Φ (Fin.last cfg5.N) = sPhi5 V c (Fin.last cfg5.N).val (Nat.le_of_lt_succ (Fin.last cfg5.N).isLt) from rfl,
    sPhiA5]
  exact sPhi5_some V c _ _

end Cert.KernelIdeal.Hand

end
-- ==== Proof.KI.Run.lean ====
import proofs.«404774_j249108103934_2_alg».proof.Proof.KI.Gather0
import proofs.«404774_j249108103934_2_alg».proof.Proof.KI.Scatter1
import proofs.«404774_j249108103934_2_alg».proof.Proof.KI.Gather2
import proofs.«404774_j249108103934_2_alg».proof.Proof.KI.Scatter3
import proofs.«404774_j249108103934_2_alg».proof.Proof.KI.Gather4
import proofs.«404774_j249108103934_2_alg».proof.Proof.KI.Scatter5
import proofs.«404774_j249108103934_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (gdat0 (V1 m) c).arrAt w cfg0.N
theorem W2_arr (c : Dev nD) (w : Fin cfg0.W) :
    W2 m c (Proc.devRef .tc (Pipeline.arrRef spec0 w)) = (gdat0 (V1 m) c).arrAt w cfg0.N :=
  Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) :=
  Pipeline.withArrays_of_ne spec0 c _ _ b hb
abbrev V2 : (c : Dev nD) → (b : Ref sig .tc) → Buf (Elt F) ((c : Thread nD τ).loc b) := fun c b => W2 m c b
def W3 (c : Dev nD) : Valuation τ sig (Elt F) :=
  Pipeline.withArrays spec1 c (W2 m c) fun w => (sdat1 (V2 m) c).arrAt w cfg1.N
theorem W3_arr (c : Dev nD) (w : Fin cfg1.W) :
    W3 m c (Proc.devRef .tc (Pipeline.arrRef spec1 w)) = (sdat1 (V2 m) c).arrAt w cfg1.N :=
  Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) :=
  Pipeline.withArrays_of_ne spec1 c _ _ b hb
abbrev V3 : (c : Dev nD) → (b : Ref sig .tc) → Buf (Elt F) ((c : Thread nD τ).loc b) := fun c b => W3 m c b
abbrev W4 : Dev nD → Valuation τ sig (Elt F) := fun c => StableHlo.after hostOps2 (W3 m c)
abbrev V4 : (c : Dev nD) → (b : Ref sig .tc) → Buf (Elt F) ((c : Thread nD τ).loc b) := fun c b => W4 m c b
def W5 (c : Dev nD) : Valuation τ sig (Elt F) :=
  Pipeline.withArrays spec2 c (W4 m c) fun w => (gdat2 (V4 m) c).arrAt w cfg2.N
theorem W5_arr (c : Dev nD) (w : Fin cfg2.W) :
    W5 m c (Proc.devRef .tc (Pipeline.arrRef spec2 w)) = (gdat2 (V4 m) c).arrAt w cfg2.N :=
  Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) :=
  Pipeline.withArrays_of_ne spec2 c _ _ b hb
abbrev V5 : (c : Dev nD) → (b : Ref sig .tc) → Buf (Elt F) ((c : Thread nD τ).loc b) := fun c b => W5 m c b
def W6 (c : Dev nD) : Valuation τ sig (Elt F) :=
  Pipeline.withArrays spec3 c (W5 m c) fun w => (sdat3 (V5 m) c).arrAt w cfg3.N
theorem W6_arr (c : Dev nD) (w : Fin cfg3.W) :
    W6 m c (Proc.devRef .tc (Pipeline.arrRef spec3 w)) = (sdat3 (V5 m) c).arrAt w cfg3.N :=
  Pipeline.withArrays_arr spec3 launch3.win.arr_inj c _ _ w
theorem W6_of_ne (c : Dev nD) (b : Ref sig .tc) (hb : ∀ w, Pipeline.arrRef spec3 w ≠ b) :
    W6 m c (Proc.devRef .tc b) = W5 m c (Proc.devRef .tc b) :=
  Pipeline.withArrays_of_ne spec3 c _ _ b hb
abbrev V6 : (c : Dev nD) → (b : Ref sig .tc) → Buf (Elt F) ((c : Thread nD τ).loc b) := fun c b => W6 m c b
abbrev W7 : Dev nD → Valuation τ sig (Elt F) := fun c => StableHlo.after hostOps4 (W6 m c)
abbrev V7 : (c : Dev nD) → (b : Ref sig .tc) → Buf (Elt F) ((c : Thread nD τ).loc b) := fun c b => W7 m c b
def W8 (c : Dev nD) : Valuation τ sig (Elt F) :=
  Pipeline.withArrays spec4 c (W7 m c) fun w => (gdat4 (V7 m) c).arrAt w cfg4.N
theorem W8_arr (c : Dev nD) (w : Fin cfg4.W) :
    W8 m c (Proc.devRef .tc (Pipeline.arrRef spec4 w)) = (gdat4 (V7 m) c).arrAt w cfg4.N :=
  Pipeline.withArrays_arr spec4 launch4.win.arr_inj c _ _ w
theorem W8_of_ne (c : Dev nD) (b : Ref sig .tc) (hb : ∀ w, Pipeline.arrRef spec4 w ≠ b) :
    W8 m c (Proc.devRef .tc b) = W7 m c (Proc.devRef .tc b) :=
  Pipeline.withArrays_of_ne spec4 c _ _ b hb
abbrev V8 : (c : Dev nD) → (b : Ref sig .tc) → Buf (Elt F) ((c : Thread nD τ).loc b) := fun c b => W8 m c b
def W9 (c : Dev nD) : Valuation τ sig (Elt F) :=
  Pipeline.withArrays spec5 c (W8 m c) fun w => (sdat5 (V8 m) c).arrAt w cfg5.N
theorem W9_arr (c : Dev nD) (w : Fin cfg5.W) :
    W9 m c (Proc.devRef .tc (Pipeline.arrRef spec5 w)) = (sdat5 (V8 m) c).arrAt w cfg5.N :=
  Pipeline.withArrays_arr spec5 launch5.win.arr_inj c _ _ w
theorem W9_of_ne (c : Dev nD) (b : Ref sig .tc) (hb : ∀ w, Pipeline.arrRef spec5 w ≠ b) :
    W9 m c (Proc.devRef .tc b) = W8 m c (Proc.devRef .tc b) :=
  Pipeline.withArrays_of_ne spec5 c _ _ b hb
abbrev V9 : (c : Dev nD) → (b : Ref sig .tc) → Buf (Elt F) ((c : Thread nD τ).loc b) := fun c b => W9 m c b
abbrev W10 : Dev nD → Valuation τ sig (Elt F) := fun c => StableHlo.after hostOps6 (W9 m c)
abbrev V10 : (c : Dev nD) → (b : Ref sig .tc) → Buf (Elt F) ((c : Thread nD τ).loc b) := fun c b => W10 m c b

abbrev adm : (p : Fin 6) → (pcfgs (F := F) p).Adm := fun p => (cfgs p).toPCfg_adm
def pdats : (p : Fin 6) → (c : Dev nD) → Dat τ (Elt F) Unit ℕ (UR sig nD τ) ℕ (Pipeline.pin (pcfgs (F := F)) adm p) c
  | ⟨0, _⟩ => fun c => gdat0 (V1 m) c
  | ⟨1, _⟩ => fun c => sdat1 (V2 m) c
  | ⟨2, _⟩ => fun c => gdat2 (V4 m) c
  | ⟨3, _⟩ => fun c => sdat3 (V5 m) c
  | ⟨4, _⟩ => fun c => gdat4 (V7 m) c
  | ⟨5, _⟩ => fun c => sdat5 (V8 m) c
abbrev 𝒱₀ : Variants := Variants.none
abbrev L : GSem nD τ sig → Finset Unit := fun _ => ∅
abbrev lv : GSem nD τ sig → Unit → ℕ := fun _ _ => 0
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m c) ∗ ∃ r, prngReg c r)

-- region `p` takes the valuation `Wa` to `Wb`, which differs from it only at the region's arrays, there at their final contents
def regionOf (p : Fin 6) (lf : Pipeline.LaunchFacts (nD := nD) (τ := τ) cfgs p) (Wa Wb : Dev nD → Valuation τ sig (Elt F))
    (hbody : ∀ c, BodyObligation (pdats m p c) (defs₀ (F := F)) 𝒱₀ () Set.univ)
    (hin : ∀ c, (Pipeline.ΦA (cfgs p).spec c : sProp 𝕄) ⊢ (pdats m p c).Φ 0)
    (hout : ∀ c, (pdats m p c).Φ (Fin.last _) ⊢ (Pipeline.ΦA (cfgs p).spec c : sProp 𝕄))
    (harr : ∀ c w, Wb c (Proc.devRef .tc (Pipeline.arrRef (cfgs p).spec w)) = (pdats m p c).arrAt w (cfgs p).N)
    (hne : ∀ c (b : Ref sig .tc), (∀ w, Pipeline.arrRef (cfgs p).spec w ≠ b) → Wb c (Proc.devRef .tc b) = Wa c (Proc.devRef .tc b))
    (hq : ∀ c w, (pdats m p c).q w = fullShare := by exact fun _ _ => rfl)
    (hA : ∀ c w, (pdats m p c).A w = Wa c (Proc.devRef .tc (Pipeline.arrRef (cfgs p).spec w)) := by exact fun _ _ => rfl)
    (howed : ∀ c t, (pdats m p c).owed t = 0 := by exact fun _ _ => rfl)
    (hrec : ∀ c, (pdats m p c).recorded 0 = Set.univ := by exact fun _ => rfl) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wa c) ∗ Rr c)
  post c := iprop(StableHlo.held (c : Thread nD τ) (Pipeline.ucRefs τ sig) (Wb c) ∗ Rr c)
  X c := iprop(∃ r, prngReg c r)
  Y c := iprop(∃ r, prngReg c r)
  Z c := Pipeline.unscopedRest (cfgs p).spec c fun b => Wa c (Proc.devRef .tc b)
  hentry c := by
    rw [Pipeline.ownSems0_none]
    have hsplit := Pipeline.arrays_of_unscopedBufs (p := p) (pcfgs (F := F)) adm (pdats m) lf.win lf.arr_whole c
      ((pdats m p c).share_full (hq c)) (fun b => Wa c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (hrec c ▸ trivial)
      iexact HO
    isplitl [Hp]; · iexact Hp
    iexact Hrest
  hin c := by
    have h := hin c
    unfold Pipeline.ΦA at h
    iintro ⟨Hp, -, Hr⟩
    iapply h
    isplitl [Hr] <;> iassumption
  hout c := by
    rw [Pipeline.ownSems0_none]
    have h := hout c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Wa c (Proc.devRef .tc b)) (fun b => Wb c (Proc.devRef .tc b)) ((pdats m p c).arrAt · (cfgs p).N)
      (fun w => (harr c w).symm) fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

def reg0 := regionOf m 0 launch0 (W1 m) (W2 m) (gbody0 (V1 m)) (ghin0 (V1 m)) (ghout0 (V1 m)) (W2_arr m) (W2_of_ne m)
def reg1 := regionOf m 1 launch1 (W2 m) (W3 m) (sbody1 (V2 m)) (shin1 (V2 m)) (shout1 (V2 m)) (W3_arr m) (W3_of_ne m)
def reg2 := regionOf m 2 launch2 (W4 m) (W5 m) (gbody2 (V4 m)) (ghin2 (V4 m)) (ghout2 (V4 m)) (W5_arr m) (W5_of_ne m)
def reg3 := regionOf m 3 launch3 (W5 m) (W6 m) (sbody3 (V5 m)) (shin3 (V5 m)) (shout3 (V5 m)) (W6_arr m) (W6_of_ne m)
def reg4 := regionOf m 4 launch4 (W7 m) (W8 m) (gbody4 (V7 m)) (ghin4 (V7 m)) (ghout4 (V7 m)) (W8_arr m) (W8_of_ne m)
def reg5 := regionOf m 5 launch5 (W8 m) (W9 m) (sbody5 (V8 m)) (shin5 (V8 m)) (shout5 (V8 m)) (W9_arr m) (W9_of_ne m)

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .region (reg3 m),
    .host (hseg hostOps4 hostOps4_sub hostOps4_fresh (W6 m)),
    .region (reg4 m),
    .region (reg5 m),
    .host (hseg hostOps6 hostOps6_sub hostOps6_fresh (W9 m)) ]
theorem run : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          Prog.lift (.customCall (Pipeline.entry 5) ()),
          StableHlo.seq hostOps6 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W10 m c) ∗ Rr c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h => h)
end Cert.KernelIdeal.Hand
end
-- ==== Proof.KI.Frame.lean ====
import proofs.«404774_j249108103934_2_alg».proof.Proof.KI.Run

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

theorem W1_of (c : Dev nD) (r : Ref sig .tc) (h : r ∉ hostOps0_W) : W1 m c r = W0 m c r :=
  StableHlo.after_of_writes_sub hostOps0 _ hostOps0_writes h

theorem W4_of (c : Dev nD) (r : Ref sig .tc) (h : r ∉ hostOps2_W) : W4 m c r = W3 m c r :=
  StableHlo.after_of_writes_sub hostOps2 _ hostOps2_writes h

theorem W7_of (c : Dev nD) (r : Ref sig .tc) (h : r ∉ hostOps4_W) : W7 m c r = W6 m c r :=
  StableHlo.after_of_writes_sub hostOps4 _ hostOps4_writes h

theorem W10_of (c : Dev nD) (r : Ref sig .tc) (h : r ∉ hostOps6_W) : W10 m c r = W9 m c r :=
  StableHlo.after_of_writes_sub hostOps6 _ hostOps6_writes h

abbrev margs : List (Ref sig .tc) :=
  [main_arg0, main_arg1, main_arg2, main_arg3, main_arg4, main_arg5, main_arg6, main_arg7]

-- every argument array lies outside what the host operations and the six regions write
theorem margs_facts : ∀ r ∈ margs, ¬(Proc.devRef .tc r : DevRef τ sig).isScoped
    ∧ r ∉ hostOps0_W ∧ r ∉ hostOps2_W ∧ r ∉ hostOps4_W ∧ r ∉ hostOps6_W
    ∧ (∀ w, Pipeline.arrRef spec0 w ≠ r) ∧ (∀ w, Pipeline.arrRef spec1 w ≠ r) ∧ (∀ w, Pipeline.arrRef spec2 w ≠ r)
    ∧ (∀ w, Pipeline.arrRef spec3 w ≠ r) ∧ (∀ w, Pipeline.arrRef spec4 w ≠ r) ∧ (∀ w, Pipeline.arrRef spec5 w ≠ r) := by
  decide

theorem W10_kept (c : Dev nD) (r : Ref sig .tc) (hr : r ∈ margs) :
    W10 m c (Proc.devRef .tc r) = m ((c.tc : Thread nD τ).loc r) := by
  obtain ⟨-, h0, h2, h4, h6, n0, n1, n2, n3, n4, n5⟩ := margs_facts r hr
  exact (W10_of m c r h6).trans <| (W9_of_ne m c r n5).trans <| (W8_of_ne m c r n4).trans <|
    (W7_of m c r h4).trans <| (W6_of_ne m c r n3).trans <| (W5_of_ne m c r n2).trans <|
    (W4_of m c r h2).trans <| (W3_of_ne m c r n1).trans <| (W2_of_ne m c r n0).trans <|
    (W1_of m c r h0).trans rfl

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    have k : ∀ a (ha : a ∈ margs), r.2.mem ((c.tc : Thread nD τ).loc a) = m ((c.tc : Thread nD τ).loc a) :=
      fun a ha => (h c _ (mem_uc a (margs_facts a ha).1)).trans (W10_kept m c a ha)
    ⟨k _ (by decide), k _ (by decide), k _ (by decide), k _ (by decide),
     k _ (by decide), k _ (by decide), k _ (by decide), k _ (by decide)⟩) (run m ρ)

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

def refRow (b : BitVec 32) : Fin 150000 :=
  ⟨min ((if b.slt 0#32 then b + 150000#32 else b).toInt.toNat) (150000 - 1), by omega⟩

def refLayer (rows cols : Fin 2000000 → BitVec 32) (vals : Fin 2000000 → EReal)
    (x : Fin 150000 → Fin 64 → EReal) : Fin 150000 → Fin 64 → EReal :=
  fun v c => 0 + ∑ e : Fin 2000000, if (rows e).toInt = (v.val : ℤ) then x (refRow (cols e)) c * vals e else 0

def kerGather (colsP : Fin 2002944 → BitVec 32) (valsP : Fin 2002944 → EReal)
    (cur : Fin 151552 → Fin 64 → EReal) : Fin 64 → Fin 2002944 → EReal :=
  fun c e => 0 + ∑ k ∈ Finset.range 74, ∑ n : Fin 2048,
    (if h : k * 2048 + n.val < 151552 then cur ⟨k * 2048 + n.val, h⟩ c else 0)
      * (if BitVec.ofNat 32 (k * 2048 + n.val) = colsP e then valsP e else 0)

def kerScatter (rowsP : Fin 2002944 → BitVec 32) (g : Fin 64 → Fin 2002944 → EReal) :
    Fin 151552 → Fin 64 → EReal :=
  fun v c => 0 + ∑ i ∈ Finset.range 489, ∑ e : Fin 4096,
    (if BitVec.ofNat 32 v.val = (if h : i * 4096 + e.val < 2002944 then rowsP ⟨i * 4096 + e.val, h⟩ else 0#32) then (1 : EReal) else 0)
      * (if h : i * 4096 + e.val < 2002944 then g c ⟨i * 4096 + e.val, h⟩ else 0)

def padWord (a : Fin 2000000 → BitVec 32) : Fin 2002944 → BitVec 32 :=
  fun e => if h : e.val < 2000000 then a ⟨e.val, h⟩ else (-1 : BitVec 32)
def padVal (a : Fin 2000000 → EReal) : Fin 2002944 → EReal :=
  fun e => if h : e.val < 2000000 then a ⟨e.val, h⟩ else 0

theorem sum_blocks {M : Type*} [AddCommMonoid M] (A B : ℕ) (f : ℕ → M) :
    ∑ k ∈ Finset.range A, ∑ n : Fin B, f (k * B + n.val) = ∑ j ∈ Finset.range (A * B), f j := by
  induction A with
  | zero => simp
  | succ A ih =>
    rw [Finset.sum_range_succ, ih, Nat.add_one_mul, Finset.sum_range_add,
      Fin.sum_univ_eq_sum_range (fun n => f (A * B + n)) B]

theorem ofNat_eq_iff_toNat (j : ℕ) (hj : j < 2 ^ 32) (b : BitVec 32) :
    BitVec.ofNat 32 j = b ↔ j = b.toNat := by
  constructor
  · intro h
    rw [← h, BitVec.toNat_ofNat, Nat.mod_eq_of_lt hj]
  · intro h
    apply BitVec.eq_of_toNat_eq
    rw [BitVec.toNat_ofNat, Nat.mod_eq_of_lt hj, h]

theorem toNat_of_node (b : BitVec 32) (h0 : 0 ≤ b.toInt) (h1 : b.toInt < 150000) :
    b.toNat < 150000 ∧ b.toInt = (b.toNat : ℤ) := by
  have hb := b.isLt
  rw [BitVec.toInt_eq_toNat_cond] at h0 h1 ⊢
  split_ifs at h0 h1 ⊢ <;> omega

theorem ofNat_eq_iff_toInt (v : ℕ) (hv : v < 150000) (b : BitVec 32) :
    BitVec.ofNat 32 v = b ↔ b.toInt = (v : ℤ) := by
  have hb := b.isLt
  rw [ofNat_eq_iff_toNat v (by omega) b, BitVec.toInt_eq_toNat_cond]
  split_ifs <;> omega

theorem refRow_val (b : BitVec 32) (h0 : 0 ≤ b.toInt) (h1 : b.toInt < 150000) :
    (refRow b).val = b.toNat := by
  have hs : b.slt 0#32 = false := by
    rw [BitVec.slt_eq_decide, decide_eq_false_iff_not, BitVec.toInt_zero]
    omega
  obtain ⟨hn, hi⟩ := toNat_of_node b h0 h1
  simp only [refRow, hs, Bool.false_eq_true, if_false]
  rw [hi, Int.toNat_natCast]
  omega

theorem kerGather_true (cols : Fin 2000000 → BitVec 32) (vals : Fin 2000000 → EReal)
    (cur : Fin 151552 → Fin 64 → EReal) (c : Fin 64) (e : Fin 2000000) (h2 : e.val < 2002944)
    (ht : (cols e).toNat < 151552) :
    kerGather (padWord cols) (padVal vals) cur c ⟨e.val, h2⟩ = cur ⟨(cols e).toNat, ht⟩ c * vals e := by
  have hw : padWord cols ⟨e.val, h2⟩ = cols e := by simp [padWord]
  have hv : padVal vals ⟨e.val, h2⟩ = vals e := by simp [padVal]
  simp only [kerGather, zero_add]
  rw [hw, hv]
  refine (sum_blocks 74 2048 (fun j => (if h : j < 151552 then cur ⟨j, h⟩ c else 0)
    * (if BitVec.ofNat 32 j = cols e then vals e else 0))).trans ?_
  rw [Finset.sum_eq_single_of_mem (cols e).toNat (Finset.mem_range.mpr (by omega))]
  · rw [dif_pos ht, if_pos ((ofNat_eq_iff_toNat _ (by omega) _).mpr rfl)]
  · intro j hj hne
    have hj' : j < 151552 := by simpa using hj
    rw [if_neg (fun h => hne ((ofNat_eq_iff_toNat j (by omega) _).mp h)), mul_zero]

theorem kerGather_pad (cols : Fin 2000000 → BitVec 32) (vals : Fin 2000000 → EReal)
    (cur : Fin 151552 → Fin 64 → EReal) (c : Fin 64) (e : Fin 2002944) (h : ¬ e.val < 2000000) :
    kerGather (padWord cols) (padVal vals) cur c e = 0 := by
  have hv : padVal vals e = 0 := dif_neg h
  simp only [kerGather, hv, ite_self, mul_zero, Finset.sum_const_zero, add_zero]

theorem layer_law (rows cols : Fin 2000000 → BitVec 32) (vals : Fin 2000000 → EReal)
    (hcols : ∀ e, 0 ≤ (cols e).toInt ∧ (cols e).toInt < 150000)
    (x : Fin 150000 → Fin 64 → EReal) (cur : Fin 151552 → Fin 64 → EReal)
    (hcur : ∀ (v : Fin 150000) (c : Fin 64), cur ⟨v.val, by omega⟩ c = x v c)
    (v : Fin 150000) (c : Fin 64) :
    kerScatter (padWord rows) (kerGather (padWord cols) (padVal vals) cur) ⟨v.val, by omega⟩ c
      = refLayer rows cols vals x v c := by
  have hnode : ∀ e, (cols e).toNat < 150000 := fun e => (toNat_of_node _ (hcols e).1 (hcols e).2).1
  simp only [kerScatter, refLayer, zero_add]
  refine (sum_blocks 489 4096 (fun j =>
    (if BitVec.ofNat 32 v.val = (if h : j < 2002944 then padWord rows ⟨j, h⟩ else 0#32) then (1 : EReal) else 0)
      * (if h : j < 2002944 then kerGather (padWord cols) (padVal vals) cur c ⟨j, h⟩ else 0))).trans ?_

  rw [show (489 * 4096 : ℕ) = 2000000 + 2944 from rfl, Finset.sum_range_add,
    Finset.sum_eq_zero (s := Finset.range 2944), add_zero, Finset.sum_range]
  · refine Finset.sum_congr rfl (fun e _ => ?_)
    have h2 : e.val < 2002944 := by omega
    have ht : (cols e).toNat < 151552 := by have := hnode e; omega
    have hw : padWord rows ⟨e.val, h2⟩ = rows e := by simp [padWord]
    have hx : cur ⟨(cols e).toNat, ht⟩ c = x (refRow (cols e)) c := by
      rw [← hcur (refRow (cols e)) c]
      have hfin : (⟨(cols e).toNat, ht⟩ : Fin 151552) = ⟨(refRow (cols e)).val, by omega⟩ :=
        Fin.ext (refRow_val _ (hcols e).1 (hcols e).2).symm
      rw [hfin]
    rw [dif_pos h2, dif_pos h2, hw, kerGather_true cols vals cur c e h2 ht, hx]
    by_cases hv : (rows e).toInt = (v.val : ℤ)
    · rw [if_pos hv, if_pos ((ofNat_eq_iff_toInt v.val v.isLt _).mpr hv), one_mul]
    · rw [if_neg hv, if_neg (fun h => hv ((ofNat_eq_iff_toInt v.val v.isLt _).mp h)), zero_mul]
  · intro i hi
    have hi' : i < 2944 := by simpa using hi
    have h2 : 2000000 + i < 2002944 := by omega
    rw [dif_pos h2, dif_pos h2, kerGather_pad cols vals cur c ⟨2000000 + i, h2⟩ (by simp), mul_zero]

def tableOf (u : Fin 100000 → Fin 64 → EReal) (it : Fin 50000 → Fin 64 → EReal) : Fin 150000 → Fin 64 → EReal :=
  fun v c => if h : v.val < 100000 then u ⟨v.val, h⟩ c else it ⟨v.val - 100000, by omega⟩ c

def padTable (x : Fin 150000 → Fin 64 → EReal) : Fin 151552 → Fin 64 → EReal :=
  fun v c => if h : v.val < 150000 then x ⟨v.val, h⟩ c else 0

def refAccum (rows cols : Fin 2000000 → BitVec 32) (vals : Fin 2000000 → EReal)
    (x : Fin 150000 → Fin 64 → EReal) : Fin 150000 → Fin 64 → EReal :=
  fun v c => ((x v c + refLayer rows cols vals x v c)
      + refLayer rows cols vals (refLayer rows cols vals x) v c)
    + refLayer rows cols vals (refLayer rows cols vals (refLayer rows cols vals x)) v c

def kerLayer (rowsP colsP : Fin 2002944 → BitVec 32) (valsP : Fin 2002944 → EReal)
    (cur : Fin 151552 → Fin 64 → EReal) : Fin 151552 → Fin 64 → EReal :=
  kerScatter rowsP (kerGather colsP valsP cur)

def kerAccum (rowsP colsP : Fin 2002944 → BitVec 32) (valsP : Fin 2002944 → EReal)
    (cur : Fin 151552 → Fin 64 → EReal) : Fin 151552 → Fin 64 → EReal :=
  fun v c => ((cur v c + kerLayer rowsP colsP valsP cur v c)
      + kerLayer rowsP colsP valsP (kerLayer rowsP colsP valsP cur) v c)
    + kerLayer rowsP colsP valsP (kerLayer rowsP colsP valsP (kerLayer rowsP colsP valsP cur)) v c

theorem accum_law (rows cols : Fin 2000000 → BitVec 32) (vals : Fin 2000000 → EReal)
    (hcols : ∀ e, 0 ≤ (cols e).toInt ∧ (cols e).toInt < 150000)
    (x : Fin 150000 → Fin 64 → EReal) (cur : Fin 151552 → Fin 64 → EReal)
    (hcur : ∀ (v : Fin 150000) (c : Fin 64), cur ⟨v.val, by omega⟩ c = x v c)
    (v : Fin 150000) (c : Fin 64) :
    kerAccum (padWord rows) (padWord cols) (padVal vals) cur ⟨v.val, by omega⟩ c = refAccum rows cols vals x v c := by
  have h1 := layer_law rows cols vals hcols x cur hcur
  have h2 := layer_law rows cols vals hcols _ _ h1
  have h3 := layer_law rows cols vals hcols _ _ h2
  unfold kerAccum refAccum kerLayer
  rw [hcur v c, h1 v c, h2 v c, h3 v c]

def wrapW (n b : BitVec 32) : BitVec 32 := if b.slt 0#32 then b + n else b

def userIdx (b : BitVec 32) : Fin 100000 := ⟨min (wrapW 100000#32 b).toInt.toNat (100000 - 1), by omega⟩

def itemIdx (b : BitVec 32) : Fin 50000 := ⟨min (wrapW 50000#32 b).toInt.toNat (50000 - 1), by omega⟩

def userRow (b : BitVec 32) : Fin 150000 := ⟨(userIdx b).val, by have := (userIdx b).isLt; omega⟩

def itemRow (b : BitVec 32) : Fin 150000 := ⟨100000 + (itemIdx b).val, by have := (itemIdx b).isLt; omega⟩

def quarter (x : EReal) : EReal := Ideal.div x (Ideal.ofBits .f32 0x40800000#32)

end Cert.Spec

end
-- ==== Proof.KI.EntryVal.lean ====
import proofs.«404774_j249108103934_2_alg».proof.Proof.Gen.KernelIdeal.Launch
import proofs.«404774_j249108103934_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

def krows (e : Fin 2000000) : BitVec 32 := (m ((c.tc : Thread nD τ).loc main_arg2) : S2000000.Idx → BitVec 32) (ix1 e)
def kcols (e : Fin 2000000) : BitVec 32 := (m ((c.tc : Thread nD τ).loc main_arg3) : S2000000.Idx → BitVec 32) (ix1 e)
def kvals (e : Fin 2000000) : EReal := (m ((c.tc : Thread nD τ).loc main_arg4) : S2000000.Idx → EReal) (ix1 e)
def kusers (b : Fin 4096) : BitVec 32 := (m ((c.tc : Thread nD τ).loc main_arg5) : S4096.Idx → BitVec 32) (ix1 b)
def kposItems (b : Fin 4096) : BitVec 32 := (m ((c.tc : Thread nD τ).loc main_arg6) : S4096.Idx → BitVec 32) (ix1 b)
def knegItems (b : Fin 4096) : BitVec 32 := (m ((c.tc : Thread nD τ).loc main_arg7) : S4096.Idx → BitVec 32) (ix1 b)
def kutab (v : Fin 100000) (cc : Fin 64) : EReal := (m ((c.tc : Thread nD τ).loc main_arg0) : S100000x64.Idx → EReal) (ix2 v cc)
def kitab (v : Fin 50000) (cc : Fin 64) : EReal := (m ((c.tc : Thread nD τ).loc main_arg1) : S50000x64.Idx → EReal) (ix2 v cc)

abbrev E1 : Valuation τ sig (Elt Ideal) := StableHlo.after hostOps0 (fun b => m ((c : Dev nD), b))

theorem evCastRow {α : Type} {n : Nat} (hc : (⟨1, ![n]⟩ : Shape).ShapeCasts ⟨2, ![1, n]⟩) (x : (⟨1, ![n]⟩ : Shape).Idx → α)
    (e : Fin n) : shapeCast ⟨2, ![1, n]⟩ x hc (ix2 (0 : Fin 1) e) = x (ix1 e) := by
  apply shapeCast_apply
  rw [Shape.rowMajor_val_one, Shape.rowMajor_val_two]
  show e.val = (0 : Fin 1).val * n + e.val
  simp

theorem evCat1Left {α : Type} {p q r : Nat} (hc : Shape.Concatenates [(⟨1, ![p]⟩ : Shape), ⟨1, ![q]⟩] ⟨1, ![r]⟩ 0)
    (x : (⟨1, ![p]⟩ : Shape).Idx → α) (y : (⟨1, ![q]⟩ : Shape).Idx → α) (e : Fin r) (h : e.val < p) :
    concatenate ⟨1, ![r]⟩ 0 [⟨⟨1, ![p]⟩, x⟩, ⟨⟨1, ![q]⟩, y⟩] hc (ix1 e) = x (ix1 ⟨e.val, h⟩) := by
  refine concatenate_pair_apply_left _ x y hc (ix1 e) rfl (ix1 ⟨e.val, h⟩) ?_
  intro b
  match b with
  | ⟨0, _⟩ => rfl

theorem evCat1Right {α : Type} {p q r : Nat} (hc : Shape.Concatenates [(⟨1, ![p]⟩ : Shape), ⟨1, ![q]⟩] ⟨1, ![r]⟩ 0)
    (x : (⟨1, ![p]⟩ : Shape).Idx → α) (y : (⟨1, ![q]⟩ : Shape).Idx → α) (e : Fin r) (h : p ≤ e.val) (h2 : e.val - p < q) :
    concatenate ⟨1, ![r]⟩ 0 [⟨⟨1, ![p]⟩, x⟩, ⟨⟨1, ![q]⟩, y⟩] hc (ix1 e) = y (ix1 ⟨e.val - p, h2⟩) := by
  refine concatenate_pair_apply_right _ x y hc (ix1 e) rfl rfl (ix1 ⟨e.val - p, h2⟩) ?_ ?_
  · intro b hb
    match b, hb with
    | ⟨0, _⟩, hb => exact absurd rfl hb
  · show e.val - p + p = e.val
    omega

theorem evCat2Left {α : Type} {p q r w : Nat} (hc : Shape.Concatenates [(⟨2, ![p, w]⟩ : Shape), ⟨2, ![q, w]⟩] ⟨2, ![r, w]⟩ 0)
    (x : (⟨2, ![p, w]⟩ : Shape).Idx → α) (y : (⟨2, ![q, w]⟩ : Shape).Idx → α) (n : Fin r) (d : Fin w) (h : n.val < p) :
    concatenate ⟨2, ![r, w]⟩ 0 [⟨⟨2, ![p, w]⟩, x⟩, ⟨⟨2, ![q, w]⟩, y⟩] hc (ix2 n d) = x (ix2 ⟨n.val, h⟩ d) := by
  refine concatenate_pair_apply_left _ x y hc (ix2 n d) rfl (ix2 ⟨n.val, h⟩ d) ?_
  intro b
  match b with
  | ⟨0, _⟩ => rfl
  | ⟨1, _⟩ => rfl

theorem evCat2Right {α : Type} {p q r w : Nat} (hc : Shape.Concatenates [(⟨2, ![p, w]⟩ : Shape), ⟨2, ![q, w]⟩] ⟨2, ![r, w]⟩ 0)
    (x : (⟨2, ![p, w]⟩ : Shape).Idx → α) (y : (⟨2, ![q, w]⟩ : Shape).Idx → α) (n : Fin r) (d : Fin w) (h : p ≤ n.val)
    (h2 : n.val - p < q) :
    concatenate ⟨2, ![r, w]⟩ 0 [⟨⟨2, ![p, w]⟩, x⟩, ⟨⟨2, ![q, w]⟩, y⟩] hc (ix2 n d) = y (ix2 ⟨n.val - p, h2⟩ d) := by
  refine concatenate_pair_apply_right _ x y hc (ix2 n d) rfl rfl (ix2 ⟨n.val - p, h2⟩ d) ?_ ?_
  · intro b hb
    match b, hb with
    | ⟨0, _⟩, hb => exact absurd rfl hb
    | ⟨1, _⟩, _ => rfl
  · show n.val - p + p = n.val
    omega

theorem evBcast {α : Type} {t : Shape} (hb : (⟨0, ![]⟩ : Shape).BroadcastsInDim t ![]) (v : (⟨0, ![]⟩ : Shape).Idx → α) (j : t.Idx) :
    broadcastInDim t ![] hb v j = v ix0 :=
  broadcastInDim_apply ![] hb v j ix0 (fun a => a.elim0)

theorem evNegOne : (4294967295#32 : BitVec 32) = -1 := by decide

theorem evRowsTerm :
    (E1 m c (Proc.devRef .tc main_v6) : S1x2002944.Idx → BitVec 32)
      = shapeCast S1x2002944
          (concatenate S2002944 0 [⟨S2000000, (m ((c.tc : Thread nD τ).loc main_arg2) : S2000000.Idx → BitVec 32)⟩,
             ⟨S2944, broadcastInDim S2944 ![] bcast_S_S2944 (constantI S_ 32 4294967295#32)⟩] concatenates_S2000000_S2944_S2002944_d0)
          shapeCasts_S2002944_S1x2002944 := by
  dsimp only [E1]
  after_results
  rfl

theorem evColsTerm :
    (E1 m c (Proc.devRef .tc main_v7) : S1x2002944.Idx → BitVec 32)
      = shapeCast S1x2002944
          (concatenate S2002944 0 [⟨S2000000, (m ((c.tc : Thread nD τ).loc main_arg3) : S2000000.Idx → BitVec 32)⟩,
             ⟨S2944, broadcastInDim S2944 ![] bcast_S_S2944 (constantI S_ 32 4294967295#32)⟩] concatenates_S2000000_S2944_S2002944_d0)
          shapeCasts_S2002944_S1x2002944 := by
  dsimp only [E1]
  after_results
  rfl

theorem evValsTerm :
    (E1 m c (Proc.devRef .tc main_v8) : S1x2002944.Idx → EReal)
      = shapeCast S1x2002944
          (concatenate S2002944 0 [⟨S2000000, (m ((c.tc : Thread nD τ).loc main_arg4) : S2000000.Idx → EReal)⟩,
             ⟨S2944, broadcastInDim S2944 ![] bcast_S_S2944 (constant (F := Ideal) S_ .f32 0x00000000#32)⟩] concatenates_S2000000_S2944_S2002944_d0)
          shapeCasts_S2002944_S1x2002944 := by
  dsimp only [E1]
  after_results
  rfl

theorem evTableTerm :
    (E1 m c (Proc.devRef .tc main_v11) : S151552x64.Idx → EReal)
      = concatenate S151552x64 0
          [⟨S150000x64, concatenate S150000x64 0 [⟨S100000x64, (m ((c.tc : Thread nD τ).loc main_arg0) : S100000x64.Idx → EReal)⟩,
              ⟨S50000x64, (m ((c.tc : Thread nD τ).loc main_arg1) : S50000x64.Idx → EReal)⟩] concatenates_S100000x64_S50000x64_S150000x64_d0⟩,
           ⟨S1552x64, broadcastInDim S1552x64 ![] bcast_S_S1552x64 (constant (F := Ideal) S_ .f32 0x00000000#32)⟩]
          concatenates_S150000x64_S1552x64_S151552x64_d0 := by
  dsimp only [E1]
  after_results

theorem entry_rows (e : Fin 2002944) :
    (E1 m c (Proc.devRef .tc main_v6) : S1x2002944.Idx → BitVec 32) (ix2 (0 : Fin 1) e) = Spec.padWord (krows m c) e := by
  rw [evRowsTerm, evCastRow]
  by_cases h : e.val < 2000000
  · rw [evCat1Left _ _ _ e h, Spec.padWord, dif_pos h]
    rfl
  · rw [evCat1Right _ _ _ e (by omega) (by have := e.isLt; omega), evBcast, Spec.padWord, dif_neg h]
    exact evNegOne

theorem entry_cols (e : Fin 2002944) :
    (E1 m c (Proc.devRef .tc main_v7) : S1x2002944.Idx → BitVec 32) (ix2 (0 : Fin 1) e) = Spec.padWord (kcols m c) e := by
  rw [evColsTerm, evCastRow]
  by_cases h : e.val < 2000000
  · rw [evCat1Left _ _ _ e h, Spec.padWord, dif_pos h]
    rfl
  · rw [evCat1Right _ _ _ e (by omega) (by have := e.isLt; omega), evBcast, Spec.padWord, dif_neg h]
    exact evNegOne

theorem entry_vals (e : Fin 2002944) :
    (E1 m c (Proc.devRef .tc main_v8) : S1x2002944.Idx → EReal) (ix2 (0 : Fin 1) e) = Spec.padVal (kvals m c) e := by
  rw [evValsTerm, evCastRow]
  by_cases h : e.val < 2000000
  · rw [evCat1Left _ _ _ e h, Spec.padVal, dif_pos h]
    rfl
  · rw [evCat1Right _ _ _ e (by omega) (by have := e.isLt; omega), evBcast, Spec.padVal, dif_neg h]
    exact Ideal.ofBits_zero_f32

theorem entry_table (n : Fin 151552) (d : Fin 64) :
    (E1 m c (Proc.devRef .tc main_v11) : S151552x64.Idx → EReal) (ix2 n d)
      = Spec.padTable (Spec.tableOf (kutab m c) (kitab m c)) n d := by
  rw [evTableTerm]
  by_cases h : n.val < 150000
  · rw [evCat2Left _ _ _ n d h, Spec.padTable, dif_pos h, Spec.tableOf]
    by_cases h1 : n.val < 100000
    · rw [evCat2Left _ _ _ (⟨n.val, h⟩ : Fin 150000) d h1, dif_pos h1]
      rfl
    · rw [evCat2Right _ _ _ (⟨n.val, h⟩ : Fin 150000) d (by show 100000 ≤ n.val; omega) (by show n.val - 100000 < 50000; omega),
        dif_neg h1]
      rfl
  · rw [evCat2Right _ _ _ n d (by omega) (by have := n.isLt; omega), evBcast, Spec.padTable, dif_neg h]
    exact Ideal.ofBits_zero_f32

end Cert.KernelIdeal.Hand

end
-- ==== Proof.KI.GatherMath.lean ====
import proofs.«404774_j249108103934_2_alg».proof.Proof.Gen.KernelIdeal.Skeleton
import proofs.«404774_j249108103934_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Hand
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem gvzero (j : S64x4096.Idx) : (k0_pay1 (F := Ideal)) j = 0 := by
  unfold k0_pay1
  simp only [shapeCast_self]
  exact Ideal.ofBits_zero_f32

theorem gvword (k n : ℕ) :
    IntOp.addi (Scalar.muli (BitVec.ofNat 32 k) 2048#32) (BitVec.ofNat 32 n) = BitVec.ofNat 32 (k * 2048 + n) := by
  show BitVec.ofNat 32 k * 2048#32 + BitVec.ofNat 32 n = _
  rw [BitVec.ofNat_add, BitVec.ofNat_mul]

theorem gvnode_apply (k : ℕ) (n : Fin 2048) (q : Fin 4096) :
    broadcastTo S2048x4096 (addi (broadcast S2048x1 (Scalar.muli (BitVec.ofNat 32 k) 2048#32)) (iota .tc S2048x1 32 [0] iota_S2048x1_d0_w32)) broadcasts_S2048x1_S2048x4096 (ix2 n q)
      = BitVec.ofNat 32 (k * 2048 + n.val) := by
  rw [broadcastTo_apply _ _ _ (ix2 n (0 : Fin 1))]
  · show IntOp.addi _ (iota .tc S2048x1 32 [0] iota_S2048x1_d0_w32 (ix2 n (0 : Fin 1))) = _
    rw [iota_single_apply]
    exact gvword k n.val
  · intro a
    match a with
    | ⟨0, _⟩ => rfl
    | ⟨1, _⟩ => rfl

theorem gvlhs_0 (i : S64x4096.Idx) (q : dot_S2048x64_S2048x4096_S64x4096_0_0_1_1_n_n.contr.Idx) :
    (dot_S2048x64_S2048x4096_S64x4096_0_0_1_1_n_n.lhsIdx i q 0).val = (q ⟨0, by decide⟩).val :=
  dot_S2048x64_S2048x4096_S64x4096_0_0_1_1_n_n.lhsIdx_val_of_single rfl i q

theorem gvlhs_1 (i : S64x4096.Idx) (q : dot_S2048x64_S2048x4096_S64x4096_0_0_1_1_n_n.contr.Idx) :
    (dot_S2048x64_S2048x4096_S64x4096_0_0_1_1_n_n.lhsIdx i q 1).val = (i 0).val := by
  unfold DotDims.lhsIdx
  rw [dif_neg (show ¬(1 : Fin S2048x64.rank) ∈ dot_S2048x64_S2048x4096_S64x4096_0_0_1_1_n_n.lhsBatch by decide),
    dif_pos (show (1 : Fin S2048x64.rank) ∈ dot_S2048x64_S2048x4096_S64x4096_0_0_1_1_n_n.lhsNonContracting by decide)]
  rfl

theorem gvrhs_0 (i : S64x4096.Idx) (q : dot_S2048x64_S2048x4096_S64x4096_0_0_1_1_n_n.contr.Idx) :
    (dot_S2048x64_S2048x4096_S64x4096_0_0_1_1_n_n.rhsIdx i q 0).val = (q ⟨0, by decide⟩).val :=
  dot_S2048x64_S2048x4096_S64x4096_0_0_1_1_n_n.rhsIdx_val_of_single rfl i q

theorem gvrhs_1 (i : S64x4096.Idx) (q : dot_S2048x64_S2048x4096_S64x4096_0_0_1_1_n_n.contr.Idx) :
    (dot_S2048x64_S2048x4096_S64x4096_0_0_1_1_n_n.rhsIdx i q 1).val = (i 1).val := by
  unfold DotDims.rhsIdx
  rw [dif_neg (show ¬(1 : Fin S2048x4096.rank) ∈ dot_S2048x64_S2048x4096_S64x4096_0_0_1_1_n_n.rhsBatch by decide),
    dif_pos (show (1 : Fin S2048x4096.rank) ∈ dot_S2048x64_S2048x4096_S64x4096_0_0_1_1_n_n.rhsNonContracting by decide)]
  rfl

theorem gvmatmul_apply (lhs : FVec Ideal S2048x64 .bf16) (rhs : FVec Ideal S2048x4096 .bf16) (p : Fin 64) (q : Fin 4096) :
    FloatOps.matmul dot_S2048x64_S2048x4096_S64x4096_0_0_1_1_n_n none lhs rhs (constant (F := Ideal) S64x4096 .f32 0x00000000#32) (ix2 p q)
      = ∑ n : Fin 2048, lhs (ix2 n p) * rhs (ix2 n q) := by
  rw [Ideal.matmul_constant_zero_apply,
    ← Equiv.sum_comp (contrEquiv1 dot_S2048x64_S2048x4096_S64x4096_0_0_1_1_n_n 2048 rfl rfl).symm]
  refine Finset.sum_congr rfl fun k _ => ?_
  have hk := contrEquiv1_symm_val dot_S2048x64_S2048x4096_S64x4096_0_0_1_1_n_n 2048 rfl rfl k
  have el : dot_S2048x64_S2048x4096_S64x4096_0_0_1_1_n_n.lhsIdx (ix2 p q)
      ((contrEquiv1 dot_S2048x64_S2048x4096_S64x4096_0_0_1_1_n_n 2048 rfl rfl).symm k) = ix2 k p := funext fun a => Fin.ext (by
    match a with
    | ⟨0, _⟩ => exact (gvlhs_0 _ _).trans hk
    | ⟨1, _⟩ => exact gvlhs_1 _ _)
  have er : dot_S2048x64_S2048x4096_S64x4096_0_0_1_1_n_n.rhsIdx (ix2 p q)
      ((contrEquiv1 dot_S2048x64_S2048x4096_S64x4096_0_0_1_1_n_n 2048 rfl rfl).symm k) = ix2 k q := funext fun a => Fin.ext (by
    match a with
    | ⟨0, _⟩ => exact (gvrhs_0 _ _).trans hk
    | ⟨1, _⟩ => exact gvrhs_1 _ _)
  rw [el, er]

theorem gvrow_apply {α : Type} (x : S1x4096.Idx → α) (n : Fin 2048) (q : Fin 4096) :
    broadcastTo S2048x4096 x broadcasts_S1x4096_S2048x4096 (ix2 n q) = x (ix2 (0 : Fin 1) q) := by
  rw [broadcastTo_apply _ _ _ (ix2 (0 : Fin 1) q)]
  intro a
  match a with
  | ⟨0, _⟩ => rfl
  | ⟨1, _⟩ => rfl

-- one point adds, per edge, the value-weighted row of the node its column names, when that node lies in this node block
theorem gvpay_apply (i : grid0.Coords) (v7 : IVec S1x4096 32) (v12 : FVec Ideal S1x4096 .f32)
    (v19 : FVec Ideal S2048x64 .f32) (xs : FVec Ideal S64x4096 .f32) (p : Fin 64) (q : Fin 4096) :
    k0_pay2 (F := Ideal) i v7 v12 v19 xs (ix2 p q)
      = xs (ix2 p q) + ∑ n : Fin 2048, v19 (ix2 n p)
          * (if BitVec.ofNat 32 ((i 1).val * 2048 + n.val) = v7 (ix2 (0 : Fin 1) q) then v12 (ix2 (0 : Fin 1) q) else 0) := by
  unfold k0_pay2
  simp only [shapeCast_self]
  rw [addf_apply]
  refine congrArg (xs (ix2 p q) + ·) ?_
  refine (gvmatmul_apply _ _ p q).trans (Finset.sum_congr rfl fun n _ => ?_)
  rw [truncf_apply, truncf_apply, select_apply, gvrow_apply, broadcast_apply]
  refine congrArg (v19 (ix2 n p) * ·) ?_
  show Scalar.select (IntOp.cmpi .eq _ _) _ _ = _
  rw [gvnode_apply, gvrow_apply]
  by_cases h : BitVec.ofNat 32 ((i 1).val * 2048 + n.val) = v7 (ix2 (0 : Fin 1) q)
  · rw [if_pos h, h]
    show Scalar.select (BitVec.ofBool (v7 (ix2 (0 : Fin 1) q) == v7 (ix2 (0 : Fin 1) q))) _ _ = _
    rw [beq_self_eq_true]
    exact select_one _ _
  · rw [if_neg h]
    show Scalar.select (BitVec.ofBool (BitVec.ofNat 32 ((i 1).val * 2048 + n.val) == v7 (ix2 (0 : Fin 1) q))) _ _ = _
    rw [beq_eq_false_iff_ne.mpr h]
    exact (select_zero _ _).trans Ideal.ofBits_zero_f32

theorem gvnat (x : ℕ) (h : x < 4294967296) : (BitVec.ofNat 32 x).toNat = x := by
  rw [BitVec.toNat_ofNat]; exact Nat.mod_eq_of_lt h

theorem gvtr_0 (i : grid0.Coords) : cc0_transform_0 i = ![0, (i 0).val] := by
  have h : (i 0).val < 489 := (i 0).isLt
  show ![(0#32).toNat, (BitVec.ofNat 32 (i 0).val).toNat] = _
  rw [gvnat (i 0).val (by omega)]
  rfl

theorem gvtr_1 (i : grid0.Coords) : cc0_transform_1 i = ![0, (i 0).val] := by
  have h : (i 0).val < 489 := (i 0).isLt
  show ![(0#32).toNat, (BitVec.ofNat 32 (i 0).val).toNat] = _
  rw [gvnat (i 0).val (by omega)]
  rfl

theorem gvtr_2 (i : grid0.Coords) : cc0_transform_2 i = ![(i 1).val, 0] := by
  have h : (i 1).val < 74 := (i 1).isLt
  show ![(BitVec.ofNat 32 (i 1).val).toNat, (0#32).toNat] = _
  rw [gvnat (i 1).val (by omega)]
  rfl

theorem gvtr_3 (i : grid0.Coords) : cc0_transform_3 i = ![0, (i 0).val] := by
  have h : (i 0).val < 489 := (i 0).isLt
  show ![(0#32).toNat, (BitVec.ofNat 32 (i 0).val).toNat] = _
  rw [gvnat (i 0).val (by omega)]
  rfl

def gvterm (cols : Fin 2002944 → BitVec 32) (vals : Fin 2002944 → EReal) (cur : Fin 151552 → Fin 64 → EReal)
    (k : ℕ) (d : Fin 64) (e : Fin 2002944) : EReal :=
  ∑ n : Fin 2048, (if h : k * 2048 + n.val < 151552 then cur ⟨k * 2048 + n.val, h⟩ d else 0)
    * (if BitVec.ofNat 32 (k * 2048 + n.val) = cols e then vals e else 0)

theorem gvspec (cols : Fin 2002944 → BitVec 32) (vals : Fin 2002944 → EReal) (cur : Fin 151552 → Fin 64 → EReal)
    (d : Fin 64) (e : Fin 2002944) :
    Spec.kerGather cols vals cur d e = 0 + ∑ k ∈ Finset.range 74, gvterm cols vals cur k d e := rfl

end Cert.KernelIdeal.Hand

end
-- ==== Proof.KI.GatherVal0.lean ====
import proofs.«404774_j249108103934_2_alg».proof.Proof.KI.Gather0
import proofs.«404774_j249108103934_2_alg».proof.Proof.KI.GatherMath

noncomputable section
namespace Cert.KernelIdeal.Hand
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

def gcols0 (c : Dev nD) (e : Fin 2002944) : BitVec 32 :=
  (V c (Pipeline.arrRef spec0 0) : S1x2002944.Idx → BitVec 32) (ix2 (0 : Fin 1) e)

def gvals0 (c : Dev nD) (e : Fin 2002944) : EReal :=
  (V c (Pipeline.arrRef spec0 1) : S1x2002944.Idx → EReal) (ix2 (0 : Fin 1) e)

def gcur0 (c : Dev nD) (n : Fin 151552) (d : Fin 64) : EReal :=
  (V c (Pipeline.arrRef spec0 2) : S151552x64.Idx → EReal) (ix2 n d)

theorem gvidx0_0 (t : Fin cfg0.N) : win0_0.index t = ![0, t.val / 74] := by
  show cc0_transform_0 (grid0.coords t) = _
  rw [gvtr_0, gcoordA t]

theorem gvidx0_1 (t : Fin cfg0.N) : win0_1.index t = ![0, t.val / 74] := by
  show cc0_transform_1 (grid0.coords t) = _
  rw [gvtr_1, gcoordA t]

theorem gvidx0_2 (t : Fin cfg0.N) : win0_2.index t = ![t.val % 74, 0] := by
  show cc0_transform_2 (grid0.coords t) = _
  rw [gvtr_2, gcoordB t]

theorem gvidx0_3 (t : Fin cfg0.N) : win0_3.index t = ![0, t.val / 74] := by
  show cc0_transform_3 (grid0.coords t) = _
  rw [gvtr_3, gcoordA t]

theorem gvflush0 (t : Fin cfg0.N) : (cfg0.win 3).flush t = true ↔ t.val % 74 = 73 := by
  have hN : grid0.N = 36186 := N_0
  have ht : t.val < grid0.N := t.isLt
  unfold Window.flush
  show (true && (decide (t.val + 1 = grid0.N) || decide (∃ h : t.val + 1 < grid0.N, win0_3.index ⟨t.val + 1, h⟩ ≠ win0_3.index t))) = true ↔ _
  rw [Bool.true_and, Bool.or_eq_true, decide_eq_true_eq, decide_eq_true_eq]
  constructor
  · rintro (h | ⟨h, hne⟩)
    · omega
    · rw [gvidx0_3, gvidx0_3] at hne
      by_contra hc
      apply hne
      show ![0, (t.val + 1) / 74] = ![0, t.val / 74]
      rw [show (t.val + 1) / 74 = t.val / 74 by omega]
  · intro h
    by_cases hl : t.val + 1 = grid0.N
    · exact Or.inl hl
    · refine Or.inr ⟨by omega, ?_⟩
      rw [gvidx0_3, gvidx0_3]
      intro he
      have hq : (t.val + 1) / 74 = t.val / 74 := congrFun he 1
      omega

theorem gvblk0_0 (c : Dev nD) (t : Fin cfg0.N) (q : Fin 4096) (he : t.val / 74 * 4096 + q.val < 2002944) :
    (iblk0 V c 0 t : IVec S1x4096 32) (ix2 (0 : Fin 1) q) = gcols0 V c ⟨t.val / 74 * 4096 + q.val, he⟩ := by
  unfold iblk0 gcols0
  rw [View.read_apply]
  show V c (Pipeline.arrRef spec0 0) _ = V c (Pipeline.arrRef spec0 0) _
  congr 1
  funext a
  apply Fin.ext
  match a with
  | ⟨0, _⟩ => show win0_0.index t 0 * 1 + 1 * 0 = 0; rw [gvidx0_0]; rfl
  | ⟨1, _⟩ => show win0_0.index t 1 * 4096 + 1 * q.val = t.val / 74 * 4096 + q.val; rw [gvidx0_0]; show t.val / 74 * 4096 + 1 * q.val = _; omega

theorem gvblk0_1 (c : Dev nD) (t : Fin cfg0.N) (q : Fin 4096) (he : t.val / 74 * 4096 + q.val < 2002944) :
    (iblk0 V c 1 t : FVec Ideal S1x4096 .f32) (ix2 (0 : Fin 1) q) = gvals0 V c ⟨t.val / 74 * 4096 + q.val, he⟩ := by
  unfold iblk0 gvals0
  rw [View.read_apply]
  show V c (Pipeline.arrRef spec0 1) _ = V c (Pipeline.arrRef spec0 1) _
  congr 1
  funext a
  apply Fin.ext
  match a with
  | ⟨0, _⟩ => show win0_1.index t 0 * 1 + 1 * 0 = 0; rw [gvidx0_1]; rfl
  | ⟨1, _⟩ => show win0_1.index t 1 * 4096 + 1 * q.val = t.val / 74 * 4096 + q.val; rw [gvidx0_1]; show t.val / 74 * 4096 + 1 * q.val = _; omega

theorem gvblk0_2 (c : Dev nD) (t : Fin cfg0.N) (n : Fin 2048) (p : Fin 64) (hn : t.val % 74 * 2048 + n.val < 151552) :
    (iblk0 V c 2 t : FVec Ideal S2048x64 .f32) (ix2 n p) = gcur0 V c ⟨t.val % 74 * 2048 + n.val, hn⟩ p := by
  unfold iblk0 gcur0
  rw [View.read_apply]
  show V c (Pipeline.arrRef spec0 2) _ = V c (Pipeline.arrRef spec0 2) _
  congr 1
  funext a
  apply Fin.ext
  match a with
  | ⟨0, _⟩ => show win0_2.index t 0 * 2048 + 1 * n.val = t.val % 74 * 2048 + n.val; rw [gvidx0_2]; show t.val % 74 * 2048 + 1 * n.val = _; omega
  | ⟨1, _⟩ => show win0_2.index t 1 * 64 + 1 * p.val = p.val; rw [gvidx0_2]; show 0 * 64 + 1 * p.val = _; omega

def gvadd0 (c : Dev nD) (n : ℕ) (j : S64x4096.Idx) : EReal :=
  if h : n / 74 * 4096 + (j 1).val < 2002944 then
    gvterm (gcols0 V c) (gvals0 V c) (gcur0 V c) (n % 74) (j 0) ⟨n / 74 * 4096 + (j 1).val, h⟩
  else 0

theorem gvadd0_eq (c : Dev nD) (n k : ℕ) (p : Fin 64) (q : Fin 4096) (e : Fin 2002944)
    (hk : n % 74 = k) (he : e.val = n / 74 * 4096 + q.val) :
    gvadd0 V c n (ix2 p q) = gvterm (gcols0 V c) (gvals0 V c) (gcur0 V c) k p e := by
  subst hk
  have hlt : n / 74 * 4096 + q.val < 2002944 := he ▸ e.isLt
  obtain rfl : e = ⟨n / 74 * 4096 + q.val, hlt⟩ := Fin.ext he
  unfold gvadd0
  exact dif_pos hlt

theorem gvstep0_apply (c : Dev nD) (t : Fin cfg0.N) (xs : FVec Ideal S64x4096 .f32) (j : S64x4096.Idx) :
    gstep0 V c t xs j = xs j + gvadd0 V c t.val j := by
  obtain ⟨p, q, rfl⟩ : ∃ (p : Fin 64) (q : Fin 4096), j = ix2 p q := ⟨j 0, j 1, eq_ix2 j⟩
  have hN : grid0.N = 36186 := N_0
  have ht : t.val < grid0.N := t.isLt
  have he : t.val / 74 * 4096 + q.val < 2002944 := by have := q.isLt; omega
  rw [gvadd0_eq V c t.val (t.val % 74) p q ⟨t.val / 74 * 4096 + q.val, he⟩ rfl rfl]
  unfold gstep0
  refine (gvpay_apply (grid0.coords t) (iblk0 V c 0 t) (iblk0 V c 1 t) (iblk0 V c 2 t) xs p q).trans ?_
  refine congrArg (xs (ix2 p q) + ·) (Finset.sum_congr rfl fun n _ => ?_)
  have hn : t.val % 74 * 2048 + n.val < 151552 := by have := n.isLt; omega
  rw [gvblk0_0 V c t q he, gvblk0_1 V c t q he, gvblk0_2 V c t n p hn, gcoordB t, dif_pos hn]

def gvarr0 (c : Dev nD) : S64x2002944.Idx → EReal :=
  fun j => Spec.kerGather (gcols0 V c) (gvals0 V c) (gcur0 V c) (j 0) (j 1)

theorem gvflushed0 (c : Dev nD) (t : Fin cfg0.N) (hf : (cfg0.win 3).flush t = true) :
    (gdat0 (F := Ideal) V c).flushed 3 t = ((cfg0.win 3).blk t).view.read (Elt Ideal) (gvarr0 V c) := by
  have h73 : t.val % 74 = 73 := (gvflush0 t).mp hf
  have hN : grid0.N = 36186 := N_0
  have ht : t.val < grid0.N := t.isLt
  have hb : 74 * (t.val / 74) + t.val % 74 < cfg0.N := by rw [Nat.div_add_mod]; exact t.isLt
  show (cfg0.win 3).cut (grid0.coords t) ((gdat0 (F := Ideal) V c).after 3 t) = _
  rw [gafter0_3]
  funext y
  obtain ⟨p, q, rfl⟩ : ∃ (p : Fin 64) (q : Fin 4096), y = ix2 p q := ⟨y 0, y 1, eq_ix2 y⟩
  rw [View.read_apply]
  show gacc0 V c t.val t.isLt (ix2 p q) = gvarr0 V c (((cfg0.win 3).blk t).view.emb (ix2 p q))
  rw [Pipeline.eq_accAt_of_mod (gacc0 V c) 74 (fun n h => gstep0 V c ⟨n, h⟩ (k0_pay1 (F := Ideal)))
      (fun n h acc => gstep0 V c ⟨n, h⟩ acc) (gacc0_reset V c) (gacc0_step V c) (by decide) t.val t.isLt hb,
    Pipeline.accAt_add_apply (fun n h => gstep0 V c ⟨n, h⟩ (k0_pay1 (F := Ideal))) (fun n h acc => gstep0 V c ⟨n, h⟩ acc)
      (fun _ => (0 : EReal)) (gvadd0 V c) (74 * (t.val / 74)) 73
      (fun h i => by rw [gvstep0_apply, gvzero])
      (fun n h acc i _ _ => gvstep0_apply V c ⟨n, h⟩ acc i)
      (t.val % 74) (by omega) hb (ix2 p q),
    h73]
  have he : t.val / 74 * 4096 + q.val < 2002944 := by have := q.isLt; omega
  have hemb : ((cfg0.win 3).blk t).view.emb (ix2 p q) = ix2 p (⟨t.val / 74 * 4096 + q.val, he⟩ : Fin 2002944) := by
    funext a
    apply Fin.ext
    match a with
    | ⟨0, _⟩ => show win0_3.index t 0 * 64 + 1 * p.val = p.val; rw [gvidx0_3]; show 0 * 64 + 1 * p.val = _; omega
    | ⟨1, _⟩ => show win0_3.index t 1 * 4096 + 1 * q.val = t.val / 74 * 4096 + q.val; rw [gvidx0_3]; show t.val / 74 * 4096 + 1 * q.val = _; omega
  rw [hemb]
  show _ = Spec.kerGather (gcols0 V c) (gvals0 V c) (gcur0 V c) p ⟨t.val / 74 * 4096 + q.val, he⟩
  rw [gvspec]
  refine congrArg (0 + ·) (Finset.sum_congr rfl fun s hs => ?_)
  have hs' : s < 74 := Finset.mem_range.mp hs
  exact gvadd0_eq V c _ s p q _ (by omega) (by show t.val / 74 * 4096 + q.val = (74 * (t.val / 74) + s) / 74 * 4096 + q.val; omega)

theorem gvcover0 (i : S64x2002944.Idx) :
    ∃ t : Fin cfg0.N, (cfg0.win 3).flush t = true ∧ i ∈ ((cfg0.win 3).blk t).view.set := by
  have hN : grid0.N = 36186 := N_0
  have hrow : (i 0).val < 64 := (i 0).isLt
  have hcol : (i 1).val < 2002944 := (i 1).isLt
  have htN : (i 1).val / 4096 * 74 + 73 < cfg0.N := by show _ < grid0.N; omega
  refine ⟨⟨(i 1).val / 4096 * 74 + 73, htN⟩, (gvflush0 _).mpr (by show ((i 1).val / 4096 * 74 + 73) % 74 = 73; omega), ?_⟩
  show i ∈ ((View.whole (Pipeline.arrRef spec0 3)).slice (win0_3.rect ⟨(i 1).val / 4096 * 74 + 73, htN⟩)).set
  rw [View.set_slice_whole, Rect.mem_set_unit]
  intro a
  match a with
  | ⟨0, _⟩ =>
    show win0_3.index ⟨(i 1).val / 4096 * 74 + 73, htN⟩ 0 * 64 ≤ (i 0).val ∧ (i 0).val < win0_3.index ⟨(i 1).val / 4096 * 74 + 73, htN⟩ 0 * 64 + 64
    rw [gvidx0_3]
    show 0 * 64 ≤ (i 0).val ∧ (i 0).val < 0 * 64 + 64
    omega
  | ⟨1, _⟩ =>
    show win0_3.index ⟨(i 1).val / 4096 * 74 + 73, htN⟩ 1 * 4096 ≤ (i 1).val ∧ (i 1).val < win0_3.index ⟨(i 1).val / 4096 * 74 + 73, htN⟩ 1 * 4096 + 4096
    rw [gvidx0_3]
    show ((i 1).val / 4096 * 74 + 73) / 74 * 4096 ≤ (i 1).val ∧ (i 1).val < ((i 1).val / 4096 * 74 + 73) / 74 * 4096 + 4096
    omega

-- over the 74 node blocks each edge meets its column's node once: the output is the value-weighted gather
theorem gfinal0 (c : Dev nD) (d : Fin 64) (e : Fin 2002944) :
    ((gdat0 (F := Ideal) V c).arrAt 3 cfg0.N : S64x2002944.Idx → EReal) (ix2 d e)
      = Spec.kerGather (gcols0 V c) (gvals0 V c) (gcur0 V c) d e :=
  congrFun ((gdat0 (F := Ideal) V c).arrAt_eq_of_cover 3 (gvarr0 V c) (gvflushed0 V c) gvcover0) (ix2 d e)

end Cert.KernelIdeal.Hand

end
-- ==== Proof.KI.ScatterMath.lean ====
import proofs.«404774_j249108103934_2_alg».proof.Proof.Gen.KernelIdeal.Skeleton
import proofs.«404774_j249108103934_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section
namespace Cert.KernelIdeal.Hand
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

theorem svword (n : ℕ) (h : n < 2 ^ 32) : (BitVec.ofNat 32 n).toNat = n := by
  rw [BitVec.toNat_ofNat, Nat.mod_eq_of_lt h]

theorem svlhs_0 (j : S2048x64.Idx) (k : dot_S2048x4096_S64x4096_S2048x64_1_1_0_0_n_n.contr.Idx) :
    (dot_S2048x4096_S64x4096_S2048x64_1_1_0_0_n_n.lhsIdx j k 0 : ℕ) = j 0 := by
  simp [DotDims.lhsIdx, dot_S2048x4096_S64x4096_S2048x64_1_1_0_0_n_n]; rfl

theorem svlhs_1 (j : S2048x64.Idx) (k : dot_S2048x4096_S64x4096_S2048x64_1_1_0_0_n_n.contr.Idx) :
    (dot_S2048x4096_S64x4096_S2048x64_1_1_0_0_n_n.lhsIdx j k 1 : ℕ) = k ⟨0, by decide⟩ :=
  dot_S2048x4096_S64x4096_S2048x64_1_1_0_0_n_n.lhsIdx_val_of_single (cl := 1) rfl j k

theorem svrhs_0 (j : S2048x64.Idx) (k : dot_S2048x4096_S64x4096_S2048x64_1_1_0_0_n_n.contr.Idx) :
    (dot_S2048x4096_S64x4096_S2048x64_1_1_0_0_n_n.rhsIdx j k 0 : ℕ) = j 1 := by
  simp [DotDims.rhsIdx, dot_S2048x4096_S64x4096_S2048x64_1_1_0_0_n_n]; rfl

theorem svrhs_1 (j : S2048x64.Idx) (k : dot_S2048x4096_S64x4096_S2048x64_1_1_0_0_n_n.contr.Idx) :
    (dot_S2048x4096_S64x4096_S2048x64_1_1_0_0_n_n.rhsIdx j k 1 : ℕ) = k ⟨0, by decide⟩ :=
  dot_S2048x4096_S64x4096_S2048x64_1_1_0_0_n_n.rhsIdx_val_of_single (cr := 1) rfl j k

theorem svmatmul (A : FVec Ideal S2048x4096 .bf16) (B : FVec Ideal S64x4096 .bf16) (p : Fin 2048) (q : Fin 64) :
    matmul dot_S2048x4096_S64x4096_S2048x64_1_1_0_0_n_n none A B (constant (F := Ideal) S2048x64 .f32 0x00000000#32) (ix2 p q)
      = ∑ e : Fin 4096, A (ix2 p e) * B (ix2 q e) := by
  show FloatOps.matmul _ none A B _ (ix2 p q) = _
  rw [Ideal.matmul_constant_zero_apply,
    ← Equiv.sum_comp (contrEquiv1 dot_S2048x4096_S64x4096_S2048x64_1_1_0_0_n_n 4096 rfl rfl).symm]
  refine Finset.sum_congr rfl fun e _ => ?_
  have hk := contrEquiv1_symm_val dot_S2048x4096_S64x4096_S2048x64_1_1_0_0_n_n 4096 rfl rfl e
  have hl : dot_S2048x4096_S64x4096_S2048x64_1_1_0_0_n_n.lhsIdx (ix2 p q)
      ((contrEquiv1 dot_S2048x4096_S64x4096_S2048x64_1_1_0_0_n_n 4096 rfl rfl).symm e) = ix2 p e := by
    funext ax; apply Fin.ext
    match ax with
    | ⟨0, _⟩ => exact svlhs_0 _ _
    | ⟨1, _⟩ => exact (svlhs_1 _ _).trans hk
  have hr : dot_S2048x4096_S64x4096_S2048x64_1_1_0_0_n_n.rhsIdx (ix2 p q)
      ((contrEquiv1 dot_S2048x4096_S64x4096_S2048x64_1_1_0_0_n_n 4096 rfl rfl).symm e) = ix2 q e := by
    funext ax; apply Fin.ext
    match ax with
    | ⟨0, _⟩ => exact svrhs_0 _ _
    | ⟨1, _⟩ => exact (svrhs_1 _ _).trans hk
  rw [hl, hr]

theorem svbcol {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem svsel {α : Type} (x y : BitVec 32) (u w : α) :
    Scalar.select (IntOp.cmpi .eq x y) u w = if x = y then u else w := by
  show (if BitVec.ofBool (x == y) = 1#1 then u else w) = _
  by_cases h : x = y
  · rw [if_pos h, h, beq_self_eq_true]; exact if_pos rfl
  · rw [if_neg h, beq_eq_false_iff_ne.mpr h]; exact if_neg (by decide)

theorem svnode (n r : ℕ) : IntOp.addi (Scalar.muli (BitVec.ofNat 32 n) 2048#32) (BitVec.ofNat 32 r) = BitVec.ofNat 32 (n * 2048 + r) := by
  show BitVec.ofNat 32 n * BitVec.ofNat 32 2048 + BitVec.ofNat 32 r = _
  rw [← BitVec.ofNat_mul, ← BitVec.ofNat_add]

-- one point adds, per node of the block, the gathered rows of this edge block's edges whose row index is that node
theorem svpay (i : grid1.Coords) (v7 : Vec Ideal S1x4096 .i32) (v16 : Vec Ideal S64x4096 .f32)
    (v20 : Vec Ideal S2048x64 .f32) (p : Fin 2048) (q : Fin 64) :
    k1_pay2 (F := Ideal) i v7 v16 v20 (ix2 p q)
      = v20 (ix2 p q) + ∑ e : Fin 4096,
          (if BitVec.ofNat 32 ((i 0).val * 2048 + p.val) = v7 (ix2 (0 : Fin 1) e) then (1 : EReal) else 0) * v16 (ix2 q e) := by
  unfold k1_pay2
  simp only [shapeCast_self]
  rw [addf_apply, svmatmul]
  refine congrArg (v20 (ix2 p q) + ·) (Finset.sum_congr rfl fun e _ => ?_)
  rw [truncf_apply, truncf_apply, select_apply, broadcast_apply, broadcast_apply]
  show Scalar.select (IntOp.cmpi .eq (broadcastTo S2048x4096 _ broadcasts_S2048x1_S2048x4096 (ix2 p e))
      (broadcastTo S2048x4096 v7 broadcasts_S1x4096_S2048x4096 (ix2 p e))) _ _ * _ = _
  rw [svbcol, broadcastTo_1b_ab_apply, svsel]
  show (if IntOp.addi (Scalar.muli (BitVec.ofNat 32 (i 0).val) 2048#32)
      (iota .tc S2048x1 32 [0] iota_S2048x1_d0_w32 (ix2 p (0 : Fin 1))) = v7 (ix2 (0 : Fin 1) e) then _ else _) * _ = _
  rw [iota_single_apply]
  show (if IntOp.addi (Scalar.muli (BitVec.ofNat 32 (i 0).val) 2048#32) (BitVec.ofNat 32 p.val) = _ then _ else _) * _ = _
  rw [svnode]
  show (if _ then Ideal.ofBits .f32 0x3F800000#32 else Ideal.ofBits .f32 0x00000000#32) * _ = _
  rw [Ideal.ofBits_one_f32, Ideal.ofBits_zero_f32]

theorem svzero (j : S2048x64.Idx) : k1_pay1 (F := Ideal) j = 0 := by
  unfold k1_pay1
  simp only [shapeCast_self]
  show Ideal.ofBits .f32 0x00000000#32 = 0
  exact Ideal.ofBits_zero_f32

end Cert.KernelIdeal.Hand

end
-- ==== Proof.KI.ScatterVal1.lean ====
import proofs.«404774_j249108103934_2_alg».proof.Proof.KI.Scatter1
import proofs.«404774_j249108103934_2_alg».proof.Proof.KI.ScatterMath

noncomputable section
namespace Cert.KernelIdeal.Hand
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

theorem svlt1 (t : Fin cfg1.N) : t.val < 36186 := by
  have h := t.isLt
  have e : cfg1.N = 36186 := N_1
  omega

theorem svidx1_0 (t : Fin cfg1.N) : win1_0.index t 0 = 0 ∧ win1_0.index t 1 = t.val % 489 := by
  refine ⟨rfl, ?_⟩
  show (BitVec.ofNat 32 ((grid1.coords t) 1).val).toNat = _
  rw [scoordB t, svword _ (by omega)]

theorem svidx1_1 (t : Fin cfg1.N) : win1_1.index t 0 = 0 ∧ win1_1.index t 1 = t.val % 489 := by
  refine ⟨rfl, ?_⟩
  show (BitVec.ofNat 32 ((grid1.coords t) 1).val).toNat = _
  rw [scoordB t, svword _ (by omega)]

theorem svidx1_2 (t : Fin cfg1.N) : win1_2.index t 0 = t.val / 489 ∧ win1_2.index t 1 = 0 := by
  have hN := svlt1 t
  refine ⟨?_, rfl⟩
  show (BitVec.ofNat 32 ((grid1.coords t) 0).val).toNat = _
  rw [scoordA t, svword _ (by omega)]

theorem svidx1_2_eq (t : Fin cfg1.N) : win1_2.index t = ![t.val / 489, 0] := by
  funext a
  match a with
  | ⟨0, _⟩ => exact (svidx1_2 t).1
  | ⟨1, _⟩ => exact (svidx1_2 t).2

theorem svflush1 (t : Fin cfg1.N) : (cfg1.win 2).flush t = true ↔ t.val % 489 = 488 := by
  have hN := svlt1 t
  have eN : grid1.N = 36186 := N_1
  show win1_2.flush t = true ↔ _
  unfold Window.flush
  show (true && (decide (t.val + 1 = grid1.N) || decide (∃ h : t.val + 1 < grid1.N, win1_2.index ⟨t.val + 1, h⟩ ≠ win1_2.index t))) = true ↔ _
  rw [Bool.true_and, Bool.or_eq_true, decide_eq_true_eq, decide_eq_true_eq]
  constructor
  · rintro (h | ⟨h, hne⟩)
    · omega
    · by_contra hc
      apply hne
      rw [svidx1_2_eq, svidx1_2_eq]
      show ![(t.val + 1) / 489, 0] = ![t.val / 489, 0]
      have : (t.val + 1) / 489 = t.val / 489 := by omega
      rw [this]
  · intro h
    by_cases hl : t.val + 1 = grid1.N
    · exact Or.inl hl
    · refine Or.inr ⟨by omega, fun he => ?_⟩
      have hz := congrFun he 0
      rw [(svidx1_2 _).1, (svidx1_2 _).1] at hz
      have : (t.val + 1) / 489 = t.val / 489 := hz
      omega

variable (V : (c : Dev nD) → (b : Ref sig .tc) → Buf (Elt Ideal) ((c : Thread nD τ).loc b))

def srows1 (c : Dev nD) (e : Fin 2002944) : BitVec 32 :=
  (V c (Pipeline.arrRef spec1 0) : S1x2002944.Idx → BitVec 32) (ix2 (0 : Fin 1) e)

def sgath1 (c : Dev nD) (d : Fin 64) (e : Fin 2002944) : EReal :=
  (V c (Pipeline.arrRef spec1 1) : S64x2002944.Idx → EReal) (ix2 d e)

theorem svblk1_0 (c : Dev nD) (t : Fin cfg1.N) (e : Fin 4096) :
    (iblk1 V c 0 t : Vec Ideal S1x4096 .i32) (ix2 (0 : Fin 1) e)
      = srows1 V c ⟨t.val % 489 * 4096 + e.val, by have := e.isLt; omega⟩ := by
  unfold iblk1 srows1
  rw [View.read_apply]
  refine congrArg (V c (Pipeline.arrRef spec1 0)) (funext fun a => Fin.ext ?_)
  match a with
  | ⟨0, _⟩ => show win1_0.index t 0 * 1 + 1 * 0 = 0; rw [(svidx1_0 t).1]
  | ⟨1, _⟩ => show win1_0.index t 1 * 4096 + 1 * e.val = t.val % 489 * 4096 + e.val; rw [(svidx1_0 t).2]; omega

theorem svblk1_1 (c : Dev nD) (t : Fin cfg1.N) (q : Fin 64) (e : Fin 4096) :
    (iblk1 V c 1 t : Vec Ideal S64x4096 .f32) (ix2 q e)
      = sgath1 V c q ⟨t.val % 489 * 4096 + e.val, by have := e.isLt; omega⟩ := by
  unfold iblk1 sgath1
  rw [View.read_apply]
  refine congrArg (V c (Pipeline.arrRef spec1 1)) (funext fun a => Fin.ext ?_)
  match a with
  | ⟨0, _⟩ => show win1_1.index t 0 * 64 + 1 * q.val = q.val; rw [(svidx1_1 t).1]; omega
  | ⟨1, _⟩ => show win1_1.index t 1 * 4096 + 1 * e.val = t.val % 489 * 4096 + e.val; rw [(svidx1_1 t).2]; omega

def svadd1 (c : Dev nD) (n : ℕ) (j : S2048x64.Idx) : EReal :=
  ∑ e : Fin 4096,
    (if BitVec.ofNat 32 (n / 489 * 2048 + (j 0).val)
        = (if h : n % 489 * 4096 + e.val < 2002944 then srows1 V c ⟨n % 489 * 4096 + e.val, h⟩ else 0#32) then (1 : EReal) else 0)
      * (if h : n % 489 * 4096 + e.val < 2002944 then sgath1 V c (j 1) ⟨n % 489 * 4096 + e.val, h⟩ else 0)

theorem svstep1 (c : Dev nD) (t : Fin cfg1.N) (xs : Vec Ideal S2048x64 .f32) (j : S2048x64.Idx) :
    sstep1 V c t xs j = xs j + svadd1 V c t.val j := by
  obtain ⟨p, q, rfl⟩ : ∃ (p : Fin 2048) (q : Fin 64), j = ix2 p q := ⟨j 0, j 1, eq_ix2 j⟩
  refine (svpay (grid1.coords t) (iblk1 V c 0 t) (iblk1 V c 1 t) xs p q).trans ?_
  unfold svadd1
  refine congrArg (xs (ix2 p q) + ·) (Finset.sum_congr rfl fun e _ => ?_)
  have hb : t.val % 489 * 4096 + e.val < 2002944 := by have := e.isLt; omega
  rw [dif_pos hb, dif_pos hb, scoordA t, svblk1_0, svblk1_1]

theorem svfold1 (c : Dev nD) (k : ℕ) (h : 489 * k + 488 < cfg1.N) (j : S2048x64.Idx) :
    sacc1 V c (489 * k + 488) h j = 0 + ∑ s ∈ Finset.range 489, svadd1 V c (489 * k + s) j := by
  refine (congrFun (Pipeline.eq_accAt (α := Vec Ideal S2048x64 .f32) (N := cfg1.N) (fun n hn => sacc1 V c n hn) 489
    (fun n hn => sstep1 V c ⟨n, hn⟩ (k1_pay1 (F := Ideal))) (fun n hn acc => sstep1 V c ⟨n, hn⟩ acc)
    (fun n hn h0 => sacc1_reset V c n hn h0) (fun n hn hs => sacc1_step V c n hn hs) k 488 (by norm_num) h) j).trans ?_
  exact Pipeline.accAt_add_apply (ι := S2048x64.Idx) (β := EReal) (N := cfg1.N)
    (fun n hn => sstep1 V c ⟨n, hn⟩ (k1_pay1 (F := Ideal))) (fun n hn acc => sstep1 V c ⟨n, hn⟩ acc)
    (fun _ => 0) (svadd1 V c) (489 * k) 488
    (fun hn i => by rw [svstep1, svzero])
    (fun n hn acc i _ _ => svstep1 V c ⟨n, hn⟩ acc i)
    488 le_rfl h j

theorem svspec1 (c : Dev nD) (k : ℕ) (j : S2048x64.Idx) (v : Fin 151552) (d : Fin 64)
    (hv : v.val = k * 2048 + (j 0).val) (hd : d.val = (j 1).val) :
    0 + ∑ s ∈ Finset.range 489, svadd1 V c (489 * k + s) j = Spec.kerScatter (srows1 V c) (sgath1 V c) v d := by
  obtain rfl : d = j 1 := Fin.ext hd
  unfold Spec.kerScatter
  refine congrArg (0 + ·) (Finset.sum_congr rfl fun s hs => ?_)
  have hs' : s < 489 := Finset.mem_range.mp hs
  have hq : (489 * k + s) / 489 = k := by omega
  have hr : (489 * k + s) % 489 = s := by omega
  unfold svadd1
  rw [hq, hr, hv]

def svG1 (c : Dev nD) : S151552x64.Idx → EReal :=
  fun j => Spec.kerScatter (srows1 V c) (sgath1 V c) (j 0) (j 1)

theorem svflushed1 (c : Dev nD) (t : Fin cfg1.N) (hf : (cfg1.win 2).flush t = true) :
    (sdat1 (F := Ideal) V c).flushed 2 t = ((cfg1.win 2).blk t).view.read (Elt Ideal) (svG1 V c) := by
  have ht := (svflush1 t).mp hf
  have hN := svlt1 t
  obtain ⟨k, hk⟩ : ∃ k, t.val = 489 * k + 488 := ⟨t.val / 489, by omega⟩
  obtain ⟨tv, tlt⟩ := t
  dsimp only at hk
  subst hk
  show (cfg1.win 2).cut (grid1.coords _) ((sdat1 (F := Ideal) V c).after 2 _) = _
  rw [safter1_2]
  funext y
  rw [View.read_apply]
  refine (svfold1 V c k tlt _).trans ?_
  have hq : (489 * k + 488) / 489 = k := by omega
  refine svspec1 V c k _ _ _ ?_ ?_
  · show win1_2.index ⟨489 * k + 488, tlt⟩ 0 * 2048 + 1 * (y 0).val = k * 2048 + (y 0).val
    rw [(svidx1_2 _).1]
    show (489 * k + 488) / 489 * 2048 + 1 * (y 0).val = _
    rw [hq]; omega
  · show win1_2.index ⟨489 * k + 488, tlt⟩ 1 * 64 + 1 * (y 1).val = (y 1).val
    rw [(svidx1_2 _).2]; omega

theorem svcover1 (i : S151552x64.Idx) :
    ∃ t : Fin cfg1.N, (cfg1.win 2).flush t = true ∧ i ∈ ((cfg1.win 2).blk t).view.set := by
  have hrow : (i 0).val < 151552 := (i 0).isLt
  have hcol : (i 1).val < 64 := (i 1).isLt
  have eN : cfg1.N = 36186 := N_1
  have hq : ((i 0).val / 2048 * 489 + 488) / 489 = (i 0).val / 2048 := by omega
  have hlt : (i 0).val / 2048 * 489 + 488 < cfg1.N := by omega
  refine ⟨⟨(i 0).val / 2048 * 489 + 488, hlt⟩,
    (svflush1 _).mpr (by show ((i 0).val / 2048 * 489 + 488) % 489 = 488; omega), ?_⟩
  show i ∈ ((View.whole (Pipeline.arrRef spec1 2)).slice (win1_2.rect ⟨(i 0).val / 2048 * 489 + 488, hlt⟩)).set
  rw [View.set_slice_whole, Rect.mem_set_unit]
  intro a
  match a with
  | ⟨0, _⟩ =>
    show win1_2.index ⟨(i 0).val / 2048 * 489 + 488, hlt⟩ 0 * 2048 ≤ (i 0).val ∧ (i 0).val < win1_2.index ⟨(i 0).val / 2048 * 489 + 488, hlt⟩ 0 * 2048 + 2048
    rw [(svidx1_2 _).1]
    show ((i 0).val / 2048 * 489 + 488) / 489 * 2048 ≤ (i 0).val ∧ (i 0).val < ((i 0).val / 2048 * 489 + 488) / 489 * 2048 + 2048
    rw [hq]; omega
  | ⟨1, _⟩ =>
    show win1_2.index ⟨(i 0).val / 2048 * 489 + 488, hlt⟩ 1 * 64 ≤ (i 1).val ∧ (i 1).val < win1_2.index ⟨(i 0).val / 2048 * 489 + 488, hlt⟩ 1 * 64 + 64
    rw [(svidx1_2 _).2]; omega

-- over the 489 edge blocks each node collects every edge naming it: the output is the segment sum
theorem sfinal1 (c : Dev nD) (v : Fin 151552) (d : Fin 64) :
    ((sdat1 (F := Ideal) V c).arrAt 2 cfg1.N : S151552x64.Idx → EReal) (ix2 v d)
      = Spec.kerScatter (srows1 V c) (sgath1 V c) v d := by
  have h := (sdat1 (F := Ideal) V c).arrAt_eq_of_cover 2 (svG1 V c) (fun t hf => svflushed1 V c t hf) svcover1
  exact congrFun h (ix2 v d)

end Cert.KernelIdeal.Hand

end
-- ==== Proof.KI.GatherVal2.lean ====
import proofs.«404774_j249108103934_2_alg».proof.Proof.KI.Gather2
import proofs.«404774_j249108103934_2_alg».proof.Proof.KI.GatherMath

noncomputable section
namespace Cert.KernelIdeal.Hand
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

def gcols2 (c : Dev nD) (e : Fin 2002944) : BitVec 32 :=
  (V c (Pipeline.arrRef spec2 0) : S1x2002944.Idx → BitVec 32) (ix2 (0 : Fin 1) e)

def gvals2 (c : Dev nD) (e : Fin 2002944) : EReal :=
  (V c (Pipeline.arrRef spec2 1) : S1x2002944.Idx → EReal) (ix2 (0 : Fin 1) e)

def gcur2 (c : Dev nD) (n : Fin 151552) (d : Fin 64) : EReal :=
  (V c (Pipeline.arrRef spec2 2) : S151552x64.Idx → EReal) (ix2 n d)

theorem gvidx2_0 (t : Fin cfg2.N) : win2_0.index t = ![0, t.val / 74] := by
  show cc0_transform_0 (grid2.coords t) = _
  rw [gvtr_0, gcoordA t]

theorem gvidx2_1 (t : Fin cfg2.N) : win2_1.index t = ![0, t.val / 74] := by
  show cc0_transform_1 (grid2.coords t) = _
  rw [gvtr_1, gcoordA t]

theorem gvidx2_2 (t : Fin cfg2.N) : win2_2.index t = ![t.val % 74, 0] := by
  show cc0_transform_2 (grid2.coords t) = _
  rw [gvtr_2, gcoordB t]

theorem gvidx2_3 (t : Fin cfg2.N) : win2_3.index t = ![0, t.val / 74] := by
  show cc0_transform_3 (grid2.coords t) = _
  rw [gvtr_3, gcoordA t]

theorem gvflush2 (t : Fin cfg2.N) : (cfg2.win 3).flush t = true ↔ t.val % 74 = 73 := by
  have hN : grid2.N = 36186 := N_2
  have ht : t.val < grid2.N := t.isLt
  unfold Window.flush
  show (true && (decide (t.val + 1 = grid2.N) || decide (∃ h : t.val + 1 < grid2.N, win2_3.index ⟨t.val + 1, h⟩ ≠ win2_3.index t))) = true ↔ _
  rw [Bool.true_and, Bool.or_eq_true, decide_eq_true_eq, decide_eq_true_eq]
  constructor
  · rintro (h | ⟨h, hne⟩)
    · omega
    · rw [gvidx2_3, gvidx2_3] at hne
      by_contra hc
      apply hne
      show ![0, (t.val + 1) / 74] = ![0, t.val / 74]
      rw [show (t.val + 1) / 74 = t.val / 74 by omega]
  · intro h
    by_cases hl : t.val + 1 = grid2.N
    · exact Or.inl hl
    · refine Or.inr ⟨by omega, ?_⟩
      rw [gvidx2_3, gvidx2_3]
      intro he
      have hq : (t.val + 1) / 74 = t.val / 74 := congrFun he 1
      omega

theorem gvblk2_0 (c : Dev nD) (t : Fin cfg2.N) (q : Fin 4096) (he : t.val / 74 * 4096 + q.val < 2002944) :
    (iblk2 V c 0 t : IVec S1x4096 32) (ix2 (0 : Fin 1) q) = gcols2 V c ⟨t.val / 74 * 4096 + q.val, he⟩ := by
  unfold iblk2 gcols2
  rw [View.read_apply]
  show V c (Pipeline.arrRef spec2 0) _ = V c (Pipeline.arrRef spec2 0) _
  congr 1
  funext a
  apply Fin.ext
  match a with
  | ⟨0, _⟩ => show win2_0.index t 0 * 1 + 1 * 0 = 0; rw [gvidx2_0]; rfl
  | ⟨1, _⟩ => show win2_0.index t 1 * 4096 + 1 * q.val = t.val / 74 * 4096 + q.val; rw [gvidx2_0]; show t.val / 74 * 4096 + 1 * q.val = _; omega

theorem gvblk2_1 (c : Dev nD) (t : Fin cfg2.N) (q : Fin 4096) (he : t.val / 74 * 4096 + q.val < 2002944) :
    (iblk2 V c 1 t : FVec Ideal S1x4096 .f32) (ix2 (0 : Fin 1) q) = gvals2 V c ⟨t.val / 74 * 4096 + q.val, he⟩ := by
  unfold iblk2 gvals2
  rw [View.read_apply]
  show V c (Pipeline.arrRef spec2 1) _ = V c (Pipeline.arrRef spec2 1) _
  congr 1
  funext a
  apply Fin.ext
  match a with
  | ⟨0, _⟩ => show win2_1.index t 0 * 1 + 1 * 0 = 0; rw [gvidx2_1]; rfl
  | ⟨1, _⟩ => show win2_1.index t 1 * 4096 + 1 * q.val = t.val / 74 * 4096 + q.val; rw [gvidx2_1]; show t.val / 74 * 4096 + 1 * q.val = _; omega

theorem gvblk2_2 (c : Dev nD) (t : Fin cfg2.N) (n : Fin 2048) (p : Fin 64) (hn : t.val % 74 * 2048 + n.val < 151552) :
    (iblk2 V c 2 t : FVec Ideal S2048x64 .f32) (ix2 n p) = gcur2 V c ⟨t.val % 74 * 2048 + n.val, hn⟩ p := by
  unfold iblk2 gcur2
  rw [View.read_apply]
  show V c (Pipeline.arrRef spec2 2) _ = V c (Pipeline.arrRef spec2 2) _
  congr 1
  funext a
  apply Fin.ext
  match a with
  | ⟨0, _⟩ => show win2_2.index t 0 * 2048 + 1 * n.val = t.val % 74 * 2048 + n.val; rw [gvidx2_2]; show t.val % 74 * 2048 + 1 * n.val = _; omega
  | ⟨1, _⟩ => show win2_2.index t 1 * 64 + 1 * p.val = p.val; rw [gvidx2_2]; show 0 * 64 + 1 * p.val = _; omega

def gvadd2 (c : Dev nD) (n : ℕ) (j : S64x4096.Idx) : EReal :=
  if h : n / 74 * 4096 + (j 1).val < 2002944 then
    gvterm (gcols2 V c) (gvals2 V c) (gcur2 V c) (n % 74) (j 0) ⟨n / 74 * 4096 + (j 1).val, h⟩
  else 0

theorem gvadd2_eq (c : Dev nD) (n k : ℕ) (p : Fin 64) (q : Fin 4096) (e : Fin 2002944)
    (hk : n % 74 = k) (he : e.val = n / 74 * 4096 + q.val) :
    gvadd2 V c n (ix2 p q) = gvterm (gcols2 V c) (gvals2 V c) (gcur2 V c) k p e := by
  subst hk
  have hlt : n / 74 * 4096 + q.val < 2002944 := he ▸ e.isLt
  obtain rfl : e = ⟨n / 74 * 4096 + q.val, hlt⟩ := Fin.ext he
  unfold gvadd2
  exact dif_pos hlt

theorem gvstep2_apply (c : Dev nD) (t : Fin cfg2.N) (xs : FVec Ideal S64x4096 .f32) (j : S64x4096.Idx) :
    gstep2 V c t xs j = xs j + gvadd2 V c t.val j := by
  obtain ⟨p, q, rfl⟩ : ∃ (p : Fin 64) (q : Fin 4096), j = ix2 p q := ⟨j 0, j 1, eq_ix2 j⟩
  have hN : grid2.N = 36186 := N_2
  have ht : t.val < grid2.N := t.isLt
  have he : t.val / 74 * 4096 + q.val < 2002944 := by have := q.isLt; omega
  rw [gvadd2_eq V c t.val (t.val % 74) p q ⟨t.val / 74 * 4096 + q.val, he⟩ rfl rfl]
  unfold gstep2
  refine (gvpay_apply (grid2.coords t) (iblk2 V c 0 t) (iblk2 V c 1 t) (iblk2 V c 2 t) xs p q).trans ?_
  refine congrArg (xs (ix2 p q) + ·) (Finset.sum_congr rfl fun n _ => ?_)
  have hn : t.val % 74 * 2048 + n.val < 151552 := by have := n.isLt; omega
  rw [gvblk2_0 V c t q he, gvblk2_1 V c t q he, gvblk2_2 V c t n p hn, gcoordB t, dif_pos hn]

def gvarr2 (c : Dev nD) : S64x2002944.Idx → EReal :=
  fun j => Spec.kerGather (gcols2 V c) (gvals2 V c) (gcur2 V c) (j 0) (j 1)

theorem gvflushed2 (c : Dev nD) (t : Fin cfg2.N) (hf : (cfg2.win 3).flush t = true) :
    (gdat2 (F := Ideal) V c).flushed 3 t = ((cfg2.win 3).blk t).view.read (Elt Ideal) (gvarr2 V c) := by
  have h73 : t.val % 74 = 73 := (gvflush2 t).mp hf
  have hN : grid2.N = 36186 := N_2
  have ht : t.val < grid2.N := t.isLt
  have hb : 74 * (t.val / 74) + t.val % 74 < cfg2.N := by rw [Nat.div_add_mod]; exact t.isLt
  show (cfg2.win 3).cut (grid2.coords t) ((gdat2 (F := Ideal) V c).after 3 t) = _
  rw [gafter2_3]
  funext y
  obtain ⟨p, q, rfl⟩ : ∃ (p : Fin 64) (q : Fin 4096), y = ix2 p q := ⟨y 0, y 1, eq_ix2 y⟩
  rw [View.read_apply]
  show gacc2 V c t.val t.isLt (ix2 p q) = gvarr2 V c (((cfg2.win 3).blk t).view.emb (ix2 p q))
  rw [Pipeline.eq_accAt_of_mod (gacc2 V c) 74 (fun n h => gstep2 V c ⟨n, h⟩ (k0_pay1 (F := Ideal)))
      (fun n h acc => gstep2 V c ⟨n, h⟩ acc) (gacc2_reset V c) (gacc2_step V c) (by decide) t.val t.isLt hb,
    Pipeline.accAt_add_apply (fun n h => gstep2 V c ⟨n, h⟩ (k0_pay1 (F := Ideal))) (fun n h acc => gstep2 V c ⟨n, h⟩ acc)
      (fun _ => (0 : EReal)) (gvadd2 V c) (74 * (t.val / 74)) 73
      (fun h i => by rw [gvstep2_apply, gvzero])
      (fun n h acc i _ _ => gvstep2_apply V c ⟨n, h⟩ acc i)
      (t.val % 74) (by omega) hb (ix2 p q),
    h73]
  have he : t.val / 74 * 4096 + q.val < 2002944 := by have := q.isLt; omega
  have hemb : ((cfg2.win 3).blk t).view.emb (ix2 p q) = ix2 p (⟨t.val / 74 * 4096 + q.val, he⟩ : Fin 2002944) := by
    funext a
    apply Fin.ext
    match a with
    | ⟨0, _⟩ => show win2_3.index t 0 * 64 + 1 * p.val = p.val; rw [gvidx2_3]; show 0 * 64 + 1 * p.val = _; omega
    | ⟨1, _⟩ => show win2_3.index t 1 * 4096 + 1 * q.val = t.val / 74 * 4096 + q.val; rw [gvidx2_3]; show t.val / 74 * 4096 + 1 * q.val = _; omega
  rw [hemb]
  show _ = Spec.kerGather (gcols2 V c) (gvals2 V c) (gcur2 V c) p ⟨t.val / 74 * 4096 + q.val, he⟩
  rw [gvspec]
  refine congrArg (0 + ·) (Finset.sum_congr rfl fun s hs => ?_)
  have hs' : s < 74 := Finset.mem_range.mp hs
  exact gvadd2_eq V c _ s p q _ (by omega) (by show t.val / 74 * 4096 + q.val = (74 * (t.val / 74) + s) / 74 * 4096 + q.val; omega)

theorem gvcover2 (i : S64x2002944.Idx) :
    ∃ t : Fin cfg2.N, (cfg2.win 3).flush t = true ∧ i ∈ ((cfg2.win 3).blk t).view.set := by
  have hN : grid2.N = 36186 := N_2
  have hrow : (i 0).val < 64 := (i 0).isLt
  have hcol : (i 1).val < 2002944 := (i 1).isLt
  have htN : (i 1).val / 4096 * 74 + 73 < cfg2.N := by show _ < grid2.N; omega
  refine ⟨⟨(i 1).val / 4096 * 74 + 73, htN⟩, (gvflush2 _).mpr (by show ((i 1).val / 4096 * 74 + 73) % 74 = 73; omega), ?_⟩
  show i ∈ ((View.whole (Pipeline.arrRef spec2 3)).slice (win2_3.rect ⟨(i 1).val / 4096 * 74 + 73, htN⟩)).set
  rw [View.set_slice_whole, Rect.mem_set_unit]
  intro a
  match a with
  | ⟨0, _⟩ =>
    show win2_3.index ⟨(i 1).val / 4096 * 74 + 73, htN⟩ 0 * 64 ≤ (i 0).val ∧ (i 0).val < win2_3.index ⟨(i 1).val / 4096 * 74 + 73, htN⟩ 0 * 64 + 64
    rw [gvidx2_3]
    show 0 * 64 ≤ (i 0).val ∧ (i 0).val < 0 * 64 + 64
    omega
  | ⟨1, _⟩ =>
    show win2_3.index ⟨(i 1).val / 4096 * 74 + 73, htN⟩ 1 * 4096 ≤ (i 1).val ∧ (i 1).val < win2_3.index ⟨(i 1).val / 4096 * 74 + 73, htN⟩ 1 * 4096 + 4096
    rw [gvidx2_3]
    show ((i 1).val / 4096 * 74 + 73) / 74 * 4096 ≤ (i 1).val ∧ (i 1).val < ((i 1).val / 4096 * 74 + 73) / 74 * 4096 + 4096
    omega

-- over the 74 node blocks each edge meets its column's node once: the output is the value-weighted gather
theorem gfinal2 (c : Dev nD) (d : Fin 64) (e : Fin 2002944) :
    ((gdat2 (F := Ideal) V c).arrAt 3 cfg2.N : S64x2002944.Idx → EReal) (ix2 d e)
      = Spec.kerGather (gcols2 V c) (gvals2 V c) (gcur2 V c) d e :=
  congrFun ((gdat2 (F := Ideal) V c).arrAt_eq_of_cover 3 (gvarr2 V c) (gvflushed2 V c) gvcover2) (ix2 d e)

end Cert.KernelIdeal.Hand

end
-- ==== Proof.KI.ScatterVal3.lean ====
import proofs.«404774_j249108103934_2_alg».proof.Proof.KI.Scatter3
import proofs.«404774_j249108103934_2_alg».proof.Proof.KI.ScatterMath

noncomputable section
namespace Cert.KernelIdeal.Hand
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

theorem svlt3 (t : Fin cfg3.N) : t.val < 36186 := by
  have h := t.isLt
  have e : cfg3.N = 36186 := N_3
  omega

theorem svidx3_0 (t : Fin cfg3.N) : win3_0.index t 0 = 0 ∧ win3_0.index t 1 = t.val % 489 := by
  refine ⟨rfl, ?_⟩
  show (BitVec.ofNat 32 ((grid3.coords t) 1).val).toNat = _
  rw [scoordB t, svword _ (by omega)]

theorem svidx3_1 (t : Fin cfg3.N) : win3_1.index t 0 = 0 ∧ win3_1.index t 1 = t.val % 489 := by
  refine ⟨rfl, ?_⟩
  show (BitVec.ofNat 32 ((grid3.coords t) 1).val).toNat = _
  rw [scoordB t, svword _ (by omega)]

theorem svidx3_2 (t : Fin cfg3.N) : win3_2.index t 0 = t.val / 489 ∧ win3_2.index t 1 = 0 := by
  have hN := svlt3 t
  refine ⟨?_, rfl⟩
  show (BitVec.ofNat 32 ((grid3.coords t) 0).val).toNat = _
  rw [scoordA t, svword _ (by omega)]

theorem svidx3_2_eq (t : Fin cfg3.N) : win3_2.index t = ![t.val / 489, 0] := by
  funext a
  match a with
  | ⟨0, _⟩ => exact (svidx3_2 t).1
  | ⟨1, _⟩ => exact (svidx3_2 t).2

theorem svflush3 (t : Fin cfg3.N) : (cfg3.win 2).flush t = true ↔ t.val % 489 = 488 := by
  have hN := svlt3 t
  have eN : grid3.N = 36186 := N_3
  show win3_2.flush t = true ↔ _
  unfold Window.flush
  show (true && (decide (t.val + 1 = grid3.N) || decide (∃ h : t.val + 1 < grid3.N, win3_2.index ⟨t.val + 1, h⟩ ≠ win3_2.index t))) = true ↔ _
  rw [Bool.true_and, Bool.or_eq_true, decide_eq_true_eq, decide_eq_true_eq]
  constructor
  · rintro (h | ⟨h, hne⟩)
    · omega
    · by_contra hc
      apply hne
      rw [svidx3_2_eq, svidx3_2_eq]
      show ![(t.val + 1) / 489, 0] = ![t.val / 489, 0]
      have : (t.val + 1) / 489 = t.val / 489 := by omega
      rw [this]
  · intro h
    by_cases hl : t.val + 1 = grid3.N
    · exact Or.inl hl
    · refine Or.inr ⟨by omega, fun he => ?_⟩
      have hz := congrFun he 0
      rw [(svidx3_2 _).1, (svidx3_2 _).1] at hz
      have : (t.val + 1) / 489 = t.val / 489 := hz
      omega

variable (V : (c : Dev nD) → (b : Ref sig .tc) → Buf (Elt Ideal) ((c : Thread nD τ).loc b))

def srows3 (c : Dev nD) (e : Fin 2002944) : BitVec 32 :=
  (V c (Pipeline.arrRef spec3 0) : S1x2002944.Idx → BitVec 32) (ix2 (0 : Fin 1) e)

def sgath3 (c : Dev nD) (d : Fin 64) (e : Fin 2002944) : EReal :=
  (V c (Pipeline.arrRef spec3 1) : S64x2002944.Idx → EReal) (ix2 d e)

theorem svblk3_0 (c : Dev nD) (t : Fin cfg3.N) (e : Fin 4096) :
    (iblk3 V c 0 t : Vec Ideal S1x4096 .i32) (ix2 (0 : Fin 1) e)
      = srows3 V c ⟨t.val % 489 * 4096 + e.val, by have := e.isLt; omega⟩ := by
  unfold iblk3 srows3
  rw [View.read_apply]
  refine congrArg (V c (Pipeline.arrRef spec3 0)) (funext fun a => Fin.ext ?_)
  match a with
  | ⟨0, _⟩ => show win3_0.index t 0 * 1 + 1 * 0 = 0; rw [(svidx3_0 t).1]
  | ⟨1, _⟩ => show win3_0.index t 1 * 4096 + 1 * e.val = t.val % 489 * 4096 + e.val; rw [(svidx3_0 t).2]; omega

theorem svblk3_1 (c : Dev nD) (t : Fin cfg3.N) (q : Fin 64) (e : Fin 4096) :
    (iblk3 V c 1 t : Vec Ideal S64x4096 .f32) (ix2 q e)
      = sgath3 V c q ⟨t.val % 489 * 4096 + e.val, by have := e.isLt; omega⟩ := by
  unfold iblk3 sgath3
  rw [View.read_apply]
  refine congrArg (V c (Pipeline.arrRef spec3 1)) (funext fun a => Fin.ext ?_)
  match a with
  | ⟨0, _⟩ => show win3_1.index t 0 * 64 + 1 * q.val = q.val; rw [(svidx3_1 t).1]; omega
  | ⟨1, _⟩ => show win3_1.index t 1 * 4096 + 1 * e.val = t.val % 489 * 4096 + e.val; rw [(svidx3_1 t).2]; omega

def svadd3 (c : Dev nD) (n : ℕ) (j : S2048x64.Idx) : EReal :=
  ∑ e : Fin 4096,
    (if BitVec.ofNat 32 (n / 489 * 2048 + (j 0).val)
        = (if h : n % 489 * 4096 + e.val < 2002944 then srows3 V c ⟨n % 489 * 4096 + e.val, h⟩ else 0#32) then (1 : EReal) else 0)
      * (if h : n % 489 * 4096 + e.val < 2002944 then sgath3 V c (j 1) ⟨n % 489 * 4096 + e.val, h⟩ else 0)

theorem svstep3 (c : Dev nD) (t : Fin cfg3.N) (xs : Vec Ideal S2048x64 .f32) (j : S2048x64.Idx) :
    sstep3 V c t xs j = xs j + svadd3 V c t.val j := by
  obtain ⟨p, q, rfl⟩ : ∃ (p : Fin 2048) (q : Fin 64), j = ix2 p q := ⟨j 0, j 1, eq_ix2 j⟩
  refine (svpay (grid3.coords t) (iblk3 V c 0 t) (iblk3 V c 1 t) xs p q).trans ?_
  unfold svadd3
  refine congrArg (xs (ix2 p q) + ·) (Finset.sum_congr rfl fun e _ => ?_)
  have hb : t.val % 489 * 4096 + e.val < 2002944 := by have := e.isLt; omega
  rw [dif_pos hb, dif_pos hb, scoordA t, svblk3_0, svblk3_1]

theorem svfold3 (c : Dev nD) (k : ℕ) (h : 489 * k + 488 < cfg3.N) (j : S2048x64.Idx) :
    sacc3 V c (489 * k + 488) h j = 0 + ∑ s ∈ Finset.range 489, svadd3 V c (489 * k + s) j := by
  refine (congrFun (Pipeline.eq_accAt (α := Vec Ideal S2048x64 .f32) (N := cfg3.N) (fun n hn => sacc3 V c n hn) 489
    (fun n hn => sstep3 V c ⟨n, hn⟩ (k1_pay1 (F := Ideal))) (fun n hn acc => sstep3 V c ⟨n, hn⟩ acc)
    (fun n hn h0 => sacc3_reset V c n hn h0) (fun n hn hs => sacc3_step V c n hn hs) k 488 (by norm_num) h) j).trans ?_
  exact Pipeline.accAt_add_apply (ι := S2048x64.Idx) (β := EReal) (N := cfg3.N)
    (fun n hn => sstep3 V c ⟨n, hn⟩ (k1_pay1 (F := Ideal))) (fun n hn acc => sstep3 V c ⟨n, hn⟩ acc)
    (fun _ => 0) (svadd3 V c) (489 * k) 488
    (fun hn i => by rw [svstep3, svzero])
    (fun n hn acc i _ _ => svstep3 V c ⟨n, hn⟩ acc i)
    488 le_rfl h j

theorem svspec3 (c : Dev nD) (k : ℕ) (j : S2048x64.Idx) (v : Fin 151552) (d : Fin 64)
    (hv : v.val = k * 2048 + (j 0).val) (hd : d.val = (j 1).val) :
    0 + ∑ s ∈ Finset.range 489, svadd3 V c (489 * k + s) j = Spec.kerScatter (srows3 V c) (sgath3 V c) v d := by
  obtain rfl : d = j 1 := Fin.ext hd
  unfold Spec.kerScatter
  refine congrArg (0 + ·) (Finset.sum_congr rfl fun s hs => ?_)
  have hs' : s < 489 := Finset.mem_range.mp hs
  have hq : (489 * k + s) / 489 = k := by omega
  have hr : (489 * k + s) % 489 = s := by omega
  unfold svadd3
  rw [hq, hr, hv]

def svG3 (c : Dev nD) : S151552x64.Idx → EReal :=
  fun j => Spec.kerScatter (srows3 V c) (sgath3 V c) (j 0) (j 1)

theorem svflushed3 (c : Dev nD) (t : Fin cfg3.N) (hf : (cfg3.win 2).flush t = true) :
    (sdat3 (F := Ideal) V c).flushed 2 t = ((cfg3.win 2).blk t).view.read (Elt Ideal) (svG3 V c) := by
  have ht := (svflush3 t).mp hf
  have hN := svlt3 t
  obtain ⟨k, hk⟩ : ∃ k, t.val = 489 * k + 488 := ⟨t.val / 489, by omega⟩
  obtain ⟨tv, tlt⟩ := t
  dsimp only at hk
  subst hk
  show (cfg3.win 2).cut (grid3.coords _) ((sdat3 (F := Ideal) V c).after 2 _) = _
  rw [safter3_2]
  funext y
  rw [View.read_apply]
  refine (svfold3 V c k tlt _).trans ?_
  have hq : (489 * k + 488) / 489 = k := by omega
  refine svspec3 V c k _ _ _ ?_ ?_
  · show win3_2.index ⟨489 * k + 488, tlt⟩ 0 * 2048 + 1 * (y 0).val = k * 2048 + (y 0).val
    rw [(svidx3_2 _).1]
    show (489 * k + 488) / 489 * 2048 + 1 * (y 0).val = _
    rw [hq]; omega
  · show win3_2.index ⟨489 * k + 488, tlt⟩ 1 * 64 + 1 * (y 1).val = (y 1).val
    rw [(svidx3_2 _).2]; omega

theorem svcover3 (i : S151552x64.Idx) :
    ∃ t : Fin cfg3.N, (cfg3.win 2).flush t = true ∧ i ∈ ((cfg3.win 2).blk t).view.set := by
  have hrow : (i 0).val < 151552 := (i 0).isLt
  have hcol : (i 1).val < 64 := (i 1).isLt
  have eN : cfg3.N = 36186 := N_3
  have hq : ((i 0).val / 2048 * 489 + 488) / 489 = (i 0).val / 2048 := by omega
  have hlt : (i 0).val / 2048 * 489 + 488 < cfg3.N := by omega
  refine ⟨⟨(i 0).val / 2048 * 489 + 488, hlt⟩,
    (svflush3 _).mpr (by show ((i 0).val / 2048 * 489 + 488) % 489 = 488; omega), ?_⟩
  show i ∈ ((View.whole (Pipeline.arrRef spec3 2)).slice (win3_2.rect ⟨(i 0).val / 2048 * 489 + 488, hlt⟩)).set
  rw [View.set_slice_whole, Rect.mem_set_unit]
  intro a
  match a with
  | ⟨0, _⟩ =>
    show win3_2.index ⟨(i 0).val / 2048 * 489 + 488, hlt⟩ 0 * 2048 ≤ (i 0).val ∧ (i 0).val < win3_2.index ⟨(i 0).val / 2048 * 489 + 488, hlt⟩ 0 * 2048 + 2048
    rw [(svidx3_2 _).1]
    show ((i 0).val / 2048 * 489 + 488) / 489 * 2048 ≤ (i 0).val ∧ (i 0).val < ((i 0).val / 2048 * 489 + 488) / 489 * 2048 + 2048
    rw [hq]; omega
  | ⟨1, _⟩ =>
    show win3_2.index ⟨(i 0).val / 2048 * 489 + 488, hlt⟩ 1 * 64 ≤ (i 1).val ∧ (i 1).val < win3_2.index ⟨(i 0).val / 2048 * 489 + 488, hlt⟩ 1 * 64 + 64
    rw [(svidx3_2 _).2]; omega

-- over the 489 edge blocks each node collects every edge naming it: the output is the segment sum
theorem sfinal3 (c : Dev nD) (v : Fin 151552) (d : Fin 64) :
    ((sdat3 (F := Ideal) V c).arrAt 2 cfg3.N : S151552x64.Idx → EReal) (ix2 v d)
      = Spec.kerScatter (srows3 V c) (sgath3 V c) v d := by
  have h := (sdat3 (F := Ideal) V c).arrAt_eq_of_cover 2 (svG3 V c) (fun t hf => svflushed3 V c t hf) svcover3
  exact congrFun h (ix2 v d)

end Cert.KernelIdeal.Hand

end
-- ==== Proof.KI.GatherVal4.lean ====
import proofs.«404774_j249108103934_2_alg».proof.Proof.KI.Gather4
import proofs.«404774_j249108103934_2_alg».proof.Proof.KI.GatherMath

noncomputable section
namespace Cert.KernelIdeal.Hand
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

def gcols4 (c : Dev nD) (e : Fin 2002944) : BitVec 32 :=
  (V c (Pipeline.arrRef spec4 0) : S1x2002944.Idx → BitVec 32) (ix2 (0 : Fin 1) e)

def gvals4 (c : Dev nD) (e : Fin 2002944) : EReal :=
  (V c (Pipeline.arrRef spec4 1) : S1x2002944.Idx → EReal) (ix2 (0 : Fin 1) e)

def gcur4 (c : Dev nD) (n : Fin 151552) (d : Fin 64) : EReal :=
  (V c (Pipeline.arrRef spec4 2) : S151552x64.Idx → EReal) (ix2 n d)

theorem gvidx4_0 (t : Fin cfg4.N) : win4_0.index t = ![0, t.val / 74] := by
  show cc0_transform_0 (grid4.coords t) = _
  rw [gvtr_0, gcoordA t]

theorem gvidx4_1 (t : Fin cfg4.N) : win4_1.index t = ![0, t.val / 74] := by
  show cc0_transform_1 (grid4.coords t) = _
  rw [gvtr_1, gcoordA t]

theorem gvidx4_2 (t : Fin cfg4.N) : win4_2.index t = ![t.val % 74, 0] := by
  show cc0_transform_2 (grid4.coords t) = _
  rw [gvtr_2, gcoordB t]

theorem gvidx4_3 (t : Fin cfg4.N) : win4_3.index t = ![0, t.val / 74] := by
  show cc0_transform_3 (grid4.coords t) = _
  rw [gvtr_3, gcoordA t]

theorem gvflush4 (t : Fin cfg4.N) : (cfg4.win 3).flush t = true ↔ t.val % 74 = 73 := by
  have hN : grid4.N = 36186 := N_4
  have ht : t.val < grid4.N := t.isLt
  unfold Window.flush
  show (true && (decide (t.val + 1 = grid4.N) || decide (∃ h : t.val + 1 < grid4.N, win4_3.index ⟨t.val + 1, h⟩ ≠ win4_3.index t))) = true ↔ _
  rw [Bool.true_and, Bool.or_eq_true, decide_eq_true_eq, decide_eq_true_eq]
  constructor
  · rintro (h | ⟨h, hne⟩)
    · omega
    · rw [gvidx4_3, gvidx4_3] at hne
      by_contra hc
      apply hne
      show ![0, (t.val + 1) / 74] = ![0, t.val / 74]
      rw [show (t.val + 1) / 74 = t.val / 74 by omega]
  · intro h
    by_cases hl : t.val + 1 = grid4.N
    · exact Or.inl hl
    · refine Or.inr ⟨by omega, ?_⟩
      rw [gvidx4_3, gvidx4_3]
      intro he
      have hq : (t.val + 1) / 74 = t.val / 74 := congrFun he 1
      omega

theorem gvblk4_0 (c : Dev nD) (t : Fin cfg4.N) (q : Fin 4096) (he : t.val / 74 * 4096 + q.val < 2002944) :
    (iblk4 V c 0 t : IVec S1x4096 32) (ix2 (0 : Fin 1) q) = gcols4 V c ⟨t.val / 74 * 4096 + q.val, he⟩ := by
  unfold iblk4 gcols4
  rw [View.read_apply]
  show V c (Pipeline.arrRef spec4 0) _ = V c (Pipeline.arrRef spec4 0) _
  congr 1
  funext a
  apply Fin.ext
  match a with
  | ⟨0, _⟩ => show win4_0.index t 0 * 1 + 1 * 0 = 0; rw [gvidx4_0]; rfl
  | ⟨1, _⟩ => show win4_0.index t 1 * 4096 + 1 * q.val = t.val / 74 * 4096 + q.val; rw [gvidx4_0]; show t.val / 74 * 4096 + 1 * q.val = _; omega

theorem gvblk4_1 (c : Dev nD) (t : Fin cfg4.N) (q : Fin 4096) (he : t.val / 74 * 4096 + q.val < 2002944) :
    (iblk4 V c 1 t : FVec Ideal S1x4096 .f32) (ix2 (0 : Fin 1) q) = gvals4 V c ⟨t.val / 74 * 4096 + q.val, he⟩ := by
  unfold iblk4 gvals4
  rw [View.read_apply]
  show V c (Pipeline.arrRef spec4 1) _ = V c (Pipeline.arrRef spec4 1) _
  congr 1
  funext a
  apply Fin.ext
  match a with
  | ⟨0, _⟩ => show win4_1.index t 0 * 1 + 1 * 0 = 0; rw [gvidx4_1]; rfl
  | ⟨1, _⟩ => show win4_1.index t 1 * 4096 + 1 * q.val = t.val / 74 * 4096 + q.val; rw [gvidx4_1]; show t.val / 74 * 4096 + 1 * q.val = _; omega

theorem gvblk4_2 (c : Dev nD) (t : Fin cfg4.N) (n : Fin 2048) (p : Fin 64) (hn : t.val % 74 * 2048 + n.val < 151552) :
    (iblk4 V c 2 t : FVec Ideal S2048x64 .f32) (ix2 n p) = gcur4 V c ⟨t.val % 74 * 2048 + n.val, hn⟩ p := by
  unfold iblk4 gcur4
  rw [View.read_apply]
  show V c (Pipeline.arrRef spec4 2) _ = V c (Pipeline.arrRef spec4 2) _
  congr 1
  funext a
  apply Fin.ext
  match a with
  | ⟨0, _⟩ => show win4_2.index t 0 * 2048 + 1 * n.val = t.val % 74 * 2048 + n.val; rw [gvidx4_2]; show t.val % 74 * 2048 + 1 * n.val = _; omega
  | ⟨1, _⟩ => show win4_2.index t 1 * 64 + 1 * p.val = p.val; rw [gvidx4_2]; show 0 * 64 + 1 * p.val = _; omega

def gvadd4 (c : Dev nD) (n : ℕ) (j : S64x4096.Idx) : EReal :=
  if h : n / 74 * 4096 + (j 1).val < 2002944 then
    gvterm (gcols4 V c) (gvals4 V c) (gcur4 V c) (n % 74) (j 0) ⟨n / 74 * 4096 + (j 1).val, h⟩
  else 0

theorem gvadd4_eq (c : Dev nD) (n k : ℕ) (p : Fin 64) (q : Fin 4096) (e : Fin 2002944)
    (hk : n % 74 = k) (he : e.val = n / 74 * 4096 + q.val) :
    gvadd4 V c n (ix2 p q) = gvterm (gcols4 V c) (gvals4 V c) (gcur4 V c) k p e := by
  subst hk
  have hlt : n / 74 * 4096 + q.val < 2002944 := he ▸ e.isLt
  obtain rfl : e = ⟨n / 74 * 4096 + q.val, hlt⟩ := Fin.ext he
  unfold gvadd4
  exact dif_pos hlt

theorem gvstep4_apply (c : Dev nD) (t : Fin cfg4.N) (xs : FVec Ideal S64x4096 .f32) (j : S64x4096.Idx) :
    gstep4 V c t xs j = xs j + gvadd4 V c t.val j := by
  obtain ⟨p, q, rfl⟩ : ∃ (p : Fin 64) (q : Fin 4096), j = ix2 p q := ⟨j 0, j 1, eq_ix2 j⟩
  have hN : grid4.N = 36186 := N_4
  have ht : t.val < grid4.N := t.isLt
  have he : t.val / 74 * 4096 + q.val < 2002944 := by have := q.isLt; omega
  rw [gvadd4_eq V c t.val (t.val % 74) p q ⟨t.val / 74 * 4096 + q.val, he⟩ rfl rfl]
  unfold gstep4
  refine (gvpay_apply (grid4.coords t) (iblk4 V c 0 t) (iblk4 V c 1 t) (iblk4 V c 2 t) xs p q).trans ?_
  refine congrArg (xs (ix2 p q) + ·) (Finset.sum_congr rfl fun n _ => ?_)
  have hn : t.val % 74 * 2048 + n.val < 151552 := by have := n.isLt; omega
  rw [gvblk4_0 V c t q he, gvblk4_1 V c t q he, gvblk4_2 V c t n p hn, gcoordB t, dif_pos hn]

def gvarr4 (c : Dev nD) : S64x2002944.Idx → EReal :=
  fun j => Spec.kerGather (gcols4 V c) (gvals4 V c) (gcur4 V c) (j 0) (j 1)

theorem gvflushed4 (c : Dev nD) (t : Fin cfg4.N) (hf : (cfg4.win 3).flush t = true) :
    (gdat4 (F := Ideal) V c).flushed 3 t = ((cfg4.win 3).blk t).view.read (Elt Ideal) (gvarr4 V c) := by
  have h73 : t.val % 74 = 73 := (gvflush4 t).mp hf
  have hN : grid4.N = 36186 := N_4
  have ht : t.val < grid4.N := t.isLt
  have hb : 74 * (t.val / 74) + t.val % 74 < cfg4.N := by rw [Nat.div_add_mod]; exact t.isLt
  show (cfg4.win 3).cut (grid4.coords t) ((gdat4 (F := Ideal) V c).after 3 t) = _
  rw [gafter4_3]
  funext y
  obtain ⟨p, q, rfl⟩ : ∃ (p : Fin 64) (q : Fin 4096), y = ix2 p q := ⟨y 0, y 1, eq_ix2 y⟩
  rw [View.read_apply]
  show gacc4 V c t.val t.isLt (ix2 p q) = gvarr4 V c (((cfg4.win 3).blk t).view.emb (ix2 p q))
  rw [Pipeline.eq_accAt_of_mod (gacc4 V c) 74 (fun n h => gstep4 V c ⟨n, h⟩ (k0_pay1 (F := Ideal)))
      (fun n h acc => gstep4 V c ⟨n, h⟩ acc) (gacc4_reset V c) (gacc4_step V c) (by decide) t.val t.isLt hb,
    Pipeline.accAt_add_apply (fun n h => gstep4 V c ⟨n, h⟩ (k0_pay1 (F := Ideal))) (fun n h acc => gstep4 V c ⟨n, h⟩ acc)
      (fun _ => (0 : EReal)) (gvadd4 V c) (74 * (t.val / 74)) 73
      (fun h i => by rw [gvstep4_apply, gvzero])
      (fun n h acc i _ _ => gvstep4_apply V c ⟨n, h⟩ acc i)
      (t.val % 74) (by omega) hb (ix2 p q),
    h73]
  have he : t.val / 74 * 4096 + q.val < 2002944 := by have := q.isLt; omega
  have hemb : ((cfg4.win 3).blk t).view.emb (ix2 p q) = ix2 p (⟨t.val / 74 * 4096 + q.val, he⟩ : Fin 2002944) := by
    funext a
    apply Fin.ext
    match a with
    | ⟨0, _⟩ => show win4_3.index t 0 * 64 + 1 * p.val = p.val; rw [gvidx4_3]; show 0 * 64 + 1 * p.val = _; omega
    | ⟨1, _⟩ => show win4_3.index t 1 * 4096 + 1 * q.val = t.val / 74 * 4096 + q.val; rw [gvidx4_3]; show t.val / 74 * 4096 + 1 * q.val = _; omega
  rw [hemb]
  show _ = Spec.kerGather (gcols4 V c) (gvals4 V c) (gcur4 V c) p ⟨t.val / 74 * 4096 + q.val, he⟩
  rw [gvspec]
  refine congrArg (0 + ·) (Finset.sum_congr rfl fun s hs => ?_)
  have hs' : s < 74 := Finset.mem_range.mp hs
  exact gvadd4_eq V c _ s p q _ (by omega) (by show t.val / 74 * 4096 + q.val = (74 * (t.val / 74) + s) / 74 * 4096 + q.val; omega)

theorem gvcover4 (i : S64x2002944.Idx) :
    ∃ t : Fin cfg4.N, (cfg4.win 3).flush t = true ∧ i ∈ ((cfg4.win 3).blk t).view.set := by
  have hN : grid4.N = 36186 := N_4
  have hrow : (i 0).val < 64 := (i 0).isLt
  have hcol : (i 1).val < 2002944 := (i 1).isLt
  have htN : (i 1).val / 4096 * 74 + 73 < cfg4.N := by show _ < grid4.N; omega
  refine ⟨⟨(i 1).val / 4096 * 74 + 73, htN⟩, (gvflush4 _).mpr (by show ((i 1).val / 4096 * 74 + 73) % 74 = 73; omega), ?_⟩
  show i ∈ ((View.whole (Pipeline.arrRef spec4 3)).slice (win4_3.rect ⟨(i 1).val / 4096 * 74 + 73, htN⟩)).set
  rw [View.set_slice_whole, Rect.mem_set_unit]
  intro a
  match a with
  | ⟨0, _⟩ =>
    show win4_3.index ⟨(i 1).val / 4096 * 74 + 73, htN⟩ 0 * 64 ≤ (i 0).val ∧ (i 0).val < win4_3.index ⟨(i 1).val / 4096 * 74 + 73, htN⟩ 0 * 64 + 64
    rw [gvidx4_3]
    show 0 * 64 ≤ (i 0).val ∧ (i 0).val < 0 * 64 + 64
    omega
  | ⟨1, _⟩ =>
    show win4_3.index ⟨(i 1).val / 4096 * 74 + 73, htN⟩ 1 * 4096 ≤ (i 1).val ∧ (i 1).val < win4_3.index ⟨(i 1).val / 4096 * 74 + 73, htN⟩ 1 * 4096 + 4096
    rw [gvidx4_3]
    show ((i 1).val / 4096 * 74 + 73) / 74 * 4096 ≤ (i 1).val ∧ (i 1).val < ((i 1).val / 4096 * 74 + 73) / 74 * 4096 + 4096
    omega

-- over the 74 node blocks each edge meets its column's node once: the output is the value-weighted gather
theorem gfinal4 (c : Dev nD) (d : Fin 64) (e : Fin 2002944) :
    ((gdat4 (F := Ideal) V c).arrAt 3 cfg4.N : S64x2002944.Idx → EReal) (ix2 d e)
      = Spec.kerGather (gcols4 V c) (gvals4 V c) (gcur4 V c) d e :=
  congrFun ((gdat4 (F := Ideal) V c).arrAt_eq_of_cover 3 (gvarr4 V c) (gvflushed4 V c) gvcover4) (ix2 d e)

end Cert.KernelIdeal.Hand

end
-- ==== Proof.KI.ScatterVal5.lean ====
import proofs.«404774_j249108103934_2_alg».proof.Proof.KI.Scatter5
import proofs.«404774_j249108103934_2_alg».proof.Proof.KI.ScatterMath

noncomputable section
namespace Cert.KernelIdeal.Hand
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

theorem svlt5 (t : Fin cfg5.N) : t.val < 36186 := by
  have h := t.isLt
  have e : cfg5.N = 36186 := N_5
  omega

theorem svidx5_0 (t : Fin cfg5.N) : win5_0.index t 0 = 0 ∧ win5_0.index t 1 = t.val % 489 := by
  refine ⟨rfl, ?_⟩
  show (BitVec.ofNat 32 ((grid5.coords t) 1).val).toNat = _
  rw [scoordB t, svword _ (by omega)]

theorem svidx5_1 (t : Fin cfg5.N) : win5_1.index t 0 = 0 ∧ win5_1.index t 1 = t.val % 489 := by
  refine ⟨rfl, ?_⟩
  show (BitVec.ofNat 32 ((grid5.coords t) 1).val).toNat = _
  rw [scoordB t, svword _ (by omega)]

theorem svidx5_2 (t : Fin cfg5.N) : win5_2.index t 0 = t.val / 489 ∧ win5_2.index t 1 = 0 := by
  have hN := svlt5 t
  refine ⟨?_, rfl⟩
  show (BitVec.ofNat 32 ((grid5.coords t) 0).val).toNat = _
  rw [scoordA t, svword _ (by omega)]

theorem svidx5_2_eq (t : Fin cfg5.N) : win5_2.index t = ![t.val / 489, 0] := by
  funext a
  match a with
  | ⟨0, _⟩ => exact (svidx5_2 t).1
  | ⟨1, _⟩ => exact (svidx5_2 t).2

theorem svflush5 (t : Fin cfg5.N) : (cfg5.win 2).flush t = true ↔ t.val % 489 = 488 := by
  have hN := svlt5 t
  have eN : grid5.N = 36186 := N_5
  show win5_2.flush t = true ↔ _
  unfold Window.flush
  show (true && (decide (t.val + 1 = grid5.N) || decide (∃ h : t.val + 1 < grid5.N, win5_2.index ⟨t.val + 1, h⟩ ≠ win5_2.index t))) = true ↔ _
  rw [Bool.true_and, Bool.or_eq_true, decide_eq_true_eq, decide_eq_true_eq]
  constructor
  · rintro (h | ⟨h, hne⟩)
    · omega
    · by_contra hc
      apply hne
      rw [svidx5_2_eq, svidx5_2_eq]
      show ![(t.val + 1) / 489, 0] = ![t.val / 489, 0]
      have : (t.val + 1) / 489 = t.val / 489 := by omega
      rw [this]
  · intro h
    by_cases hl : t.val + 1 = grid5.N
    · exact Or.inl hl
    · refine Or.inr ⟨by omega, fun he => ?_⟩
      have hz := congrFun he 0
      rw [(svidx5_2 _).1, (svidx5_2 _).1] at hz
      have : (t.val + 1) / 489 = t.val / 489 := hz
      omega

variable (V : (c : Dev nD) → (b : Ref sig .tc) → Buf (Elt Ideal) ((c : Thread nD τ).loc b))

def srows5 (c : Dev nD) (e : Fin 2002944) : BitVec 32 :=
  (V c (Pipeline.arrRef spec5 0) : S1x2002944.Idx → BitVec 32) (ix2 (0 : Fin 1) e)

def sgath5 (c : Dev nD) (d : Fin 64) (e : Fin 2002944) : EReal :=
  (V c (Pipeline.arrRef spec5 1) : S64x2002944.Idx → EReal) (ix2 d e)

theorem svblk5_0 (c : Dev nD) (t : Fin cfg5.N) (e : Fin 4096) :
    (iblk5 V c 0 t : Vec Ideal S1x4096 .i32) (ix2 (0 : Fin 1) e)
      = srows5 V c ⟨t.val % 489 * 4096 + e.val, by have := e.isLt; omega⟩ := by
  unfold iblk5 srows5
  rw [View.read_apply]
  refine congrArg (V c (Pipeline.arrRef spec5 0)) (funext fun a => Fin.ext ?_)
  match a with
  | ⟨0, _⟩ => show win5_0.index t 0 * 1 + 1 * 0 = 0; rw [(svidx5_0 t).1]
  | ⟨1, _⟩ => show win5_0.index t 1 * 4096 + 1 * e.val = t.val % 489 * 4096 + e.val; rw [(svidx5_0 t).2]; omega

theorem svblk5_1 (c : Dev nD) (t : Fin cfg5.N) (q : Fin 64) (e : Fin 4096) :
    (iblk5 V c 1 t : Vec Ideal S64x4096 .f32) (ix2 q e)
      = sgath5 V c q ⟨t.val % 489 * 4096 + e.val, by have := e.isLt; omega⟩ := by
  unfold iblk5 sgath5
  rw [View.read_apply]
  refine congrArg (V c (Pipeline.arrRef spec5 1)) (funext fun a => Fin.ext ?_)
  match a with
  | ⟨0, _⟩ => show win5_1.index t 0 * 64 + 1 * q.val = q.val; rw [(svidx5_1 t).1]; omega
  | ⟨1, _⟩ => show win5_1.index t 1 * 4096 + 1 * e.val = t.val % 489 * 4096 + e.val; rw [(svidx5_1 t).2]; omega

def svadd5 (c : Dev nD) (n : ℕ) (j : S2048x64.Idx) : EReal :=
  ∑ e : Fin 4096,
    (if BitVec.ofNat 32 (n / 489 * 2048 + (j 0).val)
        = (if h : n % 489 * 4096 + e.val < 2002944 then srows5 V c ⟨n % 489 * 4096 + e.val, h⟩ else 0#32) then (1 : EReal) else 0)
      * (if h : n % 489 * 4096 + e.val < 2002944 then sgath5 V c (j 1) ⟨n % 489 * 4096 + e.val, h⟩ else 0)

theorem svstep5 (c : Dev nD) (t : Fin cfg5.N) (xs : Vec Ideal S2048x64 .f32) (j : S2048x64.Idx) :
    sstep5 V c t xs j = xs j + svadd5 V c t.val j := by
  obtain ⟨p, q, rfl⟩ : ∃ (p : Fin 2048) (q : Fin 64), j = ix2 p q := ⟨j 0, j 1, eq_ix2 j⟩
  refine (svpay (grid5.coords t) (iblk5 V c 0 t) (iblk5 V c 1 t) xs p q).trans ?_
  unfold svadd5
  refine congrArg (xs (ix2 p q) + ·) (Finset.sum_congr rfl fun e _ => ?_)
  have hb : t.val % 489 * 4096 + e.val < 2002944 := by have := e.isLt; omega
  rw [dif_pos hb, dif_pos hb, scoordA t, svblk5_0, svblk5_1]

theorem svfold5 (c : Dev nD) (k : ℕ) (h : 489 * k + 488 < cfg5.N) (j : S2048x64.Idx) :
    sacc5 V c (489 * k + 488) h j = 0 + ∑ s ∈ Finset.range 489, svadd5 V c (489 * k + s) j := by
  refine (congrFun (Pipeline.eq_accAt (α := Vec Ideal S2048x64 .f32) (N := cfg5.N) (fun n hn => sacc5 V c n hn) 489
    (fun n hn => sstep5 V c ⟨n, hn⟩ (k1_pay1 (F := Ideal))) (fun n hn acc => sstep5 V c ⟨n, hn⟩ acc)
    (fun n hn h0 => sacc5_reset V c n hn h0) (fun n hn hs => sacc5_step V c n hn hs) k 488 (by norm_num) h) j).trans ?_
  exact Pipeline.accAt_add_apply (ι := S2048x64.Idx) (β := EReal) (N := cfg5.N)
    (fun n hn => sstep5 V c ⟨n, hn⟩ (k1_pay1 (F := Ideal))) (fun n hn acc => sstep5 V c ⟨n, hn⟩ acc)
    (fun _ => 0) (svadd5 V c) (489 * k) 488
    (fun hn i => by rw [svstep5, svzero])
    (fun n hn acc i _ _ => svstep5 V c ⟨n, hn⟩ acc i)
    488 le_rfl h j

theorem svspec5 (c : Dev nD) (k : ℕ) (j : S2048x64.Idx) (v : Fin 151552) (d : Fin 64)
    (hv : v.val = k * 2048 + (j 0).val) (hd : d.val = (j 1).val) :
    0 + ∑ s ∈ Finset.range 489, svadd5 V c (489 * k + s) j = Spec.kerScatter (srows5 V c) (sgath5 V c) v d := by
  obtain rfl : d = j 1 := Fin.ext hd
  unfold Spec.kerScatter
  refine congrArg (0 + ·) (Finset.sum_congr rfl fun s hs => ?_)
  have hs' : s < 489 := Finset.mem_range.mp hs
  have hq : (489 * k + s) / 489 = k := by omega
  have hr : (489 * k + s) % 489 = s := by omega
  unfold svadd5
  rw [hq, hr, hv]

def svG5 (c : Dev nD) : S151552x64.Idx → EReal :=
  fun j => Spec.kerScatter (srows5 V c) (sgath5 V c) (j 0) (j 1)

theorem svflushed5 (c : Dev nD) (t : Fin cfg5.N) (hf : (cfg5.win 2).flush t = true) :
    (sdat5 (F := Ideal) V c).flushed 2 t = ((cfg5.win 2).blk t).view.read (Elt Ideal) (svG5 V c) := by
  have ht := (svflush5 t).mp hf
  have hN := svlt5 t
  obtain ⟨k, hk⟩ : ∃ k, t.val = 489 * k + 488 := ⟨t.val / 489, by omega⟩
  obtain ⟨tv, tlt⟩ := t
  dsimp only at hk
  subst hk
  show (cfg5.win 2).cut (grid5.coords _) ((sdat5 (F := Ideal) V c).after 2 _) = _
  rw [safter5_2]
  funext y
  rw [View.read_apply]
  refine (svfold5 V c k tlt _).trans ?_
  have hq : (489 * k + 488) / 489 = k := by omega
  refine svspec5 V c k _ _ _ ?_ ?_
  · show win5_2.index ⟨489 * k + 488, tlt⟩ 0 * 2048 + 1 * (y 0).val = k * 2048 + (y 0).val
    rw [(svidx5_2 _).1]
    show (489 * k + 488) / 489 * 2048 + 1 * (y 0).val = _
    rw [hq]; omega
  · show win5_2.index ⟨489 * k + 488, tlt⟩ 1 * 64 + 1 * (y 1).val = (y 1).val
    rw [(svidx5_2 _).2]; omega

theorem svcover5 (i : S151552x64.Idx) :
    ∃ t : Fin cfg5.N, (cfg5.win 2).flush t = true ∧ i ∈ ((cfg5.win 2).blk t).view.set := by
  have hrow : (i 0).val < 151552 := (i 0).isLt
  have hcol : (i 1).val < 64 := (i 1).isLt
  have eN : cfg5.N = 36186 := N_5
  have hq : ((i 0).val / 2048 * 489 + 488) / 489 = (i 0).val / 2048 := by omega
  have hlt : (i 0).val / 2048 * 489 + 488 < cfg5.N := by omega
  refine ⟨⟨(i 0).val / 2048 * 489 + 488, hlt⟩,
    (svflush5 _).mpr (by show ((i 0).val / 2048 * 489 + 488) % 489 = 488; omega), ?_⟩
  show i ∈ ((View.whole (Pipeline.arrRef spec5 2)).slice (win5_2.rect ⟨(i 0).val / 2048 * 489 + 488, hlt⟩)).set
  rw [View.set_slice_whole, Rect.mem_set_unit]
  intro a
  match a with
  | ⟨0, _⟩ =>
    show win5_2.index ⟨(i 0).val / 2048 * 489 + 488, hlt⟩ 0 * 2048 ≤ (i 0).val ∧ (i 0).val < win5_2.index ⟨(i 0).val / 2048 * 489 + 488, hlt⟩ 0 * 2048 + 2048
    rw [(svidx5_2 _).1]
    show ((i 0).val / 2048 * 489 + 488) / 489 * 2048 ≤ (i 0).val ∧ (i 0).val < ((i 0).val / 2048 * 489 + 488) / 489 * 2048 + 2048
    rw [hq]; omega
  | ⟨1, _⟩ =>
    show win5_2.index ⟨(i 0).val / 2048 * 489 + 488, hlt⟩ 1 * 64 ≤ (i 1).val ∧ (i 1).val < win5_2.index ⟨(i 0).val / 2048 * 489 + 488, hlt⟩ 1 * 64 + 64
    rw [(svidx5_2 _).2]; omega

-- over the 489 edge blocks each node collects every edge naming it: the output is the segment sum
theorem sfinal5 (c : Dev nD) (v : Fin 151552) (d : Fin 64) :
    ((sdat5 (F := Ideal) V c).arrAt 2 cfg5.N : S151552x64.Idx → EReal) (ix2 v d)
      = Spec.kerScatter (srows5 V c) (sgath5 V c) v d := by
  have h := (sdat5 (F := Ideal) V c).arrAt_eq_of_cover 2 (svG5 V c) (fun t hf => svflushed5 V c t hf) svcover5
  exact congrFun h (ix2 v d)

end Cert.KernelIdeal.Hand

end
-- ==== Proof.KI.Layers.lean ====
import proofs.«404774_j249108103934_2_alg».proof.Proof.KI.Run
import proofs.«404774_j249108103934_2_alg».proof.Proof.KI.Frame
import proofs.«404774_j249108103934_2_alg».proof.Proof.KI.EntryVal
import proofs.«404774_j249108103934_2_alg».proof.Proof.KI.GatherVal0
import proofs.«404774_j249108103934_2_alg».proof.Proof.KI.ScatterVal1
import proofs.«404774_j249108103934_2_alg».proof.Proof.KI.GatherVal2
import proofs.«404774_j249108103934_2_alg».proof.Proof.KI.ScatterVal3
import proofs.«404774_j249108103934_2_alg».proof.Proof.KI.GatherVal4
import proofs.«404774_j249108103934_2_alg».proof.Proof.KI.ScatterVal5

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

def kE0 : Fin 151552 → Fin 64 → EReal := Spec.padTable (Spec.tableOf (kutab m c) (kitab m c))

def kStep (cur : Fin 151552 → Fin 64 → EReal) : Fin 151552 → Fin 64 → EReal :=
  Spec.kerLayer (Spec.padWord (krows m c)) (Spec.padWord (kcols m c)) (Spec.padVal (kvals m c)) cur

theorem ktable0 (v : Fin 151552) (d : Fin 64) :
    (W1 m c (Proc.devRef .tc main_v11) : S151552x64.Idx → EReal) (ix2 v d) = kE0 m c v d :=
  entry_table m c v d

theorem klin0 (w : Fin cfg0.W) (hin : (cfg0.win w).isOut = false) :
    W2 m c (Proc.devRef .tc (Pipeline.arrRef spec0 w)) = W1 m c (Proc.devRef .tc (Pipeline.arrRef spec0 w)) :=
  (W2_arr m c w).trans (((gdat0 (V1 m) c).arrAt_in w hin cfg0.N).trans (gA0 (V1 m) c w))
theorem klin1 (w : Fin cfg1.W) (hin : (cfg1.win w).isOut = false) :
    W3 m c (Proc.devRef .tc (Pipeline.arrRef spec1 w)) = W2 m c (Proc.devRef .tc (Pipeline.arrRef spec1 w)) :=
  (W3_arr m c w).trans (((sdat1 (V2 m) c).arrAt_in w hin cfg1.N).trans (sA1 (V2 m) c w))
theorem klin2 (w : Fin cfg2.W) (hin : (cfg2.win w).isOut = false) :
    W5 m c (Proc.devRef .tc (Pipeline.arrRef spec2 w)) = W4 m c (Proc.devRef .tc (Pipeline.arrRef spec2 w)) :=
  (W5_arr m c w).trans (((gdat2 (V4 m) c).arrAt_in w hin cfg2.N).trans (gA2 (V4 m) c w))
theorem klin3 (w : Fin cfg3.W) (hin : (cfg3.win w).isOut = false) :
    W6 m c (Proc.devRef .tc (Pipeline.arrRef spec3 w)) = W5 m c (Proc.devRef .tc (Pipeline.arrRef spec3 w)) :=
  (W6_arr m c w).trans (((sdat3 (V5 m) c).arrAt_in w hin cfg3.N).trans (sA3 (V5 m) c w))

theorem klrowsB2 : W2 m c (Proc.devRef .tc main_v6) = W1 m c (Proc.devRef .tc main_v6) :=
  W2_of_ne m c main_v6 (by decide)
theorem klrowsB5 : W5 m c (Proc.devRef .tc main_v6) = W1 m c (Proc.devRef .tc main_v6) :=
  (W5_of_ne m c main_v6 (by decide)).trans <| (W4_of m c main_v6 (by decide)).trans <|
  (klin1 m c 0 rfl).trans <| klrowsB2 m c
theorem klrowsB8 : W8 m c (Proc.devRef .tc main_v6) = W1 m c (Proc.devRef .tc main_v6) :=
  (W8_of_ne m c main_v6 (by decide)).trans <| (W7_of m c main_v6 (by decide)).trans <|
  (klin3 m c 0 rfl).trans <| klrowsB5 m c

theorem klcolsB4 : W4 m c (Proc.devRef .tc main_v7) = W1 m c (Proc.devRef .tc main_v7) :=
  (W4_of m c main_v7 (by decide)).trans <| (W3_of_ne m c main_v7 (by decide)).trans <| klin0 m c 0 rfl
theorem klcolsB7 : W7 m c (Proc.devRef .tc main_v7) = W1 m c (Proc.devRef .tc main_v7) :=
  (W7_of m c main_v7 (by decide)).trans <| (W6_of_ne m c main_v7 (by decide)).trans <|
  (klin2 m c 0 rfl).trans <| klcolsB4 m c

theorem klvalsB4 : W4 m c (Proc.devRef .tc main_v8) = W1 m c (Proc.devRef .tc main_v8) :=
  (W4_of m c main_v8 (by decide)).trans <| (W3_of_ne m c main_v8 (by decide)).trans <| klin0 m c 1 rfl
theorem klvalsB7 : W7 m c (Proc.devRef .tc main_v8) = W1 m c (Proc.devRef .tc main_v8) :=
  (W7_of m c main_v8 (by decide)).trans <| (W6_of_ne m c main_v8 (by decide)).trans <|
  (klin2 m c 1 rfl).trans <| klvalsB4 m c

theorem klcols0 : gcols0 (V1 m) c = Spec.padWord (kcols m c) := funext fun e => entry_cols m c e
theorem klvals0 : gvals0 (V1 m) c = Spec.padVal (kvals m c) := funext fun e => entry_vals m c e
theorem klcur0 : gcur0 (V1 m) c = kE0 m c := funext fun n => funext fun d => entry_table m c n d

theorem klrows1 : srows1 (V2 m) c = Spec.padWord (krows m c) :=
  funext fun e => (congrFun (klrowsB2 m c) (ix2 (0 : Fin 1) e)).trans (entry_rows m c e)

theorem klgath1 : sgath1 (V2 m) c
    = Spec.kerGather (Spec.padWord (kcols m c)) (Spec.padVal (kvals m c)) (kE0 m c) := by
  funext d e
  refine (congrFun (W2_arr m c 3) (ix2 d e)).trans ?_
  refine (gfinal0 (V1 m) c d e).trans ?_
  rw [klcols0, klvals0, klcur0]

theorem klayer1 (v : Fin 151552) (d : Fin 64) :
    (W3 m c (Proc.devRef .tc main_v13) : S151552x64.Idx → EReal) (ix2 v d) = kStep m c (kE0 m c) v d := by
  refine (congrFun (W3_arr m c 2) (ix2 v d)).trans ?_
  refine (sfinal1 (V2 m) c v d).trans ?_
  rw [klrows1, klgath1]
  rfl

theorem klcols2 : gcols2 (V4 m) c = Spec.padWord (kcols m c) :=
  funext fun e => (congrFun (klcolsB4 m c) (ix2 (0 : Fin 1) e)).trans (entry_cols m c e)
theorem klvals2 : gvals2 (V4 m) c = Spec.padVal (kvals m c) :=
  funext fun e => (congrFun (klvalsB4 m c) (ix2 (0 : Fin 1) e)).trans (entry_vals m c e)

theorem klcur2 : gcur2 (V4 m) c = kStep m c (kE0 m c) :=
  funext fun n => funext fun d => (congrFun (W4_of m c main_v13 (by decide)) (ix2 n d)).trans (klayer1 m c n d)

theorem klrows3 : srows3 (V5 m) c = Spec.padWord (krows m c) :=
  funext fun e => (congrFun (klrowsB5 m c) (ix2 (0 : Fin 1) e)).trans (entry_rows m c e)

theorem klgath3 : sgath3 (V5 m) c
    = Spec.kerGather (Spec.padWord (kcols m c)) (Spec.padVal (kvals m c)) (kStep m c (kE0 m c)) := by
  funext d e
  refine (congrFun (W5_arr m c 3) (ix2 d e)).trans ?_
  refine (gfinal2 (V4 m) c d e).trans ?_
  rw [klcols2, klvals2, klcur2]

theorem klayer2 (v : Fin 151552) (d : Fin 64) :
    (W6 m c (Proc.devRef .tc main_v16) : S151552x64.Idx → EReal) (ix2 v d) = kStep m c (kStep m c (kE0 m c)) v d := by
  refine (congrFun (W6_arr m c 2) (ix2 v d)).trans ?_
  refine (sfinal3 (V5 m) c v d).trans ?_
  rw [klrows3, klgath3]
  rfl

theorem klcols4 : gcols4 (V7 m) c = Spec.padWord (kcols m c) :=
  funext fun e => (congrFun (klcolsB7 m c) (ix2 (0 : Fin 1) e)).trans (entry_cols m c e)
theorem klvals4 : gvals4 (V7 m) c = Spec.padVal (kvals m c) :=
  funext fun e => (congrFun (klvalsB7 m c) (ix2 (0 : Fin 1) e)).trans (entry_vals m c e)

theorem klcur4 : gcur4 (V7 m) c = kStep m c (kStep m c (kE0 m c)) :=
  funext fun n => funext fun d => (congrFun (W7_of m c main_v16 (by decide)) (ix2 n d)).trans (klayer2 m c n d)

theorem klrows5 : srows5 (V8 m) c = Spec.padWord (krows m c) :=
  funext fun e => (congrFun (klrowsB8 m c) (ix2 (0 : Fin 1) e)).trans (entry_rows m c e)

theorem klgath5 : sgath5 (V8 m) c
    = Spec.kerGather (Spec.padWord (kcols m c)) (Spec.padVal (kvals m c)) (kStep m c (kStep m c (kE0 m c))) := by
  funext d e
  refine (congrFun (W8_arr m c 3) (ix2 d e)).trans ?_
  refine (gfinal4 (V7 m) c d e).trans ?_
  rw [klcols4, klvals4, klcur4]

theorem klayer3 (v : Fin 151552) (d : Fin 64) :
    (W9 m c (Proc.devRef .tc main_v19) : S151552x64.Idx → EReal) (ix2 v d)
      = kStep m c (kStep m c (kStep m c (kE0 m c))) v d := by
  refine (congrFun (W9_arr m c 2) (ix2 v d)).trans ?_
  refine (sfinal5 (V8 m) c v d).trans ?_
  rw [klrows5, klgath5]
  rfl

end Cert.KernelIdeal.Hand

end
-- ==== Proof.LibGatherRows.lean ====
import Idealize.ShloMosaic.PureOps.Ideal
import Idealize.ShloMosaic.Lib.ValueIdx

noncomputable section

namespace Cert.LibGatherRows

open Idealize.ShloMosaic Idealize.ShloMosaic.ValueIdx

def clampRow {w : Nat} (N : Nat) (hN : 0 < N) (b : BitVec w) : Fin N := ⟨min b.toInt.toNat (N - 1), by omega⟩

section Coordinates

variable {N E D w : Nat}
  (d : GatherDims (⟨2, ![N, D]⟩ : Shape) (⟨2, ![E, 1]⟩ : Shape) (⟨2, ![E, D]⟩ : Shape))
  (hoff : d.offsetDims = [1]) (hcoll : d.collapsedSliceDims = [0]) (hob : d.operandBatchingDims = [])
  (hsim : d.startIndexMap = [0]) (hivd : d.indexVectorDim = 1)

include hoff hcoll hob hsim hivd

theorem siIdx_row (e : Fin E) (q : Fin D) (c : Fin d.startIndexMap.length) :
    d.siIdx (ix2 e q) c = ix2 e (0 : Fin 1) := by
  obtain ⟨od, cd, ob, sb, sm, iv, ss, wf⟩ := d
  subst hoff hcoll hob hsim hivd
  funext b
  refine Fin.ext ?_
  match b with
  | ⟨0, _⟩ => rfl
  | ⟨1, _⟩ =>
    have hc : c.val < 1 := c.isLt
    show c.val = 0
    omega

theorem start_row (idx : IVec (⟨2, ![E, 1]⟩ : Shape) w) (e : Fin E) (q : Fin D) :
    d.start (ix2 e q) idx 0 = min (idx (ix2 e (0 : Fin 1))).toInt.toNat (N - 1) := by
  have hm : (0 : Fin 2) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, siIdx_row d hoff hcoll hob hsim hivd e q, hsl]
  rfl

theorem start_col (idx : IVec (⟨2, ![E, 1]⟩ : Shape) w) (e : Fin E) (q : Fin D) :
    d.start (ix2 e q) idx 1 = 0 := by
  unfold GatherDims.start
  exact dif_neg fun h => Nat.one_ne_zero (congrArg Fin.val (List.mem_singleton.mp (hsim ▸ h)))

theorem batchCoord_zero (e : Fin E) (q : Fin D) (a : Fin 2) : d.batchCoord (ix2 e q) a = 0 :=
  d.batchCoord_eq_zero _ a (by rw [hob]; exact List.not_mem_nil)

theorem offCoord_row (e : Fin E) (q : Fin D) : d.offCoord (ix2 e q) 0 = 0 :=
  d.offCoord_eq_zero _ 0 fun h => ((d.mem_sKept 0).mp h).1 (by rw [hcoll]; exact List.mem_singleton.mpr rfl)

theorem offCoord_col (e : Fin E) (q : Fin D) : d.offCoord (ix2 e q) 1 = q.val := by
  obtain ⟨od, cd, ob, sb, sm, iv, ss, wf⟩ := d
  subst hoff hcoll hob hsim hivd
  rfl

end Coordinates

theorem gatherRows_apply {α : Type} {N E D w : Nat} (hN : 0 < N)
    (d : GatherDims (⟨2, ![N, D]⟩ : Shape) (⟨2, ![E, 1]⟩ : Shape) (⟨2, ![E, D]⟩ : Shape))
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec (⟨2, ![E, 1]⟩ : Shape) w) (e : Fin E) (q : Fin D) :
    Host.gather d x idx (ix2 e q) = x (ix2 (clampRow N hN (idx (ix2 e (0 : Fin 1)))) q) := by
  unfold Host.gather
  refine congrArg x ?_
  funext a
  refine Fin.ext ?_
  match a with
  | ⟨0, _⟩ =>
    show d.start (ix2 e q) idx 0 + d.batchCoord (ix2 e q) 0 + d.offCoord (ix2 e q) 0
      = min (idx (ix2 e (0 : Fin 1))).toInt.toNat (N - 1)
    rw [start_row d hoff hcoll hob hsim hivd idx e q, batchCoord_zero d hoff hcoll hob hsim hivd e q 0,
      offCoord_row d hoff hcoll hob hsim hivd e q]
    rfl
  | ⟨1, _⟩ =>
    show d.start (ix2 e q) idx 1 + d.batchCoord (ix2 e q) 1 + d.offCoord (ix2 e q) 1 = q.val
    rw [start_col d hoff hcoll hob hsim hivd idx e q, batchCoord_zero d hoff hcoll hob hsim hivd e q 1,
      offCoord_col d hoff hcoll hob hsim hivd e q]
    omega

end Cert.LibGatherRows

end
-- ==== Proof.KI.KernelVal.lean ====
import proofs.«404774_j249108103934_2_alg».proof.Proof.KI.Run
import proofs.«404774_j249108103934_2_alg».proof.Proof.KI.Frame
import proofs.«404774_j249108103934_2_alg».proof.Proof.KI.EntryVal
import proofs.«404774_j249108103934_2_alg».proof.Proof.KI.GatherVal0
import proofs.«404774_j249108103934_2_alg».proof.Proof.KI.ScatterVal1
import proofs.«404774_j249108103934_2_alg».proof.Proof.KI.GatherVal2
import proofs.«404774_j249108103934_2_alg».proof.Proof.KI.ScatterVal3
import proofs.«404774_j249108103934_2_alg».proof.Proof.KI.GatherVal4
import proofs.«404774_j249108103934_2_alg».proof.Proof.KI.ScatterVal5
import proofs.«404774_j249108103934_2_alg».proof.Proof.KI.Layers
import proofs.«404774_j249108103934_2_alg».proof.Proof.LibGatherRows
import Idealize.ShloMosaic.Lib.StableHlo.Run
import Idealize.ShloMosaic.Lib.Pipeline.Value
import Idealize.ShloMosaic.Lib.Pipeline.Cells
import Idealize.ShloMosaic.Lib.ValueIdx
import Idealize.ShloMosaic.Lib.IdealHost

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

def kacc : Fin 151552 → Fin 64 → EReal :=
  Spec.kerAccum (Spec.padWord (krows m c)) (Spec.padWord (kcols m c)) (Spec.padVal (kvals m c))
    (Spec.padTable (Spec.tableOf (kutab m c) (kitab m c)))

theorem kvW9_of (r : Ref sig .tc) (h0 : r ∉ hostOps0_W) (h1 : ∀ w, Pipeline.arrRef spec0 w ≠ r)
    (h2 : ∀ w, Pipeline.arrRef spec1 w ≠ r) (h3 : r ∉ hostOps2_W) (h4 : ∀ w, Pipeline.arrRef spec2 w ≠ r)
    (h5 : ∀ w, Pipeline.arrRef spec3 w ≠ r) (h6 : r ∉ hostOps4_W) (h7 : ∀ w, Pipeline.arrRef spec4 w ≠ r)
    (h8 : ∀ w, Pipeline.arrRef spec5 w ≠ r) :
    W9 m c (Proc.devRef .tc r) = W0 m c (Proc.devRef .tc r) :=
  (W9_of_ne m c r h8).trans <| (W8_of_ne m c r h7).trans <| (W7_of m c r h6).trans <| (W6_of_ne m c r h5).trans <|
  (W5_of_ne m c r h4).trans <| (W4_of m c r h3).trans <| (W3_of_ne m c r h2).trans <| (W2_of_ne m c r h1).trans <|
  W1_of m c r h0

theorem kvW9_arg0 : W9 m c (Proc.devRef .tc main_arg0) = m ((c.tc : Thread nD τ).loc main_arg0) :=
  kvW9_of m c main_arg0 (by decide) (by decide) (by decide) (by decide) (by decide) (by decide) (by decide) (by decide) (by decide)
theorem kvW9_arg1 : W9 m c (Proc.devRef .tc main_arg1) = m ((c.tc : Thread nD τ).loc main_arg1) :=
  kvW9_of m c main_arg1 (by decide) (by decide) (by decide) (by decide) (by decide) (by decide) (by decide) (by decide) (by decide)
theorem kvW9_arg5 : W9 m c (Proc.devRef .tc main_arg5) = m ((c.tc : Thread nD τ).loc main_arg5) :=
  kvW9_of m c main_arg5 (by decide) (by decide) (by decide) (by decide) (by decide) (by decide) (by decide) (by decide) (by decide)
theorem kvW9_arg6 : W9 m c (Proc.devRef .tc main_arg6) = m ((c.tc : Thread nD τ).loc main_arg6) :=
  kvW9_of m c main_arg6 (by decide) (by decide) (by decide) (by decide) (by decide) (by decide) (by decide) (by decide) (by decide)
theorem kvW9_arg7 : W9 m c (Proc.devRef .tc main_arg7) = m ((c.tc : Thread nD τ).loc main_arg7) :=
  kvW9_of m c main_arg7 (by decide) (by decide) (by decide) (by decide) (by decide) (by decide) (by decide) (by decide) (by decide)

theorem kout0_eq : W10 m c (Proc.devRef .tc main_v31)
    = Host.gather gather_S100000x64_S4096x1_S4096x64_1_0_n_n_0_1_164 (m ((c.tc : Thread nD τ).loc main_arg0)) (broadcastInDim S4096x1 ![0] bcast_S4096_S4096x1_0 (select (cmpi .slt (m ((c.tc : Thread nD τ).loc main_arg5)) (broadcastInDim S4096 ![] bcast_S_S4096 (constantI S_ 32 0#32))) (addi (m ((c.tc : Thread nD τ).loc main_arg5)) (broadcastInDim S4096 ![] bcast_S_S4096 (constantI S_ 32 100000#32))) (m ((c.tc : Thread nD τ).loc main_arg5)))) := by
  show StableHlo.after hostOps6 (W9 m c) (Proc.devRef .tc main_v31) = _
  after_results_simp
  rw [kvW9_arg0, kvW9_arg5]

theorem kout1_eq : W10 m c (Proc.devRef .tc main_v38)
    = Host.gather gather_S50000x64_S4096x1_S4096x64_1_0_n_n_0_1_164 (m ((c.tc : Thread nD τ).loc main_arg1)) (broadcastInDim S4096x1 ![0] bcast_S4096_S4096x1_0 (select (cmpi .slt (m ((c.tc : Thread nD τ).loc main_arg6)) (broadcastInDim S4096 ![] bcast_S_S4096 (constantI S_ 32 0#32))) (addi (m ((c.tc : Thread nD τ).loc main_arg6)) (broadcastInDim S4096 ![] bcast_S_S4096 (constantI S_ 32 50000#32))) (m ((c.tc : Thread nD τ).loc main_arg6)))) := by
  show StableHlo.after hostOps6 (W9 m c) (Proc.devRef .tc main_v38) = _
  after_results_simp
  rw [kvW9_arg1, kvW9_arg6]

theorem kout2_eq : W10 m c (Proc.devRef .tc main_v45)
    = Host.gather gather_S50000x64_S4096x1_S4096x64_1_0_n_n_0_1_164 (m ((c.tc : Thread nD τ).loc main_arg1)) (broadcastInDim S4096x1 ![0] bcast_S4096_S4096x1_0 (select (cmpi .slt (m ((c.tc : Thread nD τ).loc main_arg7)) (broadcastInDim S4096 ![] bcast_S_S4096 (constantI S_ 32 0#32))) (addi (m ((c.tc : Thread nD τ).loc main_arg7)) (broadcastInDim S4096 ![] bcast_S_S4096 (constantI S_ 32 50000#32))) (m ((c.tc : Thread nD τ).loc main_arg7)))) := by
  show StableHlo.after hostOps6 (W9 m c) (Proc.devRef .tc main_v45) = _
  after_results_simp
  rw [kvW9_arg1, kvW9_arg7]

theorem kvV11 : W3 m c (Proc.devRef .tc main_v11) = W1 m c (Proc.devRef .tc main_v11) :=
  (W3_of_ne m c main_v11 (by decide)).trans <|
    (W2_arr m c 2).trans ((gdat0 (V1 m) c).arrAt_in 2 rfl cfg0.N)

theorem kvV14 : W6 m c (Proc.devRef .tc main_v14)
    = addf (F := Ideal) (φ := .f32) (W3 m c (Proc.devRef .tc main_v11)) (W3 m c (Proc.devRef .tc main_v13)) := by
  refine (W6_of_ne m c main_v14 (by decide)).trans <| (W5_of_ne m c main_v14 (by decide)).trans ?_
  show StableHlo.after hostOps2 (W3 m c) (Proc.devRef .tc main_v14) = _
  after_results

theorem kvV17 : W9 m c (Proc.devRef .tc main_v17)
    = addf (F := Ideal) (φ := .f32) (W6 m c (Proc.devRef .tc main_v14)) (W6 m c (Proc.devRef .tc main_v16)) := by
  refine (W9_of_ne m c main_v17 (by decide)).trans <| (W8_of_ne m c main_v17 (by decide)).trans ?_
  show StableHlo.after hostOps4 (W6 m c) (Proc.devRef .tc main_v17) = _
  after_results

theorem kvSum_apply (v : Fin 151552) (d : Fin 64) :
    (addf (F := Ideal) (φ := .f32) (W9 m c (Proc.devRef .tc main_v17)) (W9 m c (Proc.devRef .tc main_v19))
      : S151552x64.Idx → EReal) (ix2 v d) = kacc m c v d := by
  rw [addf_apply, kvV17, addf_apply, kvV14, addf_apply, kvV11, ktable0, klayer1, klayer2, klayer3]
  unfold kacc Spec.kerAccum kStep kE0
  rfl

def kvAvg : S151552x64.Idx → EReal :=
  Host.divf (F := Ideal) (φ := .f32)
    (addf (F := Ideal) (φ := .f32) (W9 m c (Proc.devRef .tc main_v17)) (W9 m c (Proc.devRef .tc main_v19)))
    (broadcastInDim S151552x64 ![] bcast_S_S151552x64 (constant (F := Ideal) S_ .f32 0x40800000#32))

theorem kvAvg_apply (v : Fin 151552) (d : Fin 64) : kvAvg m c (ix2 v d) = Spec.quarter (kacc m c v d) := by
  unfold kvAvg
  rw [hostDivf_apply, broadcastInDim_scalar_apply, constant_apply, kvSum_apply]
  rfl

theorem kvWord (n a : BitVec 32) : Scalar.select (IntOp.cmpi .slt a 0#32) (IntOp.addi a n) a = Spec.wrapW n a := by
  unfold Spec.wrapW Scalar.select IntOp.cmpi IntOp.addi
  by_cases h : a.slt 0#32 = true
  · simp [h]
  · simp [h]

def kvWrapCol (n : BitVec 32) (a : S4096.Idx → BitVec 32) : S4096x1.Idx → BitVec 32 :=
  broadcastInDim S4096x1 ![0] bcast_S4096_S4096x1_0
    (select (cmpi .slt a (broadcastInDim S4096 ![] bcast_S_S4096 (constantI S_ 32 0#32)))
      (addi a (broadcastInDim S4096 ![] bcast_S_S4096 (constantI S_ 32 n))) a)

theorem kvWrapCol_apply (n : BitVec 32) (a : S4096.Idx → BitVec 32) (b : Fin 4096) :
    kvWrapCol n a (ix2 b (0 : Fin 1)) = Spec.wrapW n (a (ix1 b)) := by
  unfold kvWrapCol
  rw [broadcastInDim_apply ![0] bcast_S4096_S4096x1_0 _ (ix2 b (0 : Fin 1)) (ix1 b)
    (fun ax => by match ax with | ⟨0, _⟩ => rfl)]
  show Scalar.select (IntOp.cmpi .slt (a (ix1 b)) (broadcastInDim S4096 ![] bcast_S_S4096 (constantI S_ 32 0#32) (ix1 b)))
    (IntOp.addi (a (ix1 b)) (broadcastInDim S4096 ![] bcast_S_S4096 (constantI S_ 32 n) (ix1 b))) (a (ix1 b)) = _
  rw [broadcastInDim_scalar_apply, broadcastInDim_scalar_apply]
  exact kvWord n (a (ix1 b))

theorem kvSliceRows {α : Type} {N R D o : Nat} (h : (⟨2, ![N, D]⟩ : Shape).Slices ![o, 0] ⟨2, ![R, D]⟩)
    (x : (⟨2, ![N, D]⟩ : Shape).Idx → α) (r : Fin R) (q : Fin D) (k : Fin N) (hk : k.val = o + r.val) :
    extractStridedSlice ⟨2, ![R, D]⟩ ![o, 0] x h (ix2 r q) = x (ix2 k q) := by
  refine extractStridedSlice_apply _ x h (ix2 r q) (ix2 k q) fun a => ?_
  match a with
  | ⟨0, _⟩ => exact hk
  | ⟨1, _⟩ => exact (Nat.zero_add q.val).symm

theorem kvRowsOfAvg {R o : Nat} (h : S151552x64.Slices ![o, 0] ⟨2, ![R, 64]⟩) (r : Fin R) (cc : Fin 64) (k : Fin 151552)
    (hk : k.val = o + r.val) :
    extractStridedSlice ⟨2, ![R, 64]⟩ ![o, 0] (kvAvg m c) h (ix2 r cc) = Spec.quarter (kacc m c k cc) :=
  (kvSliceRows h (kvAvg m c) r cc k hk).trans (kvAvg_apply m c k cc)

theorem kvOut3Term : W10 m c (Proc.devRef .tc main_v52)
    = Host.gather gather_S100000x64_S4096x1_S4096x64_1_0_n_n_0_1_164 (extractStridedSlice S100000x64 ![0, 0] (kvAvg m c) slices_S151552x64_S100000x64_0_0)
        (kvWrapCol 100000#32 (m ((c.tc : Thread nD τ).loc main_arg5))) := by
  show StableHlo.after hostOps6 (W9 m c) (Proc.devRef .tc main_v52) = _
  after_results_simp
  rw [kvW9_arg5]
  rfl

theorem kvOut4Term : W10 m c (Proc.devRef .tc main_v59)
    = Host.gather gather_S50000x64_S4096x1_S4096x64_1_0_n_n_0_1_164 (extractStridedSlice S50000x64 ![100000, 0] (kvAvg m c) slices_S151552x64_S50000x64_100000_0)
        (kvWrapCol 50000#32 (m ((c.tc : Thread nD τ).loc main_arg6))) := by
  show StableHlo.after hostOps6 (W9 m c) (Proc.devRef .tc main_v59) = _
  after_results_simp
  rw [kvW9_arg6]
  rfl

theorem kvOut5Term : W10 m c (Proc.devRef .tc main_v66)
    = Host.gather gather_S50000x64_S4096x1_S4096x64_1_0_n_n_0_1_164 (extractStridedSlice S50000x64 ![100000, 0] (kvAvg m c) slices_S151552x64_S50000x64_100000_0)
        (kvWrapCol 50000#32 (m ((c.tc : Thread nD τ).loc main_arg7))) := by
  show StableHlo.after hostOps6 (W9 m c) (Proc.devRef .tc main_v66) = _
  after_results_simp
  rw [kvW9_arg7]
  rfl

theorem kout3_apply (b : Fin 4096) (cc : Fin 64) :
    (W10 m c (Proc.devRef .tc main_v52) : S4096x64.Idx → EReal) (ix2 b cc)
      = Spec.quarter (kacc m c ⟨(Spec.userRow (kusers m c b)).val, by have := (Spec.userRow (kusers m c b)).isLt; omega⟩ cc) := by
  rw [kvOut3Term, Cert.LibGatherRows.gatherRows_apply (N := 100000) (E := 4096) (D := 64) (by decide) gather_S100000x64_S4096x1_S4096x64_1_0_n_n_0_1_164 rfl rfl rfl rfl rfl,
    kvWrapCol_apply]
  exact kvRowsOfAvg m c _ _ cc _ (by exact (Nat.zero_add _).symm)

theorem kout4_apply (b : Fin 4096) (cc : Fin 64) :
    (W10 m c (Proc.devRef .tc main_v59) : S4096x64.Idx → EReal) (ix2 b cc)
      = Spec.quarter (kacc m c ⟨(Spec.itemRow (kposItems m c b)).val, by have := (Spec.itemRow (kposItems m c b)).isLt; omega⟩ cc) := by
  rw [kvOut4Term, Cert.LibGatherRows.gatherRows_apply (N := 50000) (E := 4096) (D := 64) (by decide) gather_S50000x64_S4096x1_S4096x64_1_0_n_n_0_1_164 rfl rfl rfl rfl rfl,
    kvWrapCol_apply]
  exact kvRowsOfAvg m c _ _ cc _ (by exact rfl)

theorem kout5_apply (b : Fin 4096) (cc : Fin 64) :
    (W10 m c (Proc.devRef .tc main_v66) : S4096x64.Idx → EReal) (ix2 b cc)
      = Spec.quarter (kacc m c ⟨(Spec.itemRow (knegItems m c b)).val, by have := (Spec.itemRow (knegItems m c b)).isLt; omega⟩ cc) := by
  rw [kvOut5Term, Cert.LibGatherRows.gatherRows_apply (N := 50000) (E := 4096) (D := 64) (by decide) gather_S50000x64_S4096x1_S4096x64_1_0_n_n_0_1_164 rfl rfl rfl rfl rfl,
    kvWrapCol_apply]
  exact kvRowsOfAvg m c _ _ cc _ (by exact rfl)

end Cert.KernelIdeal.Hand

end
-- ==== Proof.LibRowsScatter.lean ====
import Idealize.ShloMosaic.PureOps.Ideal
import Idealize.ShloMosaic.Lib.ValueIdx

noncomputable section

open scoped BigOperators

namespace Cert.LibRowsScatter

open Idealize.ShloMosaic Idealize.ShloMosaic.ValueIdx

section Coordinates

variable {N E D w : Nat}
  (s : ScatterDims (⟨2, ![N, D]⟩ : Shape) (⟨2, ![E, 1]⟩ : Shape) (⟨2, ![E, D]⟩ : Shape))
  (huw : s.updateWindowDims = [1]) (hiw : s.insertedWindowDims = [0])
  (hsd : s.scatterDimsToOperandDims = [0]) (hiv : s.indexVectorDim = 1)

include huw hiw hsd hiv

theorem start_row (idx : IVec (⟨2, ![E, 1]⟩ : Shape) w) (e : Fin E) (c' : Fin D) :
    s.start (ix2 e c') idx 0 = (idx (ix2 e (0 : Fin 1))).toInt := by
  obtain ⟨uw, iw, sd, iv, wf⟩ := s
  subst huw hiw hsd hiv
  unfold ScatterDims.start
  rw [dif_pos (List.mem_singleton.mpr rfl)]
  refine congrArg (fun i => (idx i).toInt) ?_
  funext b
  refine Fin.ext ?_
  match b with
  | ⟨0, _⟩ => rfl
  | ⟨1, _⟩ => rfl

theorem start_col (idx : IVec (⟨2, ![E, 1]⟩ : Shape) w) (e : Fin E) (c' : Fin D) :
    s.start (ix2 e c') idx 1 = 0 := by
  obtain ⟨uw, iw, sd, iv, wf⟩ := s
  subst huw hiw hsd hiv
  unfold ScatterDims.start
  exact dif_neg fun h => Nat.one_ne_zero (congrArg Fin.val (List.mem_singleton.mp h))

theorem window_row (e : Fin E) (c' : Fin D) : s.window (ix2 e c') 0 = 0 := by
  obtain ⟨uw, iw, sd, iv, wf⟩ := s
  subst huw hiw hsd hiv
  rfl

theorem window_col (e : Fin E) (c' : Fin D) : s.window (ix2 e c') 1 = c'.val := by
  obtain ⟨uw, iw, sd, iv, wf⟩ := s
  subst huw hiw hsd hiv
  rfl

theorem resultIdx?_eq_some_iff (idx : IVec (⟨2, ![E, 1]⟩ : Shape) w) (e : Fin E) (c' : Fin D) (v : Fin N)
    (c : Fin D) :
    s.resultIdx? (ix2 e c') idx = some (ix2 v c) ↔ (idx (ix2 e (0 : Fin 1))).toInt = (v.val : ℤ) ∧ c' = c := by
  have h0 := start_row s huw hiw hsd hiv idx e c'
  have h1 := start_col s huw hiw hsd hiv idx e c'
  have w0 := window_row s huw hiw hsd hiv e c'
  have w1 := window_col s huw hiw hsd hiv e c'
  unfold ScatterDims.resultIdx?
  constructor
  · intro h
    split at h
    · rename_i hr
      have hf := Option.some.inj h
      have e0 := congrArg Fin.val (congrFun hf 0)
      have e1 := congrArg Fin.val (congrFun hf 1)
      have r0 := (hr 0).1
      simp only [h0, h1, w0, w1] at e0 e1 r0
      change _ = v.val at e0
      change _ = c.val at e1
      exact ⟨by omega, Fin.ext (by omega)⟩
    · exact absurd h (by simp)
  · rintro ⟨hv, rfl⟩
    have hr : ∀ a, 0 ≤ s.start (ix2 e c') idx a + s.window (ix2 e c') a ∧
        s.start (ix2 e c') idx a + s.window (ix2 e c') a < (⟨2, ![N, D]⟩ : Shape).size a := by
      intro a
      match a with
      | ⟨0, _⟩ =>
        show 0 ≤ s.start (ix2 e c') idx 0 + s.window (ix2 e c') 0 ∧
          s.start (ix2 e c') idx 0 + s.window (ix2 e c') 0 < (N : ℤ)
        rw [h0, w0, hv]; have := v.isLt; omega
      | ⟨1, _⟩ =>
        show 0 ≤ s.start (ix2 e c') idx 1 + s.window (ix2 e c') 1 ∧
          s.start (ix2 e c') idx 1 + s.window (ix2 e c') 1 < (D : ℤ)
        rw [h1, w1]; have := c'.isLt; omega
    rw [dif_pos hr]
    refine congrArg some ?_
    funext a
    refine Fin.ext ?_
    match a with
    | ⟨0, _⟩ =>
      show (s.start (ix2 e c') idx 0 + s.window (ix2 e c') 0).toNat = v.val
      rw [h0, w0, hv]; omega
    | ⟨1, _⟩ =>
      show (s.start (ix2 e c') idx 1 + s.window (ix2 e c') 1).toNat = c'.val
      rw [h1, w1]; omega

end Coordinates

theorem sum_landing {N E D w : Nat}
    (s : ScatterDims (⟨2, ![N, D]⟩ : Shape) (⟨2, ![E, 1]⟩ : Shape) (⟨2, ![E, D]⟩ : Shape))
    (huw : s.updateWindowDims = [1]) (hiw : s.insertedWindowDims = [0])
    (hsd : s.scatterDimsToOperandDims = [0]) (hiv : s.indexVectorDim = 1)
    (idx : IVec (⟨2, ![E, 1]⟩ : Shape) w) (upd : (⟨2, ![E, D]⟩ : Shape).Idx → EReal) (v : Fin N) (c : Fin D) :
    (∑ j ∈ Finset.univ.filter (fun j => s.resultIdx? j idx = some (ix2 v c)), upd j)
      = ∑ e : Fin E, if (idx (ix2 e (0 : Fin 1))).toInt = (v.val : ℤ) then upd (ix2 e c) else 0 := by
  rw [Finset.sum_filter, sum_idx2]
  refine Finset.sum_congr rfl fun e _ => ?_
  have hg : ∀ c' : Fin D,
      (if s.resultIdx? (ix2 e c') idx = some (ix2 v c) then upd (ix2 e c') else 0)
        = if c' = c then (if (idx (ix2 e (0 : Fin 1))).toInt = (v.val : ℤ) then upd (ix2 e c') else 0) else 0 := by
    intro c'
    have hl := resultIdx?_eq_some_iff s huw hiw hsd hiv idx e c' v c
    by_cases hc : c' = c
    · rw [if_pos hc]
      exact if_congr (hl.trans (and_iff_left hc)) rfl rfl
    · rw [if_neg hc, if_neg fun h => hc (hl.mp h).2]
  rw [Finset.sum_congr rfl fun c' _ => hg c', Finset.sum_ite_eq' Finset.univ c, if_pos (Finset.mem_univ c)]

theorem rowsScatterAdd_apply {φ : FTy} {N E D w : Nat}
    (s : ScatterDims (⟨2, ![N, D]⟩ : Shape) (⟨2, ![E, 1]⟩ : Shape) (⟨2, ![E, D]⟩ : Shape))
    (huw : s.updateWindowDims = [1]) (hiw : s.insertedWindowDims = [0])
    (hsd : s.scatterDimsToOperandDims = [0]) (hiv : s.indexVectorDim = 1)
    (x : FVec Ideal (⟨2, ![N, D]⟩ : Shape) φ) (idx : IVec (⟨2, ![E, 1]⟩ : Shape) w)
    (upd : FVec Ideal (⟨2, ![E, D]⟩ : Shape) φ) (v : Fin N) (c : Fin D) :
    Host.scatterAdd s x idx upd (ix2 v c)
      = x (ix2 v c) + ∑ e : Fin E, if (idx (ix2 e (0 : Fin 1))).toInt = (v.val : ℤ) then upd (ix2 e c) else 0 := by
  exact congrArg (x (ix2 v c) + ·) (sum_landing s huw hiw hsd hiv idx upd v c)

end Cert.LibRowsScatter

end
-- ==== Proof.RefVal.lean ====
import proofs.«404774_j249108103934_2_alg».proof.Defs
import proofs.«404774_j249108103934_2_alg».proof.Proof.Gen.ReferenceIdeal
import proofs.«404774_j249108103934_2_alg».proof.Proof.Gen.ReferenceIdeal.Run
import proofs.«404774_j249108103934_2_alg».proof.Proof.Gen.ReferenceIdeal.Read
import proofs.«404774_j249108103934_2_alg».proof.Proof.Spec
import proofs.«404774_j249108103934_2_alg».proof.Proof.LibRowsScatter
import proofs.«404774_j249108103934_2_alg».proof.Proof.LibGatherRows
import Idealize.ShloMosaic.Lib.ValueIdx
import Idealize.ShloMosaic.PureOps.Ideal.Laws
import Idealize.ShloMosaic.Lib.Pipeline.Value

noncomputable section

namespace Cert.RefVal

open Cert.ReferenceIdeal Cert.ReferenceIdeal.Gen
open Idealize.ShloMosaic Idealize.ShloMosaic.TcCoe Idealize.SL.Sem Idealize.ShloMosaic.ValueIdx

variable (m : (ℓ : Loc nD τ sig) → Buf (Elt Ideal) ℓ) (c : Dev nD)

def rows (e : Fin 2000000) : BitVec 32 := (m ((c.tc : Thread nD τ).loc main_arg2) : S2000000.Idx → BitVec 32) (ix1 e)
def cols (e : Fin 2000000) : BitVec 32 := (m ((c.tc : Thread nD τ).loc main_arg3) : S2000000.Idx → BitVec 32) (ix1 e)
def vals (e : Fin 2000000) : EReal := (m ((c.tc : Thread nD τ).loc main_arg4) : S2000000.Idx → EReal) (ix1 e)
def users (b : Fin 4096) : BitVec 32 := (m ((c.tc : Thread nD τ).loc main_arg5) : S4096.Idx → BitVec 32) (ix1 b)
def posItems (b : Fin 4096) : BitVec 32 := (m ((c.tc : Thread nD τ).loc main_arg6) : S4096.Idx → BitVec 32) (ix1 b)
def negItems (b : Fin 4096) : BitVec 32 := (m ((c.tc : Thread nD τ).loc main_arg7) : S4096.Idx → BitVec 32) (ix1 b)
def utab (v : Fin 100000) (cc : Fin 64) : EReal := (m ((c.tc : Thread nD τ).loc main_arg0) : S100000x64.Idx → EReal) (ix2 v cc)
def itab (v : Fin 50000) (cc : Fin 64) : EReal := (m ((c.tc : Thread nD τ).loc main_arg1) : S50000x64.Idx → EReal) (ix2 v cc)

def acc : Fin 150000 → Fin 64 → EReal :=
  Spec.refAccum (rows m c) (cols m c) (vals m c) (Spec.tableOf (utab m c) (itab m c))

theorem wrap_word (n a : BitVec 32) :
    Scalar.select (IntOp.cmpi .slt a 0#32) (IntOp.addi a n) a = Spec.wrapW n a := by
  show (if BitVec.ofBool (a.slt 0#32) = 1#1 then a + n else a) = if a.slt 0#32 then a + n else a
  cases a.slt 0#32 <;> rfl

section Layer

variable (X : (⟨S150000x64, .f32⟩ : BufTy).Contents (Elt Ideal))
  (x2 x3 : (⟨S2000000, .i32⟩ : BufTy).Contents (Elt Ideal)) (x4 : (⟨S2000000, .f32⟩ : BufTy).Contents (Elt Ideal))

theorem cols_word (e : Fin 2000000) :
    Read.val_main_v6 (F := Ideal) x3 (ix2 e (0 : Fin 1)) = Spec.wrapW 150000#32 (x3 (ix1 e)) := by
  have hi : Read.idx_main_v6 (ix2 e (0 : Fin 1)) = ix1 e := by
    funext a; match a with | ⟨0, _⟩ => rfl
  rw [Read.val_main_v6_apply, hi, Read.val_main_v5_apply, Read.val_main_v2_apply, Read.val_main_v4_apply,
    Read.val_main_v1_apply, Read.val_main_v3_apply, Read.val_main_c_apply, Read.val_main_c_0_apply]
  exact wrap_word _ _

def layerOp : (⟨S150000x64, .f32⟩ : BufTy).Contents (Elt Ideal) :=
  Host.scatterAdd (F := Ideal) (φ := .f32) scatter_S150000x64_S2000000x1_S2000000x64_1_0_0_1 (Read.val_main_v11 (F := Ideal))
    (Read.val_main_v12 (F := Ideal) x2)
    (mulf (F := Ideal) (φ := .f32) (Host.gather gather_S150000x64_S2000000x1_S2000000x64_1_0_n_n_0_1_164 X (Read.val_main_v6 (F := Ideal) x3))
      (Read.val_main_v9 (F := Ideal) x4))

theorem layerOp_apply (v : Fin 150000) (cc : Fin 64) :
    layerOp X x2 x3 x4 (ix2 v cc)
      = Spec.refLayer (fun e => x2 (ix1 e)) (fun e => x3 (ix1 e)) (fun e => x4 (ix1 e))
          (fun v cc => X (ix2 v cc)) v cc := by
  unfold layerOp Spec.refLayer
  rw [Cert.LibRowsScatter.rowsScatterAdd_apply (N := 150000) (E := 2000000) (D := 64)
    scatter_S150000x64_S2000000x1_S2000000x64_1_0_0_1 rfl rfl rfl rfl]
  refine congrArg₂ (· + ·) ?_ ?_
  · rw [Read.val_main_v11_apply, Read.val_main_cst_apply]
    exact Ideal.ofBits_zero_f32
  · refine Finset.sum_congr rfl fun e _ => ?_
    have h12 : Read.idx_main_v12 (ix2 e (0 : Fin 1)) = ix1 e := by
      funext a; match a with | ⟨0, _⟩ => rfl
    have h9 : Read.idx_main_v9 (ix2 e cc) = ix2 e (0 : Fin 1) := by
      funext a; match a with | ⟨0, _⟩ => rfl | ⟨1, _⟩ => rfl
    have h8 : Read.idx_main_v8 (ix2 e (0 : Fin 1)) = ix1 e := by
      funext a; match a with | ⟨0, _⟩ => rfl
    rw [Read.val_main_v12_apply, h12, mulf_apply,
      Cert.LibGatherRows.gatherRows_apply (N := 150000) (E := 2000000) (D := 64) (by decide)
        gather_S150000x64_S2000000x1_S2000000x64_1_0_n_n_0_1_164 rfl rfl rfl rfl rfl,
      Read.val_main_v9_apply, h9, Read.val_main_v8_apply, h8, cols_word]
    rfl

end Layer

section Table

variable (x0 : (⟨S100000x64, .f32⟩ : BufTy).Contents (Elt Ideal)) (x1 : (⟨S50000x64, .f32⟩ : BufTy).Contents (Elt Ideal))
  (x2 x3 : (⟨S2000000, .i32⟩ : BufTy).Contents (Elt Ideal)) (x4 : (⟨S2000000, .f32⟩ : BufTy).Contents (Elt Ideal))

theorem table_apply (v : Fin 150000) (cc : Fin 64) :
    Read.val_main_v0 (F := Ideal) x0 x1 (ix2 v cc)
      = Spec.tableOf (fun v cc => x0 (ix2 v cc)) (fun v cc => x1 (ix2 v cc)) v cc := by
  unfold Read.val_main_v0 Spec.tableOf
  by_cases h : v.val < 100000
  · rw [dif_pos h]
    exact concatenate_pair_apply_left (t := S150000x64) (s₁ := S100000x64) (s₂ := S50000x64) 0 x0 x1
      concatenates_S100000x64_S50000x64_S150000x64_d0 (ix2 v cc) rfl (ix2 ⟨v.val, h⟩ cc)
      (fun b => match b with | ⟨0, _⟩ => rfl | ⟨1, _⟩ => rfl)
  · rw [dif_neg h]
    have hv := v.isLt
    exact concatenate_pair_apply_right (t := S150000x64) (s₁ := S100000x64) (s₂ := S50000x64) 0 x0 x1
      concatenates_S100000x64_S50000x64_S150000x64_d0 (ix2 v cc) rfl rfl (ix2 ⟨v.val - 100000, by omega⟩ cc)
      (fun b hb => match b, hb with | ⟨0, _⟩, hb => absurd rfl hb | ⟨1, _⟩, _ => rfl)
      (by show v.val - 100000 + 100000 = v.val; omega)

theorem accum_apply (v : Fin 150000) (cc : Fin 64) :
    Read.val_main_v42 (F := Ideal) x0 x1 x2 x3 x4 (ix2 v cc)
      = Spec.refAccum (fun e => x2 (ix1 e)) (fun e => x3 (ix1 e)) (fun e => x4 (ix1 e))
          (Spec.tableOf (fun v cc => x0 (ix2 v cc)) (fun v cc => x1 (ix2 v cc))) v cc := by
  have h0 : (fun v cc => Read.val_main_v0 (F := Ideal) x0 x1 (ix2 v cc))
      = Spec.tableOf (fun v cc => x0 (ix2 v cc)) (fun v cc => x1 (ix2 v cc)) := by
    funext v cc; exact table_apply x0 x1 v cc
  have h1 : ∀ v cc, Read.val_main_v13 (F := Ideal) x0 x1 x2 x3 x4 (ix2 v cc)
      = Spec.refLayer (fun e => x2 (ix1 e)) (fun e => x3 (ix1 e)) (fun e => x4 (ix1 e))
          (Spec.tableOf (fun v cc => x0 (ix2 v cc)) (fun v cc => x1 (ix2 v cc))) v cc := by
    intro v cc; rw [← h0]
    exact layerOp_apply (Read.val_main_v0 (F := Ideal) x0 x1) x2 x3 x4 v cc
  have h2 : ∀ v cc, Read.val_main_v27 (F := Ideal) x0 x1 x2 x3 x4 (ix2 v cc)
      = Spec.refLayer (fun e => x2 (ix1 e)) (fun e => x3 (ix1 e)) (fun e => x4 (ix1 e))
          (Spec.refLayer (fun e => x2 (ix1 e)) (fun e => x3 (ix1 e)) (fun e => x4 (ix1 e))
            (Spec.tableOf (fun v cc => x0 (ix2 v cc)) (fun v cc => x1 (ix2 v cc)))) v cc := by
    intro v cc; rw [← funext fun v => funext fun cc => h1 v cc]
    exact layerOp_apply (Read.val_main_v13 (F := Ideal) x0 x1 x2 x3 x4) x2 x3 x4 v cc
  have h3 : ∀ v cc, Read.val_main_v41 (F := Ideal) x0 x1 x2 x3 x4 (ix2 v cc)
      = Spec.refLayer (fun e => x2 (ix1 e)) (fun e => x3 (ix1 e)) (fun e => x4 (ix1 e))
          (Spec.refLayer (fun e => x2 (ix1 e)) (fun e => x3 (ix1 e)) (fun e => x4 (ix1 e))
            (Spec.refLayer (fun e => x2 (ix1 e)) (fun e => x3 (ix1 e)) (fun e => x4 (ix1 e))
              (Spec.tableOf (fun v cc => x0 (ix2 v cc)) (fun v cc => x1 (ix2 v cc))))) v cc := by
    intro v cc; rw [← funext fun v => funext fun cc => h2 v cc]
    exact layerOp_apply (Read.val_main_v27 (F := Ideal) x0 x1 x2 x3 x4) x2 x3 x4 v cc
  rw [Read.val_main_v42_apply, Read.val_main_v28_apply, Read.val_main_v14_apply, h3 v cc, h2 v cc, h1 v cc,
    table_apply x0 x1 v cc]
  rfl

theorem quarter_apply (v : Fin 150000) (cc : Fin 64) :
    Read.val_main_v44 (F := Ideal) x0 x1 x2 x3 x4 (ix2 v cc)
      = Spec.quarter (Spec.refAccum (fun e => x2 (ix1 e)) (fun e => x3 (ix1 e)) (fun e => x4 (ix1 e))
          (Spec.tableOf (fun v cc => x0 (ix2 v cc)) (fun v cc => x1 (ix2 v cc))) v cc) := by
  rw [Read.val_main_v44_apply, Read.val_main_v43_apply, Read.val_main_cst_7_apply, accum_apply]
  rfl

end Table

theorem user_word (x5 : (⟨S4096, .i32⟩ : BufTy).Contents (Elt Ideal)) (b : Fin 4096) :
    Read.val_main_v73 (F := Ideal) x5 (ix2 b (0 : Fin 1)) = Spec.wrapW 100000#32 (x5 (ix1 b)) := by
  have hi : Read.idx_main_v73 (ix2 b (0 : Fin 1)) = ix1 b := by
    funext a; match a with | ⟨0, _⟩ => rfl
  rw [Read.val_main_v73_apply, hi, Read.val_main_v72_apply, Read.val_main_v69_apply, Read.val_main_v71_apply,
    Read.val_main_v68_apply, Read.val_main_v70_apply, Read.val_main_c_14_apply, Read.val_main_c_15_apply]
  exact wrap_word _ _

theorem item_word (x6 : (⟨S4096, .i32⟩ : BufTy).Contents (Elt Ideal)) (b : Fin 4096) :
    Read.val_main_v80 (F := Ideal) x6 (ix2 b (0 : Fin 1)) = Spec.wrapW 50000#32 (x6 (ix1 b)) := by
  have hi : Read.idx_main_v80 (ix2 b (0 : Fin 1)) = ix1 b := by
    funext a; match a with | ⟨0, _⟩ => rfl
  rw [Read.val_main_v80_apply, hi, Read.val_main_v79_apply, Read.val_main_v76_apply, Read.val_main_v78_apply,
    Read.val_main_v75_apply, Read.val_main_v77_apply, Read.val_main_c_16_apply, Read.val_main_c_17_apply]
  exact wrap_word _ _

theorem out3_apply (b : Fin 4096) (cc : Fin 64) :
    (Cert.ReferenceIdeal.Value.res_out3 (F := Ideal) m c : S4096x64.Idx → EReal) (ix2 b cc)
      = Spec.quarter (acc m c (Spec.userRow (users m c b)) cc) := by
  show Cert.ReferenceIdeal.Value.res_main_v74 (F := Ideal) m c (ix2 b cc) = _
  rw [Read.val_main_v74_eq]
  unfold Read.val_main_v74
  rw [Cert.LibGatherRows.gatherRows_apply (N := 100000) (E := 4096) (D := 64) (by decide)
    gather_S100000x64_S4096x1_S4096x64_1_0_n_n_0_1_164 rfl rfl rfl rfl rfl, user_word, Read.val_main_v45_apply]
  have hi : Read.idx_main_v45 (ix2 (Cert.LibGatherRows.clampRow 100000 (by decide)
        (Spec.wrapW 100000#32 (m ((c.tc : Thread nD τ).loc main_arg5) (ix1 b)))) cc)
      = ix2 (Spec.userRow (users m c b)) cc := by
    funext a; match a with | ⟨0, _⟩ => rfl | ⟨1, _⟩ => rfl
  rw [hi, quarter_apply]
  rfl

theorem out4_apply (b : Fin 4096) (cc : Fin 64) :
    (Cert.ReferenceIdeal.Value.res_out4 (F := Ideal) m c : S4096x64.Idx → EReal) (ix2 b cc)
      = Spec.quarter (acc m c (Spec.itemRow (posItems m c b)) cc) := by
  show Cert.ReferenceIdeal.Value.res_main_v81 (F := Ideal) m c (ix2 b cc) = _
  rw [Read.val_main_v81_eq]
  unfold Read.val_main_v81
  rw [Cert.LibGatherRows.gatherRows_apply (N := 50000) (E := 4096) (D := 64) (by decide)
    gather_S50000x64_S4096x1_S4096x64_1_0_n_n_0_1_164 rfl rfl rfl rfl rfl, item_word, Read.val_main_v46_apply]
  have hi : Read.idx_main_v46 (ix2 (Cert.LibGatherRows.clampRow 50000 (by decide)
        (Spec.wrapW 50000#32 (m ((c.tc : Thread nD τ).loc main_arg6) (ix1 b)))) cc)
      = ix2 (Spec.itemRow (posItems m c b)) cc := by
    funext a; match a with | ⟨0, _⟩ => rfl | ⟨1, _⟩ => rfl
  rw [hi, quarter_apply]
  rfl

theorem out5_apply (b : Fin 4096) (cc : Fin 64) :
    (Cert.ReferenceIdeal.Value.res_out5 (F := Ideal) m c : S4096x64.Idx → EReal) (ix2 b cc)
      = Spec.quarter (acc m c (Spec.itemRow (negItems m c b)) cc) := by
  show Cert.ReferenceIdeal.Value.res_main_v88 (F := Ideal) m c (ix2 b cc) = _
  rw [Read.val_main_v88_eq]
  unfold Read.val_main_v88
  rw [Cert.LibGatherRows.gatherRows_apply (N := 50000) (E := 4096) (D := 64) (by decide)
    gather_S50000x64_S4096x1_S4096x64_1_0_n_n_0_1_164 rfl rfl rfl rfl rfl,
    show Read.val_main_v87 (F := Ideal) (m ((c.tc : Thread nD τ).loc main_arg7))
      = Read.val_main_v80 (F := Ideal) (m ((c.tc : Thread nD τ).loc main_arg7)) from rfl,
    item_word, Read.val_main_v46_apply]
  have hi : Read.idx_main_v46 (ix2 (Cert.LibGatherRows.clampRow 50000 (by decide)
        (Spec.wrapW 50000#32 (m ((c.tc : Thread nD τ).loc main_arg7) (ix1 b)))) cc)
      = ix2 (Spec.itemRow (negItems m c b)) cc := by
    funext a; match a with | ⟨0, _⟩ => rfl | ⟨1, _⟩ => rfl
  rw [hi, quarter_apply]
  rfl

end Cert.RefVal

end
-- ==== Proof.PreCols.lean ====
import proofs.«404774_j249108103934_2_alg».proof.Pre_finite_inputs
import Idealize.ShloMosaic.Lib.ReduceAll
import Idealize.ShloMosaic.Lib.ValueIdx
import Idealize.ShloMosaic.Lib.StableHlo.Predicate

noncomputable section

namespace Cert.PreCols

open Idealize.ShloMosaic Idealize.ShloMosaic.ValueIdx

variable {F : FTy → Type} [FloatOps F] [Cert.Pre_finite_inputs.Facts]

open Cert.Pre_finite_inputs in
theorem cols_in_range (a0 : FVec F S100000x64 .f32) (a1 : FVec F S50000x64 .f32) (a2 a3 : IVec S2000000 32)
    (a4 : FVec F S2000000 .f32) (a5 a6 a7 : IVec S4096 32)
    (h : Cert.Pre_finite_inputs.fn (F := F) a0 a1 a2 a3 a4 a5 a6 a7 = (fun _ => 1#1)) (e : Fin 2000000) :
    0 ≤ (a3 (ix1 e)).toInt ∧ (a3 (ix1 e)).toInt < 150000 := by

  have h0 := congrFun h ix0
  unfold Cert.Pre_finite_inputs.fn Cert.Pre_finite_inputs.fn_part1 at h0
  have h1 := (IntOp.andi_eq_one.1 h0).2

  haveI : Subsingleton S_.Idx := ⟨fun a b => funext fun d => d.elim0⟩
  have h2 := Host.reduce_andi_all _ _ _ _ _ h1 (ix1 e)

  obtain ⟨hge, hlt⟩ := IntOp.andi_eq_one.1 h2
  have hge' := IntOp.cmpi_sge.1 hge
  have hlt' := IntOp.cmpi_slt.1 hlt
  simp only [broadcastInDim, constantI] at hge' hlt'
  exact ⟨by simpa using hge', by simpa using hlt'⟩

end Cert.PreCols

end
-- ==== Proof.Bridge.lean ====
import proofs.«404774_j249108103934_2_alg».proof.Defs
import proofs.«404774_j249108103934_2_alg».proof.Proof.Spec
import proofs.«404774_j249108103934_2_alg».proof.Proof.PreCols
import proofs.«404774_j249108103934_2_alg».proof.Proof.RefVal
import proofs.«404774_j249108103934_2_alg».proof.Proof.KI.EntryVal
import proofs.«404774_j249108103934_2_alg».proof.Proof.KI.KernelVal
import proofs.«404774_j249108103934_2_alg».proof.Proof.Gen.Pre_finite_inputs

noncomputable section

namespace Cert.Bridge

open Idealize.ShloMosaic Idealize.ShloMosaic.TcCoe Idealize.SL.Sem Idealize.ShloMosaic.ValueIdx
open Cert.KernelIdeal.Hand

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

variable {m m' c}

theorem rows_eq (h : Agree m m' c) : Cert.RefVal.rows m' c = krows m c := by
  funext e; unfold Cert.RefVal.rows krows; rw [h.2.2.1]
theorem cols_eq (h : Agree m m' c) : Cert.RefVal.cols m' c = kcols m c := by
  funext e; unfold Cert.RefVal.cols kcols; rw [h.2.2.2.1]
theorem vals_eq (h : Agree m m' c) : Cert.RefVal.vals m' c = kvals m c := by
  funext e; unfold Cert.RefVal.vals kvals; rw [h.2.2.2.2.1]
theorem users_eq (h : Agree m m' c) : Cert.RefVal.users m' c = kusers m c := by
  funext e; unfold Cert.RefVal.users kusers; rw [h.2.2.2.2.2.1]
theorem pos_eq (h : Agree m m' c) : Cert.RefVal.posItems m' c = kposItems m c := by
  funext e; unfold Cert.RefVal.posItems kposItems; rw [h.2.2.2.2.2.2.1]
theorem neg_eq (h : Agree m m' c) : Cert.RefVal.negItems m' c = knegItems m c := by
  funext e; unfold Cert.RefVal.negItems knegItems; rw [h.2.2.2.2.2.2.2]
theorem utab_eq (h : Agree m m' c) : Cert.RefVal.utab m' c = kutab m c := by
  funext v cc; unfold Cert.RefVal.utab kutab; rw [h.1]
theorem itab_eq (h : Agree m m' c) : Cert.RefVal.itab m' c = kitab m c := by
  funext v cc; unfold Cert.RefVal.itab kitab; rw [h.2.1]

theorem kcols_in_range
    (hpre : (Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))) = (fun _ => 1#1))
    (e : Fin 2000000) : 0 ≤ (kcols m c e).toInt ∧ (kcols m c e).toInt < 150000 :=
  Cert.PreCols.cols_in_range _ _ _ _ _ _ _ _ hpre e

theorem acc_eq (h : Agree m m' c)
    (hcols : ∀ e, 0 ≤ (kcols m c e).toInt ∧ (kcols m c e).toInt < 150000) (v : Fin 150000) (cc : Fin 64) :
    Cert.RefVal.acc m' c v cc = kacc m c ⟨v.val, by omega⟩ cc := by
  unfold Cert.RefVal.acc kacc
  rw [rows_eq h, cols_eq h, vals_eq h, utab_eq h, itab_eq h]
  exact (Spec.accum_law (krows m c) (kcols m c) (kvals m c) hcols _ _
    (fun v c => by unfold Spec.padTable; rw [dif_pos v.isLt]) v cc).symm

end Cert.Bridge

end
-- ==== Proof.lean ====
import proofs.«404774_j249108103934_2_alg».proof.Defs
import proofs.«404774_j249108103934_2_alg».proof.Proof.Gen.Kernel
import proofs.«404774_j249108103934_2_alg».proof.Proof.Gen.KernelIdeal
import proofs.«404774_j249108103934_2_alg».proof.Proof.Gen.ReferenceIdeal
import proofs.«404774_j249108103934_2_alg».proof.Proof.Gen.ReferenceIdeal.Run
import proofs.«404774_j249108103934_2_alg».proof.Proof.Gen.Pre_finite_inputs
import proofs.«404774_j249108103934_2_alg».proof.Proof.K.Frame
import proofs.«404774_j249108103934_2_alg».proof.Proof.KI.Frame
import proofs.«404774_j249108103934_2_alg».proof.Proof.KI.KernelVal
import proofs.«404774_j249108103934_2_alg».proof.Proof.RefVal
import proofs.«404774_j249108103934_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2.2.2.2.2.2) (Cert.ReferenceIdeal.Value.run (F := Ideal) m ρ)

theorem preserves : Cert.preserves_Kernel_KernelIdeal := trivial

open Cert.KernelIdeal.Hand in
theorem algebraic : Cert.algebraic_KernelIdeal_ReferenceIdeal := by
  intro m ρ m' ρ' hpre hagree
  refine ⟨fun c => W10 m c (Proc.devRef .tc Cert.KernelIdeal.main_v31), fun c => W10 m c (Proc.devRef .tc Cert.KernelIdeal.main_v38),
    fun c => W10 m c (Proc.devRef .tc Cert.KernelIdeal.main_v45), fun c => W10 m c (Proc.devRef .tc Cert.KernelIdeal.main_v52),
    fun c => W10 m c (Proc.devRef .tc Cert.KernelIdeal.main_v59), fun c => W10 m c (Proc.devRef .tc Cert.KernelIdeal.main_v66), ?_, ?_⟩
  ·
    exact (θ_run Cert.KernelIdeal.defs _ _).mono (fun r h c =>
      ⟨h c _ (mem_uc Cert.KernelIdeal.main_v31 (by decide)), h c _ (mem_uc Cert.KernelIdeal.main_v38 (by decide)),
       h c _ (mem_uc Cert.KernelIdeal.main_v45 (by decide)), h c _ (mem_uc Cert.KernelIdeal.main_v52 (by decide)),
       h c _ (mem_uc Cert.KernelIdeal.main_v59 (by decide)), h c _ (mem_uc Cert.KernelIdeal.main_v66 (by decide)),
       (h c _ (mem_uc Cert.KernelIdeal.main_arg0 (by decide))).trans (W10_kept m c Cert.KernelIdeal.main_arg0 (by decide)),
       (h c _ (mem_uc Cert.KernelIdeal.main_arg1 (by decide))).trans (W10_kept m c Cert.KernelIdeal.main_arg1 (by decide)),
       (h c _ (mem_uc Cert.KernelIdeal.main_arg2 (by decide))).trans (W10_kept m c Cert.KernelIdeal.main_arg2 (by decide)),
       (h c _ (mem_uc Cert.KernelIdeal.main_arg3 (by decide))).trans (W10_kept m c Cert.KernelIdeal.main_arg3 (by decide)),
       (h c _ (mem_uc Cert.KernelIdeal.main_arg4 (by decide))).trans (W10_kept m c Cert.KernelIdeal.main_arg4 (by decide)),
       (h c _ (mem_uc Cert.KernelIdeal.main_arg5 (by decide))).trans (W10_kept m c Cert.KernelIdeal.main_arg5 (by decide)),
       (h c _ (mem_uc Cert.KernelIdeal.main_arg6 (by decide))).trans (W10_kept m c Cert.KernelIdeal.main_arg6 (by decide)),
       (h c _ (mem_uc Cert.KernelIdeal.main_arg7 (by decide))).trans (W10_kept m c Cert.KernelIdeal.main_arg7 (by decide))⟩)
      (Cert.KernelIdeal.Hand.run (F := Ideal) m ρ)
  ·
    refine (θ_run Cert.ReferenceIdeal.defs _ _).mono (fun r h c => ?_) (Cert.ReferenceIdeal.Value.run (F := Ideal) m' ρ')
    obtain ⟨h0, h1, h2, h3, h4, h5, hargs⟩ := h c
    have hag : Cert.Bridge.Agree m m' c := hagree c
    have hcols := Cert.Bridge.kcols_in_range (m := m) (c := c) (hpre c)
    refine ⟨h0.trans ?_, h1.trans ?_, h2.trans ?_, h3.trans ?_, h4.trans ?_, h5.trans ?_, hargs⟩
    · show _ = W10 m c (Proc.devRef .tc Cert.KernelIdeal.main_v31)
      rw [kout0_eq, hag.1, hag.2.2.2.2.2.1]; rfl
    · show _ = W10 m c (Proc.devRef .tc Cert.KernelIdeal.main_v38)
      rw [kout1_eq, hag.2.1, hag.2.2.2.2.2.2.1]; rfl
    · show _ = W10 m c (Proc.devRef .tc Cert.KernelIdeal.main_v45)
      rw [kout2_eq, hag.2.1, hag.2.2.2.2.2.2.2]; rfl
    · funext i
      obtain ⟨b, cc, rfl⟩ : ∃ (b : Fin 4096) (cc : Fin 64), i = ix2 b cc := ⟨i 0, i 1, eq_ix2 i⟩
      refine (Cert.RefVal.out3_apply m' c b cc).trans ((congrArg Spec.quarter ?_).trans (kout3_apply m c b cc).symm)
      rw [Cert.Bridge.users_eq hag]
      exact Cert.Bridge.acc_eq hag hcols _ cc
    · funext i
      obtain ⟨b, cc, rfl⟩ : ∃ (b : Fin 4096) (cc : Fin 64), i = ix2 b cc := ⟨i 0, i 1, eq_ix2 i⟩
      refine (Cert.RefVal.out4_apply m' c b cc).trans ((congrArg Spec.quarter ?_).trans (kout4_apply m c b cc).symm)
      rw [Cert.Bridge.pos_eq hag]
      exact Cert.Bridge.acc_eq hag hcols _ cc
    · funext i
      obtain ⟨b, cc, rfl⟩ : ∃ (b : Fin 4096) (cc : Fin 64), i = ix2 b cc := ⟨i 0, i 1, eq_ix2 i⟩
      refine (Cert.RefVal.out5_apply m' c b cc).trans ((congrArg Spec.quarter ?_).trans (kout5_apply m c b cc).symm)
      rw [Cert.Bridge.neg_eq hag]
      exact Cert.Bridge.acc_eq hag hcols _ cc

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
